-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x64x128 : Shape := ⟨4, ![4, 128, 64, 128]⟩
abbrev S128x128 : Shape := ⟨2, ![128, 128]⟩
abbrev S128x128x3x3 : Shape := ⟨4, ![128, 128, 3, 3]⟩
abbrev S128 : Shape := ⟨1, ![128]⟩
abbrev S_ : Shape := ⟨0, ![]⟩

class Facts : Prop where
  bcast_S_S4x128x64x128 : S_.BroadcastsInDim S4x128x64x128 (![] : Fin 0 → Fin S4x128x64x128.rank)
  reducesTo_S4x128x64x128_S_d0_1_2_3 : S4x128x64x128.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S128x128x3x3 : S_.BroadcastsInDim S128x128x3x3 (![] : Fin 0 → Fin S128x128x3x3.rank)
  reducesTo_S128x128x3x3_S_d0_1_2_3 : S128x128x3x3.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4x128x64x128 .f32) (main_arg1 : FVec F S128x128 .f32) (main_arg2 : FVec F S128x128x3x3 .f32) (main_arg3 : FVec F S128 .f32) (main_arg4 : FVec F S128 .f32) : IVec S_ 1 :=
  let main_v0 : FVec F S4x128x64x128 .f32 := Host.absf main_arg0
  let main_cst : FVec F S_ .f32 := constant S_ .f32 0x7F800000#32
  let main_v1 : FVec F S4x128x64x128 .f32 := broadcastInDim S4x128x64x128 ![] bcast_S_S4x128x64x128 main_cst
  let main_v2 : IVec S4x128x64x128 1 := cmpf .olt main_v0 main_v1
  let main_c : IVec S_ 1 := constantI S_ 1 1#1
  let main_v3 : IVec S_ 1 := (fun x v => Host.reduce IntOp.andi x v reducesTo_S4x128x64x128_S_d0_1_2_3 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128x3x3 .f32 := Host.absf main_arg2
  let main_cst_2 : FVec F S_ .f32 := constant S_ .f32 0x7F800000#32
  let main_v10 : FVec F S128x128x3x3 .f32 := broadcastInDim S128x128x3x3 ![] bcast_S_S128x128x3x3 main_cst_2
  let main_v11 : IVec S128x128x3x3 1 := cmpf .olt main_v9 main_v10
  let main_c_3 : IVec S_ 1 := constantI S_ 1 1#1
  let main_v12 : IVec S_ 1 := (fun x v => Host.reduce IntOp.andi x v reducesTo_S128x128x3x3_S_d0_1_2_3 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S4x128x64x128 : Shape := ⟨4, ![4, 128, 64, 128]⟩
abbrev S128x128 : Shape := ⟨2, ![128, 128]⟩
abbrev S128x128x3x3 : Shape := ⟨4, ![128, 128, 3, 3]⟩
abbrev S128 : Shape := ⟨1, ![128]⟩
abbrev S3x3x128x128 : Shape := ⟨4, ![3, 3, 128, 128]⟩
abbrev S3x128x3x128 : Shape := ⟨4, ![3, 128, 3, 128]⟩
abbrev S3x128x384 : Shape := ⟨3, ![3, 128, 384]⟩
abbrev S8192 : Shape := ⟨1, ![8192]⟩
abbrev S_ : Shape := ⟨0, ![]⟩
abbrev S1x8192 : Shape := ⟨2, ![1, 8192]⟩
abbrev S2x8192 : Shape := ⟨2, ![2, 8192]⟩
abbrev S128x1 : Shape := ⟨2, ![128, 1]⟩
abbrev S1x128x64x128 : Shape := ⟨4, ![1, 128, 64, 128]⟩
abbrev S4x128x8192 : Shape := ⟨3, ![4, 128, 8192]⟩
abbrev S128x8448 : Shape := ⟨2, ![128, 8448]⟩
abbrev S16x8192 : Shape := ⟨2, ![16, 8192]⟩
abbrev S384x8448 : Shape := ⟨2, ![384, 8448]⟩
abbrev S384x128 : Shape := ⟨2, ![384, 128]⟩
abbrev S128x64x128 : Shape := ⟨3, ![128, 64, 128]⟩
abbrev S128x8192 : Shape := ⟨2, ![128, 8192]⟩
abbrev S16x128 : Shape := ⟨2, ![16, 128]⟩
abbrev S16 : Shape := ⟨1, ![16]⟩
abbrev S16x1 : Shape := ⟨2, ![16, 1]⟩
abbrev S16x16 : Shape := ⟨2, ![16, 16]⟩
abbrev S1x16 : Shape := ⟨2, ![1, 16]⟩
abbrev S128x1024 : Shape := ⟨2, ![128, 1024]⟩
abbrev S384x1024 : Shape := ⟨2, ![384, 1024]⟩
abbrev S1x128x384 : Shape := ⟨3, ![1, 128, 384]⟩
abbrev S128x384 : Shape := ⟨2, ![128, 384]⟩
abbrev S1x128x1024 : Shape := ⟨3, ![1, 128, 1024]⟩
abbrev S128x8x128 : Shape := ⟨3, ![128, 8, 128]⟩
abbrev S1x128x8x128 : Shape := ⟨4, ![1, 128, 8, 128]⟩

abbrev nBuf : Space → Nat
  | .hbm => 120
  | .vmem => 18
  | .smem => 0
  | _ => 0

abbrev bufTy : (tb : Table) → Fin (tcTables nBuf tb) → BufTy
  | .hbm, ⟨0, _⟩ => ⟨S4x128x64x128, .f32⟩
  | .hbm, ⟨1, _⟩ => ⟨S128x128, .f32⟩
  | .hbm, ⟨2, _⟩ => ⟨S128x128x3x3, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S3x3x128x128, .f32⟩
  | .hbm, ⟨8, _⟩ => ⟨S3x128x3x128, .f32⟩
  | .hbm, ⟨9, _⟩ => ⟨S3x128x384, .f32⟩
  | .hbm, ⟨10, _⟩ => ⟨S3x128x384, .bf16⟩
  | .hbm, ⟨11, _⟩ => ⟨S8192, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S_, .i32⟩
  | .hbm, ⟨27, _⟩ => ⟨S_, .i1⟩
  | .hbm, ⟨28, _⟩ => ⟨S8192, .i1⟩
  | .hbm, ⟨29, _⟩ => ⟨S8192, .i1⟩
  | .hbm, ⟨30, _⟩ => ⟨S8192, .i1⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S_, .i32⟩
  | .hbm, ⟨62, _⟩ => ⟨S8192, .i32⟩
  | .hbm, ⟨63, _⟩ => ⟨S8192, .i1⟩
  | .hbm, ⟨64, _⟩ => ⟨S_, .i32⟩
  | .hbm, ⟨65, _⟩ => ⟨S8192, .i32⟩
  | .hbm, ⟨66, _⟩ => ⟨S8192, .i1⟩
  | .hbm, ⟨67, _⟩ => ⟨S_, .i32⟩
  | .hbm, ⟨68, _⟩ => ⟨S_, .i1⟩
  | .hbm, ⟨69, _⟩ => ⟨S8192, .i1⟩
  | .hbm, ⟨70, _⟩ => ⟨S8192, .i1⟩
  | .hbm, ⟨71, _⟩ => ⟨S8192, .i1⟩
  | .hbm, ⟨72, _⟩ => ⟨S8192, .i32⟩
  | .hbm, ⟨73, _⟩ => ⟨S8192, .i32⟩
  | .hbm, ⟨74, _⟩ => ⟨S8192, .i32⟩
  | .hbm, ⟨75, _⟩ => ⟨S_, .i32⟩
  | .hbm, ⟨76, _⟩ => ⟨S8192, .i32⟩
  | .hbm, ⟨77, _⟩ => ⟨S8192, .i1⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S8192, .i32⟩
  | .hbm, ⟨85, _⟩ => ⟨S8192, .i32⟩
  | .hbm, ⟨86, _⟩ => ⟨S_, .i32⟩
  | .hbm, ⟨87, _⟩ => ⟨S8192, .i32⟩
  | .hbm, ⟨88, _⟩ => ⟨S8192, .i1⟩
  | .hbm, ⟨89, _⟩ => ⟨S_, .i32⟩
  | .hbm, ⟨90, _⟩ => ⟨S8192, .i32⟩
  | .hbm, ⟨91, _⟩ => ⟨S8192, .i1⟩
  | .hbm, ⟨92, _⟩ => ⟨S_, .i32⟩
  | .hbm, ⟨93, _⟩ => ⟨S_, .i1⟩
  | .hbm, ⟨94, _⟩ => ⟨S8192, .i1⟩
  | .hbm, ⟨95, _⟩ => ⟨S8192, .i1⟩
  | .hbm, ⟨96, _⟩ => ⟨S8192, .i1⟩
  | .hbm, ⟨97, _⟩ => ⟨S8192, .i32⟩
  | .hbm, ⟨98, _⟩ => ⟨S8192, .i32⟩
  | .hbm, ⟨99, _⟩ => ⟨S8192, .i32⟩
  | .hbm, ⟨100, _⟩ => ⟨S_, .i32⟩
  | .hbm, ⟨101, _⟩ => ⟨S8192, .i32⟩
  | .hbm, ⟨102, _⟩ => ⟨S8192, .i1⟩
  | .hbm, ⟨103, _⟩ => ⟨S1x8192, .i1⟩
  | .hbm, ⟨104, _⟩ => ⟨S1x8192, .i1⟩
  | .hbm, ⟨105, _⟩ => ⟨S2x8192, .i1⟩
  | .hbm, ⟨106, _⟩ => ⟨S2x8192, .f32⟩
  | .hbm, ⟨107, _⟩ => ⟨S_, .i32⟩
  | .hbm, ⟨108, _⟩ => ⟨S8192, .i32⟩
  | .hbm, ⟨109, _⟩ => ⟨S8192, .i1⟩
  | .hbm, ⟨110, _⟩ => ⟨S_, .i32⟩
  | .hbm, ⟨111, _⟩ => ⟨S8192, .i32⟩
  | .hbm, ⟨112, _⟩ => ⟨S8192, .i1⟩
  | .hbm, ⟨113, _⟩ => ⟨S1x8192, .i1⟩
  | .hbm, ⟨114, _⟩ => ⟨S1x8192, .i1⟩
  | .hbm, ⟨115, _⟩ => ⟨S2x8192, .i1⟩
  | .hbm, ⟨116, _⟩ => ⟨S2x8192, .bf16⟩
  | .hbm, ⟨117, _⟩ => ⟨S128x1, .f32⟩
  | .hbm, ⟨118, _⟩ => ⟨S128x1, .f32⟩
  | .hbm, ⟨119, _⟩ => ⟨S4x128x64x128, .f32⟩
  | .local _ .vmem, ⟨0, _⟩ => ⟨S1x128x64x128, .f32⟩
  | .local _ .vmem, ⟨1, _⟩ => ⟨S1x128x64x128, .f32⟩
  | .local _ .vmem, ⟨2, _⟩ => ⟨S128x128, .f32⟩
  | .local _ .vmem, ⟨3, _⟩ => ⟨S3x128x384, .bf16⟩
  | .local _ .vmem, ⟨4, _⟩ => ⟨S2x8192, .f32⟩
  | .local _ .vmem, ⟨5, _⟩ => ⟨S2x8192, .bf16⟩
  | .local _ .vmem, ⟨6, _⟩ => ⟨S128x1, .f32⟩
  | .local _ .vmem, ⟨7, _⟩ => ⟨S128x1, .f32⟩
  | .local _ .vmem, ⟨8, _⟩ => ⟨S1x128x64x128, .f32⟩
  | .local _ .vmem, ⟨9, _⟩ => ⟨S1x128x64x128, .f32⟩
  | .local _ .vmem, ⟨10, _⟩ => ⟨S4x128x8192, .bf16⟩
  | .local _ .vmem, ⟨11, _⟩ => ⟨S128x1, .f32⟩
  | .local _ .vmem, ⟨12, _⟩ => ⟨S128x1, .f32⟩
  | .local _ .vmem, ⟨13, _⟩ => ⟨S128x8448, .f32⟩
  | .local _ .vmem, ⟨14, _⟩ => ⟨S128x8448, .f32⟩
  | .local _ .vmem, ⟨15, _⟩ => ⟨S16x8192, .f32⟩
  | .local _ .vmem, ⟨16, _⟩ => ⟨S16x8192, .f32⟩
  | .local _ .vmem, ⟨17, _⟩ => ⟨S384x8448, .bf16⟩
  | _, _ => ⟨S4x128x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v7 : Ref sig .tc := ⟨.hbm, 33, rfl⟩
abbrev main_v8 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v9 : Ref sig .tc := ⟨.hbm, 52, rfl⟩
abbrev main_c_1 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_1 : Ref sig .tc := ⟨.hbm, 61, rfl⟩
abbrev main_call2_v5 : Ref sig .tc := ⟨.hbm, 62, rfl⟩
abbrev main_call2_v6 : Ref sig .tc := ⟨.hbm, 63, rfl⟩
abbrev main_call2_c_2 : Ref sig .tc := ⟨.hbm, 64, rfl⟩
abbrev main_call2_v7 : Ref sig .tc := ⟨.hbm, 65, rfl⟩
abbrev main_call2_v8 : Ref sig .tc := ⟨.hbm, 66, rfl⟩
abbrev main_call2_c_3 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_v10 : Ref sig .tc := ⟨.hbm, 74, rfl⟩
abbrev main_c_2 : Ref sig .tc := ⟨.hbm, 75, rfl⟩
abbrev main_v11 : Ref sig .tc := ⟨.hbm, 76, rfl⟩
abbrev main_v12 : Ref sig .tc := ⟨.hbm, 77, rfl⟩
abbrev main_c_3 : Ref sig .tc := ⟨.hbm, 78, rfl⟩
abbrev main_call3_v0 : Ref sig .tc := ⟨.hbm, 79, rfl⟩
abbrev main_call3_c : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_c_1 : Ref sig .tc := ⟨.hbm, 86, rfl⟩
abbrev main_call3_v5 : Ref sig .tc := ⟨.hbm, 87, rfl⟩
abbrev main_call3_v6 : Ref sig .tc := ⟨.hbm, 88, rfl⟩
abbrev main_call3_c_2 : Ref sig .tc := ⟨.hbm, 89, rfl⟩
abbrev main_call3_v7 : Ref sig .tc := ⟨.hbm, 90, rfl⟩
abbrev main_call3_v8 : Ref sig .tc := ⟨.hbm, 91, rfl⟩
abbrev main_call3_c_3 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_v12 : Ref sig .tc := ⟨.hbm, 96, rfl⟩
abbrev main_call3_v13 : Ref sig .tc := ⟨.hbm, 97, rfl⟩
abbrev main_call3_v14 : Ref sig .tc := ⟨.hbm, 98, rfl⟩
abbrev main_v13 : Ref sig .tc := ⟨.hbm, 99, rfl⟩
abbrev main_c_4 : Ref sig .tc := ⟨.hbm, 100, rfl⟩
abbrev main_v14 : Ref sig .tc := ⟨.hbm, 101, rfl⟩
abbrev main_v15 : Ref sig .tc := ⟨.hbm, 102, rfl⟩
abbrev main_v16 : Ref sig .tc := ⟨.hbm, 103, rfl⟩
abbrev main_v17 : Ref sig .tc := ⟨.hbm, 104, rfl⟩
abbrev main_v18 : Ref sig .tc := ⟨.hbm, 105, rfl⟩
abbrev main_v19 : Ref sig .tc := ⟨.hbm, 106, rfl⟩
abbrev main_c_5 : Ref sig .tc := ⟨.hbm, 107, rfl⟩
abbrev main_v20 : Ref sig .tc := ⟨.hbm, 108, rfl⟩
abbrev main_v21 : Ref sig .tc := ⟨.hbm, 109, rfl⟩
abbrev main_c_6 : Ref sig .tc := ⟨.hbm, 110, rfl⟩
abbrev main_v22 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_v26 : Ref sig .tc := ⟨.hbm, 115, rfl⟩
abbrev main_v27 : Ref sig .tc := ⟨.hbm, 116, rfl⟩
abbrev main_v28 : Ref sig .tc := ⟨.hbm, 117, rfl⟩
abbrev main_v29 : Ref sig .tc := ⟨.hbm, 118, rfl⟩
abbrev main_v30 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v311 : Index := Scalar.indexCast arg1
  let c0_162 : Index := 0#32
  let c0_163 : Index := 0#32
  ![v311.toNat, 0, 0]
def k0_off2 (i : grid0.Coords) : Fin 3 → Nat :=
  let arg1 : BitVec 32 := BitVec.ofNat 32 (i 1).val
  let v339 : Index := Scalar.indexCast arg1
  let c0_182 : Index := 0#32
  let c1024_183 : Index := 1024#32
  ![v339.toNat, 0, 1024]
def k0_off3 (i : grid0.Coords) : Fin 3 → Nat :=
  let arg1 : BitVec 32 := BitVec.ofNat 32 (i 1).val
  let v367 : Index := Scalar.indexCast arg1
  let c0_202 : Index := 0#32
  let c2048_203 : Index := 2048#32
  ![v367.toNat, 0, 2048]
def k0_off4 (i : grid0.Coords) : Fin 3 → Nat :=
  let arg1 : BitVec 32 := BitVec.ofNat 32 (i 1).val
  let v395 : Index := Scalar.indexCast arg1
  let c0_222 : Index := 0#32
  let c3072_223 : Index := 3072#32
  ![v395.toNat, 0, 3072]
def k0_off5 (i : grid0.Coords) : Fin 3 → Nat :=
  let arg1 : BitVec 32 := BitVec.ofNat 32 (i 1).val
  let v423 : Index := Scalar.indexCast arg1
  let c0_242 : Index := 0#32
  let c4096_243 : Index := 4096#32
  ![v423.toNat, 0, 4096]
def k0_off6 (i : grid0.Coords) : Fin 3 → Nat :=
  let arg1 : BitVec 32 := BitVec.ofNat 32 (i 1).val
  let v451 : Index := Scalar.indexCast arg1
  let c0_262 : Index := 0#32
  let c5120_263 : Index := 5120#32
  ![v451.toNat, 0, 5120]
def k0_off7 (i : grid0.Coords) : Fin 3 → Nat :=
  let arg1 : BitVec 32 := BitVec.ofNat 32 (i 1).val
  let v479 : Index := Scalar.indexCast arg1
  let c0_282 : Index := 0#32
  let c6144_283 : Index := 6144#32
  ![v479.toNat, 0, 6144]
def k0_off8 (i : grid0.Coords) : Fin 3 → Nat :=
  let arg1 : BitVec 32 := BitVec.ofNat 32 (i 1).val
  let v507 : Index := Scalar.indexCast arg1
  let c0_302 : Index := 0#32
  let c7168_303 : Index := 7168#32
  ![v507.toNat, 0, 7168]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def k0_off9 (i : grid0.Coords) : Fin 3 → Nat :=
  let arg1 : BitVec 32 := BitVec.ofNat 32 (i 1).val
  let v29 : Index := Scalar.indexCast arg1
  let c0_14 : Index := 0#32
  let c0_15 : Index := 0#32
  ![v29.toNat, 0, 0]
def k0_off10 (i : grid0.Coords) : Fin 3 → Nat :=
  let arg1 : BitVec 32 := BitVec.ofNat 32 (i 1).val
  let v41 : Index := Scalar.indexCast arg1
  let c0_20 : Index := 0#32
  let c1024 : Index := 1024#32
  ![v41.toNat, 0, 1024]
def k0_off11 (i : grid0.Coords) : Fin 3 → Nat :=
  let arg1 : BitVec 32 := BitVec.ofNat 32 (i 1).val
  let v53 : Index := Scalar.indexCast arg1
  let c0_24 : Index := 0#32
  let c2048 : Index := 2048#32
  ![v53.toNat, 0, 2048]
def k0_off12 (i : grid0.Coords) : Fin 3 → Nat :=
  let arg1 : BitVec 32 := BitVec.ofNat 32 (i 1).val
  let v65 : Index := Scalar.indexCast arg1
  let c0_28 : Index := 0#32
  let c3072 : Index := 3072#32
  ![v65.toNat, 0, 3072]
def k0_off13 (i : grid0.Coords) : Fin 3 → Nat :=
  let arg1 : BitVec 32 := BitVec.ofNat 32 (i 1).val
  let v77 : Index := Scalar.indexCast arg1
  let c0_32 : Index := 0#32
  let c4096 : Index := 4096#32
  ![v77.toNat, 0, 4096]
def k0_off14 (i : grid0.Coords) : Fin 3 → Nat :=
  let arg1 : BitVec 32 := BitVec.ofNat 32 (i 1).val
  let v89 : Index := Scalar.indexCast arg1
  let c0_36 : Index := 0#32
  let c5120 : Index := 5120#32
  ![v89.toNat, 0, 5120]
def k0_off15 (i : grid0.Coords) : Fin 3 → Nat :=
  let arg1 : BitVec 32 := BitVec.ofNat 32 (i 1).val
  let v101 : Index := Scalar.indexCast arg1
  let c0_40 : Index := 0#32
  let c6144 : Index := 6144#32
  ![v101.toNat, 0, 6144]
def k0_off16 (i : grid0.Coords) : Fin 3 → Nat :=
  let arg1 : BitVec 32 := BitVec.ofNat 32 (i 1).val
  let v113 : Index := Scalar.indexCast arg1
  let c0_44 : Index := 0#32
  let c7168 : Index := 7168#32
  ![v113.toNat, 0, 7168]
def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c3_i32 : BitVec 32 := 3#32
  let v2 : BitVec 32 := Scalar.muli c3_i32 arg0
  let v3 : BitVec 32 := Scalar.addi v1 v2
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S1x128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x128x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S128x128_S128x128_1_0 : S128x128.Transposes [1, 0] S128x128
  transposes_S128x128x3x3_S3x3x128x128_2_3_0_1 : S128x128x3x3.Transposes [2, 3, 0, 1] S3x3x128x128
  transposes_S3x3x128x128_S3x128x3x128_0_2_1_3 : S3x3x128x128.Transposes [0, 2, 1, 3] S3x128x3x128
  shapeCasts_S3x128x3x128_S3x128x384 : S3x128x3x128.ShapeCasts S3x128x384
  bitsLt_bf16_f32 : FTy.bits .bf16 < FTy.bits .f32
  bcast_S_S8192 : S_.BroadcastsInDim S8192 (![] : Fin 0 → Fin S8192.rank)
  bcast_S8192_S1x8192_1 : S8192.BroadcastsInDim S1x8192 (![1] : Fin 1 → Fin S1x8192.rank)
  concatenates_S1x8192_S1x8192_S2x8192_d0 : Shape.Concatenates [S1x8192, S1x8192] S2x8192 0
  shapeCasts_S128_S128x1 : S128.ShapeCasts S128x1
  inb_S128x8448_S128x128_0_0 : ∀ a, (![0, 0] : Fin 2 → Nat) a + S128x128.size a ≤ S128x8448.size a
  h_S128x128 : 0 < S128x128.numel
  shapeCasts_S128x128_S128x128 : S128x128.ShapeCasts S128x128
  inb_S128x8448_S128x128_0_8320 : ∀ a, (![0, 8320] : Fin 2 → Nat) a + S128x128.size a ≤ S128x8448.size a
  inb_S384x8448_S384x128_0_0 : ∀ a, (![0, 0] : Fin 2 → Nat) a + S384x128.size a ≤ S384x8448.size a
  h_S384x128 : 0 < S384x128.numel
  shapeCasts_S384x128_S384x128 : S384x128.ShapeCasts S384x128
  packedbf16_S384x8448_S384x128_0_0 : (Rect.unit (s := S384x8448) ![0, 0] S384x128.size inb_S384x8448_S384x128_0_0).PackedRows (EltTy.packing .bf16)
  inb_S384x8448_S384x128_0_8320 : ∀ a, (![0, 8320] : Fin 2 → Nat) a + S384x128.size a ≤ S384x8448.size a
  packedbf16_S384x8448_S384x128_0_8320 : (Rect.unit (s := S384x8448) ![0, 8320] S384x128.size inb_S384x8448_S384x128_0_8320).PackedRows (EltTy.packing .bf16)
  inb_S1x128x64x128_S1x128x64x128_0_0_0_0 : ∀ a, (![0, 0, 0, 0] : Fin 4 → Nat) a + S1x128x64x128.size a ≤ S1x128x64x128.size a
  h_S1x128x64x128 : 0 < S1x128x64x128.numel
  shapeCasts_S1x128x64x128_S128x64x128 : S1x128x64x128.ShapeCasts S128x64x128
  shapeCasts_S128x64x128_S128x8192 : S128x64x128.ShapeCasts S128x8192
  inb_S128x8448_S128x8192_0_128 : ∀ a, (![0, 128] : Fin 2 → Nat) a + S128x8192.size a ≤ S128x8448.size a
  h_S128x8192 : 0 < S128x8192.numel
  shapeCasts_S128x8192_S128x8192 : S128x8192.ShapeCasts S128x8192
  inb_S2x8192_S1x8192_0_0 : ∀ a, (![0, 0] : Fin 2 → Nat) a + S1x8192.size a ≤ S2x8192.size a
  h_S1x8192 : 0 < S1x8192.numel
  shapeCasts_S1x8192_S1x8192 : S1x8192.ShapeCasts S1x8192
  inb_S2x8192_S1x8192_1_0 : ∀ a, (![1, 0] : Fin 2 → Nat) a + S1x8192.size a ≤ S2x8192.size a
  inb_S128x8448_S128x8192_0_127 : ∀ a, (![0, 127] : Fin 2 → Nat) a + S128x8192.size a ≤ S128x8448.size a
  inb_S128x8448_S128x8192_0_129 : ∀ a, (![0, 129] : Fin 2 → Nat) a + S128x8192.size a ≤ S128x8448.size a
  broadcasts_S1x8192_S128x8192 : S1x8192.Broadcasts S128x8192
  inb_S128x8448_S128x8192_0_0 : ∀ a, (![0, 0] : Fin 2 → Nat) a + S128x8192.size a ≤ S128x8448.size a
  inb_S128x8448_S128x8192_0_256 : ∀ a, (![0, 256] : Fin 2 → Nat) a + S128x8192.size a ≤ S128x8448.size a
  reduces_S128x8192_S8192 : S128x8192.Reduces [0] S8192
  shapeCasts_S8192_S1x8192 : S8192.ShapeCasts S1x8192
  slices_S128x8192_o0_0_S16x8192 : S128x8192.Slices ![0, 0] S16x8192
  inb_S16x8192_S16x8192_0_0 : ∀ a, (![0, 0] : Fin 2 → Nat) a + S16x8192.size a ≤ S16x8192.size a
  h_S16x8192 : 0 < S16x8192.numel
  shapeCasts_S16x8192_S16x8192 : S16x8192.ShapeCasts S16x8192
  inb_S16x8192_S1x8192_0_0 : ∀ a, (![0, 0] : Fin 2 → Nat) a + S1x8192.size a ≤ S16x8192.size a
  inb_S16x8192_S1x8192_1_0 : ∀ a, (![1, 0] : Fin 2 → Nat) a + S1x8192.size a ≤ S16x8192.size a
  inb_S16x8192_S1x8192_2_0 : ∀ a, (![2, 0] : Fin 2 → Nat) a + S1x8192.size a ≤ S16x8192.size a
  inb_S16x8192_S1x8192_3_0 : ∀ a, (![3, 0] : Fin 2 → Nat) a + S1x8192.size a ≤ S16x8192.size a
  inb_S16x8192_S1x8192_4_0 : ∀ a, (![4, 0] : Fin 2 → Nat) a + S1x8192.size a ≤ S16x8192.size a
  inb_S16x8192_S1x8192_5_0 : ∀ a, (![5, 0] : Fin 2 → Nat) a + S1x8192.size a ≤ S16x8192.size a
  inb_S16x8192_S1x8192_6_0 : ∀ a, (![6, 0] : Fin 2 → Nat) a + S1x8192.size a ≤ S16x8192.size a
  inb_S16x8192_S1x8192_7_0 : ∀ a, (![7, 0] : Fin 2 → Nat) a + S1x8192.size a ≤ S16x8192.size a
  inb_S16x8192_S1x8192_8_0 : ∀ a, (![8, 0] : Fin 2 → Nat) a + S1x8192.size a ≤ S16x8192.size a
  inb_S16x8192_S1x8192_9_0 : ∀ a, (![9, 0] : Fin 2 → Nat) a + S1x8192.size a ≤ S16x8192.size a
  inb_S16x8192_S1x8192_10_0 : ∀ a, (![10, 0] : Fin 2 → Nat) a + S1x8192.size a ≤ S16x8192.size a
  inb_S16x8192_S1x8192_11_0 : ∀ a, (![11, 0] : Fin 2 → Nat) a + S1x8192.size a ≤ S16x8192.size a
  inb_S16x8192_S1x8192_12_0 : ∀ a, (![12, 0] : Fin 2 → Nat) a + S1x8192.size a ≤ S16x8192.size a
  inb_S16x8192_S1x8192_13_0 : ∀ a, (![13, 0] : Fin 2 → Nat) a + S1x8192.size a ≤ S16x8192.size a
  inb_S16x8192_S1x8192_14_0 : ∀ a, (![14, 0] : Fin 2 → Nat) a + S1x8192.size a ≤ S16x8192.size a
  inb_S16x8192_S1x8192_15_0 : ∀ a, (![15, 0] : Fin 2 → Nat) a + S1x8192.size a ≤ S16x8192.size a
  reduces_S16x8192_S16 : S16x8192.Reduces [1] S16
  shapeCasts_S16_S16x1 : S16.ShapeCasts S16x1
  natLt_1_32 : 1 < 32
  broadcasts_S16x1_S16x128 : S16x1.Broadcasts S16x128
  inb_S128x128_S128x128_0_0 : ∀ a, (![0, 0] : Fin 2 → Nat) a + S128x128.size a ≤ S128x128.size a
  iota_S16x16_d0_w32 : S16x16.Iotas .tc 32 [0]
  iota_S16x16_d1_w32 : S16x16.Iotas .tc 32 [1]
  reduces_S16x16_S16 : S16x16.Reduces [1] S16
  reduces_S16x16_S16_2 : S16x16.Reduces [0] S16
  shapeCasts_S16_S1x16 : S16.ShapeCasts S1x16
  broadcasts_S16x1_S16x16 : S16x1.Broadcasts S16x16
  broadcasts_S1x16_S16x16 : S1x16.Broadcasts S16x16
  inb_S384x8448_S128x8192_128_128 : ∀ a, (![128, 128] : Fin 2 → Nat) a + S128x8192.size a ≤ S384x8448.size a
  packedbf16_S384x8448_S128x8192_128_128 : (Rect.unit (s := S384x8448) ![128, 128] S128x8192.size inb_S384x8448_S128x8192_128_128).PackedRows (EltTy.packing .bf16)
  inb_S384x8448_S128x8192_128_127 : ∀ a, (![128, 127] : Fin 2 → Nat) a + S128x8192.size a ≤ S384x8448.size a
  inb_S384x8448_S128x8192_0_128 : ∀ a, (![0, 128] : Fin 2 → Nat) a + S128x8192.size a ≤ S384x8448.size a
  packedbf16_S384x8448_S128x8192_0_128 : (Rect.unit (s := S384x8448) ![0, 128] S128x8192.size inb_S384x8448_S128x8192_0_128).PackedRows (EltTy.packing .bf16)
  inb_S384x8448_S128x8192_128_129 : ∀ a, (![128, 129] : Fin 2 → Nat) a + S128x8192.size a ≤ S384x8448.size a
  inb_S384x8448_S128x8192_256_128 : ∀ a, (![256, 128] : Fin 2 → Nat) a + S128x8192.size a ≤ S384x8448.size a
  packedbf16_S384x8448_S128x8192_256_128 : (Rect.unit (s := S384x8448) ![256, 128] S128x8192.size inb_S384x8448_S128x8192_256_128).PackedRows (EltTy.packing .bf16)
  inb_S384x8448_S384x1024_0_0 : ∀ a, (![0, 0] : Fin 2 → Nat) a + S384x1024.size a ≤ S384x8448.size a
  h_S384x1024 : 0 < S384x1024.numel
  inb_S3x128x384_S1x128x384_0_0_0 : ∀ a, (![0, 0, 0] : Fin 3 → Nat) a + S1x128x384.size a ≤ S3x128x384.size a
  h_S1x128x384 : 0 < S1x128x384.numel
  shapeCasts_S1x128x384_S128x384 : S1x128x384.ShapeCasts S128x384
  inb_S384x8448_S384x1024_0_128 : ∀ a, (![0, 128] : Fin 2 → Nat) a + S384x1024.size a ≤ S384x8448.size a
  inb_S3x128x384_S1x128x384_1_0_0 : ∀ a, (![1, 0, 0] : Fin 3 → Nat) a + S1x128x384.size a ≤ S3x128x384.size a
  inb_S384x8448_S384x1024_0_256 : ∀ a, (![0, 256] : Fin 2 → Nat) a + S384x1024.size a ≤ S384x8448.size a
  inb_S3x128x384_S1x128x384_2_0_0 : ∀ a, (![2, 0, 0] : Fin 3 → Nat) a + S1x128x384.size a ≤ S3x128x384.size a
  h_S1x128x1024 : 0 < S1x128x1024.numel
  shapeCasts_S1x128x1024_S128x1024 : S1x128x1024.ShapeCasts S128x1024
  shapeCasts_S128x1024_S1x128x1024 : S128x1024.ShapeCasts S1x128x1024
  reduces_S128x1024_S128 : S128x1024.Reduces [1] S128
  inb_S384x8448_S384x1024_0_1024 : ∀ a, (![0, 1024] : Fin 2 → Nat) a + S384x1024.size a ≤ S384x8448.size a
  inb_S384x8448_S384x1024_0_1152 : ∀ a, (![0, 1152] : Fin 2 → Nat) a + S384x1024.size a ≤ S384x8448.size a
  inb_S384x8448_S384x1024_0_1280 : ∀ a, (![0, 1280] : Fin 2 → Nat) a + S384x1024.size a ≤ S384x8448.size a
  inb_S384x8448_S384x1024_0_2048 : ∀ a, (![0, 2048] : Fin 2 → Nat) a + S384x1024.size a ≤ S384x8448.size a
  inb_S384x8448_S384x1024_0_2176 : ∀ a, (![0, 2176] : Fin 2 → Nat) a + S384x1024.size a ≤ S384x8448.size a
  inb_S384x8448_S384x1024_0_2304 : ∀ a, (![0, 2304] : Fin 2 → Nat) a + S384x1024.size a ≤ S384x8448.size a
  inb_S384x8448_S384x1024_0_3072 : ∀ a, (![0, 3072] : Fin 2 → Nat) a + S384x1024.size a ≤ S384x8448.size a
  inb_S384x8448_S384x1024_0_3200 : ∀ a, (![0, 3200] : Fin 2 → Nat) a + S384x1024.size a ≤ S384x8448.size a
  inb_S384x8448_S384x1024_0_3328 : ∀ a, (![0, 3328] : Fin 2 → Nat) a + S384x1024.size a ≤ S384x8448.size a
  inb_S384x8448_S384x1024_0_4096 : ∀ a, (![0, 4096] : Fin 2 → Nat) a + S384x1024.size a ≤ S384x8448.size a
  inb_S384x8448_S384x1024_0_4224 : ∀ a, (![0, 4224] : Fin 2 → Nat) a + S384x1024.size a ≤ S384x8448.size a
  inb_S384x8448_S384x1024_0_4352 : ∀ a, (![0, 4352] : Fin 2 → Nat) a + S384x1024.size a ≤ S384x8448.size a
  inb_S384x8448_S384x1024_0_5120 : ∀ a, (![0, 5120] : Fin 2 → Nat) a + S384x1024.size a ≤ S384x8448.size a
  inb_S384x8448_S384x1024_0_5248 : ∀ a, (![0, 5248] : Fin 2 → Nat) a + S384x1024.size a ≤ S384x8448.size a
  inb_S384x8448_S384x1024_0_5376 : ∀ a, (![0, 5376] : Fin 2 → Nat) a + S384x1024.size a ≤ S384x8448.size a
  inb_S384x8448_S384x1024_0_6144 : ∀ a, (![0, 6144] : Fin 2 → Nat) a + S384x1024.size a ≤ S384x8448.size a
  inb_S384x8448_S384x1024_0_6272 : ∀ a, (![0, 6272] : Fin 2 → Nat) a + S384x1024.size a ≤ S384x8448.size a
  inb_S384x8448_S384x1024_0_6400 : ∀ a, (![0, 6400] : Fin 2 → Nat) a + S384x1024.size a ≤ S384x8448.size a
  inb_S384x8448_S384x1024_0_7168 : ∀ a, (![0, 7168] : Fin 2 → Nat) a + S384x1024.size a ≤ S384x8448.size a
  inb_S384x8448_S384x1024_0_7296 : ∀ a, (![0, 7296] : Fin 2 → Nat) a + S384x1024.size a ≤ S384x8448.size a
  inb_S384x8448_S384x1024_0_7424 : ∀ a, (![0, 7424] : Fin 2 → Nat) a + S384x1024.size a ≤ S384x8448.size a
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1024 : S128x1.Broadcasts S128x1024
  shapeCasts_S128x1024_S128x8x128 : S128x1024.ShapeCasts S128x8x128
  inb_S1x128x64x128_S1x128x8x128_0_0_0_0 : ∀ a, (![0, 0, 0, 0] : Fin 4 → Nat) a + S1x128x8x128.size a ≤ S1x128x64x128.size a
  h_S1x128x8x128 : 0 < S1x128x8x128.numel
  shapeCasts_S1x128x8x128_S128x8x128 : S1x128x8x128.ShapeCasts S128x8x128
  shapeCasts_S128x8x128_S1x128x8x128 : S128x8x128.ShapeCasts S1x128x8x128
  inb_S1x128x64x128_S1x128x8x128_0_0_8_0 : ∀ a, (![0, 0, 8, 0] : Fin 4 → Nat) a + S1x128x8x128.size a ≤ S1x128x64x128.size a
  inb_S1x128x64x128_S1x128x8x128_0_0_16_0 : ∀ a, (![0, 0, 16, 0] : Fin 4 → Nat) a + S1x128x8x128.size a ≤ S1x128x64x128.size a
  inb_S1x128x64x128_S1x128x8x128_0_0_24_0 : ∀ a, (![0, 0, 24, 0] : Fin 4 → Nat) a + S1x128x8x128.size a ≤ S1x128x64x128.size a
  inb_S1x128x64x128_S1x128x8x128_0_0_32_0 : ∀ a, (![0, 0, 32, 0] : Fin 4 → Nat) a + S1x128x8x128.size a ≤ S1x128x64x128.size a
  inb_S1x128x64x128_S1x128x8x128_0_0_40_0 : ∀ a, (![0, 0, 40, 0] : Fin 4 → Nat) a + S1x128x8x128.size a ≤ S1x128x64x128.size a
  inb_S1x128x64x128_S1x128x8x128_0_0_48_0 : ∀ a, (![0, 0, 48, 0] : Fin 4 → Nat) a + S1x128x8x128.size a ≤ S1x128x64x128.size a
  inb_S1x128x64x128_S1x128x8x128_0_0_56_0 : ∀ a, (![0, 0, 56, 0] : Fin 4 → Nat) a + S1x128x8x128.size a ≤ S1x128x64x128.size a
  dot_S128x128_S128x128_S128x128_1_0_0_1_n_n_wf : DotDims.WF S128x128 S128x128 S128x128 [1] [0] [0] [1] [] []
  dot_S16x8192_S128x8192_S16x128_1_1_0_0_n_n_wf : DotDims.WF S16x8192 S128x8192 S16x128 [1] [1] [0] [0] [] []
  dot_S16x128_S128x128_S16x128_1_0_0_1_n_n_wf : DotDims.WF S16x128 S128x128 S16x128 [1] [0] [0] [1] [] []
  dot_S16x128_S16x128_S16x16_1_1_0_0_n_n_wf : DotDims.WF S16x128 S16x128 S16x16 [1] [1] [0] [0] [] []
  dot_S16x16_S16x128_S16x128_1_0_0_1_n_n_wf : DotDims.WF S16x16 S16x128 S16x128 [1] [0] [0] [1] [] []
  dot_S16x128_S16x8192_S128x8192_0_0_1_1_n_n_wf : DotDims.WF S16x128 S16x8192 S128x8192 [0] [0] [1] [1] [] []
  dot_S128x384_S384x1024_S128x1024_1_0_0_1_n_n_wf : DotDims.WF S128x384 S384x1024 S128x1024 [1] [0] [0] [1] [] []
  hrank0 : 0 < grid0.rank
  k0_off1_inb : ∀ i : grid0.Coords, ∀ (k0_h2 : k0_cond2 i = 1#1), ∀ a, (k0_off1 i) a + S1x128x1024.size a ≤ S4x128x8192.size a
  k0_off1_packedbf16 : ∀ i : grid0.Coords, ∀ (k0_h2 : k0_cond2 i = 1#1), (Rect.unit (s := S4x128x8192) (k0_off1 i) S1x128x1024.size (k0_off1_inb i k0_h2)).PackedRows (EltTy.packing .bf16)
  k0_off2_inb : ∀ i : grid0.Coords, ∀ (k0_h2 : k0_cond2 i = 1#1), ∀ a, (k0_off2 i) a + S1x128x1024.size a ≤ S4x128x8192.size a
  k0_off2_packedbf16 : ∀ i : grid0.Coords, ∀ (k0_h2 : k0_cond2 i = 1#1), (Rect.unit (s := S4x128x8192) (k0_off2 i) S1x128x1024.size (k0_off2_inb i k0_h2)).PackedRows (EltTy.packing .bf16)
  k0_off3_inb : ∀ i : grid0.Coords, ∀ (k0_h2 : k0_cond2 i = 1#1), ∀ a, (k0_off3 i) a + S1x128x1024.size a ≤ S4x128x8192.size a
  k0_off3_packedbf16 : ∀ i : grid0.Coords, ∀ (k0_h2 : k0_cond2 i = 1#1), (Rect.unit (s := S4x128x8192) (k0_off3 i) S1x128x1024.size (k0_off3_inb i k0_h2)).PackedRows (EltTy.packing .bf16)
  k0_off4_inb : ∀ i : grid0.Coords, ∀ (k0_h2 : k0_cond2 i = 1#1), ∀ a, (k0_off4 i) a + S1x128x1024.size a ≤ S4x128x8192.size a
  k0_off4_packedbf16 : ∀ i : grid0.Coords, ∀ (k0_h2 : k0_cond2 i = 1#1), (Rect.unit (s := S4x128x8192) (k0_off4 i) S1x128x1024.size (k0_off4_inb i k0_h2)).PackedRows (EltTy.packing .bf16)
  k0_off5_inb : ∀ i : grid0.Coords, ∀ (k0_h2 : k0_cond2 i = 1#1), ∀ a, (k0_off5 i) a + S1x128x1024.size a ≤ S4x128x8192.size a
  k0_off5_packedbf16 : ∀ i : grid0.Coords, ∀ (k0_h2 : k0_cond2 i = 1#1), (Rect.unit (s := S4x128x8192) (k0_off5 i) S1x128x1024.size (k0_off5_inb i k0_h2)).PackedRows (EltTy.packing .bf16)
  k0_off6_inb : ∀ i : grid0.Coords, ∀ (k0_h2 : k0_cond2 i = 1#1), ∀ a, (k0_off6 i) a + S1x128x1024.size a ≤ S4x128x8192.size a
  k0_off6_packedbf16 : ∀ i : grid0.Coords, ∀ (k0_h2 : k0_cond2 i = 1#1), (Rect.unit (s := S4x128x8192) (k0_off6 i) S1x128x1024.size (k0_off6_inb i k0_h2)).PackedRows (EltTy.packing .bf16)
  k0_off7_inb : ∀ i : grid0.Coords, ∀ (k0_h2 : k0_cond2 i = 1#1), ∀ a, (k0_off7 i) a + S1x128x1024.size a ≤ S4x128x8192.size a
  k0_off7_packedbf16 : ∀ i : grid0.Coords, ∀ (k0_h2 : k0_cond2 i = 1#1), (Rect.unit (s := S4x128x8192) (k0_off7 i) S1x128x1024.size (k0_off7_inb i k0_h2)).PackedRows (EltTy.packing .bf16)
  k0_off8_inb : ∀ i : grid0.Coords, ∀ (k0_h2 : k0_cond2 i = 1#1), ∀ a, (k0_off8 i) a + S1x128x1024.size a ≤ S4x128x8192.size a
  k0_off8_packedbf16 : ∀ i : grid0.Coords, ∀ (k0_h2 : k0_cond2 i = 1#1), (Rect.unit (s := S4x128x8192) (k0_off8 i) S1x128x1024.size (k0_off8_inb i k0_h2)).PackedRows (EltTy.packing .bf16)
  k0_off9_inb : ∀ i : grid0.Coords, ∀ (k0_h3 : k0_cond3 i = 1#1), ∀ a, (k0_off9 i) a + S1x128x1024.size a ≤ S4x128x8192.size a
  k0_off10_inb : ∀ i : grid0.Coords, ∀ (k0_h3 : k0_cond3 i = 1#1), ∀ a, (k0_off10 i) a + S1x128x1024.size a ≤ S4x128x8192.size a
  k0_off11_inb : ∀ i : grid0.Coords, ∀ (k0_h3 : k0_cond3 i = 1#1), ∀ a, (k0_off11 i) a + S1x128x1024.size a ≤ S4x128x8192.size a
  k0_off12_inb : ∀ i : grid0.Coords, ∀ (k0_h3 : k0_cond3 i = 1#1), ∀ a, (k0_off12 i) a + S1x128x1024.size a ≤ S4x128x8192.size a
  k0_off13_inb : ∀ i : grid0.Coords, ∀ (k0_h3 : k0_cond3 i = 1#1), ∀ a, (k0_off13 i) a + S1x128x1024.size a ≤ S4x128x8192.size a
  k0_off14_inb : ∀ i : grid0.Coords, ∀ (k0_h3 : k0_cond3 i = 1#1), ∀ a, (k0_off14 i) a + S1x128x1024.size a ≤ S4x128x8192.size a
  k0_off15_inb : ∀ i : grid0.Coords, ∀ (k0_h3 : k0_cond3 i = 1#1), ∀ a, (k0_off15 i) a + S1x128x1024.size a ≤ S4x128x8192.size a
  k0_off16_inb : ∀ i : grid0.Coords, ∀ (k0_h3 : k0_cond3 i = 1#1), ∀ a, (k0_off16 i) a + S1x128x1024.size a ≤ S4x128x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64x128.size a ≤ S4x128x64x128.size a
  hwx0_0 : ∀ i : grid0.Coords, EltTy.bits .f32 = 32 ∨ (Rect.block (s := S4x128x64x128) S1x128x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x384.size a ≤ S3x128x384.size a
  hwx0_2 : ∀ i : grid0.Coords, EltTy.bits .bf16 = 32 ∨ (Rect.block (s := S3x128x384) S3x128x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x8192.size a ≤ S2x8192.size a
  hwx0_3 : ∀ i : grid0.Coords, EltTy.bits .f32 = 32 ∨ (Rect.block (s := S2x8192) S2x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x8192.size a ≤ S2x8192.size a
  hwx0_4 : ∀ i : grid0.Coords, EltTy.bits .bf16 = 32 ∨ (Rect.block (s := S2x8192) S2x8192.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x64x128.size a ≤ S4x128x64x128.size a
  hwx0_7 : ∀ i : grid0.Coords, EltTy.bits .f32 = 32 ∨ (Rect.block (s := S4x128x64x128) S1x128x64x128.size (cc0_transform_7 i) (hinb0_7 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S16x8192_S128x8192_S16x128_1_1_0_0_n_n : DotDims S16x8192 S128x8192 S16x128 where
  lhsContracting := [1]
  rhsContracting := [1]
  lhsNonContracting := [0]
  rhsNonContracting := [0]
  lhsBatch := []
  rhsBatch := []
  wf := dot_S16x8192_S128x8192_S16x128_1_1_0_0_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S16x128_S16x128_S16x16_1_1_0_0_n_n : DotDims S16x128 S16x128 S16x16 where
  lhsContracting := [1]
  rhsContracting := [1]
  lhsNonContracting := [0]
  rhsNonContracting := [0]
  lhsBatch := []
  rhsBatch := []
  wf := dot_S16x128_S16x128_S16x16_1_1_0_0_n_n_wf
def dot_S16x16_S16x128_S16x128_1_0_0_1_n_n : DotDims S16x16 S16x128 S16x128 where
  lhsContracting := [1]
  rhsContracting := [0]
  lhsNonContracting := [0]
  rhsNonContracting := [1]
  lhsBatch := []
  rhsBatch := []
  wf := dot_S16x16_S16x128_S16x128_1_0_0_1_n_n_wf
def dot_S16x128_S16x8192_S128x8192_0_0_1_1_n_n : DotDims S16x128 S16x8192 S128x8192 where
  lhsContracting := [0]
  rhsContracting := [0]
  lhsNonContracting := [1]
  rhsNonContracting := [1]
  lhsBatch := []
  rhsBatch := []
  wf := dot_S16x128_S16x8192_S128x8192_0_0_1_1_n_n_wf
def dot_S128x384_S384x1024_S128x1024_1_0_0_1_n_n : DotDims S128x384 S384x1024 S128x1024 where
  lhsContracting := [1]
  rhsContracting := [0]
  lhsNonContracting := [0]
  rhsNonContracting := [1]
  lhsBatch := []
  rhsBatch := []
  wf := dot_S128x384_S384x1024_S128x1024_1_0_0_1_n_n_wf

abbrev win0_0 : Pipeline.Window sig grid0 :=
  Pipeline.Window.ofSpec (Memref.whole main_arg0) S1x128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S3x128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S2x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x128x64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond3 i == 1#1) | ⟨_ + 8, h⟩ => absurd h (Nat.not_lt.2 (Nat.le_add_left _ _))

class Facts : Prop extends Facts₀ where

variable [Facts]
-- ==== ReferenceIdeal.lean ====
abbrev S4x128x64x128 : Shape := ⟨4, ![4, 128, 64, 128]⟩
abbrev S128x128 : Shape := ⟨2, ![128, 128]⟩
abbrev S128x128x3x3 : Shape := ⟨4, ![128, 128, 3, 3]⟩
abbrev S128 : Shape := ⟨1, ![128]⟩
abbrev S4x128x32x2x64x2 : Shape := ⟨6, ![4, 128, 32, 2, 64, 2]⟩
abbrev S_ : Shape := ⟨0, ![]⟩
abbrev S4x128x32x64 : Shape := ⟨4, ![4, 128, 32, 64]⟩
abbrev S4x128x32x2x64 : Shape := ⟨5, ![4, 128, 32, 2, 64]⟩
abbrev S4x128x64x64 : Shape := ⟨4, ![4, 128, 64, 64]⟩
abbrev S4x128x64x64x2 : Shape := ⟨5, ![4, 128, 64, 64, 2]⟩
abbrev S4x128x8192 : Shape := ⟨3, ![4, 128, 8192]⟩
abbrev S3x3x128x128 : Shape := ⟨4, ![3, 3, 128, 128]⟩
abbrev S9x128x128 : Shape := ⟨3, ![9, 128, 128]⟩
abbrev S8192 : Shape := ⟨1, ![8192]⟩
abbrev S1x8192 : Shape := ⟨2, ![1, 8192]⟩
abbrev S2x8192 : Shape := ⟨2, ![2, 8192]⟩
abbrev S1x128x8192 : Shape := ⟨3, ![1, 128, 8192]⟩
abbrev S128x8450 : Shape := ⟨2, ![128, 8450]⟩
abbrev S128x8192 : Shape := ⟨2, ![128, 8192]⟩
abbrev S16x8192 : Shape := ⟨2, ![16, 8192]⟩
abbrev S16x128 : Shape := ⟨2, ![16, 128]⟩
abbrev S16 : Shape := ⟨1, ![16]⟩
abbrev S16x1 : Shape := ⟨2, ![16, 1]⟩
abbrev S16x16 : Shape := ⟨2, ![16, 16]⟩
abbrev S1x16 : Shape := ⟨2, ![1, 16]⟩
abbrev S1x128x128 : Shape := ⟨3, ![1, 128, 128]⟩
abbrev S128x1 : Shape := ⟨2, ![128, 1]⟩

abbrev nBuf : Space → Nat
  | .hbm => 61
  | .vmem => 14
  | .smem => 0
  | _ => 0

abbrev bufTy : (tb : Table) → Fin (tcTables nBuf tb) → BufTy
  | .hbm, ⟨0, _⟩ => ⟨S4x128x64x128, .f32⟩
  | .hbm, ⟨1, _⟩ => ⟨S128x128, .f32⟩
  | .hbm, ⟨2, _⟩ => ⟨S128x128x3x3, .f32⟩
  | .hbm, ⟨3, _⟩ => ⟨S128, .f32⟩
  | .hbm, ⟨4, _⟩ => ⟨S128, .f32⟩
  | .hbm, ⟨5, _⟩ => ⟨S4x128x32x2x64x2, .f32⟩
  | .hbm, ⟨6, _⟩ => ⟨S_, .f32⟩
  | .hbm, ⟨7, _⟩ => ⟨S4x128x32x64, .f32⟩
  | .hbm, ⟨8, _⟩ => ⟨S_, .f32⟩
  | .hbm, ⟨9, _⟩ => ⟨S4x128x32x64, .f32⟩
  | .hbm, ⟨10, _⟩ => ⟨S4x128x32x64, .f32⟩
  | .hbm, ⟨11, _⟩ => ⟨S4x128x32x2x64, .f32⟩
  | .hbm, ⟨12, _⟩ => ⟨S4x128x64x64, .f32⟩
  | .hbm, ⟨13, _⟩ => ⟨S4x128x64x64x2, .f32⟩
  | .hbm, ⟨14, _⟩ => ⟨S4x128x64x128, .f32⟩
  | .hbm, ⟨15, _⟩ => ⟨S4x128x64x128, .f32⟩
  | .hbm, ⟨16, _⟩ => ⟨S4x128x8192, .f32⟩
  | .hbm, ⟨17, _⟩ => ⟨S4x128x8192, .f32⟩
  | .hbm, ⟨18, _⟩ => ⟨S128x128, .f32⟩
  | .hbm, ⟨19, _⟩ => ⟨S128x128, .f32⟩
  | .hbm, ⟨20, _⟩ => ⟨S3x3x128x128, .f32⟩
  | .hbm, ⟨21, _⟩ => ⟨S9x128x128, .f32⟩
  | .hbm, ⟨22, _⟩ => ⟨S8192, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S_, .i1⟩
  | .hbm, ⟨39, _⟩ => ⟨S8192, .i1⟩
  | .hbm, ⟨40, _⟩ => ⟨S8192, .i1⟩
  | .hbm, ⟨41, _⟩ => ⟨S8192, .i1⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S8192, .f32⟩
  | .hbm, ⟨49, _⟩ => ⟨S_, .i32⟩
  | .hbm, ⟨50, _⟩ => ⟨S8192, .i32⟩
  | .hbm, ⟨51, _⟩ => ⟨S8192, .i1⟩
  | .hbm, ⟨52, _⟩ => ⟨S8192, .f32⟩
  | .hbm, ⟨53, _⟩ => ⟨S1x8192, .f32⟩
  | .hbm, ⟨54, _⟩ => ⟨S1x8192, .f32⟩
  | .hbm, ⟨55, _⟩ => ⟨S2x8192, .f32⟩
  | .hbm, ⟨56, _⟩ => ⟨S4x128x8192, .f32⟩
  | .hbm, ⟨57, _⟩ => ⟨S128x1, .f32⟩
  | .hbm, ⟨58, _⟩ => ⟨S128x1, .f32⟩
  | .hbm, ⟨59, _⟩ => ⟨S4x128x8192, .f32⟩
  | .hbm, ⟨60, _⟩ => ⟨S4x128x64x128, .f32⟩
  | .local _ .vmem, ⟨0, _⟩ => ⟨S1x128x8192, .f32⟩
  | .local _ .vmem, ⟨1, _⟩ => ⟨S1x128x8192, .f32⟩
  | .local _ .vmem, ⟨2, _⟩ => ⟨S1x128x8192, .f32⟩
  | .local _ .vmem, ⟨3, _⟩ => ⟨S1x128x8192, .f32⟩
  | .local _ .vmem, ⟨4, _⟩ => ⟨S128x128, .f32⟩
  | .local _ .vmem, ⟨5, _⟩ => ⟨S9x128x128, .f32⟩
  | .local _ .vmem, ⟨6, _⟩ => ⟨S2x8192, .f32⟩
  | .local _ .vmem, ⟨7, _⟩ => ⟨S1x128x8192, .f32⟩
  | .local _ .vmem, ⟨8, _⟩ => ⟨S1x128x8192, .f32⟩
  | .local _ .vmem, ⟨9, _⟩ => ⟨S128x8450, .f32⟩
  | .local _ .vmem, ⟨10, _⟩ => ⟨S4x128x8192, .f32⟩
  | .local _ .vmem, ⟨11, _⟩ => ⟨S128x1, .f32⟩
  | .local _ .vmem, ⟨12, _⟩ => ⟨S128x1, .f32⟩
  | .local _ .vmem, ⟨13, _⟩ => ⟨S4x128x8192, .f32⟩
  | _, _ => ⟨S4x128x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v16 : Ref sig .tc := ⟨.hbm, 44, rfl⟩
abbrev main_c_1 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

abbrev stage1_0 : Fin 1 → Memref sig .tc .vmem S4x128x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4x128x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

class Facts₀ : Prop where
  shapeCasts_S4x128x64x128_S4x128x32x2x64x2 : S4x128x64x128.ShapeCasts S4x128x32x2x64x2
  reducesTo_S4x128x32x2x64x2_S4x128x32x64_d3_5 : S4x128x32x2x64x2.ReducesTo [3, 5] S4x128x32x64
  h_S_ : 0 < S_.numel
  bcast_S_S4x128x32x64 : S_.BroadcastsInDim S4x128x32x64 (![] : Fin 0 → Fin S4x128x32x64.rank)
  bcast_S4x128x32x64_S4x128x32x2x64_0_1_2_4 : S4x128x32x64.BroadcastsInDim S4x128x32x2x64 (![0, 1, 2, 4] : Fin 4 → Fin S4x128x32x2x64.rank)
  shapeCasts_S4x128x32x2x64_S4x128x64x64 : S4x128x32x2x64.ShapeCasts S4x128x64x64
  bcast_S4x128x64x64_S4x128x64x64x2_0_1_2_3 : S4x128x64x64.BroadcastsInDim S4x128x64x64x2 (![0, 1, 2, 3] : Fin 4 → Fin S4x128x64x64x2.rank)
  shapeCasts_S4x128x64x64x2_S4x128x64x128 : S4x128x64x64x2.ShapeCasts S4x128x64x128
  shapeCasts_S4x128x64x128_S4x128x8192 : S4x128x64x128.ShapeCasts S4x128x8192
  transposes_S128x128_S128x128_1_0 : S128x128.Transposes [1, 0] S128x128
  transposes_S128x128x3x3_S3x3x128x128_2_3_0_1 : S128x128x3x3.Transposes [2, 3, 0, 1] S3x3x128x128
  shapeCasts_S3x3x128x128_S9x128x128 : S3x3x128x128.ShapeCasts S9x128x128
  bcast_S_S8192 : S_.BroadcastsInDim S8192 (![] : Fin 0 → Fin S8192.rank)
  bcast_S8192_S1x8192_1 : S8192.BroadcastsInDim S1x8192 (![1] : Fin 1 → Fin S1x8192.rank)
  concatenates_S1x8192_S1x8192_S2x8192_d0 : Shape.Concatenates [S1x8192, S1x8192] S2x8192 0
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S128x8192_o0_0_S1x8192 : S128x8192.Slices ![0, 0] S1x8192
  slices_S128x8192_o1_0_S1x8192 : S128x8192.Slices ![1, 0] S1x8192
  slices_S128x8192_o2_0_S1x8192 : S128x8192.Slices ![2, 0] S1x8192
  slices_S128x8192_o3_0_S1x8192 : S128x8192.Slices ![3, 0] S1x8192
  slices_S128x8192_o4_0_S1x8192 : S128x8192.Slices ![4, 0] S1x8192
  slices_S128x8192_o5_0_S1x8192 : S128x8192.Slices ![5, 0] S1x8192
  slices_S128x8192_o6_0_S1x8192 : S128x8192.Slices ![6, 0] S1x8192
  slices_S128x8192_o7_0_S1x8192 : S128x8192.Slices ![7, 0] S1x8192
  slices_S128x8192_o8_0_S1x8192 : S128x8192.Slices ![8, 0] S1x8192
  slices_S128x8192_o9_0_S1x8192 : S128x8192.Slices ![9, 0] S1x8192
  slices_S128x8192_o10_0_S1x8192 : S128x8192.Slices ![10, 0] S1x8192
  slices_S128x8192_o11_0_S1x8192 : S128x8192.Slices ![11, 0] S1x8192
  slices_S128x8192_o12_0_S1x8192 : S128x8192.Slices ![12, 0] S1x8192
  slices_S128x8192_o13_0_S1x8192 : S128x8192.Slices ![13, 0] S1x8192
  slices_S128x8192_o14_0_S1x8192 : S128x8192.Slices ![14, 0] S1x8192
  slices_S128x8192_o15_0_S1x8192 : S128x8192.Slices ![15, 0] S1x8192
  slices_S128x8192_o16_0_S1x8192 : S128x8192.Slices ![16, 0] S1x8192
  slices_S128x8192_o17_0_S1x8192 : S128x8192.Slices ![17, 0] S1x8192
  slices_S128x8192_o18_0_S1x8192 : S128x8192.Slices ![18, 0] S1x8192
  slices_S128x8192_o19_0_S1x8192 : S128x8192.Slices ![19, 0] S1x8192
  slices_S128x8192_o20_0_S1x8192 : S128x8192.Slices ![20, 0] S1x8192
  slices_S128x8192_o21_0_S1x8192 : S128x8192.Slices ![21, 0] S1x8192
  slices_S128x8192_o22_0_S1x8192 : S128x8192.Slices ![22, 0] S1x8192
  slices_S128x8192_o23_0_S1x8192 : S128x8192.Slices ![23, 0] S1x8192
  slices_S128x8192_o24_0_S1x8192 : S128x8192.Slices ![24, 0] S1x8192
  slices_S128x8192_o25_0_S1x8192 : S128x8192.Slices ![25, 0] S1x8192
  slices_S128x8192_o26_0_S1x8192 : S128x8192.Slices ![26, 0] S1x8192
  slices_S128x8192_o27_0_S1x8192 : S128x8192.Slices ![27, 0] S1x8192
  slices_S128x8192_o28_0_S1x8192 : S128x8192.Slices ![28, 0] S1x8192
  slices_S128x8192_o29_0_S1x8192 : S128x8192.Slices ![29, 0] S1x8192
  slices_S128x8192_o30_0_S1x8192 : S128x8192.Slices ![30, 0] S1x8192
  slices_S128x8192_o31_0_S1x8192 : S128x8192.Slices ![31, 0] S1x8192
  slices_S128x8192_o32_0_S1x8192 : S128x8192.Slices ![32, 0] S1x8192
  slices_S128x8192_o33_0_S1x8192 : S128x8192.Slices ![33, 0] S1x8192
  slices_S128x8192_o34_0_S1x8192 : S128x8192.Slices ![34, 0] S1x8192
  slices_S128x8192_o35_0_S1x8192 : S128x8192.Slices ![35, 0] S1x8192
  slices_S128x8192_o36_0_S1x8192 : S128x8192.Slices ![36, 0] S1x8192
  slices_S128x8192_o37_0_S1x8192 : S128x8192.Slices ![37, 0] S1x8192
  slices_S128x8192_o38_0_S1x8192 : S128x8192.Slices ![38, 0] S1x8192
  slices_S128x8192_o39_0_S1x8192 : S128x8192.Slices ![39, 0] S1x8192
  slices_S128x8192_o40_0_S1x8192 : S128x8192.Slices ![40, 0] S1x8192
  slices_S128x8192_o41_0_S1x8192 : S128x8192.Slices ![41, 0] S1x8192
  slices_S128x8192_o42_0_S1x8192 : S128x8192.Slices ![42, 0] S1x8192
  slices_S128x8192_o43_0_S1x8192 : S128x8192.Slices ![43, 0] S1x8192
  slices_S128x8192_o44_0_S1x8192 : S128x8192.Slices ![44, 0] S1x8192
  slices_S128x8192_o45_0_S1x8192 : S128x8192.Slices ![45, 0] S1x8192
  slices_S128x8192_o46_0_S1x8192 : S128x8192.Slices ![46, 0] S1x8192
  slices_S128x8192_o47_0_S1x8192 : S128x8192.Slices ![47, 0] S1x8192
  slices_S128x8192_o48_0_S1x8192 : S128x8192.Slices ![48, 0] S1x8192
  slices_S128x8192_o49_0_S1x8192 : S128x8192.Slices ![49, 0] S1x8192
  slices_S128x8192_o50_0_S1x8192 : S128x8192.Slices ![50, 0] S1x8192
  slices_S128x8192_o51_0_S1x8192 : S128x8192.Slices ![51, 0] S1x8192
  slices_S128x8192_o52_0_S1x8192 : S128x8192.Slices ![52, 0] S1x8192
  slices_S128x8192_o53_0_S1x8192 : S128x8192.Slices ![53, 0] S1x8192
  slices_S128x8192_o54_0_S1x8192 : S128x8192.Slices ![54, 0] S1x8192
  slices_S128x8192_o55_0_S1x8192 : S128x8192.Slices ![55, 0] S1x8192
  slices_S128x8192_o56_0_S1x8192 : S128x8192.Slices ![56, 0] S1x8192
  slices_S128x8192_o57_0_S1x8192 : S128x8192.Slices ![57, 0] S1x8192
  slices_S128x8192_o58_0_S1x8192 : S128x8192.Slices ![58, 0] S1x8192
  slices_S128x8192_o59_0_S1x8192 : S128x8192.Slices ![59, 0] S1x8192
  slices_S128x8192_o60_0_S1x8192 : S128x8192.Slices ![60, 0] S1x8192
  slices_S128x8192_o61_0_S1x8192 : S128x8192.Slices ![61, 0] S1x8192
  slices_S128x8192_o62_0_S1x8192 : S128x8192.Slices ![62, 0] S1x8192
  slices_S128x8192_o63_0_S1x8192 : S128x8192.Slices ![63, 0] S1x8192
  slices_S128x8192_o64_0_S1x8192 : S128x8192.Slices ![64, 0] S1x8192
  slices_S128x8192_o65_0_S1x8192 : S128x8192.Slices ![65, 0] S1x8192
  slices_S128x8192_o66_0_S1x8192 : S128x8192.Slices ![66, 0] S1x8192
  slices_S128x8192_o67_0_S1x8192 : S128x8192.Slices ![67, 0] S1x8192
  slices_S128x8192_o68_0_S1x8192 : S128x8192.Slices ![68, 0] S1x8192
  slices_S128x8192_o69_0_S1x8192 : S128x8192.Slices ![69, 0] S1x8192
  slices_S128x8192_o70_0_S1x8192 : S128x8192.Slices ![70, 0] S1x8192
  slices_S128x8192_o71_0_S1x8192 : S128x8192.Slices ![71, 0] S1x8192
  slices_S128x8192_o72_0_S1x8192 : S128x8192.Slices ![72, 0] S1x8192
  slices_S128x8192_o73_0_S1x8192 : S128x8192.Slices ![73, 0] S1x8192
  slices_S128x8192_o74_0_S1x8192 : S128x8192.Slices ![74, 0] S1x8192
  slices_S128x8192_o75_0_S1x8192 : S128x8192.Slices ![75, 0] S1x8192
  slices_S128x8192_o76_0_S1x8192 : S128x8192.Slices ![76, 0] S1x8192
  slices_S128x8192_o77_0_S1x8192 : S128x8192.Slices ![77, 0] S1x8192
  slices_S128x8192_o78_0_S1x8192 : S128x8192.Slices ![78, 0] S1x8192
  slices_S128x8192_o79_0_S1x8192 : S128x8192.Slices ![79, 0] S1x8192
  slices_S128x8192_o80_0_S1x8192 : S128x8192.Slices ![80, 0] S1x8192
  slices_S128x8192_o81_0_S1x8192 : S128x8192.Slices ![81, 0] S1x8192
  slices_S128x8192_o82_0_S1x8192 : S128x8192.Slices ![82, 0] S1x8192
  slices_S128x8192_o83_0_S1x8192 : S128x8192.Slices ![83, 0] S1x8192
  slices_S128x8192_o84_0_S1x8192 : S128x8192.Slices ![84, 0] S1x8192
  slices_S128x8192_o85_0_S1x8192 : S128x8192.Slices ![85, 0] S1x8192
  slices_S128x8192_o86_0_S1x8192 : S128x8192.Slices ![86, 0] S1x8192
  slices_S128x8192_o87_0_S1x8192 : S128x8192.Slices ![87, 0] S1x8192
  slices_S128x8192_o88_0_S1x8192 : S128x8192.Slices ![88, 0] S1x8192
  slices_S128x8192_o89_0_S1x8192 : S128x8192.Slices ![89, 0] S1x8192
  slices_S128x8192_o90_0_S1x8192 : S128x8192.Slices ![90, 0] S1x8192
  slices_S128x8192_o91_0_S1x8192 : S128x8192.Slices ![91, 0] S1x8192
  slices_S128x8192_o92_0_S1x8192 : S128x8192.Slices ![92, 0] S1x8192
  slices_S128x8192_o93_0_S1x8192 : S128x8192.Slices ![93, 0] S1x8192
  slices_S128x8192_o94_0_S1x8192 : S128x8192.Slices ![94, 0] S1x8192
  slices_S128x8192_o95_0_S1x8192 : S128x8192.Slices ![95, 0] S1x8192
  slices_S128x8192_o96_0_S1x8192 : S128x8192.Slices ![96, 0] S1x8192
  slices_S128x8192_o97_0_S1x8192 : S128x8192.Slices ![97, 0] S1x8192
  slices_S128x8192_o98_0_S1x8192 : S128x8192.Slices ![98, 0] S1x8192
  slices_S128x8192_o99_0_S1x8192 : S128x8192.Slices ![99, 0] S1x8192
  slices_S128x8192_o100_0_S1x8192 : S128x8192.Slices ![100, 0] S1x8192
  slices_S128x8192_o101_0_S1x8192 : S128x8192.Slices ![101, 0] S1x8192
  slices_S128x8192_o102_0_S1x8192 : S128x8192.Slices ![102, 0] S1x8192
  slices_S128x8192_o103_0_S1x8192 : S128x8192.Slices ![103, 0] S1x8192
  slices_S128x8192_o104_0_S1x8192 : S128x8192.Slices ![104, 0] S1x8192
  slices_S128x8192_o105_0_S1x8192 : S128x8192.Slices ![105, 0] S1x8192
  slices_S128x8192_o106_0_S1x8192 : S128x8192.Slices ![106, 0] S1x8192
  slices_S128x8192_o107_0_S1x8192 : S128x8192.Slices ![107, 0] S1x8192
  slices_S128x8192_o108_0_S1x8192 : S128x8192.Slices ![108, 0] S1x8192
  slices_S128x8192_o109_0_S1x8192 : S128x8192.Slices ![109, 0] S1x8192
  slices_S128x8192_o110_0_S1x8192 : S128x8192.Slices ![110, 0] S1x8192
  slices_S128x8192_o111_0_S1x8192 : S128x8192.Slices ![111, 0] S1x8192
  slices_S128x8192_o112_0_S1x8192 : S128x8192.Slices ![112, 0] S1x8192
  slices_S128x8192_o113_0_S1x8192 : S128x8192.Slices ![113, 0] S1x8192
  slices_S128x8192_o114_0_S1x8192 : S128x8192.Slices ![114, 0] S1x8192
  slices_S128x8192_o115_0_S1x8192 : S128x8192.Slices ![115, 0] S1x8192
  slices_S128x8192_o116_0_S1x8192 : S128x8192.Slices ![116, 0] S1x8192
  slices_S128x8192_o117_0_S1x8192 : S128x8192.Slices ![117, 0] S1x8192
  slices_S128x8192_o118_0_S1x8192 : S128x8192.Slices ![118, 0] S1x8192
  slices_S128x8192_o119_0_S1x8192 : S128x8192.Slices ![119, 0] S1x8192
  slices_S128x8192_o120_0_S1x8192 : S128x8192.Slices ![120, 0] S1x8192
  slices_S128x8192_o121_0_S1x8192 : S128x8192.Slices ![121, 0] S1x8192
  slices_S128x8192_o122_0_S1x8192 : S128x8192.Slices ![122, 0] S1x8192
  slices_S128x8192_o123_0_S1x8192 : S128x8192.Slices ![123, 0] S1x8192
  slices_S128x8192_o124_0_S1x8192 : S128x8192.Slices ![124, 0] S1x8192
  slices_S128x8192_o125_0_S1x8192 : S128x8192.Slices ![125, 0] S1x8192
  slices_S128x8192_o126_0_S1x8192 : S128x8192.Slices ![126, 0] S1x8192
  slices_S128x8192_o127_0_S1x8192 : S128x8192.Slices ![127, 0] S1x8192
  iota_S16x8192_d0_w32 : S16x8192.Iotas .tc 32 [0]
  broadcasts_S1x8192_S16x8192 : S1x8192.Broadcasts S16x8192
  natLt_1_32 : 1 < 32
  reduces_S16x8192_S16 : S16x8192.Reduces [1] S16
  shapeCasts_S16_S16x1 : S16.ShapeCasts S16x1
  broadcasts_S16x1_S16x128 : S16x1.Broadcasts S16x128
  iota_S16x16_d0_w32 : S16x16.Iotas .tc 32 [0]
  iota_S16x16_d1_w32 : S16x16.Iotas .tc 32 [1]
  reduces_S16x16_S16 : S16x16.Reduces [1] S16
  reduces_S16x16_S16_2 : S16x16.Reduces [0] S16
  shapeCasts_S16_S1x16 : S16.ShapeCasts S1x16
  broadcasts_S16x1_S16x16 : S16x1.Broadcasts S16x16
  broadcasts_S1x16_S16x16 : S1x16.Broadcasts S16x16
  inb_S128x8450_S128x8450_0_0 : ∀ a, (![0, 0] : Fin 2 → Nat) a + S128x8450.size a ≤ S128x8450.size a
  h_S128x8450 : 0 < S128x8450.numel
  shapeCasts_S128x8450_S128x8450 : S128x8450.ShapeCasts S128x8450
  inb_S128x8450_S128x8192_0_129 : ∀ a, (![0, 129] : Fin 2 → Nat) a + S128x8192.size a ≤ S128x8450.size a
  h_S128x8192 : 0 < S128x8192.numel
  shapeCasts_S128x8192_S128x8192 : S128x8192.ShapeCasts S128x8192
  inb_S128x8450_S128x8192_0_0 : ∀ a, (![0, 0] : Fin 2 → Nat) a + S128x8192.size a ≤ S128x8450.size a
  inb_S2x8192_S1x8192_0_0 : ∀ a, (![0, 0] : Fin 2 → Nat) a + S1x8192.size a ≤ S2x8192.size a
  h_S1x8192 : 0 < S1x8192.numel
  shapeCasts_S1x8192_S1x8192 : S1x8192.ShapeCasts S1x8192
  broadcasts_S1x8192_S128x8192 : S1x8192.Broadcasts S128x8192
  inb_S9x128x128_S1x128x128_0_0_0 : ∀ a, (![0, 0, 0] : Fin 3 → Nat) a + S1x128x128.size a ≤ S9x128x128.size a
  h_S1x128x128 : 0 < S1x128x128.numel
  shapeCasts_S1x128x128_S128x128 : S1x128x128.ShapeCasts S128x128
  inb_S128x8450_S128x8192_0_1 : ∀ a, (![0, 1] : Fin 2 → Nat) a + S128x8192.size a ≤ S128x8450.size a
  inb_S9x128x128_S1x128x128_1_0_0 : ∀ a, (![1, 0, 0] : Fin 3 → Nat) a + S1x128x128.size a ≤ S9x128x128.size a
  inb_S128x8450_S128x8192_0_2 : ∀ a, (![0, 2] : Fin 2 → Nat) a + S128x8192.size a ≤ S128x8450.size a
  inb_S2x8192_S1x8192_1_0 : ∀ a, (![1, 0] : Fin 2 → Nat) a + S1x8192.size a ≤ S2x8192.size a
  inb_S9x128x128_S1x128x128_2_0_0 : ∀ a, (![2, 0, 0] : Fin 3 → Nat) a + S1x128x128.size a ≤ S9x128x128.size a
  inb_S128x8450_S128x8192_0_128 : ∀ a, (![0, 128] : Fin 2 → Nat) a + S128x8192.size a ≤ S128x8450.size a
  inb_S9x128x128_S1x128x128_3_0_0 : ∀ a, (![3, 0, 0] : Fin 3 → Nat) a + S1x128x128.size a ≤ S9x128x128.size a
  inb_S9x128x128_S1x128x128_4_0_0 : ∀ a, (![4, 0, 0] : Fin 3 → Nat) a + S1x128x128.size a ≤ S9x128x128.size a
  inb_S128x8450_S128x8192_0_130 : ∀ a, (![0, 130] : Fin 2 → Nat) a + S128x8192.size a ≤ S128x8450.size a
  inb_S9x128x128_S1x128x128_5_0_0 : ∀ a, (![5, 0, 0] : Fin 3 → Nat) a + S1x128x128.size a ≤ S9x128x128.size a
  inb_S128x8450_S128x8192_0_256 : ∀ a, (![0, 256] : Fin 2 → Nat) a + S128x8192.size a ≤ S128x8450.size a
  inb_S9x128x128_S1x128x128_6_0_0 : ∀ a, (![6, 0, 0] : Fin 3 → Nat) a + S1x128x128.size a ≤ S9x128x128.size a
  inb_S128x8450_S128x8192_0_257 : ∀ a, (![0, 257] : Fin 2 → Nat) a + S128x8192.size a ≤ S128x8450.size a
  inb_S9x128x128_S1x128x128_7_0_0 : ∀ a, (![7, 0, 0] : Fin 3 → Nat) a + S1x128x128.size a ≤ S9x128x128.size a
  inb_S128x8450_S128x8192_0_258 : ∀ a, (![0, 258] : Fin 2 → Nat) a + S128x8192.size a ≤ S128x8450.size a
  inb_S9x128x128_S1x128x128_8_0_0 : ∀ a, (![8, 0, 0] : Fin 3 → Nat) a + S1x128x128.size a ≤ S9x128x128.size a
  shapeCasts_S128x8192_S1x128x8192 : S128x8192.ShapeCasts S1x128x8192
  shapeCasts_S128_S128x1 : S128.ShapeCasts S128x1
  inb_S4x128x8192_S1x128x8192_0_0_0 : ∀ a, (![0, 0, 0] : Fin 3 → Nat) a + S1x128x8192.size a ≤ S4x128x8192.size a
  reduces_S128x8192_S128 : S128x8192.Reduces [1] S128
  inb_S4x128x8192_S1x128x8192_1_0_0 : ∀ a, (![1, 0, 0] : Fin 3 → Nat) a + S1x128x8192.size a ≤ S4x128x8192.size a
  inb_S4x128x8192_S1x128x8192_2_0_0 : ∀ a, (![2, 0, 0] : Fin 3 → Nat) a + S1x128x8192.size a ≤ S4x128x8192.size a
  inb_S4x128x8192_S1x128x8192_3_0_0 : ∀ a, (![3, 0, 0] : Fin 3 → Nat) a + S1x128x8192.size a ≤ S4x128x8192.size a
  broadcasts_S128x1_S128x8192 : S128x1.Broadcasts S128x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S4x128x8192_S4x128x64x128 : S4x128x8192.ShapeCasts S4x128x64x128
  dot_S128x128_S128x128_S128x128_1_0_0_1_n_n_wf : DotDims.WF S128x128 S128x128 S128x128 [1] [0] [0] [1] [] []
  dot_S16x8192_S128x8192_S16x128_1_1_0_0_n_n_wf : DotDims.WF S16x8192 S128x8192 S16x128 [1] [1] [0] [0] [] []
  dot_S16x128_S128x128_S16x128_1_0_0_1_n_n_wf : DotDims.WF S16x128 S128x128 S16x128 [1] [0] [0] [1] [] []
  dot_S16x128_S16x128_S16x16_1_1_0_0_n_n_wf : DotDims.WF S16x128 S16x128 S16x16 [1] [1] [0] [0] [] []
  dot_S16x16_S16x128_S16x128_1_0_0_1_n_n_wf : DotDims.WF S16x16 S16x128 S16x128 [1] [0] [0] [1] [] []
  dot_S16x128_S16x8192_S128x8192_0_0_1_1_n_n_wf : DotDims.WF S16x128 S16x8192 S128x8192 [0] [0] [1] [1] [] []
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x8192.size a ≤ S4x128x8192.size a
  hwx0_0 : ∀ i : grid0.Coords, EltTy.bits .f32 = 32 ∨ (Rect.block (s := S4x128x8192) S1x128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x8192.size a ≤ S4x128x8192.size a
  hwx0_1 : ∀ i : grid0.Coords, EltTy.bits .f32 = 32 ∨ (Rect.block (s := S4x128x8192) S1x128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x128x128.size a ≤ S9x128x128.size a
  hwx0_3 : ∀ i : grid0.Coords, EltTy.bits .f32 = 32 ∨ (Rect.block (s := S9x128x128) S9x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x8192.size a ≤ S2x8192.size a
  hwx0_4 : ∀ i : grid0.Coords, EltTy.bits .f32 = 32 ∨ (Rect.block (s := S2x8192) S2x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x8192.size a ≤ S4x128x8192.size a
  hwx0_5 : ∀ i : grid0.Coords, EltTy.bits .f32 = 32 ∨ (Rect.block (s := S4x128x8192) S1x128x8192.size (cc0_transform_5 i) (hinb0_5 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S16x8192_S128x8192_S16x128_1_1_0_0_n_n : DotDims S16x8192 S128x8192 S16x128 where
  lhsContracting := [1]
  rhsContracting := [1]
  lhsNonContracting := [0]
  rhsNonContracting := [0]
  lhsBatch := []
  rhsBatch := []
  wf := dot_S16x8192_S128x8192_S16x128_1_1_0_0_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S16x128_S16x128_S16x16_1_1_0_0_n_n : DotDims S16x128 S16x128 S16x16 where
  lhsContracting := [1]
  rhsContracting := [1]
  lhsNonContracting := [0]
  rhsNonContracting := [0]
  lhsBatch := []
  rhsBatch := []
  wf := dot_S16x128_S16x128_S16x16_1_1_0_0_n_n_wf
def dot_S16x16_S16x128_S16x128_1_0_0_1_n_n : DotDims S16x16 S16x128 S16x128 where
  lhsContracting := [1]
  rhsContracting := [0]
  lhsNonContracting := [0]
  rhsNonContracting := [1]
  lhsBatch := []
  rhsBatch := []
  wf := dot_S16x16_S16x128_S16x128_1_0_0_1_n_n_wf
def dot_S16x128_S16x8192_S128x8192_0_0_1_1_n_n : DotDims S16x128 S16x8192 S128x8192 where
  lhsContracting := [0]
  rhsContracting := [0]
  lhsNonContracting := [1]
  rhsNonContracting := [1]
  lhsBatch := []
  rhsBatch := []
  wf := dot_S16x128_S16x8192_S128x8192_0_0_1_1_n_n_wf
def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_v10) S1x128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S9x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S2x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.whole (Memref.whole main_v26) false false (stage1_0 0) (sem1_0 0) (Memref.isWhole_whole _) (hstage1_0 0)

abbrev win1_1 : Pipeline.Window sig grid1 :=
  Pipeline.Window.whole (Memref.whole main_v27) false false (stage1_1 0) (sem1_1 0) (Memref.isWhole_whole _) (hstage1_1 0)

abbrev win1_2 : Pipeline.Window sig grid1 :=
  Pipeline.Window.whole (Memref.whole main_v28) false false (stage1_2 0) (sem1_2 0) (Memref.isWhole_whole _) (hstage1_2 0)

abbrev win1_3 : Pipeline.Window sig grid1 :=
  Pipeline.Window.whole (Memref.whole main_v29) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.BKDefs.lean ====
import proofs.«135277_g2000205747536381_pallasbulk_86_37_alg».proof.Proof.Gen.Kernel.Frame
import proofs.«135277_g2000205747536381_pallasbulk_86_37_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

theorem hcond0_1 : ∀ t : Fin cfg0.N, cond0_1 (grid0.coords t) ↔ t.val = 0 :=
  (by decide +kernel : ∀ t : Fin grid0.N, cond0_1 (grid0.coords t) ↔ t.val = 0)

abbrev cond0_2 (i : grid0.Coords) : Prop := k0_cond2 i = 1#1

theorem hcond0_2 : ∀ t : Fin cfg0.N, cond0_2 (grid0.coords t) ↔ t.val < 4 :=
  (by decide +kernel : ∀ t : Fin grid0.N, cond0_2 (grid0.coords t) ↔ t.val < 4)

abbrev cond0_3 (i : grid0.Coords) : Prop := k0_cond3 i = 1#1

theorem hcond0_3 : ∀ t : Fin cfg0.N, cond0_3 (grid0.coords t) ↔ 4 ≤ t.val :=
  (by decide +kernel : ∀ t : Fin grid0.N, cond0_3 (grid0.coords t) ↔ 4 ≤ t.val)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

theorem idleAt0_7 : ∀ t : Fin cfg0.N, ¬cond0_3 (grid0.coords t) → cfg0.idle 7 (grid0.coords t) = true := by decide +kernel

theorem noFlush0_7 : ∀ t : Fin cfg0.N, ¬cond0_3 (grid0.coords t) → (cfg0.win 7).flush t = false := by decide +kernel

theorem liveAt0_7 : ∀ t : Fin cfg0.N, cond0_3 (grid0.coords t) → cfg0.idle 7 (grid0.coords t) = false := by decide +kernel

abbrev VO0_7 : View sig .tc .vmem S1x128x64x128 .f32 := (Memref.whole cc0_stg7_0 : Memref sig .tc .vmem S1x128x64x128 .f32).view
abbrev ms0_0 (t : Fin cfg0.N) : Memref sig .tc .vmem S1x128x64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x128x384 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x8192 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x64x128 .f32 := win0_7.stage (cfg0.slots t 7)
abbrev hs0_7 (t : Fin cfg0.N) : (ms0_7 t).IsWhole := hstage0_7 ((cfg0.slots t 7).cast nbuf0_7)

abbrev scM0_0 : Memref sig .tc .vmem S4x128x8192 .bf16 := Memref.whole cc0_scratch0
abbrev scM0_1 : Memref sig .tc .vmem S128x1 .f32 := Memref.whole cc0_scratch1
abbrev scM0_2 : Memref sig .tc .vmem S128x1 .f32 := Memref.whole cc0_scratch2
abbrev scM0_3 : Memref sig .tc .vmem S128x8448 .f32 := Memref.whole cc0_scratch3
abbrev scM0_4 : Memref sig .tc .vmem S128x8448 .f32 := Memref.whole cc0_scratch4
abbrev scM0_5 : Memref sig .tc .vmem S16x8192 .f32 := Memref.whole cc0_scratch5
abbrev scM0_6 : Memref sig .tc .vmem S16x8192 .f32 := Memref.whole cc0_scratch6
abbrev scM0_7 : Memref sig .tc .vmem S384x8448 .bf16 := Memref.whole cc0_scratch7

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Kernel.Gen

end
-- ==== Proof.BKRunA.lean ====
import proofs.«135277_g2000205747536381_pallasbulk_86_37_alg».proof.Proof.Gen.Kernel.Frame
import proofs.«135277_g2000205747536381_pallasbulk_86_37_alg».proof.Proof.Gen.Kernel.Skeleton
import proofs.«135277_g2000205747536381_pallasbulk_86_37_alg».proof.Proof.BKDefs
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1x128x64x128 .f32) (harg2 : arg2.IsWhole) (arg3 : Memref sig .tc .vmem S128x128 .f32) (harg3 : arg3.IsWhole) (arg4 : Memref sig .tc .vmem S3x128x384 .bf16) (harg4 : arg4.IsWhole) (arg5 : Memref sig .tc .vmem S2x8192 .f32) (harg5 : arg5.IsWhole) (arg6 : Memref sig .tc .vmem S2x8192 .bf16) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x64x128 .f32) (harg9 : arg9.IsWhole) (arg10 : Memref sig .tc .vmem S4x128x8192 .bf16) (harg10 : arg10.IsWhole) (arg11 : Memref sig .tc .vmem S128x1 .f32) (harg11 : arg11.IsWhole) (arg12 : Memref sig .tc .vmem S128x1 .f32) (harg12 : arg12.IsWhole) (arg13 : Memref sig .tc .vmem S128x8448 .f32) (harg13 : arg13.IsWhole) (arg14 : Memref sig .tc .vmem S128x8448 .f32) (harg14 : arg14.IsWhole) (arg15 : Memref sig .tc .vmem S16x8192 .f32) (harg15 : arg15.IsWhole) (arg16 : Memref sig .tc .vmem S16x8192 .f32) (harg16 : arg16.IsWhole) (arg17 : Memref sig .tc .vmem S384x8448 .bf16) (harg17 : arg17.IsWhole)
    (hc1 : cond0_1 i) (hc2 : cond0_2 i) (hc3 : ¬cond0_3 i)
    (x2 : Vec F S1x128x64x128 .f32) (x3 : Vec F S128x128 .f32) (x4 : Vec F S3x128x384 .bf16) (x5 : Vec F S2x8192 .f32) (x6 : Vec F S2x8192 .bf16) (d10 : Vec F S4x128x8192 .bf16) (d11 : Vec F S128x1 .f32) (d12 : Vec F S128x1 .f32) (d13 : Vec F S128x8448 .f32) (d14 : Vec F S128x8448 .f32) (d15 : Vec F S16x8192 .f32) (d16 : Vec F S16x8192 .f32) (d17 : Vec F S384x8448 .bf16)

set_option maxHeartbeats 4000000 in

include hc1 hc2 hc3 in
noncomputable def kernelRun0_A :
    { W : List (View.Piece (Elt F) S4x128x8192 .bf16) × List (View.Piece (Elt F) S128x1 .f32) × List (View.Piece (Elt F) S128x1 .f32) × List (View.Piece (Elt F) S128x8448 .f32) × List (View.Piece (Elt F) S128x8448 .f32) × List (View.Piece (Elt F) S16x8192 .f32) × List (View.Piece (Elt F) S16x8192 .f32) × List (View.Piece (Elt F) S384x8448 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (arg10.view.loc (c : Thread nD τ) ↦[arg10.view.set]{fullShare} arg10.view.writes (Elt F) (harg10.unread d10) W.1) ∗ (arg11.view.loc (c : Thread nD τ) ↦[arg11.view.set]{fullShare} arg11.view.writes (Elt F) (harg11.unread d11) W.2.1) ∗ (arg12.view.loc (c : Thread nD τ) ↦[arg12.view.set]{fullShare} arg12.view.writes (Elt F) (harg12.unread d12) W.2.2.1) ∗ (arg13.view.loc (c : Thread nD τ) ↦[arg13.view.set]{fullShare} arg13.view.writes (Elt F) (harg13.unread d13) W.2.2.2.1) ∗ (arg14.view.loc (c : Thread nD τ) ↦[arg14.view.set]{fullShare} arg14.view.writes (Elt F) (harg14.unread d14) W.2.2.2.2.1) ∗ (arg15.view.loc (c : Thread nD τ) ↦[arg15.view.set]{fullShare} arg15.view.writes (Elt F) (harg15.unread d15) W.2.2.2.2.2.1) ∗ (arg16.view.loc (c : Thread nD τ) ↦[arg16.view.set]{fullShare} arg16.view.writes (Elt F) (harg16.unread d16) W.2.2.2.2.2.2.1) ∗ (arg17.view.loc (c : Thread nD τ) ↦[arg17.view.set]{fullShare} arg17.view.writes (Elt F) (harg17.unread d17) W.2.2.2.2.2.2.2)) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_, ?_, ?_, ?_, ?_, ?_, ?_⟩, fun E K => ?run⟩
  case run =>
    simp only [cc0__mega_kernel_eq_skeleton]; unfold cc0__mega_kernel_skel
    unfold owns
    iintro ⟨⟨%f2, %hf2, H2⟩, ⟨%f3, %hf3, H3⟩, ⟨%f4, %hf4, H4⟩, ⟨%f5, %hf5, H5⟩, ⟨%f6, %hf6, H6⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec_parts (disch := first | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

theorem cover0_A_11 (y : S128x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.1 S128x1.size (by sl_kernel_rfl) y

theorem cover0_A_12 (y : S128x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.1 S128x1.size (by sl_kernel_rfl) y

theorem cover0_A_13 (y : S128x8448.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.1 S128x128.size (by sl_kernel_rfl) y

theorem cover0_A_14 (y : S128x8448.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.1 S128x128.size (by sl_kernel_rfl) y

theorem cover0_A_15 (y : S16x8192.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.1 S16x8192.size (by sl_kernel_rfl) y

theorem cover0_A_16 (y : S16x8192.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.2.1 S1x8192.size (by sl_kernel_rfl) y

theorem cover0_A_17 (y : S384x8448.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.2.2, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.2.2 S128x128.size (by sl_kernel_rfl) y

end Cert.Kernel.Gen

end
-- ==== Proof.BKRunB.lean ====
import proofs.«135277_g2000205747536381_pallasbulk_86_37_alg».proof.Proof.Gen.Kernel.Frame
import proofs.«135277_g2000205747536381_pallasbulk_86_37_alg».proof.Proof.Gen.Kernel.Skeleton
import proofs.«135277_g2000205747536381_pallasbulk_86_37_alg».proof.Proof.BKDefs
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1x128x64x128 .f32) (harg2 : arg2.IsWhole) (arg3 : Memref sig .tc .vmem S128x128 .f32) (harg3 : arg3.IsWhole) (arg4 : Memref sig .tc .vmem S3x128x384 .bf16) (harg4 : arg4.IsWhole) (arg5 : Memref sig .tc .vmem S2x8192 .f32) (harg5 : arg5.IsWhole) (arg6 : Memref sig .tc .vmem S2x8192 .bf16) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x64x128 .f32) (harg9 : arg9.IsWhole) (arg10 : Memref sig .tc .vmem S4x128x8192 .bf16) (harg10 : arg10.IsWhole) (arg11 : Memref sig .tc .vmem S128x1 .f32) (harg11 : arg11.IsWhole) (arg12 : Memref sig .tc .vmem S128x1 .f32) (harg12 : arg12.IsWhole) (arg13 : Memref sig .tc .vmem S128x8448 .f32) (harg13 : arg13.IsWhole) (arg14 : Memref sig .tc .vmem S128x8448 .f32) (harg14 : arg14.IsWhole) (arg15 : Memref sig .tc .vmem S16x8192 .f32) (harg15 : arg15.IsWhole) (arg16 : Memref sig .tc .vmem S16x8192 .f32) (harg16 : arg16.IsWhole) (arg17 : Memref sig .tc .vmem S384x8448 .bf16) (harg17 : arg17.IsWhole)
    (hc1 : ¬cond0_1 i) (hc2 : cond0_2 i) (hc3 : ¬cond0_3 i)
    (x2 : Vec F S1x128x64x128 .f32) (x3 : Vec F S128x128 .f32) (x4 : Vec F S3x128x384 .bf16) (x5 : Vec F S2x8192 .f32) (x6 : Vec F S2x8192 .bf16) (d10 : Vec F S4x128x8192 .bf16) (d11 : Vec F S128x1 .f32) (d12 : Vec F S128x1 .f32) (d13 : Vec F S128x8448 .f32) (d14 : Vec F S128x8448 .f32) (d15 : Vec F S16x8192 .f32) (d16 : Vec F S16x8192 .f32) (d17 : Vec F S384x8448 .bf16)

set_option maxHeartbeats 4000000 in

include hc1 hc2 hc3 in
noncomputable def kernelRun0_B :
    { W : List (View.Piece (Elt F) S4x128x8192 .bf16) × List (View.Piece (Elt F) S128x1 .f32) × List (View.Piece (Elt F) S128x1 .f32) × List (View.Piece (Elt F) S128x8448 .f32) × List (View.Piece (Elt F) S128x8448 .f32) × List (View.Piece (Elt F) S16x8192 .f32) × List (View.Piece (Elt F) S16x8192 .f32) × List (View.Piece (Elt F) S384x8448 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (arg10.view.loc (c : Thread nD τ) ↦[arg10.view.set]{fullShare} arg10.view.writes (Elt F) (harg10.unread d10) W.1) ∗ (arg11.view.loc (c : Thread nD τ) ↦[arg11.view.set]{fullShare} arg11.view.writes (Elt F) (harg11.unread d11) W.2.1) ∗ (arg12.view.loc (c : Thread nD τ) ↦[arg12.view.set]{fullShare} arg12.view.writes (Elt F) (harg12.unread d12) W.2.2.1) ∗ (arg13.view.loc (c : Thread nD τ) ↦[arg13.view.set]{fullShare} arg13.view.writes (Elt F) (harg13.unread d13) W.2.2.2.1) ∗ (arg14.view.loc (c : Thread nD τ) ↦[arg14.view.set]{fullShare} arg14.view.writes (Elt F) (harg14.unread d14) W.2.2.2.2.1) ∗ (arg15.view.loc (c : Thread nD τ) ↦[arg15.view.set]{fullShare} arg15.view.writes (Elt F) (harg15.unread d15) W.2.2.2.2.2.1) ∗ (arg16.view.loc (c : Thread nD τ) ↦[arg16.view.set]{fullShare} arg16.view.writes (Elt F) (harg16.unread d16) W.2.2.2.2.2.2.1) ∗ (arg17.view.loc (c : Thread nD τ) ↦[arg17.view.set]{fullShare} arg17.view.writes (Elt F) (harg17.unread d17) W.2.2.2.2.2.2.2)) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_, ?_, ?_, ?_, ?_, ?_, ?_⟩, fun E K => ?run⟩
  case run =>
    simp only [cc0__mega_kernel_eq_skeleton]; unfold cc0__mega_kernel_skel
    unfold owns
    iintro ⟨⟨%f2, %hf2, H2⟩, ⟨%f3, %hf3, H3⟩, ⟨%f4, %hf4, H4⟩, ⟨%f5, %hf5, H5⟩, ⟨%f6, %hf6, H6⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec_parts (disch := first | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

theorem cover0_B_11 (y : S128x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.1 S128x1.size (by sl_kernel_rfl) y

theorem cover0_B_12 (y : S128x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.1 S128x1.size (by sl_kernel_rfl) y

theorem cover0_B_15 (y : S16x8192.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.1 S16x8192.size (by sl_kernel_rfl) y

theorem cover0_B_16 (y : S16x8192.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.2.1 S1x8192.size (by sl_kernel_rfl) y

end Cert.Kernel.Gen

end
-- ==== Proof.BKRunC.lean ====
import proofs.«135277_g2000205747536381_pallasbulk_86_37_alg».proof.Proof.BKDefs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1x128x64x128 .f32) (harg2 : arg2.IsWhole) (arg3 : Memref sig .tc .vmem S128x128 .f32) (harg3 : arg3.IsWhole) (arg4 : Memref sig .tc .vmem S3x128x384 .bf16) (harg4 : arg4.IsWhole) (arg5 : Memref sig .tc .vmem S2x8192 .f32) (harg5 : arg5.IsWhole) (arg6 : Memref sig .tc .vmem S2x8192 .bf16) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x64x128 .f32) (harg9 : arg9.IsWhole) (arg10 : Memref sig .tc .vmem S4x128x8192 .bf16) (harg10 : arg10.IsWhole) (arg11 : Memref sig .tc .vmem S128x1 .f32) (harg11 : arg11.IsWhole) (arg12 : Memref sig .tc .vmem S128x1 .f32) (harg12 : arg12.IsWhole) (arg13 : Memref sig .tc .vmem S128x8448 .f32) (harg13 : arg13.IsWhole) (arg14 : Memref sig .tc .vmem S128x8448 .f32) (harg14 : arg14.IsWhole) (arg15 : Memref sig .tc .vmem S16x8192 .f32) (harg15 : arg15.IsWhole) (arg16 : Memref sig .tc .vmem S16x8192 .f32) (harg16 : arg16.IsWhole) (arg17 : Memref sig .tc .vmem S384x8448 .bf16) (harg17 : arg17.IsWhole)
    (hc1 : ¬cond0_1 i) (hc2 : ¬cond0_2 i) (hc3 : cond0_3 i)
    (x7 : Vec F S128x1 .f32) (x8 : Vec F S128x1 .f32) (s10 : Vec F S4x128x8192 .bf16) (s11 : Vec F S128x1 .f32) (s12 : Vec F S128x1 .f32)

set_option maxHeartbeats 1000000 in

include hc1 hc2 hc3 in
noncomputable def kernelRun0_C :
    { L9 : List (View.Piece (Elt F) S1x128x64x128 .f32) //
      ∀ (E : Set ℕ) (K : PUnit → sProp 𝕄),
        iprop(owns (c : Thread nD τ) arg7 fullShare x7 ∗ owns (c : Thread nD τ) arg8 fullShare x8 ∗ (∃ d, owns (c : Thread nD τ) arg9 fullShare d) ∗ owns (c : Thread nD τ) arg10 fullShare s10 ∗ owns (c : Thread nD τ) arg11 fullShare s11 ∗ owns (c : Thread nD τ) arg12 fullShare s12
            ∗ (iprop(owns (c : Thread nD τ) arg7 fullShare x7 ∗ owns (c : Thread nD τ) arg8 fullShare x8 ∗ (∃ f, arg9.view.loc (c : Thread nD τ) ↦[arg9.view.set]{fullShare} arg9.view.writes (Elt F) f L9) ∗ owns (c : Thread nD τ) arg10 fullShare s10 ∗ owns (c : Thread nD τ) arg11 fullShare s11 ∗ owns (c : Thread nD τ) arg12 fullShare s12) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0__mega_kernel_eq_skeleton]; unfold cc0__mega_kernel_skel
    simp only [k0_part16_eq_skeleton, k0_part17_eq_skeleton, k0_part18_eq_skeleton]
    unfold owns
    iintro ⟨⟨%f7, %hf7, H7⟩, ⟨%f8, %hf8, H8⟩, ⟨%d9, %f9, -, H9⟩, ⟨%f10, %hf10, H10⟩, ⟨%f11, %hf11, H11⟩, ⟨%f12, %hf12, H12⟩, Hk⟩
    obtain rfl := harg7.eq_unread hf7; obtain rfl := harg8.eq_unread hf8; obtain rfl := harg10.eq_unread hf10; obtain rfl := harg11.eq_unread hf11; obtain rfl := harg12.eq_unread hf12
    sl_exec (disch := first | exact hc1 | exact hc2 | exact hc3)
    sl_step
    iapply Hk
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12

theorem cover0_C_9 (y : S1x128x64x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x7 x8 s10 s11 s12).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x7 x8 s10 s11 s12).1 S1x128x8x128.size (by sl_kernel_rfl) y

def out0_C_9 : Vec F S1x128x64x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x7 x8 s10 s11 s12).1)

end Cert.Kernel.Gen

end
-- ==== Proof.BKFrameF.lean ====
import proofs.«135277_g2000205747536381_pallasbulk_86_37_alg».proof.Proof.Gen.Kernel.Frame
import proofs.«135277_g2000205747536381_pallasbulk_86_37_alg».proof.Proof.Gen.Kernel.Skeleton
import proofs.«135277_g2000205747536381_pallasbulk_86_37_alg».proof.Proof.BKDefs
import proofs.«135277_g2000205747536381_pallasbulk_86_37_alg».proof.Proof.BKRunA
import proofs.«135277_g2000205747536381_pallasbulk_86_37_alg».proof.Proof.BKRunB
import proofs.«135277_g2000205747536381_pallasbulk_86_37_alg».proof.Proof.BKRunC
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def rdatF (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem shareF_eq (c : Dev nD) (w : Fin cfg0.W) : (rdatF m c).share w = fullShare := by
  unfold RDat.share; split <;> rfl

def bodyPreF (c : Dev nD) (t : Fin cfg0.N) (Y : (w : Fin cfg0.W) → (cfg0.win w).block.Idx → Elt F (cfg0.win w).elt) : sProp 𝕄 :=
  iprop((rdatF m c).Φ t.castSucc ∗ (rdatF m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6)
    ∗ owns (c : Thread nD τ) (ms0_7 t) fullShare (Y 7))

def bodyPostF (c : Dev nD) (t : Fin cfg0.N) (Y : (w : Fin cfg0.W) → (cfg0.win w).block.Idx → Elt F (cfg0.win w).elt) : sProp 𝕄 :=
  iprop((rdatF m c).Φ t.succ ∗ (rdatF m c).owesAt () t.succ
    ∗ (∃ X, ⌜(rdatF m c).after 0 t (Y 0) X⌝ ∗ owns (c : Thread nD τ) (ms0_0 t) fullShare X)
    ∗ (∃ X, ⌜(rdatF m c).after 1 t (Y 1) X⌝ ∗ owns (c : Thread nD τ) (ms0_1 t) fullShare X)
    ∗ (∃ X, ⌜(rdatF m c).after 2 t (Y 2) X⌝ ∗ owns (c : Thread nD τ) (ms0_2 t) fullShare X)
    ∗ (∃ X, ⌜(rdatF m c).after 3 t (Y 3) X⌝ ∗ owns (c : Thread nD τ) (ms0_3 t) fullShare X)
    ∗ (∃ X, ⌜(rdatF m c).after 4 t (Y 4) X⌝ ∗ owns (c : Thread nD τ) (ms0_4 t) fullShare X)
    ∗ (∃ X, ⌜(rdatF m c).after 5 t (Y 5) X⌝ ∗ owns (c : Thread nD τ) (ms0_5 t) fullShare X)
    ∗ (∃ X, ⌜(rdatF m c).after 6 t (Y 6) X⌝ ∗ owns (c : Thread nD τ) (ms0_6 t) fullShare X)
    ∗ (∃ X, ⌜(rdatF m c).after 7 t (Y 7) X⌝ ∗ owns (c : Thread nD τ) (ms0_7 t) fullShare X))

set_option maxHeartbeats 4000000 in

theorem sound_bodyF_AB (c : Dev nD) (t : Fin cfg0.N) (Y : (w : Fin cfg0.W) → (cfg0.win w).block.Idx → Elt F (cfg0.win w).elt)
    (hc2 : cond0_2 (grid0.coords t)) (hc3 : ¬cond0_3 (grid0.coords t)) :
    bodyPreF m c t Y ⊢ wp frame (wpE (defs₀ (F := F)) Variants.none c none) Set.univ (bodyAt0 t) (fun _ => bodyPostF m c t Y) := by
  unfold bodyPreF bodyPostF bodyAt0
  rw [show (rdatF m c).owesAt () t.succ = (rdatF m c).owesAt () t.castSucc from rfl]
  rw [show (rdatF m c).Φ t.castSucc = Pipeline.ΦA spec0 c from rfl, show (rdatF m c).Φ t.succ = Pipeline.ΦA spec0 c from rfl, PhiA0_eq]
  iintro ⟨⟨⟨⟨%d10, S10⟩, ⟨%d11, S11⟩, ⟨%d12, S12⟩, ⟨%d13, S13⟩, ⟨%d14, S14⟩, ⟨%d15, S15⟩, ⟨%d16, S16⟩, ⟨%d17, S17⟩⟩, Hg⟩, Ho, H0, H1, H2, H3, H4, H5, H6, H7⟩
  by_cases hc1 : cond0_1 (grid0.coords t)
  case' pos => iapply ((kernelRun0_A (hc1 := hc1) (hc2 := hc2) (hc3 := hc3) (x2 := Y 0) (x3 := Y 1) (x4 := Y 2) (x5 := Y 3) (x6 := Y 4) (d10 := d10) (d11 := d11) (d12 := d12) (d13 := d13) (d14 := d14) (d15 := d15) (d16 := d16) (d17 := d17) ..).2 Set.univ _)
  case' neg => iapply ((kernelRun0_B (hc1 := hc1) (hc2 := hc2) (hc3 := hc3) (x2 := Y 0) (x3 := Y 1) (x4 := Y 2) (x5 := Y 3) (x6 := Y 4) (d10 := d10) (d11 := d11) (d12 := d12) (d13 := d13) (d14 := d14) (d15 := d15) (d16 := d16) (d17 := d17) ..).2 Set.univ _)
  all_goals
    iframe H0 H1 H2 H3 H4 S10 S11 S12 S13 S14 S15 S16 S17
    iintro ⟨H0, H1, H2, H3, H4, S10, S11, S12, S13, S14, S15, S16, S17⟩
    isplitl [S10 S11 S12 S13 S14 S15 S16 S17 Hg]
    · isplitl [S10 S11 S12 S13 S14 S15 S16 S17]
      · isplitl [S10]
        · iexists _; unfold owns; iexists _; isplitr
          swap; · iexact S10
          ipureintro; rfl
        isplitl [S11]
        · iexists _; unfold owns; iexists _; isplitr
          swap; · iexact S11
          ipureintro; rfl
        isplitl [S12]
        · iexists _; unfold owns; iexists _; isplitr
          swap; · iexact S12
          ipureintro; rfl
        isplitl [S13]
        · iexists _; unfold owns; iexists _; isplitr
          swap; · iexact S13
          ipureintro; rfl
        isplitl [S14]
        · iexists _; unfold owns; iexists _; isplitr
          swap; · iexact S14
          ipureintro; rfl
        isplitl [S15]
        · iexists _; unfold owns; iexists _; isplitr
          swap; · iexact S15
          ipureintro; rfl
        isplitl [S16]
        · iexists _; unfold owns; iexists _; isplitr
          swap; · iexact S16
          ipureintro; rfl
        iexists _; unfold owns; iexists _; isplitr
        swap; · iexact S17
        ipureintro; rfl
      iexact Hg
    isplitl [Ho]; · iexact Ho
    isplitl [H0]
    · iexists (Y 0); isplitr; · ipureintro; exact trivial
      iexact H0
    isplitl [H1]
    · iexists (Y 1); isplitr; · ipureintro; exact trivial
      iexact H1
    isplitl [H2]
    · iexists (Y 2); isplitr; · ipureintro; exact trivial
      iexact H2
    isplitl [H3]
    · iexists (Y 3); isplitr; · ipureintro; exact trivial
      iexact H3
    isplitl [H4]
    · iexists (Y 4); isplitr; · ipureintro; exact trivial
      iexact H4
    isplitl [H5]
    · iexists (Y 5); isplitr; · ipureintro; exact trivial
      iexact H5
    isplitl [H6]
    · iexists (Y 6); isplitr; · ipureintro; exact trivial
      iexact H6
    iexists (Y 7); isplitr; · ipureintro; exact trivial
    iexact H7

set_option maxHeartbeats 4000000 in

theorem sound_bodyF_C (c : Dev nD) (t : Fin cfg0.N) (Y : (w : Fin cfg0.W) → (cfg0.win w).block.Idx → Elt F (cfg0.win w).elt)
    (hc1 : ¬cond0_1 (grid0.coords t)) (hc2 : ¬cond0_2 (grid0.coords t)) (hc3 : cond0_3 (grid0.coords t)) :
    bodyPreF m c t Y ⊢ wp frame (wpE (defs₀ (F := F)) Variants.none c none) Set.univ (bodyAt0 t) (fun _ => bodyPostF m c t Y) := by
  unfold bodyPreF bodyPostF bodyAt0
  rw [show (rdatF m c).owesAt () t.succ = (rdatF m c).owesAt () t.castSucc from rfl]
  rw [show (rdatF m c).Φ t.castSucc = Pipeline.ΦA spec0 c from rfl, show (rdatF m c).Φ t.succ = Pipeline.ΦA spec0 c from rfl, PhiA0_eq]
  iintro ⟨⟨⟨⟨%d10, S10⟩, ⟨%d11, S11⟩, ⟨%d12, S12⟩, ⟨%d13, S13⟩, ⟨%d14, S14⟩, ⟨%d15, S15⟩, ⟨%d16, S16⟩, ⟨%d17, S17⟩⟩, Hg⟩, Ho, H0, H1, H2, H3, H4, H5, H6, H7⟩
  iapply ((kernelRun0_C (hc1 := hc1) (hc2 := hc2) (hc3 := hc3) (x7 := Y 5) (x8 := Y 6) (s10 := d10) (s11 := d11) (s12 := d12) ..).2 Set.univ _)
  iframe H5 H6
  isplitl [H7]; · iexists _; iexact H7
  iframe S10 S11 S12
  iintro ⟨H5, H6, ⟨%f9, H7⟩, S10, S11, S12⟩
  isplitl [S10 S11 S12 S13 S14 S15 S16 S17 Hg]
  · isplitl [S10 S11 S12 S13 S14 S15 S16 S17]
    · isplitl [S10]
      · iexists _; iexact S10
      isplitl [S11]
      · iexists _; iexact S11
      isplitl [S12]
      · iexists _; iexact S12
      isplitl [S13]
      · iexists _; iexact S13
      isplitl [S14]
      · iexists _; iexact S14
      isplitl [S15]
      · iexists _; iexact S15
      isplitl [S16]
      · iexists _; iexact S16
      iexists _; iexact S17
    iexact Hg
  isplitl [Ho]; · iexact Ho
  isplitl [H0]
  · iexists (Y 0); isplitr; · ipureintro; exact trivial
    iexact H0
  isplitl [H1]
  · iexists (Y 1); isplitr; · ipureintro; exact trivial
    iexact H1
  isplitl [H2]
  · iexists (Y 2); isplitr; · ipureintro; exact trivial
    iexact H2
  isplitl [H3]
  · iexists (Y 3); isplitr; · ipureintro; exact trivial
    iexact H3
  isplitl [H4]
  · iexists (Y 4); isplitr; · ipureintro; exact trivial
    iexact H4
  isplitl [H5]
  · iexists (Y 5); isplitr; · ipureintro; exact trivial
    iexact H5
  isplitl [H6]
  · iexists (Y 6); isplitr; · ipureintro; exact trivial
    iexact H6
  iexists _; isplitr
  swap
  · unfold owns; iexists _; isplitr
    swap; · iexact H7
    ipureintro; rfl
  ipureintro; exact trivial
theorem sound_bodyF (c : Dev nD) (t : Fin cfg0.N) (Y : (w : Fin cfg0.W) → (cfg0.win w).block.Idx → Elt F (cfg0.win w).elt) :
    bodyPreF m c t Y ⊢ wp frame (wpE (defs₀ (F := F)) Variants.none c none) Set.univ (bodyAt0 t) (fun _ => bodyPostF m c t Y) := by
  have hN : t.val < 8 := lt_of_lt_of_eq t.isLt (show cfg0.N = 8 from N_0)
  by_cases h2 : t.val < 4
  · exact sound_bodyF_AB m c t Y ((hcond0_2 t).mpr h2) (fun h => by have := (hcond0_3 t).mp h; omega)
  · exact sound_bodyF_C m c t Y (fun h => by have := (hcond0_1 t).mp h; omega) (fun h => h2 ((hcond0_2 t).mp h)) ((hcond0_3 t).mpr (by omega))

theorem body_obligationF (c : Dev nD) : (rdatF m c).BodyObligation (defs₀ (F := F)) Variants.none () Set.univ := fun t Y _ => by
  rw [bigSep_W0, bigSep_W0]
  exact sound_bodyF m c t Y

set_option backward.isDefEq.respectTransparency.types false in

theorem run_mainF : θ_run defs (onTc (τ := τ) (main (F := F))) (s₀ m ρ) (Pipeline.RDat.FramePost cfg0 (rdatF m) (V m)) :=
  Pipeline.RDat.θ_run_frame cfgs (0 : Fin 1) launch0 defs₀ Variants.none (rdatF m) m ρ main
    (hbody := fun c => body_obligationF m c) (hshare := fun c w => shareF_eq m c w)
    (howed := fun _ _ => rfl) (V := V m) (hmain := hmain m Variants.none) (hA := fun _ _ => rfl) (hΦ := fun _ _ => rfl)

theorem frameF : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((congrFun (Pipeline.RDat.ArrAt_in (rdatF m c) 0 rfl cfg0.N) _).mp ((h c).1 0)).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_mainF m ρ)

end Cert.Kernel.Gen

end
-- ==== Proof.KDefs.lean ====
import proofs.«135277_g2000205747536381_pallasbulk_86_37_alg».proof.Proof.Gen.KernelIdeal.Frame
import proofs.«135277_g2000205747536381_pallasbulk_86_37_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

theorem hcond0_1 : ∀ t : Fin cfg0.N, cond0_1 (grid0.coords t) ↔ t.val = 0 :=
  (by decide +kernel : ∀ t : Fin grid0.N, cond0_1 (grid0.coords t) ↔ t.val = 0)

abbrev cond0_2 (i : grid0.Coords) : Prop := k0_cond2 i = 1#1

theorem hcond0_2 : ∀ t : Fin cfg0.N, cond0_2 (grid0.coords t) ↔ t.val < 4 :=
  (by decide +kernel : ∀ t : Fin grid0.N, cond0_2 (grid0.coords t) ↔ t.val < 4)

abbrev cond0_3 (i : grid0.Coords) : Prop := k0_cond3 i = 1#1

theorem hcond0_3 : ∀ t : Fin cfg0.N, cond0_3 (grid0.coords t) ↔ 4 ≤ t.val :=
  (by decide +kernel : ∀ t : Fin grid0.N, cond0_3 (grid0.coords t) ↔ 4 ≤ t.val)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

theorem idleAt0_7 : ∀ t : Fin cfg0.N, ¬cond0_3 (grid0.coords t) → cfg0.idle 7 (grid0.coords t) = true := by decide +kernel

theorem noFlush0_7 : ∀ t : Fin cfg0.N, ¬cond0_3 (grid0.coords t) → (cfg0.win 7).flush t = false := by decide +kernel

theorem liveAt0_7 : ∀ t : Fin cfg0.N, cond0_3 (grid0.coords t) → cfg0.idle 7 (grid0.coords t) = false := by decide +kernel

abbrev VO0_7 : View sig .tc .vmem S1x128x64x128 .f32 := (Memref.whole cc0_stg7_0 : Memref sig .tc .vmem S1x128x64x128 .f32).view
abbrev ms0_0 (t : Fin cfg0.N) : Memref sig .tc .vmem S1x128x64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x128x384 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x8192 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x64x128 .f32 := win0_7.stage (cfg0.slots t 7)
abbrev hs0_7 (t : Fin cfg0.N) : (ms0_7 t).IsWhole := hstage0_7 ((cfg0.slots t 7).cast nbuf0_7)

abbrev scM0_0 : Memref sig .tc .vmem S4x128x8192 .bf16 := Memref.whole cc0_scratch0
abbrev scM0_1 : Memref sig .tc .vmem S128x1 .f32 := Memref.whole cc0_scratch1
abbrev scM0_2 : Memref sig .tc .vmem S128x1 .f32 := Memref.whole cc0_scratch2
abbrev scM0_3 : Memref sig .tc .vmem S128x8448 .f32 := Memref.whole cc0_scratch3
abbrev scM0_4 : Memref sig .tc .vmem S128x8448 .f32 := Memref.whole cc0_scratch4
abbrev scM0_5 : Memref sig .tc .vmem S16x8192 .f32 := Memref.whole cc0_scratch5
abbrev scM0_6 : Memref sig .tc .vmem S16x8192 .f32 := Memref.whole cc0_scratch6
abbrev scM0_7 : Memref sig .tc .vmem S384x8448 .bf16 := Memref.whole cc0_scratch7

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.KernelIdeal.Gen

end
-- ==== Proof.LibScan.lean ====
import Mathlib.Order.Defs.LinearOrder
import Mathlib.Order.Lattice

namespace Cert.LibMath

variable {α : Type*} [LinearOrder α]

def scanBest (h : ℕ → α) : ℕ → α
  | 0 => h 0
  | n + 1 => if scanBest h n < h (n + 1) then h (n + 1) else scanBest h n

def scanIdx (h : ℕ → α) : ℕ → ℕ
  | 0 => 0
  | n + 1 => if scanBest h n < h (n + 1) then n + 1 else scanIdx h n

def maxUpTo (h : ℕ → α) : ℕ → α
  | 0 => h 0
  | n + 1 => max (maxUpTo h n) (h (n + 1))

end Cert.LibMath
-- ==== Proof.Spec.lean ====
import Idealize.ShloMosaic.PureOps.Ideal
import Idealize.ShloMosaic.Lib.ValueIdx
import proofs.«135277_g2000205747536381_pallasbulk_86_37_alg».proof.Proof.LibScan

noncomputable section

namespace Cert.Spec

open Idealize.ShloMosaic Idealize.ShloMosaic.ValueIdx Finset

-- Pixel `d` of the 2 × 2 block that holds pixel `p` of the 64 × 128 image.
def blk (p : Fin 8192) (d : Fin 4) : Fin 8192 :=
  ⟨128 * (2 * (p.val / 128 / 2) + d.val / 2) + (2 * (p.val % 128 / 2) + d.val % 2), by omega⟩

section Batch
variable (x : Fin 128 → Fin 8192 → EReal)

-- The image less the mean of its 2 × 2 block.
def hi (c : Fin 128) (p : Fin 8192) : EReal :=
  x c p - ((1 / 4 : ℝ) : EReal) * (x c (blk p 0) + x c (blk p 1) + x c (blk p 2) + x c (blk p 3))

-- The channels of `hi` at one pixel as a sequence, `⊥` beyond the last.
def hiSeq (p : Fin 8192) (n : ℕ) : EReal := if h : n < 128 then hi x ⟨n, h⟩ p else ⊥

-- Indicator that channel `k` is the first to attain the maximum of `hi` at pixel `p`.
def oh (k : Fin 16) (p : Fin 8192) : EReal := if LibMath.scanIdx (hiSeq x p) 127 = k.val then 1 else 0

-- Per class `k`: the sum of the image over its pixels, their number, and the mean (1 in place of an empty count).
def sums (k : Fin 16) (c : Fin 128) : EReal := ∑ p, oh x k p * x c p
def counts (k : Fin 16) : EReal := ∑ p, oh x k p
def means (k : Fin 16) (c : Fin 128) : EReal :=
  Ideal.div (sums x k c) (counts x k + (if counts x k = 0 then 1 else 0))

variable (M : Fin 128 → Fin 128 → EReal)

-- The class means paired through `M`: `g k l = μ_kᵀ M μ_l`, and `quad k l = (μ_k - μ_l)ᵀ M (μ_k - μ_l)` when `M` is symmetric.
def q (k : Fin 16) (c : Fin 128) : EReal := ∑ j, means x k j * M j c
def g (k l : Fin 16) : EReal := ∑ c, q x M k c * means x l c
def eye (k l : Fin 16) : EReal := if k = l then 1 else 0
def dcol (k : Fin 16) : EReal := ∑ l, g x M k l * eye k l
def drow (l : Fin 16) : EReal := ∑ k, g x M k l * eye k l
def quad (k l : Fin 16) : EReal := dcol x M k + drow x M l - 2 * g x M k l
-- Off-diagonal weights `exp (-quad)`, the means mixed by them, and the image with its pixel's mixed mean added.
def adj (k l : Fin 16) : EReal := Ideal.exp (0 - quad x M k l) * (1 - eye k l)
def adjm (k : Fin 16) (c : Fin 128) : EReal := ∑ l, adj x M k l * means x l c
def feat (c : Fin 128) (p : Fin 8192) : EReal := x c p + ∑ k, adjm x M k c * oh x k p

end Batch

-- The feature at the neighbour `(di - 1, dj - 1)` of pixel `p`, zero outside the image.
def tap (ft : Fin 128 → Fin 8192 → EReal) (c : Fin 128) (p : Fin 8192) (di dj : Fin 3) : EReal :=
  if h : (1 ≤ p.val / 128 + di.val ∧ p.val / 128 + di.val ≤ 64) ∧ (1 ≤ p.val % 128 + dj.val ∧ p.val % 128 + dj.val ≤ 128)
  then ft c ⟨128 * (p.val / 128 + di.val - 1) + (p.val % 128 + dj.val - 1), by omega⟩ else 0

-- The 3 × 3 convolution with zero padding.
def conv (cw : Fin 128 → Fin 128 → Fin 3 → Fin 3 → EReal) (ft : Fin 128 → Fin 8192 → EReal) (f : Fin 128) (p : Fin 8192) : EReal :=
  ∑ di : Fin 3, ∑ dj : Fin 3, ∑ c : Fin 128, cw f c di dj * tap ft c p di dj

section BN
variable (y : Fin 4 → Fin 128 → Fin 8192 → EReal) (γ β : Fin 128 → EReal)

def cN : EReal := ((1 / 32768 : ℝ) : EReal)

def eps : EReal := Ideal.ofBits .f32 0x3727C5AC#32

-- Batch normalisation over batch and pixels: mean, variance as the mean squared deviation, and the affine map.
def mean (f : Fin 128) : EReal := (∑ b, ∑ p, y b f p) * cN
def var (f : Fin 128) : EReal := (∑ b, ∑ p, (y b f p - mean y f) * (y b f p - mean y f)) * cN
def scale (f : Fin 128) : EReal := Ideal.rsqrt (var y f + eps) * γ f
def shift (f : Fin 128) : EReal := β f - mean y f * scale y γ f
def bn (b : Fin 4) (f : Fin 128) (p : Fin 8192) : EReal := y b f p * scale y γ f + shift y γ β f

end BN

section Whole
variable (X : Fin 4 → Fin 128 → Fin 8192 → EReal) (Wg : Fin 128 → Fin 128 → EReal)
  (cw : Fin 128 → Fin 128 → Fin 3 → Fin 3 → EReal) (γ β : Fin 128 → EReal)

-- `Wg Wgᵀ`, the symmetric form the class means are paired through.
def gram (i j : Fin 128) : EReal := ∑ k, Wg i k * Wg j k

def ybatch (b : Fin 4) (f : Fin 128) (p : Fin 8192) : EReal := conv cw (feat (X b) (gram Wg)) f p

def out (b : Fin 4) (f : Fin 128) (p : Fin 8192) : EReal := bn (ybatch X Wg cw) γ β b f p

end Whole

abbrev S4x128x64x128 : Shape := ⟨4, ![4, 128, 64, 128]⟩
abbrev S128x128 : Shape := ⟨2, ![128, 128]⟩
abbrev S128x128x3x3 : Shape := ⟨4, ![128, 128, 3, 3]⟩
abbrev S128 : Shape := ⟨1, ![128]⟩

-- The argument arrays as functions of their coordinates, pixels flattened row-major.
def argX (a : FVec Ideal S4x128x64x128 .f32) (b : Fin 4) (c : Fin 128) (p : Fin 8192) : EReal :=
  a (ix4 b c (⟨p.val / 128, by omega⟩ : Fin 64) (⟨p.val % 128, by omega⟩ : Fin 128))
def argW (a : FVec Ideal S128x128 .f32) (i j : Fin 128) : EReal := a (ix2 i j)
def argCw (a : FVec Ideal S128x128x3x3 .f32) (f c : Fin 128) (di dj : Fin 3) : EReal := a (ix4 f c di dj)
def argV (a : FVec Ideal S128 .f32) (f : Fin 128) : EReal := a (ix1 f)

-- The common result: the batch-normalised convolution of the features, laid out as the input.
def result (a0 : FVec Ideal S4x128x64x128 .f32) (a1 : FVec Ideal S128x128 .f32) (a2 : FVec Ideal S128x128x3x3 .f32)
    (a3 a4 : FVec Ideal S128 .f32) : FVec Ideal S4x128x64x128 .f32 :=
  fun j => out (argX a0) (argW a1) (argCw a2) (argV a3) (argV a4) (j 0) (j 1)
    (⟨128 * (j 2).val + (j 3).val, by have := (j 2).isLt; have := (j 3).isLt; simp only [Matrix.cons_val] at *; omega⟩ : Fin 8192)

end Cert.Spec

end
-- ==== Proof.LibMath.lean ====
import Mathlib.Data.EReal.Basic
import Mathlib.Data.EReal.Operations
import Mathlib.Algebra.BigOperators.Group.Finset.Basic
import Mathlib.Algebra.BigOperators.Ring.Finset
import Mathlib.Tactic.Ring
import Mathlib.Tactic.FieldSimp
import Mathlib.Tactic.Linarith
import proofs.«135277_g2000205747536381_pallasbulk_86_37_alg».proof.Proof.LibScan

noncomputable section

namespace Cert.LibMath

open Finset

theorem coe_sum {ι : Type*} (s : Finset ι) (f : ι → ℝ) : ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

theorem sum_isReal {ι : Type*} (s : Finset ι) (f : ι → EReal) (h : ∀ i ∈ s, ∃ r : ℝ, f i = (r : EReal)) :
    ∃ r : ℝ, ∑ i ∈ s, f i = (r : EReal) := by
  refine ⟨∑ i ∈ s, (f i).toReal, ?_⟩
  rw [coe_sum]
  refine Finset.sum_congr rfl fun i hi => ?_
  obtain ⟨r, hr⟩ := h i hi
  rw [hr, EReal.toReal_coe]

theorem var_two_forms_real {ι : Type*} [Fintype ι] (y : ι → ℝ) (c : ℝ) (hc : c * (Fintype.card ι : ℝ) = 1) :
    (∑ i, y i * y i) * c - ((∑ i, y i) * c) * ((∑ i, y i) * c)
      = (∑ i, (y i - (∑ j, y j) * c) * (y i - (∑ j, y j) * c)) * c := by
  have h2 := congrArg (· * (((∑ i, y i) * c) * ((∑ i, y i) * c))) hc
  simp only [sub_mul, mul_sub, Finset.sum_sub_distrib, ← Finset.mul_sum, ← Finset.sum_mul, Finset.sum_const,
    Finset.card_univ, nsmul_eq_mul] at h2 ⊢
  linarith

theorem var_two_forms {ι : Type*} [Fintype ι] (y : ι → EReal) (hy : ∀ i, ∃ r : ℝ, y i = (r : EReal))
    (c : ℝ) (hc : c * (Fintype.card ι : ℝ) = 1) :
    (∑ i, y i * y i) * (c : EReal) - ((∑ i, y i) * (c : EReal)) * ((∑ i, y i) * (c : EReal))
      = (∑ i, (y i - (∑ j, y j) * (c : EReal)) * (y i - (∑ j, y j) * (c : EReal))) * (c : EReal) := by
  choose r hr using hy
  have hy' : y = fun i => (r i : EReal) := funext hr
  subst hy'
  simp only [← EReal.coe_mul, ← coe_sum, ← EReal.coe_sub]
  exact congrArg (fun x : ℝ => (x : EReal)) (var_two_forms_real r c hc)

variable {α : Type*} [LinearOrder α]

theorem scanBest_succ (h : ℕ → α) (n : ℕ) :
    scanBest h (n + 1) = if scanBest h n < h (n + 1) then h (n + 1) else scanBest h n := rfl

theorem scanIdx_succ (h : ℕ → α) (n : ℕ) :
    scanIdx h (n + 1) = if scanBest h n < h (n + 1) then n + 1 else scanIdx h n := rfl

theorem maxUpTo_succ (h : ℕ → α) (n : ℕ) : maxUpTo h (n + 1) = max (maxUpTo h n) (h (n + 1)) := rfl

theorem le_maxUpTo (h : ℕ → α) (n j : ℕ) (hj : j ≤ n) : h j ≤ maxUpTo h n := by
  induction n with
  | zero =>
    have : j = 0 := Nat.le_zero.mp hj
    subst this
    exact le_refl _
  | succ n ih =>
    rw [maxUpTo_succ]
    rcases Nat.le_succ_iff.mp hj with h1 | h1
    · exact le_trans (ih h1) (le_max_left _ _)
    · rw [h1]; exact le_max_right _ _

theorem maxUpTo_mem (h : ℕ → α) (n : ℕ) : ∃ j ≤ n, maxUpTo h n = h j := by
  induction n with
  | zero => exact ⟨0, le_refl _, rfl⟩
  | succ n ih =>
    obtain ⟨j, hj, hm⟩ := ih
    rw [maxUpTo_succ]
    rcases le_total (maxUpTo h n) (h (n + 1)) with h1 | h1
    · exact ⟨n + 1, le_refl _, max_eq_right h1⟩
    · exact ⟨j, Nat.le_succ_of_le hj, by rw [max_eq_left h1, hm]⟩

theorem scanIdx_le (h : ℕ → α) (n : ℕ) : scanIdx h n ≤ n := by
  induction n with
  | zero => exact le_refl _
  | succ n ih =>
    rw [scanIdx_succ]
    split_ifs with hlt
    · exact le_refl _
    · exact Nat.le_succ_of_le ih

-- The running best is the maximum so far; it is attained at the running index and nowhere before it.
theorem scan_inv (h : ℕ → α) (n : ℕ) :
    scanBest h n = maxUpTo h n ∧ h (scanIdx h n) = maxUpTo h n ∧ ∀ j, j < scanIdx h n → h j < maxUpTo h n := by
  induction n with
  | zero => exact ⟨rfl, rfl, fun j hj => absurd hj (Nat.not_lt_zero j)⟩
  | succ n ih =>
    obtain ⟨hb, hs, hf⟩ := ih
    rw [scanBest_succ, scanIdx_succ, maxUpTo_succ, hb]
    split_ifs with hlt
    · rw [max_eq_right hlt.le]
      exact ⟨rfl, rfl, fun j hj => lt_of_le_of_lt (le_maxUpTo h n j (Nat.lt_succ_iff.mp hj)) hlt⟩
    · rw [max_eq_left (not_lt.mp hlt)]
      exact ⟨rfl, hs, hf⟩

theorem scanIdx_eq_iff (h : ℕ → α) (n k : ℕ) :
    scanIdx h n = k ↔ (h k = maxUpTo h n ∧ ∀ j, j < k → h j < h k) := by
  obtain ⟨-, hs, hf⟩ := scan_inv h n
  constructor
  · rintro rfl
    exact ⟨hs, fun j hj => (hf j hj).trans_eq hs.symm⟩
  · rintro ⟨hmax, hfirst⟩
    rcases lt_trichotomy (scanIdx h n) k with h1 | h1 | h1
    · exact absurd (hs.trans hmax.symm) (hfirst _ h1).ne
    · exact h1
    · exact absurd hmax (hf k h1).ne

def prefMax [OrderBot α] (h : ℕ → α) : ℕ → α
  | 0 => ⊥
  | k + 1 => max (prefMax h k) (h k)

theorem prefMax_succ [OrderBot α] (h : ℕ → α) (k : ℕ) : prefMax h (k + 1) = max (prefMax h k) (h k) := rfl

theorem prefMax_lt_iff [OrderBot α] (h : ℕ → α) (k : ℕ) (x : α) :
    prefMax h k < x ↔ (⊥ < x ∧ ∀ j, j < k → h j < x) := by
  induction k with
  | zero => exact ⟨fun hb => ⟨hb, fun j hj => absurd hj (Nat.not_lt_zero j)⟩, fun hb => hb.1⟩
  | succ k ih =>
    rw [prefMax_succ, max_lt_iff, ih]
    constructor
    · rintro ⟨⟨hb, hj⟩, hk⟩
      refine ⟨hb, fun j hjk => ?_⟩
      rcases Nat.lt_succ_iff_lt_or_eq.mp hjk with h1 | h1
      · exact hj j h1
      · rw [h1]; exact hk
    · rintro ⟨hb, hj⟩
      exact ⟨⟨hb, fun j hjk => hj j (Nat.lt_succ_of_lt hjk)⟩, hj k (Nat.lt_succ_self k)⟩

theorem first_max_forms [OrderBot α] (h : ℕ → α) (n k : ℕ) (hk : k ≤ n) (hbot : ∀ j ≤ n, ⊥ < h j) :
    scanIdx h n = k ↔ (h k = maxUpTo h n ∧ prefMax h k < h k) := by
  rw [scanIdx_eq_iff h n k, prefMax_lt_iff]
  exact ⟨fun ⟨h1, h2⟩ => ⟨h1, hbot k hk, h2⟩, fun ⟨h1, _, h2⟩ => ⟨h1, h2⟩⟩

end Cert.LibMath

end
-- ==== Proof.SpecLemmas.lean ====
import Mathlib.Data.EReal.Basic
import Mathlib.Data.EReal.Operations
import Mathlib.Algebra.BigOperators.Group.Finset.Basic
import Mathlib.Data.Fintype.BigOperators
import Mathlib.Data.Fintype.Prod
import Mathlib.Tactic.NormNum
import Idealize.ShloMosaic.PureOps.Ideal
import proofs.«135277_g2000205747536381_pallasbulk_86_37_alg».proof.Proof.Spec
import proofs.«135277_g2000205747536381_pallasbulk_86_37_alg».proof.Proof.LibMath

noncomputable section

namespace Cert.Spec

open Idealize.ShloMosaic Finset

def IsReal (a : EReal) : Prop := ∃ r : ℝ, a = (r : EReal)

namespace IsReal

theorem coe (r : ℝ) : IsReal (r : EReal) := ⟨r, rfl⟩
theorem zero : IsReal 0 := ⟨0, rfl⟩
theorem one : IsReal 1 := ⟨1, rfl⟩
theorem two : IsReal 2 := ⟨2, rfl⟩

theorem add {a b : EReal} (ha : IsReal a) (hb : IsReal b) : IsReal (a + b) := by
  obtain ⟨r, rfl⟩ := ha
  obtain ⟨s, rfl⟩ := hb
  exact ⟨r + s, (EReal.coe_add r s).symm⟩

theorem sub {a b : EReal} (ha : IsReal a) (hb : IsReal b) : IsReal (a - b) := by
  obtain ⟨r, rfl⟩ := ha
  obtain ⟨s, rfl⟩ := hb
  exact ⟨r - s, (EReal.coe_sub r s).symm⟩

theorem mul {a b : EReal} (ha : IsReal a) (hb : IsReal b) : IsReal (a * b) := by
  obtain ⟨r, rfl⟩ := ha
  obtain ⟨s, rfl⟩ := hb
  exact ⟨r * s, (EReal.coe_mul r s).symm⟩

theorem sum {ι : Type*} (s : Finset ι) (f : ι → EReal) (h : ∀ i ∈ s, IsReal (f i)) : IsReal (∑ i ∈ s, f i) :=
  LibMath.sum_isReal s f h

theorem sumU {ι : Type*} [Fintype ι] (f : ι → EReal) (h : ∀ i, IsReal (f i)) : IsReal (∑ i, f i) :=
  sum Finset.univ f (fun i _ => h i)

theorem ite {c : Prop} [Decidable c] {a b : EReal} (ha : IsReal a) (hb : IsReal b) : IsReal (if c then a else b) := by
  split_ifs
  · exact ha
  · exact hb

theorem dite {c : Prop} [Decidable c] {a : c → EReal} {b : ¬c → EReal} (ha : ∀ h, IsReal (a h)) (hb : ∀ h, IsReal (b h)) :
    IsReal (dite c a b) := by
  split_ifs with h
  · exact ha h
  · exact hb h

theorem exp {a : EReal} (ha : IsReal a) : IsReal (Ideal.exp a) := by
  obtain ⟨r, rfl⟩ := ha
  exact ⟨Real.exp r, rfl⟩

theorem div {a b : EReal} (ha : IsReal a) (hb : IsReal b) (hne : b ≠ 0) : IsReal (Ideal.div a b) := by
  obtain ⟨r, rfl⟩ := ha
  obtain ⟨s, rfl⟩ := hb
  have hs : s ≠ 0 := by
    intro h
    apply hne
    rw [h]
    rfl
  rw [Ideal.div_coe hs, ← EReal.coe_mul]
  exact ⟨_, rfl⟩

theorem bot_lt {a : EReal} (ha : IsReal a) : ⊥ < a := by
  obtain ⟨r, rfl⟩ := ha
  exact EReal.bot_lt_coe r

end IsReal

section Batch
variable (x : Fin 128 → Fin 8192 → EReal)

theorem oh_real (k : Fin 16) (p : Fin 8192) : IsReal (oh x k p) := by
  unfold oh
  exact IsReal.ite IsReal.one IsReal.zero

theorem counts_real (k : Fin 16) : IsReal (counts x k) := by
  unfold counts
  exact IsReal.sumU _ (fun p => oh_real x k p)

theorem divisor_ne_zero (k : Fin 16) : counts x k + (if counts x k = 0 then 1 else 0) ≠ 0 := by
  by_cases h : counts x k = 0
  · rw [if_pos h, h, zero_add]
    exact one_ne_zero
  · rw [if_neg h, add_zero]
    exact h

variable (hx : ∀ c p, IsReal (x c p))
include hx

theorem hi_real (c : Fin 128) (p : Fin 8192) : IsReal (hi x c p) := by
  unfold hi
  exact IsReal.sub (hx c p)
    (IsReal.mul (IsReal.coe _) (IsReal.add (IsReal.add (IsReal.add (hx c _) (hx c _)) (hx c _)) (hx c _)))

end Batch

-- Each operation of the batch's formula maps reals to reals, so realness is proved layer by layer by these rules.
theorem ybatch_real (X : Fin 4 → Fin 128 → Fin 8192 → EReal) (hX : ∀ b c p, IsReal (X b c p))
    (Wg : Fin 128 → Fin 128 → EReal) (hWg : ∀ i j, IsReal (Wg i j))
    (cw : Fin 128 → Fin 128 → Fin 3 → Fin 3 → EReal) (hcw : ∀ f c di dj, IsReal (cw f c di dj))
    (b : Fin 4) (f : Fin 128) (p : Fin 8192) : IsReal (ybatch X Wg cw b f p) := by
  unfold ybatch conv tap feat adjm adj quad dcol drow eye g q means sums gram
  with_reducible repeat' first
    | exact hX _ _ _ | exact hWg _ _ | exact hcw _ _ _ _ | exact oh_real _ _ _ | exact counts_real _ _
    | exact divisor_ne_zero _ _ | exact IsReal.zero | exact IsReal.one | exact IsReal.two
    | apply IsReal.sumU | apply IsReal.add | apply IsReal.sub | apply IsReal.mul | apply IsReal.ite | apply IsReal.dite
    | apply IsReal.exp | apply IsReal.div | intro _

theorem var_alt (y : Fin 4 → Fin 128 → Fin 8192 → EReal) (hy : ∀ b f p, IsReal (y b f p)) (f : Fin 128) :
    (∑ b, ∑ p, y b f p * y b f p) * cN - mean y f * mean y f = var y f := by
  have hc : (1 / 32768 : ℝ) * (Fintype.card (Fin 4 × Fin 8192) : ℝ) = 1 := by
    rw [Fintype.card_prod, Fintype.card_fin, Fintype.card_fin]
    norm_num
  have h := LibMath.var_two_forms (ι := Fin 4 × Fin 8192) (fun bp => y bp.1 f bp.2) (fun bp => hy bp.1 f bp.2)
    (1 / 32768) hc
  simp only [Fintype.sum_prod_type] at h
  exact h

theorem hiSeq_lt (x : Fin 128 → Fin 8192 → EReal) (p : Fin 8192) (n : ℕ) (h : n < 128) :
    hiSeq x p n = hi x ⟨n, h⟩ p := by
  unfold hiSeq
  rw [dif_pos h]

theorem oh_alt (x : Fin 128 → Fin 8192 → EReal) (hfin : ∀ c p, IsReal (x c p)) (k : Fin 16) (p : Fin 8192) :
    oh x k p = if (hi x ⟨k.val, by omega⟩ p = LibMath.maxUpTo (hiSeq x p) 127
        ∧ LibMath.prefMax (hiSeq x p) k.val < hi x ⟨k.val, by omega⟩ p) then 1 else 0 := by
  have hbot : ∀ j ≤ 127, ⊥ < hiSeq x p j := by
    intro j hj
    rw [hiSeq_lt x p j (by omega)]
    exact (hi_real x hfin _ p).bot_lt
  have hk : hiSeq x p k.val = hi x ⟨k.val, by omega⟩ p := hiSeq_lt x p k.val (by omega)
  have hiff := LibMath.first_max_forms (hiSeq x p) 127 k.val (by omega) hbot
  rw [hk] at hiff
  unfold oh
  exact if_congr hiff rfl rfl

def hpart (p : Fin 8192) : Fin 8192 :=
  if h : p.val % 2 = 0 then ⟨p.val + 1, by omega⟩ else ⟨p.val - 1, by omega⟩

def vpart (p : Fin 8192) : Fin 8192 :=
  if h : p.val / 128 % 2 = 0 then ⟨p.val + 128, by omega⟩ else ⟨p.val - 128, by omega⟩

theorem hpart_even (p : Fin 8192) (h : p.val % 2 = 0) : (hpart p).val = p.val + 1 := by
  unfold hpart
  rw [dif_pos h]

theorem hpart_odd (p : Fin 8192) (h : ¬ p.val % 2 = 0) : (hpart p).val = p.val - 1 := by
  unfold hpart
  rw [dif_neg h]

theorem vpart_even (p : Fin 8192) (h : p.val / 128 % 2 = 0) : (vpart p).val = p.val + 128 := by
  unfold vpart
  rw [dif_pos h]

theorem vpart_odd (p : Fin 8192) (h : ¬ p.val / 128 % 2 = 0) : (vpart p).val = p.val - 128 := by
  unfold vpart
  rw [dif_neg h]

theorem blk_val (p : Fin 8192) (d : Fin 4) :
    (blk p d).val = 128 * (2 * (p.val / 128 / 2) + d.val / 2) + (2 * (p.val % 128 / 2) + d.val % 2) := rfl

theorem hi_pairs (x : Fin 128 → Fin 8192 → EReal) (c : Fin 128) (p : Fin 8192) :
    hi x c p = x c p - ((1 / 4 : ℝ) : EReal)
      * ((x c p + x c (hpart p)) + (x c (vpart p) + x c (hpart (vpart p)))) := by
  have b0 := blk_val p 0
  have b1 := blk_val p 1
  have b2 := blk_val p 2
  have b3 := blk_val p 3
  have h0 : ((0 : Fin 4) : ℕ) = 0 := rfl
  have h1 : ((1 : Fin 4) : ℕ) = 1 := rfl
  have h2 : ((2 : Fin 4) : ℕ) = 2 := rfl
  have h3 : ((3 : Fin 4) : ℕ) = 3 := rfl
  rw [h0] at b0
  rw [h1] at b1
  rw [h2] at b2
  rw [h3] at b3
  unfold hi
  by_cases hc : p.val % 2 = 0 <;> by_cases hr : p.val / 128 % 2 = 0
  ·
    have hh := hpart_even p hc
    have hv := vpart_even p hr
    have hd := hpart_even (vpart p) (by omega)
    have e0 : blk p 0 = p := Fin.ext (by omega)
    have e1 : blk p 1 = hpart p := Fin.ext (by omega)
    have e2 : blk p 2 = vpart p := Fin.ext (by omega)
    have e3 : blk p 3 = hpart (vpart p) := Fin.ext (by omega)
    rw [e0, e1, e2, e3]
    refine congrArg (fun s => x c p - ((1 / 4 : ℝ) : EReal) * s) ?_
    ac_rfl
  ·
    have hh := hpart_even p hc
    have hv := vpart_odd p hr
    have hd := hpart_even (vpart p) (by omega)
    have e0 : blk p 0 = vpart p := Fin.ext (by omega)
    have e1 : blk p 1 = hpart (vpart p) := Fin.ext (by omega)
    have e2 : blk p 2 = p := Fin.ext (by omega)
    have e3 : blk p 3 = hpart p := Fin.ext (by omega)
    rw [e0, e1, e2, e3]
    refine congrArg (fun s => x c p - ((1 / 4 : ℝ) : EReal) * s) ?_
    ac_rfl
  ·
    have hh := hpart_odd p hc
    have hv := vpart_even p hr
    have hd := hpart_odd (vpart p) (by omega)
    have e0 : blk p 0 = hpart p := Fin.ext (by omega)
    have e1 : blk p 1 = p := Fin.ext (by omega)
    have e2 : blk p 2 = hpart (vpart p) := Fin.ext (by omega)
    have e3 : blk p 3 = vpart p := Fin.ext (by omega)
    rw [e0, e1, e2, e3]
    refine congrArg (fun s => x c p - ((1 / 4 : ℝ) : EReal) * s) ?_
    ac_rfl
  ·
    have hh := hpart_odd p hc
    have hv := vpart_odd p hr
    have hd := hpart_odd (vpart p) (by omega)
    have e0 : blk p 0 = hpart (vpart p) := Fin.ext (by omega)
    have e1 : blk p 1 = vpart p := Fin.ext (by omega)
    have e2 : blk p 2 = hpart p := Fin.ext (by omega)
    have e3 : blk p 3 = p := Fin.ext (by omega)
    rw [e0, e1, e2, e3]
    refine congrArg (fun s => x c p - ((1 / 4 : ℝ) : EReal) * s) ?_
    ac_rfl

end Cert.Spec

end
-- ==== Proof.KInv.lean ====
import proofs.«135277_g2000205747536381_pallasbulk_86_37_alg».proof.Proof.KDefs
import proofs.«135277_g2000205747536381_pallasbulk_86_37_alg».proof.Proof.Spec
import proofs.«135277_g2000205747536381_pallasbulk_86_37_alg».proof.Proof.SpecLemmas

set_option maxRecDepth 16384

noncomputable section

namespace Cert.KernelIdeal.Gen

open Idealize.ShloMosaic Idealize.ShloMosaic.TcCoe Idealize.ShloMosaic.Tactic Idealize.ShloMosaic.ValueIdx

variable (m : (ℓ : Loc nD τ sig) → Buf (Elt Ideal) ℓ)

abbrev sA0 (c : Dev nD) : FVec Ideal S4x128x64x128 .f32 := m ((c : Thread nD τ).loc main_arg0)
abbrev sA1 (c : Dev nD) : FVec Ideal S128x128 .f32 := m ((c : Thread nD τ).loc main_arg1)
abbrev sA2 (c : Dev nD) : FVec Ideal S128x128x3x3 .f32 := m ((c : Thread nD τ).loc main_arg2)
abbrev sA3 (c : Dev nD) : FVec Ideal S128 .f32 := m ((c : Thread nD τ).loc main_arg3)
abbrev sA4 (c : Dev nD) : FVec Ideal S128 .f32 := m ((c : Thread nD τ).loc main_arg4)

def sY (c : Dev nD) (b : Fin 4) (f : Fin 128) (p : Fin 8192) : EReal :=
  Cert.Spec.ybatch (Cert.Spec.argX (sA0 m c)) (Cert.Spec.argW (sA1 m c)) (Cert.Spec.argCw (sA2 m c)) b f p

def FinArgs (c : Dev nD) : Prop :=
  (∀ j, Cert.Spec.IsReal (sA0 m c j)) ∧ (∀ j, Cert.Spec.IsReal (sA1 m c j)) ∧ (∀ j, Cert.Spec.IsReal (sA2 m c j))
    ∧ (∀ j, Cert.Spec.IsReal (sA3 m c j)) ∧ (∀ j, Cert.Spec.IsReal (sA4 m c j))

def outBlk (c : Dev nD) (t : Fin cfg0.N) : Vec Ideal S1x128x64x128 .f32 :=
  fun j => Cert.Spec.out (Cert.Spec.argX (sA0 m c)) (Cert.Spec.argW (sA1 m c)) (Cert.Spec.argCw (sA2 m c))
    (Cert.Spec.argV (sA3 m c)) (Cert.Spec.argV (sA4 m c)) (⟨t.val % 4, Nat.mod_lt _ (by decide)⟩ : Fin 4)
    (⟨(j 1).val, by have := (j 1).isLt; simp only [Matrix.cons_val] at this; omega⟩ : Fin 128)
    (⟨128 * (j 2).val + (j 3).val, by have h2 := (j 2).isLt; have h3 := (j 3).isLt; simp only [Matrix.cons_val] at h2 h3; omega⟩ : Fin 8192)

structure Inv (c : Dev nD) (n : ℕ) (s10 : Vec Ideal S4x128x8192 .bf16) (s11 : Vec Ideal S128x1 .f32) (s12 : Vec Ideal S128x1 .f32) (s13 : Vec Ideal S128x8448 .f32) (s14 : Vec Ideal S128x8448 .f32) (s17 : Vec Ideal S384x8448 .bf16) : Prop where
  y : ∀ (b : Fin 4) (f : Fin 128) (p : Fin 8192), b.val ≤ n → s10 (ix3 b f p) = sY m c b f p
  ps : ∀ f : Fin 128, s11 (ix2 f (0 : Fin 1)) = ∑ b : Fin 4, if b.val ≤ n then ∑ p : Fin 8192, sY m c b f p else 0
  psq : ∀ f : Fin 128, s12 (ix2 f (0 : Fin 1)) = ∑ b : Fin 4, if b.val ≤ n then ∑ p : Fin 8192, sY m c b f p * sY m c b f p else 0
  xpad : ∀ (r : Fin 128) (col : Fin 8448), (col.val < 128 ∨ 8320 ≤ col.val) → s13 (ix2 r col) = 0
  hpad : ∀ (r : Fin 128) (col : Fin 8448), (col.val < 128 ∨ 8320 ≤ col.val) → s14 (ix2 r col) = 0
  fb : ∀ (r : Fin 384) (col : Fin 8448), (col.val < 128 ∨ 8320 ≤ col.val) → s17 (ix2 r col) = 0

end Cert.KernelIdeal.Gen

end
-- ==== Proof.KRunA.lean ====
import proofs.«135277_g2000205747536381_pallasbulk_86_37_alg».proof.Proof.Gen.KernelIdeal.Frame
import proofs.«135277_g2000205747536381_pallasbulk_86_37_alg».proof.Proof.Gen.KernelIdeal.Skeleton
import proofs.«135277_g2000205747536381_pallasbulk_86_37_alg».proof.Proof.KDefs
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1x128x64x128 .f32) (harg2 : arg2.IsWhole) (arg3 : Memref sig .tc .vmem S128x128 .f32) (harg3 : arg3.IsWhole) (arg4 : Memref sig .tc .vmem S3x128x384 .bf16) (harg4 : arg4.IsWhole) (arg5 : Memref sig .tc .vmem S2x8192 .f32) (harg5 : arg5.IsWhole) (arg6 : Memref sig .tc .vmem S2x8192 .bf16) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x64x128 .f32) (harg9 : arg9.IsWhole) (arg10 : Memref sig .tc .vmem S4x128x8192 .bf16) (harg10 : arg10.IsWhole) (arg11 : Memref sig .tc .vmem S128x1 .f32) (harg11 : arg11.IsWhole) (arg12 : Memref sig .tc .vmem S128x1 .f32) (harg12 : arg12.IsWhole) (arg13 : Memref sig .tc .vmem S128x8448 .f32) (harg13 : arg13.IsWhole) (arg14 : Memref sig .tc .vmem S128x8448 .f32) (harg14 : arg14.IsWhole) (arg15 : Memref sig .tc .vmem S16x8192 .f32) (harg15 : arg15.IsWhole) (arg16 : Memref sig .tc .vmem S16x8192 .f32) (harg16 : arg16.IsWhole) (arg17 : Memref sig .tc .vmem S384x8448 .bf16) (harg17 : arg17.IsWhole)
    (hc1 : cond0_1 i) (hc2 : cond0_2 i) (hc3 : ¬cond0_3 i)
    (x2 : Vec F S1x128x64x128 .f32) (x3 : Vec F S128x128 .f32) (x4 : Vec F S3x128x384 .bf16) (x5 : Vec F S2x8192 .f32) (x6 : Vec F S2x8192 .bf16) (d10 : Vec F S4x128x8192 .bf16) (d11 : Vec F S128x1 .f32) (d12 : Vec F S128x1 .f32) (d13 : Vec F S128x8448 .f32) (d14 : Vec F S128x8448 .f32) (d15 : Vec F S16x8192 .f32) (d16 : Vec F S16x8192 .f32) (d17 : Vec F S384x8448 .bf16)

set_option maxHeartbeats 4000000 in

include hc1 hc2 hc3 in
noncomputable def kernelRun0_A :
    { W : List (View.Piece (Elt F) S4x128x8192 .bf16) × List (View.Piece (Elt F) S128x1 .f32) × List (View.Piece (Elt F) S128x1 .f32) × List (View.Piece (Elt F) S128x8448 .f32) × List (View.Piece (Elt F) S128x8448 .f32) × List (View.Piece (Elt F) S16x8192 .f32) × List (View.Piece (Elt F) S16x8192 .f32) × List (View.Piece (Elt F) S384x8448 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (arg10.view.loc (c : Thread nD τ) ↦[arg10.view.set]{fullShare} arg10.view.writes (Elt F) (harg10.unread d10) W.1) ∗ (arg11.view.loc (c : Thread nD τ) ↦[arg11.view.set]{fullShare} arg11.view.writes (Elt F) (harg11.unread d11) W.2.1) ∗ (arg12.view.loc (c : Thread nD τ) ↦[arg12.view.set]{fullShare} arg12.view.writes (Elt F) (harg12.unread d12) W.2.2.1) ∗ (arg13.view.loc (c : Thread nD τ) ↦[arg13.view.set]{fullShare} arg13.view.writes (Elt F) (harg13.unread d13) W.2.2.2.1) ∗ (arg14.view.loc (c : Thread nD τ) ↦[arg14.view.set]{fullShare} arg14.view.writes (Elt F) (harg14.unread d14) W.2.2.2.2.1) ∗ (arg15.view.loc (c : Thread nD τ) ↦[arg15.view.set]{fullShare} arg15.view.writes (Elt F) (harg15.unread d15) W.2.2.2.2.2.1) ∗ (arg16.view.loc (c : Thread nD τ) ↦[arg16.view.set]{fullShare} arg16.view.writes (Elt F) (harg16.unread d16) W.2.2.2.2.2.2.1) ∗ (arg17.view.loc (c : Thread nD τ) ↦[arg17.view.set]{fullShare} arg17.view.writes (Elt F) (harg17.unread d17) W.2.2.2.2.2.2.2)) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_, ?_, ?_, ?_, ?_, ?_, ?_⟩, fun E K => ?run⟩
  case run =>
    simp only [cc0__mega_kernel_eq_skeleton]; unfold cc0__mega_kernel_skel
    unfold owns
    iintro ⟨⟨%f2, %hf2, H2⟩, ⟨%f3, %hf3, H3⟩, ⟨%f4, %hf4, H4⟩, ⟨%f5, %hf5, H5⟩, ⟨%f6, %hf6, H6⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec_parts (disch := first | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

theorem cover0_A_11 (y : S128x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.1 S128x1.size (by sl_kernel_rfl) y

theorem cover0_A_12 (y : S128x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.1 S128x1.size (by sl_kernel_rfl) y

theorem cover0_A_13 (y : S128x8448.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.1 S128x128.size (by sl_kernel_rfl) y

theorem cover0_A_14 (y : S128x8448.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.1 S128x128.size (by sl_kernel_rfl) y

theorem cover0_A_15 (y : S16x8192.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.1 S16x8192.size (by sl_kernel_rfl) y

theorem cover0_A_16 (y : S16x8192.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.2.1 S1x8192.size (by sl_kernel_rfl) y

theorem cover0_A_17 (y : S384x8448.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.2.2, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.2.2 S128x128.size (by sl_kernel_rfl) y

end Cert.KernelIdeal.Gen

end
-- ==== Proof.LibShared.lean ====
import Mathlib.Data.EReal.Basic
import Mathlib.Data.EReal.Operations
import Mathlib.Tactic.NormNum
import Idealize.ShloMosaic.PureOps.Ideal.Laws
import Idealize.ShloMosaic.Lib.ValueIdx
import Idealize.ShloMosaic.Lib.ValueLayout
import Idealize.ShloMosaic.Lib.Pipeline.Value

noncomputable section

namespace Cert.LibShared

open Idealize.ShloMosaic Idealize.ShloMosaic.ValueIdx Finset

-- A product with one contracted axis, read at an output index, is the sum over that axis of the operands' products.
theorem matmul1_apply {sl sr so : Shape} (D : DotDims sl sr so) (n : ℕ) (hr : D.contr.rank = 1) (hs : D.contr.size ⟨0, by omega⟩ = n)
    (L : FVec Ideal sl .f32) (R : FVec Ideal sr .f32) (j : so.Idx) (li : Fin n → sl.Idx) (ri : Fin n → sr.Idx)
    (hl : ∀ q, D.lhsIdx j q = li (contrEquiv1 D n hr hs q)) (hri : ∀ q, D.rhsIdx j q = ri (contrEquiv1 D n hr hs q)) :
    matmul D none L R (constant (F := Ideal) so .f32 0x00000000#32) j = ∑ k : Fin n, L (li k) * R (ri k) := by
  show FloatOps.matmul D none L R (constant (F := Ideal) so .f32 0x00000000#32) j = _
  rw [Ideal.matmul_constant_zero_apply, ← Equiv.sum_comp (contrEquiv1 D n hr hs)]
  exact Finset.sum_congr rfl fun q _ => by rw [hl, hri]

-- A vector recast as a one-column matrix reads the vector's entry.
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

-- A one-column matrix broadcast along its rows reads the column's entry.
theorem broadcastTo_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

theorem ofBits_one : Ideal.ofBits .f32 0x3F800000#32 = 1 := by
  simp [Ideal.ofBits, Ideal.ieee, -EReal.coe_mul]; norm_num

theorem ofBits_two : Ideal.ofBits .f32 0x40000000#32 = 2 := by
  simp [Ideal.ofBits, Ideal.ieee, -EReal.coe_mul]; norm_num; first | rfl | norm_cast

theorem lit_c : Ideal.ofBits .f32 0x38000000#32 = ((1 / 32768 : ℝ) : EReal) := by
  simp [Ideal.ofBits, Ideal.ieee, -EReal.coe_mul]; norm_num

theorem rsqrt_apply {s : Shape} {φ : FTy} (a : FVec Ideal s φ) (i : s.Idx) : rsqrt a i = Ideal.rsqrt (a i) := rfl

end Cert.LibShared

end
-- ==== Proof.KPhi.lean ====
import Mathlib.Data.EReal.Basic
import Mathlib.Data.EReal.Operations
import Mathlib.Tactic.NormNum
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«135277_g2000205747536381_pallasbulk_86_37_alg».proof.Proof.Gen.KernelIdeal.Skeleton
import proofs.«135277_g2000205747536381_pallasbulk_86_37_alg».proof.Proof.Spec
import proofs.«135277_g2000205747536381_pallasbulk_86_37_alg».proof.Proof.SpecLemmas
import proofs.«135277_g2000205747536381_pallasbulk_86_37_alg».proof.Proof.LibShared

noncomputable section

namespace Cert.KernelIdeal.KPhi

open Idealize.ShloMosaic Idealize.ShloMosaic.ValueIdx Cert.Spec

export Cert.LibShared (ofBits_one)

theorem ofBits_quarter : Ideal.ofBits .f32 0x3E800000#32 = ((1 / 4 : ℝ) : EReal) := by
  simp [Ideal.ofBits, Ideal.ieee, -EReal.coe_mul]; norm_num

theorem one_sub_one : (1 : EReal) - 1 = 0 := by
  rw [← EReal.coe_one, ← EReal.coe_sub, sub_self, EReal.coe_zero]

def hsum (x : Fin 128 → Fin 8192 → EReal) (c : Fin 128) (p : Fin 8192) : EReal := x c p + x c (hpart p)

theorem pay9_apply (v11 : Vec Ideal S1x128x64x128 .f32) (c : Fin 128) (p : Fin 8192) :
    Gen.k0_pay9 v11 (ix2 c p)
      = v11 (ix4 (0 : Fin 1) c (⟨p.val / 128, by omega⟩ : Fin 64) (⟨p.val % 128, by omega⟩ : Fin 128)) := by
  unfold Gen.k0_pay9
  show shapeCast S128x8192 (shapeCast S128x8192 (shapeCast S128x64x128 v11 _) _) _ (ix2 c p) = _
  rw [shapeCast_self]
  refine (shapeCast_apply _ _ (ix2 c p)
    (ix3 c (⟨p.val / 128, by omega⟩ : Fin 64) (⟨p.val % 128, by omega⟩ : Fin 128)) ?_).trans ?_
  · rw [Shape.rowMajor_val_three, Shape.rowMajor_val_two]
    show (c.val * 64 + p.val / 128) * 128 + p.val % 128 = c.val * 8192 + p.val
    omega
  · exact shapeCast_1abc_abc_apply v11 _ c _ _

theorem pay9_eq (v11 : Vec Ideal S1x128x64x128 .f32) (x : Fin 128 → Fin 8192 → EReal)
    (h11 : ∀ (c : Fin 128) (r : Fin 64) (w : Fin 128), v11 (ix4 (0 : Fin 1) c r w) = x c ⟨128 * r.val + w.val, by omega⟩)
    (c : Fin 128) (p : Fin 8192) : Gen.k0_pay9 v11 (ix2 c p) = x c p := by
  rw [pay9_apply, h11]
  congr 1
  exact Fin.ext (by show 128 * (p.val / 128) + p.val % 128 = p.val; omega)

theorem pay10_apply (v17 : Vec Ideal S128x8192 .f32) (v18 : Vec Ideal S1x8192 .f32) (v22 v23 : Vec Ideal S128x8192 .f32)
    (c : Fin 128) (p : Fin 8192) :
    Gen.k0_pay10 v17 v18 v22 v23 (ix2 c p)
      = v17 (ix2 c p) + v18 (ix2 (0 : Fin 1) p) * v23 (ix2 c p)
        + (Ideal.ofBits .f32 0x3F800000#32 - v18 (ix2 (0 : Fin 1) p)) * v22 (ix2 c p) := by
  unfold Gen.k0_pay10
  show shapeCast S128x8192 (addf (addf v17 (mulf (broadcastTo S128x8192 (shapeCast S1x8192 v18 _) _) v23))
    (mulf (broadcastTo S128x8192 (subf (broadcast S1x8192 (Ideal.ofBits .f32 0x3F800000#32)) (shapeCast S1x8192 v18 _)) _) v22)) _
    (ix2 c p) = _
  rw [shapeCast_self, shapeCast_self, addf_apply, addf_apply, mulf_apply, mulf_apply,
    broadcastTo_1b_ab_apply, broadcastTo_1b_ab_apply, subf_apply, broadcast_apply]

theorem pay11_apply (v20 : Vec Ideal S1x8192 .f32) (v35 v36 : Vec Ideal S128x8192 .f32) (c : Fin 128) (p : Fin 8192) :
    Gen.k0_pay11 v20 v35 v36 (ix2 c p)
      = v20 (ix2 (0 : Fin 1) p) * v36 (ix2 c p)
        + (Ideal.ofBits .f32 0x3F800000#32 - v20 (ix2 (0 : Fin 1) p)) * v35 (ix2 c p) := by
  unfold Gen.k0_pay11
  show addf (mulf (broadcastTo S128x8192 (shapeCast S1x8192 v20 _) _) v36)
    (mulf (broadcastTo S128x8192 (subf (broadcast S1x8192 (Ideal.ofBits .f32 0x3F800000#32)) (shapeCast S1x8192 v20 _)) _) v35)
    (ix2 c p) = _
  rw [shapeCast_self, addf_apply, mulf_apply, mulf_apply,
    broadcastTo_1b_ab_apply, broadcastTo_1b_ab_apply, subf_apply, broadcast_apply]

theorem pay12_apply (v17 : Vec Ideal S128x8192 .f32) (v43 : FVec Ideal S128x8192 .f32) (v44 : Vec Ideal S128x8192 .f32)
    (c : Fin 128) (p : Fin 8192) :
    Gen.k0_pay12 v17 v43 v44 (ix2 c p)
      = v17 (ix2 c p) - Ideal.ofBits .f32 0x3E800000#32 * (v44 (ix2 c p) + v43 (ix2 c p)) := by
  rfl

def pad (s : Fin 128 → Fin 8192 → EReal) (c : Fin 128) (n : Fin 8448) : EReal :=
  if h : 128 ≤ n.val ∧ n.val < 8320 then s c ⟨n.val - 128, by omega⟩ else 0

-- Inside the middle columns the padded row reads the row itself.
theorem pad_eq (s : Fin 128 → Fin 8192 → EReal) (c : Fin 128) (n : Fin 8448) (q : Fin 8192) (h : n.val = 128 + q.val) :
    pad s c n = s c q := by
  have hq := q.isLt
  unfold pad
  rw [dif_pos (by omega)]
  exact congrArg (s c) (Fin.ext (by show n.val - 128 = q.val; omega))

theorem pad_mid (s : Fin 128 → Fin 8192 → EReal) (c : Fin 128) (p : Fin 8192) :
    pad s c ⟨128 + p.val, by omega⟩ = s c p :=
  pad_eq s c _ p rfl

theorem pay12_eq_hi_of_pad (x : Fin 128 → Fin 8192 → EReal)
    (v17 : Vec Ideal S128x8192 .f32) (v20 : Vec Ideal S1x8192 .f32) (v35 v36 v44 : Vec Ideal S128x8192 .f32)
    (h17 : ∀ (c : Fin 128) (p : Fin 8192), v17 (ix2 c p) = x c p)
    (h20 : ∀ p : Fin 8192, v20 (ix2 (0 : Fin 1) p) = if p.val / 128 % 2 = 0 then 1 else 0)
    (h35 : ∀ (c : Fin 128) (p : Fin 8192), v35 (ix2 c p) = pad (hsum x) c ⟨p.val, by omega⟩)
    (h36 : ∀ (c : Fin 128) (p : Fin 8192), v36 (ix2 c p) = pad (hsum x) c ⟨256 + p.val, by omega⟩)
    (h44 : ∀ (c : Fin 128) (p : Fin 8192), v44 (ix2 c p) = pad (hsum x) c ⟨128 + p.val, by omega⟩)
    (c : Fin 128) (p : Fin 8192) :
    Gen.k0_pay12 v17 (Gen.k0_pay11 v20 v35 v36) v44 (ix2 c p) = hi x c p := by
  have e : Gen.k0_pay11 v20 v35 v36 (ix2 c p) = hsum x c (vpart p) := by
    rw [pay11_apply, h20, h35, h36, ofBits_one]
    by_cases hr : p.val / 128 % 2 = 0
    · rw [if_pos hr, one_mul, one_sub_one, zero_mul, add_zero]
      exact pad_eq _ c _ _ (by show 256 + p.val = 128 + (vpart p).val; rw [vpart_even p hr]; omega)
    · rw [if_neg hr, zero_mul, zero_add, sub_zero, one_mul]
      exact pad_eq _ c _ _ (by show p.val = 128 + (vpart p).val; rw [vpart_odd p hr]; omega)
  rw [pay12_apply, h17, h44, pad_mid, e, ofBits_quarter, hi_pairs]
  rfl

theorem pay10_eq_hsum_of_pad (x : Fin 128 → Fin 8192 → EReal)
    (v17 : Vec Ideal S128x8192 .f32) (v18 : Vec Ideal S1x8192 .f32) (v22 v23 : Vec Ideal S128x8192 .f32)
    (h17 : ∀ (c : Fin 128) (p : Fin 8192), v17 (ix2 c p) = pad x c ⟨128 + p.val, by omega⟩)
    (h18 : ∀ p : Fin 8192, v18 (ix2 (0 : Fin 1) p) = if p.val % 2 = 0 then 1 else 0)
    (h22 : ∀ (c : Fin 128) (p : Fin 8192), v22 (ix2 c p) = pad x c ⟨127 + p.val, by omega⟩)
    (h23 : ∀ (c : Fin 128) (p : Fin 8192), v23 (ix2 c p) = pad x c ⟨129 + p.val, by omega⟩)
    (c : Fin 128) (p : Fin 8192) :
    Gen.k0_pay10 v17 v18 v22 v23 (ix2 c p) = hsum x c p := by
  rw [pay10_apply, h17, h18, h22, h23, ofBits_one, pad_mid]
  unfold hsum
  by_cases hc : p.val % 2 = 0
  · rw [if_pos hc, one_mul, one_sub_one, zero_mul, add_zero]
    exact congrArg (x c p + ·) (pad_eq x c _ _ (by show 129 + p.val = 128 + (hpart p).val; rw [hpart_even p hc]; omega))
  · rw [if_neg hc, zero_mul, add_zero, sub_zero, one_mul]
    exact congrArg (x c p + ·) (pad_eq x c _ _ (by show 127 + p.val = 128 + (hpart p).val; rw [hpart_odd p hc]; omega))

end Cert.KernelIdeal.KPhi

end
-- ==== Proof.KPmid.lean ====
import Idealize.ShloMosaic.PureOps.Ideal.Laws
import Idealize.ShloMosaic.Lib.ValueIdx
import Idealize.ShloMosaic.Lib.ValueLayout
import Idealize.ShloMosaic.Lib.Pipeline.Value
import proofs.«135277_g2000205747536381_pallasbulk_86_37_alg».proof.Proof.Gen.KernelIdeal.Skeleton
import proofs.«135277_g2000205747536381_pallasbulk_86_37_alg».proof.Proof.Spec
import proofs.«135277_g2000205747536381_pallasbulk_86_37_alg».proof.Proof.LibShared

noncomputable section

namespace Cert.KernelIdeal.KPmid

open Idealize.ShloMosaic Idealize.ShloMosaic.ValueIdx Finset
open Cert.KernelIdeal Cert.KernelIdeal.Gen
export Cert.LibShared (matmul1_apply shapeCast_a_a1_apply broadcastTo_a1_ab_apply ofBits_one ofBits_two)

theorem matmul_sums_apply (A : FVec Ideal S16x8192 .f32) (B : FVec Ideal S128x8192 .f32) (k : Fin 16) (c : Fin 128) :
    matmul dot_S16x8192_S128x8192_S16x128_1_1_0_0_n_n none A B (constant S16x128 .f32 0x00000000#32) (ix2 k c)
      = ∑ p : Fin 8192, A (ix2 k p) * B (ix2 c p) :=
  matmul1_apply dot_S16x8192_S128x8192_S16x128_1_1_0_0_n_n 8192 rfl rfl A B _ (fun p => ix2 k p) (fun p => ix2 c p)
    (fun q => funext fun d => Fin.ext (match d with | ⟨0, _⟩ => rfl | ⟨1, _⟩ => DotDims.lhsIdx_val_of_single _ rfl _ q))
    (fun q => funext fun d => Fin.ext (match d with | ⟨0, _⟩ => rfl | ⟨1, _⟩ => DotDims.rhsIdx_val_of_single _ rfl _ q))

theorem matmul_q_apply (A : FVec Ideal S16x128 .f32) (B : FVec Ideal S128x128 .f32) (k : Fin 16) (c : Fin 128) :
    matmul dot_S16x128_S128x128_S16x128_1_0_0_1_n_n none A B (constant S16x128 .f32 0x00000000#32) (ix2 k c)
      = ∑ j : Fin 128, A (ix2 k j) * B (ix2 j c) :=
  matmul1_apply dot_S16x128_S128x128_S16x128_1_0_0_1_n_n 128 rfl rfl A B _ (fun j => ix2 k j) (fun j => ix2 j c)
    (fun q => funext fun d => Fin.ext (match d with | ⟨0, _⟩ => rfl | ⟨1, _⟩ => DotDims.lhsIdx_val_of_single _ rfl _ q))
    (fun q => funext fun d => Fin.ext (match d with | ⟨1, _⟩ => rfl | ⟨0, _⟩ => DotDims.rhsIdx_val_of_single _ rfl _ q))

theorem matmul_g_apply (A : FVec Ideal S16x128 .f32) (B : FVec Ideal S16x128 .f32) (k : Fin 16) (l : Fin 16) :
    matmul dot_S16x128_S16x128_S16x16_1_1_0_0_n_n none A B (constant S16x16 .f32 0x00000000#32) (ix2 k l)
      = ∑ c : Fin 128, A (ix2 k c) * B (ix2 l c) :=
  matmul1_apply dot_S16x128_S16x128_S16x16_1_1_0_0_n_n 128 rfl rfl A B _ (fun c => ix2 k c) (fun c => ix2 l c)
    (fun q => funext fun d => Fin.ext (match d with | ⟨0, _⟩ => rfl | ⟨1, _⟩ => DotDims.lhsIdx_val_of_single _ rfl _ q))
    (fun q => funext fun d => Fin.ext (match d with | ⟨0, _⟩ => rfl | ⟨1, _⟩ => DotDims.rhsIdx_val_of_single _ rfl _ q))

theorem matmul_adjm_apply (A : FVec Ideal S16x16 .f32) (B : FVec Ideal S16x128 .f32) (k : Fin 16) (c : Fin 128) :
    matmul dot_S16x16_S16x128_S16x128_1_0_0_1_n_n none A B (constant S16x128 .f32 0x00000000#32) (ix2 k c)
      = ∑ l : Fin 16, A (ix2 k l) * B (ix2 l c) :=
  matmul1_apply dot_S16x16_S16x128_S16x128_1_0_0_1_n_n 16 rfl rfl A B _ (fun l => ix2 k l) (fun l => ix2 l c)
    (fun q => funext fun d => Fin.ext (match d with | ⟨0, _⟩ => rfl | ⟨1, _⟩ => DotDims.lhsIdx_val_of_single _ rfl _ q))
    (fun q => funext fun d => Fin.ext (match d with | ⟨1, _⟩ => rfl | ⟨0, _⟩ => DotDims.rhsIdx_val_of_single _ rfl _ q))

theorem matmul_mix_apply (A : FVec Ideal S16x128 .f32) (B : FVec Ideal S16x8192 .f32) (c : Fin 128) (p : Fin 8192) :
    matmul dot_S16x128_S16x8192_S128x8192_0_0_1_1_n_n none A B (constant S128x8192 .f32 0x00000000#32) (ix2 c p)
      = ∑ k : Fin 16, A (ix2 k c) * B (ix2 k p) :=
  matmul1_apply dot_S16x128_S16x8192_S128x8192_0_0_1_1_n_n 16 rfl rfl A B _ (fun k => ix2 k c) (fun k => ix2 k p)
    (fun q => funext fun d => Fin.ext (match d with | ⟨1, _⟩ => rfl | ⟨0, _⟩ => DotDims.lhsIdx_val_of_single _ rfl _ q))
    (fun q => funext fun d => Fin.ext (match d with | ⟨1, _⟩ => rfl | ⟨0, _⟩ => DotDims.rhsIdx_val_of_single _ rfl _ q))

theorem rowsum_8192_apply (v : FVec Ideal S16x8192 .f32) (hφ : FKind.Formats .f32) (hacc : (0x00000000#32 : BitVec 32) = 0x00000000#32)
    (k : Fin 16) (u : Fin 1) :
    shapeCast S16x1 (multiReduction .add [1] S16 v 0x00000000#32 reduces_S16x8192_S16 hφ hacc) shapeCasts_S16_S16x1 (ix2 k u)
      = ∑ p : Fin 8192, v (ix2 k p) := by
  refine (shapeCast_a_a1_apply _ _ k u).trans ?_
  refine (Ideal.multiReduction_add_single v _ reduces_S16x8192_S16 hφ hacc (ix1 k)).trans ?_
  refine Finset.sum_congr rfl fun p _ => congrArg v ?_
  funext a; apply Fin.ext
  match a with
  | ⟨0, _⟩ => rfl
  | ⟨1, _⟩ => rfl

theorem rowsum_16_apply (v : FVec Ideal S16x16 .f32) (hφ : FKind.Formats .f32) (hacc : (0x00000000#32 : BitVec 32) = 0x00000000#32)
    (k : Fin 16) (u : Fin 1) :
    shapeCast S16x1 (multiReduction .add [1] S16 v 0x00000000#32 reduces_S16x16_S16 hφ hacc) shapeCasts_S16_S16x1 (ix2 k u)
      = ∑ l : Fin 16, v (ix2 k l) := by
  refine (shapeCast_a_a1_apply _ _ k u).trans ?_
  refine (Ideal.multiReduction_add_single v _ reduces_S16x16_S16 hφ hacc (ix1 k)).trans ?_
  refine Finset.sum_congr rfl fun l _ => congrArg v ?_
  funext a; apply Fin.ext
  match a with
  | ⟨0, _⟩ => rfl
  | ⟨1, _⟩ => rfl

theorem colsum_16_apply (v : FVec Ideal S16x16 .f32) (hφ : FKind.Formats .f32) (hacc : (0x00000000#32 : BitVec 32) = 0x00000000#32)
    (u : Fin 1) (l : Fin 16) :
    shapeCast S1x16 (multiReduction .add [0] S16 v 0x00000000#32 reduces_S16x16_S16_2 hφ hacc) shapeCasts_S16_S1x16 (ix2 u l)
      = ∑ k : Fin 16, v (ix2 k l) := by
  refine (shapeCast_a_1a_apply _ _ u l).trans ?_
  refine (Ideal.multiReduction_add_single v _ reduces_S16x16_S16_2 hφ hacc (ix1 l)).trans ?_
  refine Finset.sum_congr rfl fun k _ => congrArg v ?_
  funext a; apply Fin.ext
  match a with
  | ⟨0, _⟩ => rfl
  | ⟨1, _⟩ => rfl

theorem sitofp_extui_one : FloatOps.sitofp (F := Ideal) .f32 ((1#1 : BitVec 1).setWidth 32) = 1 := by
  show (((BitVec.setWidth 32 (1#1 : BitVec 1)).toInt : ℝ) : EReal) = 1
  rw [show (BitVec.setWidth 32 (1#1 : BitVec 1)).toInt = 1 by decide]; simp

theorem sitofp_extui_zero : FloatOps.sitofp (F := Ideal) .f32 ((0#1 : BitVec 1).setWidth 32) = 0 := by
  show (((BitVec.setWidth 32 (0#1 : BitVec 1)).toInt : ℝ) : EReal) = 0
  rw [show (BitVec.setWidth 32 (0#1 : BitVec 1)).toInt = 0 by decide]; simp

theorem isZero_word (a : EReal) :
    FloatOps.sitofp (F := Ideal) .f32 ((FloatOps.cmpf (F := Ideal) (φ := .f32) .oeq a (Scalar.ofBits .f32 0x00000000#32)).setWidth 32)
      = if a = 0 then 1 else 0 := by
  have h0 : (Scalar.ofBits (F := Ideal) .f32 0x00000000#32 : EReal) = 0 := Ideal.ofBits_zero_f32
  show FloatOps.sitofp (F := Ideal) .f32 ((Ideal.cmp .oeq a (Scalar.ofBits (F := Ideal) .f32 0x00000000#32)).setWidth 32) = _
  rw [h0]
  by_cases h : a = 0
  · rw [if_pos h, show Ideal.cmp .oeq a 0 = 1#1 by simp [Ideal.cmp, h]]; exact sitofp_extui_one
  · rw [if_neg h, show Ideal.cmp .oeq a 0 = 0#1 by simp [Ideal.cmp, h]]; exact sitofp_extui_zero

theorem eq_word : ∀ k l : Fin 16, IntOp.cmpi .eq (BitVec.ofNat 32 k.val) (BitVec.ofNat 32 l.val) = if k = l then 1#1 else 0#1 := by
  decide

section Chain
variable (v17 : FVec Ideal S128x8192 .f32) (v231 : FVec Ideal S16x8192 .f32) (v242 : FVec Ideal S128x128 .f32)

def kSums : FVec Ideal S16x128 .f32 :=
  matmul dot_S16x8192_S128x8192_S16x128_1_1_0_0_n_n none v231 v17 (constant S16x128 .f32 0x00000000#32)

def kCounts : FVec Ideal S16x1 .f32 :=
  shapeCast S16x1 (multiReduction .add [1] S16 v231 0x00000000#32 reduces_S16x8192_S16 (.inl rfl) rfl) shapeCasts_S16_S16x1

def kMeans : FVec Ideal S16x128 .f32 :=
  divf (kSums v17 v231) (broadcastTo S16x128 (addf (kCounts v231)
    (sitofp .f32 (extui 32 (cmpf .oeq (kCounts v231) (broadcast S16x1 (Scalar.ofBits (F := Ideal) .f32 0x00000000#32))) natLt_1_32)))
    broadcasts_S16x1_S16x128)

def kQ : FVec Ideal S16x128 .f32 :=
  matmul dot_S16x128_S128x128_S16x128_1_0_0_1_n_n none (kMeans v17 v231)
    (shapeCast S128x128 v242 shapeCasts_S128x128_S128x128) (constant S16x128 .f32 0x00000000#32)

def kG : FVec Ideal S16x16 .f32 :=
  matmul dot_S16x128_S16x128_S16x16_1_1_0_0_n_n none (kQ v17 v231 v242) (kMeans v17 v231) (constant S16x16 .f32 0x00000000#32)

def kEye : FVec Ideal S16x16 .f32 :=
  sitofp .f32 (extui 32 (cmpi .eq (iota .tc S16x16 32 [0] iota_S16x16_d0_w32) (iota .tc S16x16 32 [1] iota_S16x16_d1_w32)) natLt_1_32)

def kDcol : FVec Ideal S16x1 .f32 :=
  shapeCast S16x1 (multiReduction .add [1] S16 (mulf (kG v17 v231 v242) kEye) 0x00000000#32 reduces_S16x16_S16 (.inl rfl) rfl)
    shapeCasts_S16_S16x1

def kDrow : FVec Ideal S1x16 .f32 :=
  shapeCast S1x16 (multiReduction .add [0] S16 (mulf (kG v17 v231 v242) kEye) 0x00000000#32 reduces_S16x16_S16_2 (.inl rfl) rfl)
    shapeCasts_S16_S1x16

def kQuad : FVec Ideal S16x16 .f32 :=
  subf (addf (broadcastTo S16x16 (kDcol v17 v231 v242) broadcasts_S16x1_S16x16)
      (broadcastTo S16x16 (kDrow v17 v231 v242) broadcasts_S1x16_S16x16))
    (mulf (broadcast S16x16 (Scalar.ofBits (F := Ideal) .f32 0x40000000#32)) (kG v17 v231 v242))

def kAdj : FVec Ideal S16x16 .f32 :=
  mulf (Idealize.ShloMosaic.exp (subf (broadcast S16x16 (Scalar.ofBits (F := Ideal) .f32 0x00000000#32)) (kQuad v17 v231 v242)))
    (subf (broadcast S16x16 (Scalar.ofBits (F := Ideal) .f32 0x3F800000#32)) kEye)

def kAdjm : FVec Ideal S16x128 .f32 :=
  matmul dot_S16x16_S16x128_S16x128_1_0_0_1_n_n none (kAdj v17 v231 v242) (kMeans v17 v231) (constant S16x128 .f32 0x00000000#32)

theorem pay52_eq_chain : Gen.k0_pay52 (F := Ideal) v17 v231 v242 = kAdjm v17 v231 v242 := rfl

variable (x : Fin 128 → Fin 8192 → EReal) (M : Fin 128 → Fin 128 → EReal)

theorem kEye_apply (k l : Fin 16) : kEye (ix2 k l) = Spec.eye k l := by
  unfold kEye Spec.eye
  rw [sitofp_apply, extui_apply]
  show FloatOps.sitofp (F := Ideal) .f32 ((IntOp.cmpi .eq (iota .tc S16x16 32 [0] iota_S16x16_d0_w32 (ix2 k l))
    (iota .tc S16x16 32 [1] iota_S16x16_d1_w32 (ix2 k l))).setWidth 32) = _
  rw [iota_single_apply, iota_single_apply]
  show FloatOps.sitofp (F := Ideal) .f32 ((IntOp.cmpi .eq (BitVec.ofNat 32 k.val) (BitVec.ofNat 32 l.val)).setWidth 32) = _
  rw [eq_word]
  by_cases h : k = l
  · rw [if_pos h, if_pos h]; exact sitofp_extui_one
  · rw [if_neg h, if_neg h]; exact sitofp_extui_zero

section Values
variable (hx : ∀ c p, v17 (ix2 c p) = x c p) (hoh : ∀ k p, v231 (ix2 k p) = Spec.oh x k p)
  (hM : ∀ i j, v242 (ix2 i j) = M i j)
include hx hoh

theorem kSums_apply (k : Fin 16) (c : Fin 128) : kSums v17 v231 (ix2 k c) = Spec.sums x k c := by
  unfold kSums Spec.sums
  rw [matmul_sums_apply]
  exact Finset.sum_congr rfl fun p _ => by rw [hoh, hx]

omit hx in
theorem kCounts_apply (k : Fin 16) (u : Fin 1) : kCounts v231 (ix2 k u) = Spec.counts x k := by
  unfold kCounts Spec.counts
  rw [rowsum_8192_apply]
  exact Finset.sum_congr rfl fun p _ => hoh k p

theorem kMeans_apply (k : Fin 16) (c : Fin 128) : kMeans v17 v231 (ix2 k c) = Spec.means x k c := by
  unfold kMeans Spec.means
  rw [divf_apply, broadcastTo_a1_ab_apply, addf_apply, sitofp_apply, extui_apply, cmpf_apply, broadcast_apply,
    kSums_apply v17 v231 x hx hoh, kCounts_apply v231 x hoh, isZero_word]

include hM

theorem kQ_apply (k : Fin 16) (c : Fin 128) : kQ v17 v231 v242 (ix2 k c) = Spec.q x M k c := by
  unfold kQ Spec.q
  rw [matmul_q_apply, shapeCast_self]
  exact Finset.sum_congr rfl fun j _ => by rw [kMeans_apply v17 v231 x hx hoh, hM]

theorem kG_apply (k l : Fin 16) : kG v17 v231 v242 (ix2 k l) = Spec.g x M k l := by
  unfold kG Spec.g
  rw [matmul_g_apply]
  exact Finset.sum_congr rfl fun c _ => by rw [kQ_apply v17 v231 v242 x M hx hoh hM, kMeans_apply v17 v231 x hx hoh]

theorem kDcol_apply (k : Fin 16) (u : Fin 1) : kDcol v17 v231 v242 (ix2 k u) = Spec.dcol x M k := by
  unfold kDcol Spec.dcol
  rw [rowsum_16_apply]
  exact Finset.sum_congr rfl fun l _ => by rw [mulf_apply, kG_apply v17 v231 v242 x M hx hoh hM, kEye_apply]

theorem kDrow_apply (u : Fin 1) (l : Fin 16) : kDrow v17 v231 v242 (ix2 u l) = Spec.drow x M l := by
  unfold kDrow Spec.drow
  rw [colsum_16_apply]
  exact Finset.sum_congr rfl fun k _ => by rw [mulf_apply, kG_apply v17 v231 v242 x M hx hoh hM, kEye_apply]

theorem kQuad_apply (k l : Fin 16) : kQuad v17 v231 v242 (ix2 k l) = Spec.quad x M k l := by
  unfold kQuad Spec.quad
  rw [subf_apply, addf_apply, mulf_apply, broadcast_apply, broadcastTo_a1_ab_apply, broadcastTo_1b_ab_apply,
    kDcol_apply v17 v231 v242 x M hx hoh hM, kDrow_apply v17 v231 v242 x M hx hoh hM, kG_apply v17 v231 v242 x M hx hoh hM]
  show _ + _ - Ideal.ofBits .f32 0x40000000#32 * _ = _
  rw [ofBits_two]

theorem kAdj_apply (k l : Fin 16) : kAdj v17 v231 v242 (ix2 k l) = Spec.adj x M k l := by
  unfold kAdj Spec.adj
  rw [mulf_apply, subf_apply, broadcast_apply, kEye_apply]
  show Ideal.exp (Ideal.ofBits .f32 0x00000000#32 - kQuad v17 v231 v242 (ix2 k l)) * (Ideal.ofBits .f32 0x3F800000#32 - _) = _
  rw [kQuad_apply v17 v231 v242 x M hx hoh hM, Ideal.ofBits_zero_f32, ofBits_one]

theorem kAdjm_apply (k : Fin 16) (c : Fin 128) : kAdjm v17 v231 v242 (ix2 k c) = Spec.adjm x M k c := by
  unfold kAdjm Spec.adjm
  rw [matmul_adjm_apply]
  exact Finset.sum_congr rfl fun l _ => by rw [kAdj_apply v17 v231 v242 x M hx hoh hM, kMeans_apply v17 v231 x hx hoh]

theorem pay52_apply (k : Fin 16) (c : Fin 128) : Gen.k0_pay52 (F := Ideal) v17 v231 v242 (ix2 k c) = Spec.adjm x M k c := by
  rw [pay52_eq_chain]; exact kAdjm_apply v17 v231 v242 x M hx hoh hM k c

end Values

theorem pay53_apply (v269 : FVec Ideal S16x128 .f32) (hx : ∀ c p, v17 (ix2 c p) = x c p)
    (hoh : ∀ k p, v231 (ix2 k p) = Spec.oh x k p) (hadjm : ∀ k c, v269 (ix2 k c) = Spec.adjm x M k c)
    (c : Fin 128) (p : Fin 8192) : Gen.k0_pay53 (F := Ideal) v17 v231 v269 (ix2 c p) = Spec.feat x M c p := by
  unfold Gen.k0_pay53 Spec.feat
  rw [shapeCast_self, truncf_apply, addf_apply, matmul_mix_apply, hx]
  exact congrArg (x c p + ·) (Finset.sum_congr rfl fun k _ => by rw [hadjm, hoh])

theorem pay53_pay52_apply (hx : ∀ c p, v17 (ix2 c p) = x c p) (hoh : ∀ k p, v231 (ix2 k p) = Spec.oh x k p)
    (hM : ∀ i j, v242 (ix2 i j) = M i j) (c : Fin 128) (p : Fin 8192) :
    Gen.k0_pay53 (F := Ideal) v17 v231 (Gen.k0_pay52 (F := Ideal) v17 v231 v242) (ix2 c p) = Spec.feat x M c p :=
  pay53_apply v17 v231 x M _ hx hoh (pay52_apply v17 v231 v242 x M hx hoh hM) c p

end Chain

end Cert.KernelIdeal.KPmid

end
-- ==== Proof.KPieces.lean ====
import Idealize.ShloMosaic.Lib.Writes
import Idealize.ShloMosaic.Lib.ValueIdx
import Idealize.ShloMosaic.Lib.Pipeline.FrameBody

noncomputable section

namespace Cert.KPieces

open Idealize.ShloMosaic Idealize.ShloMosaic.ValueIdx

variable {sig : RefSig} {κ : Kind} {sp : Space} {Val : EltTy → Type} {e : EltTy}

section AnyRect
variable {s : Shape}

theorem read_writes_cons_of_not_mem (v : View sig κ sp s e) (f : v.ty.Contents Val) (p : View.Piece Val s e)
    (L : List (View.Piece Val s e)) {y : s.Idx} (hy : y ∉ p.1.set) :
    v.read Val (v.writes Val f (p :: L)) y = v.read Val (v.writes Val f L) y := by
  rw [View.writes_cons, View.read_slice_write_of_not_mem p.1 _ _ _ (by rwa [Rect.map_emb_univ])]

end AnyRect

section Rank2
variable {R C : ℕ}

section
variable {o0 o1 n0 n1 : ℕ} (inb : ∀ a, (![o0, o1] : Fin 2 → ℕ) a + (![n0, n1] : Fin 2 → ℕ) a ≤ (⟨2, ![R, C]⟩ : Shape).size a)

theorem mem_unit2 (r : Fin R) (col : Fin C) :
    ix2 r col ∈ (Rect.unit (s := ⟨2, ![R, C]⟩) ![o0, o1] ![n0, n1] inb).set ↔
      (o0 ≤ r.val ∧ r.val < o0 + n0) ∧ (o1 ≤ col.val ∧ col.val < o1 + n1) := by
  rw [Rect.mem_set_unit]
  constructor
  · intro h; exact ⟨h 0, h 1⟩
  · rintro ⟨h0, h1⟩ a
    match a with
    | ⟨0, _⟩ => exact h0
    | ⟨1, _⟩ => exact h1

theorem emb_unit2 (a : Fin n0) (b : Fin n1)
    (h0 : o0 + a.val < R) (h1 : o1 + b.val < C) :
    (Rect.unit (s := ⟨2, ![R, C]⟩) ![o0, o1] ![n0, n1] inb).emb (ix2 a b) = ix2 (⟨o0 + a.val, h0⟩ : Fin R) (⟨o1 + b.val, h1⟩ : Fin C) := by
  funext ax; apply Fin.ext
  match ax with
  | ⟨0, _⟩ => show o0 + 1 * a.val = o0 + a.val; rw [Nat.one_mul]
  | ⟨1, _⟩ => show o1 + 1 * b.val = o1 + b.val; rw [Nat.one_mul]

theorem eq_emb_unit2 (r : Fin R) (col : Fin C)
    (h0 : o0 ≤ r.val ∧ r.val < o0 + n0) (h1 : o1 ≤ col.val ∧ col.val < o1 + n1) :
    ix2 r col = (Rect.unit (s := ⟨2, ![R, C]⟩) ![o0, o1] ![n0, n1] inb).emb
      (ix2 (⟨r.val - o0, by omega⟩ : Fin n0) (⟨col.val - o1, by omega⟩ : Fin n1)) := by
  rw [emb_unit2 inb _ _ (by show o0 + (r.val - o0) < R; have := r.isLt; omega) (by show o1 + (col.val - o1) < C; have := col.isLt; omega)]
  funext ax; apply Fin.ext
  match ax with
  | ⟨0, _⟩ => show r.val = o0 + (r.val - o0); omega
  | ⟨1, _⟩ => show col.val = o1 + (col.val - o1); omega

end

variable (v : View sig κ sp ⟨2, ![R, C]⟩ e) (f : v.ty.Contents Val)

section
variable {o0 o1 n0 n1 : ℕ} (inb : ∀ a, (![o0, o1] : Fin 2 → ℕ) a + (![n0, n1] : Fin 2 → ℕ) a ≤ (⟨2, ![R, C]⟩ : Shape).size a)

theorem read_writes_cons_unit2
    (w : (⟨2, ![n0, n1]⟩ : Shape).Idx → Val e) (L : List (View.Piece Val ⟨2, ![R, C]⟩ e)) (r : Fin R) (col : Fin C)
    (h0 : o0 ≤ r.val ∧ r.val < o0 + n0) (h1 : o1 ≤ col.val ∧ col.val < o1 + n1) :
    v.read Val (v.writes Val f ((⟨Rect.unit ![o0, o1] ![n0, n1] inb, w⟩ : View.Piece Val ⟨2, ![R, C]⟩ e) :: L)) (ix2 r col)
      = w (ix2 (⟨r.val - o0, by omega⟩ : Fin n0) (⟨col.val - o1, by omega⟩ : Fin n1)) := by
  rw [eq_emb_unit2 inb r col h0 h1]
  exact View.read_writes_cons_emb v f (Rect.unit ![o0, o1] ![n0, n1] inb) w L _

theorem read_writes_cons_unit2_of_not_mem
    (w : (⟨2, ![n0, n1]⟩ : Shape).Idx → Val e) (L : List (View.Piece Val ⟨2, ![R, C]⟩ e)) (r : Fin R) (col : Fin C)
    (h : r.val < o0 ∨ o0 + n0 ≤ r.val ∨ col.val < o1 ∨ o1 + n1 ≤ col.val) :
    v.read Val (v.writes Val f ((⟨Rect.unit ![o0, o1] ![n0, n1] inb, w⟩ : View.Piece Val ⟨2, ![R, C]⟩ e) :: L)) (ix2 r col)
      = v.read Val (v.writes Val f L) (ix2 r col) :=
  read_writes_cons_of_not_mem v f _ L (fun hm => by
    have := (mem_unit2 inb r col).mp hm
    omega)

end

theorem canon_cons_unit2 [∀ e, Nonempty (Val e)] {o0 o1 n0 n1 : ℕ}
    (inb : ∀ a, (![o0, o1] : Fin 2 → ℕ) a + (![n0, n1] : Fin 2 → ℕ) a ≤ (⟨2, ![R, C]⟩ : Shape).size a)
    (w : (⟨2, ![n0, n1]⟩ : Shape).Idx → Val e) (L : List (View.Piece Val ⟨2, ![R, C]⟩ e)) (r : Fin R) (col : Fin C)
    (h0 : o0 ≤ r.val ∧ r.val < o0 + n0) (h1 : o1 ≤ col.val ∧ col.val < o1 + n1) :
    View.canon ((⟨Rect.unit ![o0, o1] ![n0, n1] inb, w⟩ : View.Piece Val ⟨2, ![R, C]⟩ e) :: L) (ix2 r col)
      = w (ix2 (⟨r.val - o0, by omega⟩ : Fin n0) (⟨col.val - o1, by omega⟩ : Fin n1)) := by
  rw [eq_emb_unit2 inb r col h0 h1]
  exact View.canon_cons_emb (Rect.unit ![o0, o1] ![n0, n1] inb) w L _

theorem canon_cons_unit2_of_not_mem [∀ e, Nonempty (Val e)] {o0 o1 n0 n1 : ℕ}
    (inb : ∀ a, (![o0, o1] : Fin 2 → ℕ) a + (![n0, n1] : Fin 2 → ℕ) a ≤ (⟨2, ![R, C]⟩ : Shape).size a)
    (w : (⟨2, ![n0, n1]⟩ : Shape).Idx → Val e) (L : List (View.Piece Val ⟨2, ![R, C]⟩ e)) (r : Fin R) (col : Fin C)
    (h : r.val < o0 ∨ o0 + n0 ≤ r.val ∨ col.val < o1 ∨ o1 + n1 ≤ col.val) :
    View.canon ((⟨Rect.unit ![o0, o1] ![n0, n1] inb, w⟩ : View.Piece Val ⟨2, ![R, C]⟩ e) :: L) (ix2 r col) = View.canon L (ix2 r col) :=
  View.canon_cons_of_not_mem _ L (fun hm => by
    have := (mem_unit2 inb r col).mp hm
    omega)

theorem readCov_unit2_apply [∀ e, Nonempty (Val e)] (L : List (View.Piece Val ⟨2, ![R, C]⟩ e)) {o0 o1 n0 n1 : ℕ}
    (inb : ∀ a, (![o0, o1] : Fin 2 → ℕ) a + (![n0, n1] : Fin 2 → ℕ) a ≤ (⟨2, ![R, C]⟩ : Shape).size a) (a : Fin n0) (b : Fin n1)
    (h0 : o0 + a.val < R) (h1 : o1 + b.val < C) :
    v.readCov L (Rect.unit (s := ⟨2, ![R, C]⟩) ![o0, o1] ![n0, n1] inb).toLoadRect (ix2 a b)
      = View.canon L (ix2 (⟨o0 + a.val, h0⟩ : Fin R) (⟨o1 + b.val, h1⟩ : Fin C)) := by
  rw [← emb_unit2 inb a b h0 h1]; exact congrFun (View.readCov_eq_canon' v L _) _

end Rank2

end Cert.KPieces

end
-- ==== Proof.KRunB.lean ====
import proofs.«135277_g2000205747536381_pallasbulk_86_37_alg».proof.Proof.Gen.KernelIdeal.Frame
import proofs.«135277_g2000205747536381_pallasbulk_86_37_alg».proof.Proof.Gen.KernelIdeal.Skeleton
import proofs.«135277_g2000205747536381_pallasbulk_86_37_alg».proof.Proof.KDefs
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1x128x64x128 .f32) (harg2 : arg2.IsWhole) (arg3 : Memref sig .tc .vmem S128x128 .f32) (harg3 : arg3.IsWhole) (arg4 : Memref sig .tc .vmem S3x128x384 .bf16) (harg4 : arg4.IsWhole) (arg5 : Memref sig .tc .vmem S2x8192 .f32) (harg5 : arg5.IsWhole) (arg6 : Memref sig .tc .vmem S2x8192 .bf16) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x64x128 .f32) (harg9 : arg9.IsWhole) (arg10 : Memref sig .tc .vmem S4x128x8192 .bf16) (harg10 : arg10.IsWhole) (arg11 : Memref sig .tc .vmem S128x1 .f32) (harg11 : arg11.IsWhole) (arg12 : Memref sig .tc .vmem S128x1 .f32) (harg12 : arg12.IsWhole) (arg13 : Memref sig .tc .vmem S128x8448 .f32) (harg13 : arg13.IsWhole) (arg14 : Memref sig .tc .vmem S128x8448 .f32) (harg14 : arg14.IsWhole) (arg15 : Memref sig .tc .vmem S16x8192 .f32) (harg15 : arg15.IsWhole) (arg16 : Memref sig .tc .vmem S16x8192 .f32) (harg16 : arg16.IsWhole) (arg17 : Memref sig .tc .vmem S384x8448 .bf16) (harg17 : arg17.IsWhole)
    (hc1 : ¬cond0_1 i) (hc2 : cond0_2 i) (hc3 : ¬cond0_3 i)
    (x2 : Vec F S1x128x64x128 .f32) (x3 : Vec F S128x128 .f32) (x4 : Vec F S3x128x384 .bf16) (x5 : Vec F S2x8192 .f32) (x6 : Vec F S2x8192 .bf16) (d10 : Vec F S4x128x8192 .bf16) (d11 : Vec F S128x1 .f32) (d12 : Vec F S128x1 .f32) (d13 : Vec F S128x8448 .f32) (d14 : Vec F S128x8448 .f32) (d15 : Vec F S16x8192 .f32) (d16 : Vec F S16x8192 .f32) (d17 : Vec F S384x8448 .bf16)

set_option maxHeartbeats 4000000 in

include hc1 hc2 hc3 in
noncomputable def kernelRun0_B :
    { W : List (View.Piece (Elt F) S4x128x8192 .bf16) × List (View.Piece (Elt F) S128x1 .f32) × List (View.Piece (Elt F) S128x1 .f32) × List (View.Piece (Elt F) S128x8448 .f32) × List (View.Piece (Elt F) S128x8448 .f32) × List (View.Piece (Elt F) S16x8192 .f32) × List (View.Piece (Elt F) S16x8192 .f32) × List (View.Piece (Elt F) S384x8448 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (arg10.view.loc (c : Thread nD τ) ↦[arg10.view.set]{fullShare} arg10.view.writes (Elt F) (harg10.unread d10) W.1) ∗ (arg11.view.loc (c : Thread nD τ) ↦[arg11.view.set]{fullShare} arg11.view.writes (Elt F) (harg11.unread d11) W.2.1) ∗ (arg12.view.loc (c : Thread nD τ) ↦[arg12.view.set]{fullShare} arg12.view.writes (Elt F) (harg12.unread d12) W.2.2.1) ∗ (arg13.view.loc (c : Thread nD τ) ↦[arg13.view.set]{fullShare} arg13.view.writes (Elt F) (harg13.unread d13) W.2.2.2.1) ∗ (arg14.view.loc (c : Thread nD τ) ↦[arg14.view.set]{fullShare} arg14.view.writes (Elt F) (harg14.unread d14) W.2.2.2.2.1) ∗ (arg15.view.loc (c : Thread nD τ) ↦[arg15.view.set]{fullShare} arg15.view.writes (Elt F) (harg15.unread d15) W.2.2.2.2.2.1) ∗ (arg16.view.loc (c : Thread nD τ) ↦[arg16.view.set]{fullShare} arg16.view.writes (Elt F) (harg16.unread d16) W.2.2.2.2.2.2.1) ∗ (arg17.view.loc (c : Thread nD τ) ↦[arg17.view.set]{fullShare} arg17.view.writes (Elt F) (harg17.unread d17) W.2.2.2.2.2.2.2)) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_, ?_, ?_, ?_, ?_, ?_, ?_⟩, fun E K => ?run⟩
  case run =>
    simp only [cc0__mega_kernel_eq_skeleton]; unfold cc0__mega_kernel_skel
    unfold owns
    iintro ⟨⟨%f2, %hf2, H2⟩, ⟨%f3, %hf3, H3⟩, ⟨%f4, %hf4, H4⟩, ⟨%f5, %hf5, H5⟩, ⟨%f6, %hf6, H6⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec_parts (disch := first | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

theorem cover0_B_11 (y : S128x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.1 S128x1.size (by sl_kernel_rfl) y

theorem cover0_B_12 (y : S128x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.1 S128x1.size (by sl_kernel_rfl) y

theorem cover0_B_15 (y : S16x8192.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.1 S16x8192.size (by sl_kernel_rfl) y

theorem cover0_B_16 (y : S16x8192.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.2.2.2.2.1 S1x8192.size (by sl_kernel_rfl) y

end Cert.KernelIdeal.Gen

end
-- ==== Proof.KPadBuf.lean ====
import proofs.«135277_g2000205747536381_pallasbulk_86_37_alg».proof.Proof.KRunB
import proofs.«135277_g2000205747536381_pallasbulk_86_37_alg».proof.Proof.KPhi
import Idealize.ShloMosaic.Lib.Writes
import Idealize.ShloMosaic.Lib.Pipeline.FrameBody
import Idealize.ShloMosaic.Lib.Pipeline.Value

set_option maxRecDepth 16384

noncomputable section

namespace Cert.KernelIdeal.Gen

open Idealize.ShloMosaic Idealize.ShloMosaic.TcCoe Idealize.ShloMosaic.Tactic Idealize.ShloMosaic.ValueIdx

namespace KPadBuf

theorem padbuf_readAt (M : Memref sig .tc .vmem S128x8448 .f32) (hM : M.IsWhole) (d : Vec Ideal S128x8448 .f32)
    (inb : ∀ a, (![0, 128] : Fin 2 → ℕ) a + S128x8192.size a ≤ S128x8448.size a)
    (w : (Rect.unit (s := S128x8448) ![0, 128] S128x8192.size inb).shape.Idx → Elt Ideal .f32)
    (s : Fin 128 → Fin 8192 → EReal) (hw : ∀ (ch : Fin 128) (p : Fin 8192), w (ix2 ch p) = s ch p)
    (hd : ∀ (r : Fin 128) (col : Fin 8448), (col.val < 128 ∨ 8320 ≤ col.val) → d (ix2 r col) = 0)
    (k : ℕ) (inbk : ∀ a, (![0, k] : Fin 2 → ℕ) a + S128x8192.size a ≤ S128x8448.size a)
    (ch : Fin 128) (p : Fin 8192) (hk : k + p.val < 8448) :
    M.view.readAt (Elt Ideal) (Rect.unit (s := S128x8448) ![0, k] S128x8192.size inbk).toLoadRect
        (M.view.writes (Elt Ideal) (hM.unread d) [⟨Rect.unit ![0, 128] S128x8192.size inb, w⟩]) (ix2 ch p)
      = KPhi.pad s ch ⟨k + p.val, hk⟩ := by
  have hi : (Rect.unit (s := S128x8448) ![0, k] S128x8192.size inbk).toLoadRect.idx (ix2 ch p) = ix2 ch (⟨k + p.val, hk⟩ : Fin 8448) := by
    funext a
    apply Fin.ext
    match a with
    | ⟨0, _⟩ => show 0 + 1 * ch.val = ch.val; omega
    | ⟨1, _⟩ => show k + 1 * p.val = k + p.val; omega
  rw [View.readAt_apply, hi]
  generalize (⟨k + p.val, hk⟩ : Fin 8448) = n
  by_cases hn : 128 ≤ n.val ∧ n.val < 8320
  · have hp : n.val - 128 < 8192 := by omega
    have he : ix2 ch n = (Rect.unit (s := S128x8448) ![0, 128] S128x8192.size inb).emb (ix2 ch (⟨n.val - 128, hp⟩ : Fin 8192)) := by
      funext k
      apply Fin.ext
      match k with
      | ⟨0, _⟩ => show ch.val = 0 + 1 * ch.val; omega
      | ⟨1, _⟩ => show n.val = 128 + 1 * (n.val - 128); omega
    rw [he, View.read_writes_cons_emb, hw]
    unfold KPhi.pad
    rw [dif_pos hn]
  · rw [View.read_writes_apply_of_forall_not_mem, hM.read_unread, hd ch n (by omega)]
    · unfold KPhi.pad; rw [dif_neg hn]
    · intro p hp hy
      rw [List.mem_singleton] at hp
      subst hp
      have hy' : ix2 ch n ∈ (Rect.unit (s := S128x8448) ![0, 128] S128x8192.size inb).set := hy
      have h1 := (Rect.mem_set_unit.mp hy') 1
      change 128 ≤ n.val ∧ n.val < 128 + 8192 at h1
      omega

theorem readAt_whole_unread {S : Shape} {e : EltTy} (M : Memref sig .tc .vmem S e) (hM : M.IsWhole) (x : Vec Ideal S e)
    {off : Fin S.rank → ℕ} (h : off = fun _ => 0) (inb : ∀ a, off a + S.size a ≤ S.size a) :
    M.view.readAt (Elt Ideal) (Rect.unit off S.size inb).toLoadRect (hM.unread x) = x := by
  rw [View.readAt_eq_ld, hM.read_unread, View.ld_unit_zero h]

theorem readAt_row {R C : ℕ} {e : EltTy} (M : Memref sig .tc .vmem (⟨2, ![R, C]⟩ : Shape) e) (hM : M.IsWhole) (x : Vec Ideal (⟨2, ![R, C]⟩ : Shape) e)
    (k : ℕ) (inb : ∀ a, (![k, 0] : Fin 2 → ℕ) a + (![1, C] : Fin 2 → ℕ) a ≤ (⟨2, ![R, C]⟩ : Shape).size a)
    (p : Fin C) (hk : k < R) :
    M.view.readAt (Elt Ideal) (Rect.unit (s := ⟨2, ![R, C]⟩) ![k, 0] ![1, C] inb).toLoadRect (hM.unread x) (ix2 (0 : Fin 1) p)
      = x (ix2 (⟨k, hk⟩ : Fin R) p) := by
  rw [View.readAt_apply, hM.read_unread]
  congr 1
  funext a
  apply Fin.ext
  match a with
  | ⟨0, _⟩ => show k + 1 * 0 = k; omega
  | ⟨1, _⟩ => show 0 + 1 * p.val = p.val; omega

theorem readCov_whole_row {κ : Kind} {sp : Space} (v : View sig κ sp S16x8192 .f32)
    (inbW : ∀ a, (![0, 0] : Fin 2 → ℕ) a + S16x8192.size a ≤ S16x8192.size a)
    (P : (Rect.unit (s := S16x8192) ![0, 0] S16x8192.size inbW).shape.Idx → Elt Ideal .f32)
    (k : ℕ) (hk : k < 16) (inbk : ∀ a, (![k, 0] : Fin 2 → ℕ) a + S1x8192.size a ≤ S16x8192.size a) (p : Fin 8192) :
    v.readCov [⟨Rect.unit ![0, 0] S16x8192.size inbW, P⟩] (Rect.unit (s := S16x8192) ![k, 0] S1x8192.size inbk).toLoadRect (ix2 (0 : Fin 1) p)
      = P (ix2 (⟨k, hk⟩ : Fin 16) p) := by
  rw [View.readCov_eq_canon']
  have he : (Rect.unit (s := S16x8192) ![k, 0] S1x8192.size inbk).toLoadRect.idx (ix2 (0 : Fin 1) p)
      = (Rect.unit (s := S16x8192) ![0, 0] S16x8192.size inbW).emb (ix2 (⟨k, hk⟩ : Fin 16) p) := by
    funext a
    apply Fin.ext
    match a with
    | ⟨0, _⟩ => show k + 1 * 0 = 0 + 1 * k; omega
    | ⟨1, _⟩ => show 0 + 1 * p.val = 0 + 1 * p.val; rfl
  show View.canon _ ((Rect.unit (s := S16x8192) ![k, 0] S1x8192.size inbk).toLoadRect.idx (ix2 (0 : Fin 1) p)) = _
  rw [he, View.canon_cons_emb]

theorem canon_row_hit (k : ℕ) (hk : k < 16) (inbk : ∀ a, (![k, 0] : Fin 2 → ℕ) a + S1x8192.size a ≤ S16x8192.size a)
    (w : (Rect.unit (s := S16x8192) ![k, 0] S1x8192.size inbk).shape.Idx → Elt Ideal .f32)
    (L : List (View.Piece (Elt Ideal) S16x8192 .f32)) (p : Fin 8192) :
    View.canon ((⟨Rect.unit (s := S16x8192) ![k, 0] S1x8192.size inbk, w⟩ : View.Piece (Elt Ideal) S16x8192 .f32) :: L) (ix2 (⟨k, hk⟩ : Fin 16) p) = w (ix2 (0 : Fin 1) p) := by
  have he : ix2 (⟨k, hk⟩ : Fin 16) p = (Rect.unit (s := S16x8192) ![k, 0] S1x8192.size inbk).emb (ix2 (0 : Fin 1) p) := by
    funext a
    apply Fin.ext
    match a with
    | ⟨0, _⟩ => show k = k + 1 * 0; omega
    | ⟨1, _⟩ => show p.val = 0 + 1 * p.val; omega
  rw [he, View.canon_cons_emb]

theorem canon_row_miss (j : ℕ) (inbj : ∀ a, (![j, 0] : Fin 2 → ℕ) a + S1x8192.size a ≤ S16x8192.size a)
    (w : (Rect.unit (s := S16x8192) ![j, 0] S1x8192.size inbj).shape.Idx → Elt Ideal .f32)
    (L : List (View.Piece (Elt Ideal) S16x8192 .f32)) (k : Fin 16) (hne : k.val ≠ j) (p : Fin 8192) :
    View.canon ((⟨Rect.unit (s := S16x8192) ![j, 0] S1x8192.size inbj, w⟩ : View.Piece (Elt Ideal) S16x8192 .f32) :: L) (ix2 k p) = View.canon L (ix2 k p) := by
  refine View.canon_cons_of_not_mem _ L fun hy => ?_
  have hy' : ix2 k p ∈ (Rect.unit (s := S16x8192) ![j, 0] S1x8192.size inbj).set := hy
  have h0 := (Rect.mem_set_unit.mp hy') 0
  change j ≤ k.val ∧ k.val < j + 1 at h0
  omega

theorem readCov_whole_apply {κ : Kind} {sp : Space} (v : View sig κ sp S16x8192 .f32) (L : List (View.Piece (Elt Ideal) S16x8192 .f32))
    (inbW : ∀ a, (![0, 0] : Fin 2 → ℕ) a + S16x8192.size a ≤ S16x8192.size a) (k : Fin 16) (p : Fin 8192) :
    v.readCov L (Rect.unit (s := S16x8192) ![0, 0] S16x8192.size inbW).toLoadRect (ix2 k p) = View.canon L (ix2 k p) := by
  rw [View.readCov_eq_canon']
  show View.canon L ((Rect.unit (s := S16x8192) ![0, 0] S16x8192.size inbW).toLoadRect.idx (ix2 k p)) = _
  congr 1
  funext a
  apply Fin.ext
  match a with
  | ⟨0, _⟩ => show 0 + 1 * k.val = k.val; omega
  | ⟨1, _⟩ => show 0 + 1 * p.val = p.val; omega

end KPadBuf

end Cert.KernelIdeal.Gen

end
-- ==== Proof.KPoh.lean ====
import Mathlib.Data.Finset.Fold
import Idealize.ShloMosaic.PureOps.Ideal
import Idealize.ShloMosaic.PureOps.Ideal.Laws
import Idealize.ShloMosaic.Lib.ValueIdx
import Idealize.ShloMosaic.Lib.Pipeline.Value
import proofs.«135277_g2000205747536381_pallasbulk_86_37_alg».proof.Proof.Gen.KernelIdeal.Skeleton
import proofs.«135277_g2000205747536381_pallasbulk_86_37_alg».proof.Proof.Spec
import proofs.«135277_g2000205747536381_pallasbulk_86_37_alg».proof.Proof.SpecLemmas
import proofs.«135277_g2000205747536381_pallasbulk_86_37_alg».proof.Proof.LibMath

noncomputable section

namespace Cert.KernelIdeal.KPoh

open Idealize.ShloMosaic Idealize.ShloMosaic.ValueIdx
open Cert.KernelIdeal

theorem lit_one : Ideal.ofBits .f32 0x3F800000#32 = 1 := by
  simp [Ideal.ofBits, Ideal.ieee, -EReal.coe_mul]; norm_num

theorem lit_zero : Ideal.ofBits .f32 0x00000000#32 = 0 := Ideal.ofBits_zero_f32

theorem lit_bot : Ideal.ofBits .f32 0xFF800000#32 = ⊥ := by
  simp [Ideal.ofBits, Ideal.ieee]

theorem fold_max_bot_eq_maxUpTo (n : ℕ) (f : Fin (n + 1) → EReal) (s : ℕ → EReal) (hs : ∀ k : Fin (n + 1), f k = s k.val) :
    (Finset.univ : Finset (Fin (n + 1))).fold max ⊥ f = LibMath.maxUpTo s n := by
  apply le_antisymm
  · rw [Finset.fold_max_le]
    refine ⟨bot_le, fun k _ => ?_⟩
    rw [hs k]
    exact LibMath.le_maxUpTo s n k.val (Nat.lt_succ_iff.mp k.isLt)
  · obtain ⟨j, hj, hm⟩ := LibMath.maxUpTo_mem s n
    rw [Finset.le_fold_max]
    refine Or.inr ⟨⟨j, Nat.lt_succ_iff.mpr hj⟩, Finset.mem_univ _, ?_⟩
    rw [hs, hm]

theorem pay13_apply (v17 : Vec Ideal S128x8192 .f32) (v43 : FVec Ideal S128x8192 .f32) (v44 : Vec Ideal S128x8192 .f32)
    (p : Fin 8192) (s : ℕ → EReal)
    (hs : ∀ c : Fin 128, Gen.k0_pay12 v17 v43 v44 (ix2 c p) = s c.val) :
    Gen.k0_pay13 v17 v43 v44 (ix2 (0 : Fin 1) p) = LibMath.maxUpTo s 127 := by
  unfold Gen.k0_pay13
  refine (shapeCast_apply _ _ (ix2 (0 : Fin 1) p) (ix1 p) ?_).trans ?_
  · rw [Shape.rowMajor_val_one, Shape.rowMajor_val_two]
    show p.val = (0 : Fin 1).val * 8192 + p.val
    simp
  · refine (Ideal.multiReduction_maximumf_single _ _ _ _ _ (ix1 p)).trans ?_
    show (Finset.univ : Finset (Fin (127 + 1))).fold max (Ideal.ofBits .f32 0xFF800000#32)
        (fun k => Gen.k0_pay12 v17 v43 v44 (Gen.reduces_S128x8192_S8192.lift (ix1 p) k)) = _
    rw [lit_bot]
    refine fold_max_bot_eq_maxUpTo 127 _ s (fun k => ?_)
    have hl : Gen.reduces_S128x8192_S8192.lift (ix1 p) k = ix2 k p := by
      funext c
      match c with
      | ⟨0, _⟩ => rfl
      | ⟨1, _⟩ => rfl
    rw [hl]
    exact hs k

theorem pay14_apply (v17 : Vec Ideal S128x8192 .f32) (v43 : FVec Ideal S128x8192 .f32) (v44 : Vec Ideal S128x8192 .f32)
    (c : Fin 16) (p : Fin 8192) :
    Gen.k0_pay14 v17 v43 v44 (ix2 c p) = Gen.k0_pay12 v17 v43 v44 (ix2 (⟨c.val, by omega⟩ : Fin 128) p) := by
  unfold Gen.k0_pay14
  rw [shapeCast_self]
  refine extractStridedSlice_apply _ _ _ (ix2 c p) (ix2 (⟨c.val, by omega⟩ : Fin 128) p) (fun a => ?_)
  match a with
  | ⟨0, _⟩ => show c.val = 0 + c.val; omega
  | ⟨1, _⟩ => show p.val = 0 + p.val; omega

theorem pay15_apply (i : S1x8192.Idx) : Gen.k0_pay15 (F := Ideal) i = ⊥ := by
  unfold Gen.k0_pay15
  show Ideal.ofBits .f32 0xFF800000#32 = ⊥
  exact lit_bot

theorem select_and (a m q : EReal) :
    Scalar.select (IntOp.andi (Ideal.cmp .oeq a m) (Ideal.cmp .ogt a q)) (1 : EReal) 0 = if a = m ∧ q < a then 1 else 0 := by
  unfold Ideal.cmp IntOp.andi Scalar.select
  by_cases h1 : a = m
  · subst h1
    by_cases h2 : q < a <;> simp [h2]
  · simp [h1]

theorem choose_bits_apply (b1 b2 : IVec S1x8192 1) (i : S1x8192.Idx) (a m q : EReal)
    (h1 : b1 i = Ideal.cmp .oeq a m) (h2 : b2 i = Ideal.cmp .ogt a q) :
    select (andi b1 b2) (broadcast S1x8192 (Scalar.ofBits (F := Ideal) .f32 0x3F800000#32))
        (broadcast S1x8192 (Scalar.ofBits (F := Ideal) .f32 0x00000000#32)) i
      = if a = m ∧ q < a then 1 else 0 := by
  show Scalar.select (IntOp.andi (b1 i) (b2 i)) (Ideal.ofBits .f32 0x3F800000#32) (Ideal.ofBits .f32 0x00000000#32) = _
  rw [h1, h2, lit_one, lit_zero]
  exact select_and a m q

theorem step_bits_apply (b1 b2 : IVec S1x8192 1) (h : S1x8192.ShapeCasts S1x8192) (i : S1x8192.Idx) (a m q : EReal)
    (h1 : b1 i = Ideal.cmp .oeq a m) (h2 : b2 i = Ideal.cmp .ogt a q) :
    shapeCast S1x8192 (select (andi b1 b2) (broadcast S1x8192 (Scalar.ofBits (F := Ideal) .f32 0x3F800000#32))
        (broadcast S1x8192 (Scalar.ofBits (F := Ideal) .f32 0x00000000#32))) h i
      = if a = m ∧ q < a then 1 else 0 := by
  rw [shapeCast_self]
  exact choose_bits_apply b1 b2 i a m q h1 h2

theorem step_raw_apply (hc mx pref : FVec Ideal S1x8192 .f32) (i : S1x8192.Idx) :
    select (andi (cmpf .oeq hc mx) (cmpf .ogt hc pref)) (broadcast S1x8192 (Scalar.ofBits (F := Ideal) .f32 0x3F800000#32))
        (broadcast S1x8192 (Scalar.ofBits (F := Ideal) .f32 0x00000000#32)) i
      = if hc i = mx i ∧ pref i < hc i then 1 else 0 :=
  choose_bits_apply _ _ i (hc i) (mx i) (pref i) rfl rfl

theorem step_apply (hc mx pref : FVec Ideal S1x8192 .f32) (h : S1x8192.ShapeCasts S1x8192) (i : S1x8192.Idx) :
    shapeCast S1x8192 (select (andi (cmpf .oeq hc mx) (cmpf .ogt hc pref))
        (broadcast S1x8192 (Scalar.ofBits (F := Ideal) .f32 0x3F800000#32))
        (broadcast S1x8192 (Scalar.ofBits (F := Ideal) .f32 0x00000000#32))) h i
      = if hc i = mx i ∧ pref i < hc i then 1 else 0 :=
  step_bits_apply _ _ h i (hc i) (mx i) (pref i) rfl rfl

section Steps
variable (p : Fin 8192) (s : ℕ → EReal)

local notation "𝐢" => (ix2 (0 : Fin 1) p : S1x8192.Idx)

section A
variable (v17 : Vec Ideal S128x8192 .f32) (v43 : FVec Ideal S128x8192 .f32) (v44 : Vec Ideal S128x8192 .f32) (v56 v67 v78 : Vec Ideal S1x8192 .f32) (M : EReal)
  (hmx : Gen.k0_pay13 v17 v43 v44 (ix2 0 p) = M) (h0 : v56 (ix2 0 p) = s 0) (h1 : v67 (ix2 0 p) = s 1) (h2 : v78 (ix2 0 p) = s 2)

include h0 in
theorem pay17_apply :
    Gen.k0_pay17 v56 𝐢 = LibMath.prefMax s 1 := by
  unfold Gen.k0_pay17
  rw [maximumf_apply, pay15_apply, h0]
  rfl

include h0 h1 in
theorem pay19_apply :
    Gen.k0_pay19 v56 v67 𝐢 = LibMath.prefMax s 2 := by
  unfold Gen.k0_pay19
  rw [maximumf_apply, pay17_apply p s v56 h0, h1]
  rfl

include hmx h0 in
theorem pay16_apply :
    Gen.k0_pay16 v17 v43 v44 v56 𝐢 = if s 0 = M ∧ LibMath.prefMax s 0 < s 0 then 1 else 0 := by
  unfold Gen.k0_pay16
  refine (step_apply _ _ _ _ _).trans ?_
  rw [hmx, h0, pay15_apply]
  rfl

include hmx h0 h1 in
theorem pay18_apply :
    Gen.k0_pay18 v17 v43 v44 v56 v67 𝐢 = if s 1 = M ∧ LibMath.prefMax s 1 < s 1 then 1 else 0 := by
  unfold Gen.k0_pay18
  refine (step_apply _ _ _ _ _).trans ?_
  rw [hmx, h1, pay17_apply p s v56 h0]

include hmx h2 in
theorem pay20_apply :
    Gen.k0_pay20 v17 v43 v44 v78 𝐢 = Ideal.cmp .oeq (s 2) M := by
  unfold Gen.k0_pay20
  show Ideal.cmp .oeq (v78 𝐢) (Gen.k0_pay13 v17 v43 v44 𝐢) = _
  rw [hmx, h2]

include h0 h1 h2 in
theorem pay21_apply :
    Gen.k0_pay21 v56 v67 v78 𝐢 = Ideal.cmp .ogt (s 2) (LibMath.prefMax s 2) := by
  unfold Gen.k0_pay21
  show Ideal.cmp .ogt (v78 𝐢) (Gen.k0_pay19 v56 v67 𝐢) = _
  rw [pay19_apply p s v56 v67 h0 h1, h2]

end A

theorem pay22_apply (v79 v80 : IVec S1x8192 1) (M : EReal)
    (h79 : v79 𝐢 = Ideal.cmp .oeq (s 2) M) (h80 : v80 𝐢 = Ideal.cmp .ogt (s 2) (LibMath.prefMax s 2)) :
    Gen.k0_pay22 (F := Ideal) v79 v80 𝐢 = if s 2 = M ∧ LibMath.prefMax s 2 < s 2 then 1 else 0 := by
  unfold Gen.k0_pay22
  exact step_bits_apply v79 v80 _ _ _ _ _ h79 h80

section B
variable (v50 v77 : FVec Ideal S1x8192 .f32) (v78 v89 v100 v111 : Vec Ideal S1x8192 .f32) (M : EReal) (hv50 : v50 (ix2 0 p) = M) (hv77 : v77 (ix2 0 p) = LibMath.prefMax s 2)
  (h2 : v78 (ix2 0 p) = s 2) (h3 : v89 (ix2 0 p) = s 3) (h4 : v100 (ix2 0 p) = s 4) (h5 : v111 (ix2 0 p) = s 5)

include hv77 h2 in
theorem pay23_apply :
    Gen.k0_pay23 v77 v78 𝐢 = LibMath.prefMax s 3 := by
  unfold Gen.k0_pay23
  rw [maximumf_apply, hv77, h2]
  rfl

include hv77 h2 h3 in
theorem pay25_apply :
    Gen.k0_pay25 v77 v78 v89 𝐢 = LibMath.prefMax s 4 := by
  unfold Gen.k0_pay25
  rw [maximumf_apply, pay23_apply p s v77 v78 hv77 h2, h3]
  rfl

include hv77 h2 h3 h4 in
theorem pay27_apply :
    Gen.k0_pay27 v77 v78 v89 v100 𝐢 = LibMath.prefMax s 5 := by
  unfold Gen.k0_pay27
  rw [maximumf_apply, pay25_apply p s v77 v78 v89 hv77 h2 h3, h4]
  rfl

include hv50 hv77 h2 h3 in
theorem pay24_apply :
    Gen.k0_pay24 v50 v77 v78 v89 𝐢 = if s 3 = M ∧ LibMath.prefMax s 3 < s 3 then 1 else 0 := by
  unfold Gen.k0_pay24
  refine (step_apply _ _ _ _ _).trans ?_
  rw [hv50, h3, pay23_apply p s v77 v78 hv77 h2]

include hv50 hv77 h2 h3 h4 in
theorem pay26_apply :
    Gen.k0_pay26 v50 v77 v78 v89 v100 𝐢 = if s 4 = M ∧ LibMath.prefMax s 4 < s 4 then 1 else 0 := by
  unfold Gen.k0_pay26
  refine (step_apply _ _ _ _ _).trans ?_
  rw [hv50, h4, pay25_apply p s v77 v78 v89 hv77 h2 h3]

include hv50 hv77 h2 h3 h4 h5 in
theorem pay28_apply :
    Gen.k0_pay28 v50 v77 v78 v89 v100 v111 𝐢 = if s 5 = M ∧ LibMath.prefMax s 5 < s 5 then 1 else 0 := by
  unfold Gen.k0_pay28
  refine (step_raw_apply _ _ _ _).trans ?_
  rw [hv50, h5, pay27_apply p s v77 v78 v89 v100 hv77 h2 h3 h4]

end B

theorem pay29_apply (v117 : FVec Ideal S1x8192 .f32) (i : S1x8192.Idx) : Gen.k0_pay29 v117 i = v117 i := by
  unfold Gen.k0_pay29
  rw [shapeCast_self]

section C
variable (v50 v110 : FVec Ideal S1x8192 .f32) (v111 v122 v133 v144 : Vec Ideal S1x8192 .f32) (M : EReal) (hv50 : v50 (ix2 0 p) = M) (hv110 : v110 (ix2 0 p) = LibMath.prefMax s 5)
  (h5 : v111 (ix2 0 p) = s 5) (h6 : v122 (ix2 0 p) = s 6) (h7 : v133 (ix2 0 p) = s 7) (h8 : v144 (ix2 0 p) = s 8)

include hv110 h5 in
theorem pay30_apply :
    Gen.k0_pay30 v110 v111 𝐢 = LibMath.prefMax s 6 := by
  unfold Gen.k0_pay30
  rw [maximumf_apply, hv110, h5]
  rfl

include hv110 h5 h6 in
theorem pay32_apply :
    Gen.k0_pay32 v110 v111 v122 𝐢 = LibMath.prefMax s 7 := by
  unfold Gen.k0_pay32
  rw [maximumf_apply, pay30_apply p s v110 v111 hv110 h5, h6]
  rfl

include hv110 h5 h6 h7 in
theorem pay34_apply :
    Gen.k0_pay34 v110 v111 v122 v133 𝐢 = LibMath.prefMax s 8 := by
  unfold Gen.k0_pay34
  rw [maximumf_apply, pay32_apply p s v110 v111 v122 hv110 h5 h6, h7]
  rfl

include hv50 hv110 h5 h6 in
theorem pay31_apply :
    Gen.k0_pay31 v50 v110 v111 v122 𝐢 = if s 6 = M ∧ LibMath.prefMax s 6 < s 6 then 1 else 0 := by
  unfold Gen.k0_pay31
  refine (step_apply _ _ _ _ _).trans ?_
  rw [hv50, h6, pay30_apply p s v110 v111 hv110 h5]

include hv50 hv110 h5 h6 h7 in
theorem pay33_apply :
    Gen.k0_pay33 v50 v110 v111 v122 v133 𝐢 = if s 7 = M ∧ LibMath.prefMax s 7 < s 7 then 1 else 0 := by
  unfold Gen.k0_pay33
  refine (step_apply _ _ _ _ _).trans ?_
  rw [hv50, h7, pay32_apply p s v110 v111 v122 hv110 h5 h6]

include hv50 hv110 h5 h6 h7 h8 in
theorem pay35_apply :
    Gen.k0_pay35 v50 v110 v111 v122 v133 v144 𝐢 = if s 8 = M ∧ LibMath.prefMax s 8 < s 8 then 1 else 0 := by
  unfold Gen.k0_pay35
  refine (step_apply _ _ _ _ _).trans ?_
  rw [hv50, h8, pay34_apply p s v110 v111 v122 v133 hv110 h5 h6 h7]

end C

section D
variable (v50 v143 : FVec Ideal S1x8192 .f32) (v144 v155 v166 v177 v188 : Vec Ideal S1x8192 .f32) (M : EReal) (hv50 : v50 (ix2 0 p) = M) (hv143 : v143 (ix2 0 p) = LibMath.prefMax s 8)
  (h8 : v144 (ix2 0 p) = s 8) (h9 : v155 (ix2 0 p) = s 9) (h10 : v166 (ix2 0 p) = s 10) (h11 : v177 (ix2 0 p) = s 11) (h12 : v188 (ix2 0 p) = s 12)

include hv143 h8 in
theorem pay36_apply :
    Gen.k0_pay36 v143 v144 𝐢 = LibMath.prefMax s 9 := by
  unfold Gen.k0_pay36
  rw [maximumf_apply, hv143, h8]
  rfl

include hv143 h8 h9 in
theorem pay38_apply :
    Gen.k0_pay38 v143 v144 v155 𝐢 = LibMath.prefMax s 10 := by
  unfold Gen.k0_pay38
  rw [maximumf_apply, pay36_apply p s v143 v144 hv143 h8, h9]
  rfl

include hv143 h8 h9 h10 in
theorem pay40_apply :
    Gen.k0_pay40 v143 v144 v155 v166 𝐢 = LibMath.prefMax s 11 := by
  unfold Gen.k0_pay40
  rw [maximumf_apply, pay38_apply p s v143 v144 v155 hv143 h8 h9, h10]
  rfl

include hv143 h8 h9 h10 h11 in
theorem pay42_apply :
    Gen.k0_pay42 v143 v144 v155 v166 v177 𝐢 = LibMath.prefMax s 12 := by
  unfold Gen.k0_pay42
  rw [maximumf_apply, pay40_apply p s v143 v144 v155 v166 hv143 h8 h9 h10, h11]
  rfl

include hv50 hv143 h8 h9 in
theorem pay37_apply :
    Gen.k0_pay37 v50 v143 v144 v155 𝐢 = if s 9 = M ∧ LibMath.prefMax s 9 < s 9 then 1 else 0 := by
  unfold Gen.k0_pay37
  refine (step_apply _ _ _ _ _).trans ?_
  rw [hv50, h9, pay36_apply p s v143 v144 hv143 h8]

include hv50 hv143 h8 h9 h10 in
theorem pay39_apply :
    Gen.k0_pay39 v50 v143 v144 v155 v166 𝐢 = if s 10 = M ∧ LibMath.prefMax s 10 < s 10 then 1 else 0 := by
  unfold Gen.k0_pay39
  refine (step_apply _ _ _ _ _).trans ?_
  rw [hv50, h10, pay38_apply p s v143 v144 v155 hv143 h8 h9]

include hv50 hv143 h8 h9 h10 h11 in
theorem pay41_apply :
    Gen.k0_pay41 v50 v143 v144 v155 v166 v177 𝐢 = if s 11 = M ∧ LibMath.prefMax s 11 < s 11 then 1 else 0 := by
  unfold Gen.k0_pay41
  refine (step_apply _ _ _ _ _).trans ?_
  rw [hv50, h11, pay40_apply p s v143 v144 v155 v166 hv143 h8 h9 h10]

include hv50 h12 in
theorem pay43_apply :
    Gen.k0_pay43 v50 v188 𝐢 = Ideal.cmp .oeq (s 12) M := by
  unfold Gen.k0_pay43
  show Ideal.cmp .oeq (v188 𝐢) (v50 𝐢) = _
  rw [hv50, h12]

include hv143 h8 h9 h10 h11 h12 in
theorem pay44_apply :
    Gen.k0_pay44 v143 v144 v155 v166 v177 v188 𝐢 = Ideal.cmp .ogt (s 12) (LibMath.prefMax s 12) := by
  unfold Gen.k0_pay44
  show Ideal.cmp .ogt (v188 𝐢) (Gen.k0_pay42 v143 v144 v155 v166 v177 𝐢) = _
  rw [pay42_apply p s v143 v144 v155 v166 v177 hv143 h8 h9 h10 h11, h12]

end D

theorem pay45_apply (v189 v190 : IVec S1x8192 1) (M : EReal)
    (h189 : v189 𝐢 = Ideal.cmp .oeq (s 12) M) (h190 : v190 𝐢 = Ideal.cmp .ogt (s 12) (LibMath.prefMax s 12)) :
    Gen.k0_pay45 (F := Ideal) v189 v190 𝐢 = if s 12 = M ∧ LibMath.prefMax s 12 < s 12 then 1 else 0 := by
  unfold Gen.k0_pay45
  exact step_bits_apply v189 v190 _ _ _ _ _ h189 h190

section E
variable (v50 v187 : FVec Ideal S1x8192 .f32) (v188 v199 v210 v221 : Vec Ideal S1x8192 .f32) (M : EReal) (hv50 : v50 (ix2 0 p) = M) (hv187 : v187 (ix2 0 p) = LibMath.prefMax s 12)
  (h12 : v188 (ix2 0 p) = s 12) (h13 : v199 (ix2 0 p) = s 13) (h14 : v210 (ix2 0 p) = s 14) (h15 : v221 (ix2 0 p) = s 15)

include hv187 h12 in
theorem pay46_apply :
    Gen.k0_pay46 v187 v188 𝐢 = LibMath.prefMax s 13 := by
  unfold Gen.k0_pay46
  rw [maximumf_apply, hv187, h12]
  rfl

include hv187 h12 h13 in
theorem pay48_apply :
    Gen.k0_pay48 v187 v188 v199 𝐢 = LibMath.prefMax s 14 := by
  unfold Gen.k0_pay48
  rw [maximumf_apply, pay46_apply p s v187 v188 hv187 h12, h13]
  rfl

include hv50 hv187 h12 h13 in
theorem pay47_apply :
    Gen.k0_pay47 v50 v187 v188 v199 𝐢 = if s 13 = M ∧ LibMath.prefMax s 13 < s 13 then 1 else 0 := by
  unfold Gen.k0_pay47
  refine (step_apply _ _ _ _ _).trans ?_
  rw [hv50, h13, pay46_apply p s v187 v188 hv187 h12]

include hv50 hv187 h12 h13 h14 in
theorem pay49_apply :
    Gen.k0_pay49 v50 v187 v188 v199 v210 𝐢 = if s 14 = M ∧ LibMath.prefMax s 14 < s 14 then 1 else 0 := by
  unfold Gen.k0_pay49
  refine (step_apply _ _ _ _ _).trans ?_
  rw [hv50, h14, pay48_apply p s v187 v188 v199 hv187 h12 h13]

include hv50 hv187 h12 h13 h14 h15 in
theorem pay50_apply :
    Gen.k0_pay50 v50 v187 v188 v199 v210 v221 𝐢 = if s 15 = M ∧ LibMath.prefMax s 15 < s 15 then 1 else 0 := by
  unfold Gen.k0_pay50
  refine (step_raw_apply _ _ _ _).trans ?_
  rw [hv50, h15, maximumf_apply, pay48_apply p s v187 v188 v199 hv187 h12 h13, h14]
  rfl

end E

theorem pay51_apply (v227 : FVec Ideal S1x8192 .f32) (i : S1x8192.Idx) : Gen.k0_pay51 v227 i = v227 i := by
  unfold Gen.k0_pay51
  rw [shapeCast_self]

end Steps

section Closing
variable (x : Fin 128 → Fin 8192 → EReal)

theorem hiSeq_val (p : Fin 8192) (c : Fin 128) : Spec.hiSeq x p c.val = Spec.hi x c p :=
  Spec.hiSeq_lt x p c.val c.isLt

theorem pay13_eq_max (v17 : Vec Ideal S128x8192 .f32) (v43 : FVec Ideal S128x8192 .f32) (v44 : Vec Ideal S128x8192 .f32)
    (p : Fin 8192) (hhi : ∀ c : Fin 128, Gen.k0_pay12 v17 v43 v44 (ix2 c p) = Spec.hi x c p) :
    Gen.k0_pay13 v17 v43 v44 (ix2 (0 : Fin 1) p) = LibMath.maxUpTo (Spec.hiSeq x p) 127 :=
  pay13_apply v17 v43 v44 p (Spec.hiSeq x p) (fun c => (hhi c).trans (hiSeq_val x p c).symm)

theorem pay14_eq_hiSeq (v17 : Vec Ideal S128x8192 .f32) (v43 : FVec Ideal S128x8192 .f32) (v44 : Vec Ideal S128x8192 .f32)
    (p : Fin 8192) (hhi : ∀ c : Fin 128, Gen.k0_pay12 v17 v43 v44 (ix2 c p) = Spec.hi x c p) (c : Fin 16) :
    Gen.k0_pay14 v17 v43 v44 (ix2 c p) = Spec.hiSeq x p c.val :=
  (pay14_apply v17 v43 v44 c p).trans
    ((hhi (⟨c.val, by omega⟩ : Fin 128)).trans (hiSeq_val x p (⟨c.val, by omega⟩ : Fin 128)).symm)

theorem ind_eq_oh (hx : ∀ c p, Spec.IsReal (x c p)) (k : Fin 16) (p : Fin 8192) :
    (if Spec.hiSeq x p k.val = LibMath.maxUpTo (Spec.hiSeq x p) 127
        ∧ LibMath.prefMax (Spec.hiSeq x p) k.val < Spec.hiSeq x p k.val then (1 : EReal) else 0) = Spec.oh x k p := by
  rw [Spec.oh_alt x hx k p, Spec.hiSeq_lt x p k.val (by omega)]

end Closing

end Cert.KernelIdeal.KPoh

end
-- ==== Proof.KPohChain.lean ====
import proofs.«135277_g2000205747536381_pallasbulk_86_37_alg».proof.Proof.KPoh

noncomputable section

namespace Cert.KernelIdeal.KPoh

open Idealize.ShloMosaic Idealize.ShloMosaic.ValueIdx
open Cert.KernelIdeal

section Chain
variable (x : Fin 128 → Fin 8192 → EReal) (hx : ∀ c p, Spec.IsReal (x c p))
variable (v17 : Vec Ideal S128x8192 .f32) (v43 : FVec Ideal S128x8192 .f32) (v44 : Vec Ideal S128x8192 .f32)
variable (hhi : ∀ (c : Fin 128) (p : Fin 8192), Gen.k0_pay12 v17 v43 v44 (ix2 c p) = Spec.hi x c p)
variable (v56 v67 v78 v89 v100 v111 v122 v133 v144 v155 v166 v177 v188 v199 v210 v221 : Vec Ideal S1x8192 .f32)

local notation "𝐇" => Gen.k0_pay14 v17 v43 v44

local notation "t50" => Gen.k0_pay13 v17 v43 v44
local notation "t77" => Gen.k0_pay19 v56 v67
local notation "t79" => Gen.k0_pay20 v17 v43 v44 v78
local notation "t80" => Gen.k0_pay21 v56 v67 v78
local notation "t110" => Gen.k0_pay27 t77 v78 v89 v100
local notation "t117" => Gen.k0_pay28 t50 t77 v78 v89 v100 v111
local notation "t143" => Gen.k0_pay34 t110 v111 v122 v133
local notation "t187" => Gen.k0_pay42 t143 v144 v155 v166 v177
local notation "t189" => Gen.k0_pay43 t50 v188
local notation "t190" => Gen.k0_pay44 t143 v144 v155 v166 v177 v188
local notation "t227" => Gen.k0_pay50 t50 t187 v188 v199 v210 v221

include hx hhi

-- The sixteen loads are the sequence's first terms, the folds its running maxima, and row k marks where the maximum is first met.
theorem onehot_of_rows (v231 : FVec Ideal S16x8192 .f32)
    (hr0 : ∀ p : Fin 8192, v56 (ix2 (0 : Fin 1) p) = 𝐇 (ix2 (0 : Fin 16) p))
    (hr1 : ∀ p : Fin 8192, v67 (ix2 (0 : Fin 1) p) = 𝐇 (ix2 (1 : Fin 16) p))
    (hr2 : ∀ p : Fin 8192, v78 (ix2 (0 : Fin 1) p) = 𝐇 (ix2 (2 : Fin 16) p))
    (hr3 : ∀ p : Fin 8192, v89 (ix2 (0 : Fin 1) p) = 𝐇 (ix2 (3 : Fin 16) p))
    (hr4 : ∀ p : Fin 8192, v100 (ix2 (0 : Fin 1) p) = 𝐇 (ix2 (4 : Fin 16) p))
    (hr5 : ∀ p : Fin 8192, v111 (ix2 (0 : Fin 1) p) = 𝐇 (ix2 (5 : Fin 16) p))
    (hr6 : ∀ p : Fin 8192, v122 (ix2 (0 : Fin 1) p) = 𝐇 (ix2 (6 : Fin 16) p))
    (hr7 : ∀ p : Fin 8192, v133 (ix2 (0 : Fin 1) p) = 𝐇 (ix2 (7 : Fin 16) p))
    (hr8 : ∀ p : Fin 8192, v144 (ix2 (0 : Fin 1) p) = 𝐇 (ix2 (8 : Fin 16) p))
    (hr9 : ∀ p : Fin 8192, v155 (ix2 (0 : Fin 1) p) = 𝐇 (ix2 (9 : Fin 16) p))
    (hr10 : ∀ p : Fin 8192, v166 (ix2 (0 : Fin 1) p) = 𝐇 (ix2 (10 : Fin 16) p))
    (hr11 : ∀ p : Fin 8192, v177 (ix2 (0 : Fin 1) p) = 𝐇 (ix2 (11 : Fin 16) p))
    (hr12 : ∀ p : Fin 8192, v188 (ix2 (0 : Fin 1) p) = 𝐇 (ix2 (12 : Fin 16) p))
    (hr13 : ∀ p : Fin 8192, v199 (ix2 (0 : Fin 1) p) = 𝐇 (ix2 (13 : Fin 16) p))
    (hr14 : ∀ p : Fin 8192, v210 (ix2 (0 : Fin 1) p) = 𝐇 (ix2 (14 : Fin 16) p))
    (hr15 : ∀ p : Fin 8192, v221 (ix2 (0 : Fin 1) p) = 𝐇 (ix2 (15 : Fin 16) p))
    (hw0 : ∀ p : Fin 8192, v231 (ix2 (0 : Fin 16) p) = Gen.k0_pay16 v17 v43 v44 v56 (ix2 (0 : Fin 1) p))
    (hw1 : ∀ p : Fin 8192, v231 (ix2 (1 : Fin 16) p) = Gen.k0_pay18 v17 v43 v44 v56 v67 (ix2 (0 : Fin 1) p))
    (hw2 : ∀ p : Fin 8192, v231 (ix2 (2 : Fin 16) p) = Gen.k0_pay22 (F := Ideal) t79 t80 (ix2 (0 : Fin 1) p))
    (hw3 : ∀ p : Fin 8192, v231 (ix2 (3 : Fin 16) p) = Gen.k0_pay24 t50 t77 v78 v89 (ix2 (0 : Fin 1) p))
    (hw4 : ∀ p : Fin 8192, v231 (ix2 (4 : Fin 16) p) = Gen.k0_pay26 t50 t77 v78 v89 v100 (ix2 (0 : Fin 1) p))
    (hw5 : ∀ p : Fin 8192, v231 (ix2 (5 : Fin 16) p) = Gen.k0_pay29 t117 (ix2 (0 : Fin 1) p))
    (hw6 : ∀ p : Fin 8192, v231 (ix2 (6 : Fin 16) p) = Gen.k0_pay31 t50 t110 v111 v122 (ix2 (0 : Fin 1) p))
    (hw7 : ∀ p : Fin 8192, v231 (ix2 (7 : Fin 16) p) = Gen.k0_pay33 t50 t110 v111 v122 v133 (ix2 (0 : Fin 1) p))
    (hw8 : ∀ p : Fin 8192, v231 (ix2 (8 : Fin 16) p) = Gen.k0_pay35 t50 t110 v111 v122 v133 v144 (ix2 (0 : Fin 1) p))
    (hw9 : ∀ p : Fin 8192, v231 (ix2 (9 : Fin 16) p) = Gen.k0_pay37 t50 t143 v144 v155 (ix2 (0 : Fin 1) p))
    (hw10 : ∀ p : Fin 8192, v231 (ix2 (10 : Fin 16) p) = Gen.k0_pay39 t50 t143 v144 v155 v166 (ix2 (0 : Fin 1) p))
    (hw11 : ∀ p : Fin 8192, v231 (ix2 (11 : Fin 16) p) = Gen.k0_pay41 t50 t143 v144 v155 v166 v177 (ix2 (0 : Fin 1) p))
    (hw12 : ∀ p : Fin 8192, v231 (ix2 (12 : Fin 16) p) = Gen.k0_pay45 (F := Ideal) t189 t190 (ix2 (0 : Fin 1) p))
    (hw13 : ∀ p : Fin 8192, v231 (ix2 (13 : Fin 16) p) = Gen.k0_pay47 t50 t187 v188 v199 (ix2 (0 : Fin 1) p))
    (hw14 : ∀ p : Fin 8192, v231 (ix2 (14 : Fin 16) p) = Gen.k0_pay49 t50 t187 v188 v199 v210 (ix2 (0 : Fin 1) p))
    (hw15 : ∀ p : Fin 8192, v231 (ix2 (15 : Fin 16) p) = Gen.k0_pay51 t227 (ix2 (0 : Fin 1) p)) :
    ∀ (k : Fin 16) (p : Fin 8192), v231 (ix2 k p) = Spec.oh x k p := by
  intro k p
  have l : ∀ (c : Fin 16) (v : Vec Ideal S1x8192 .f32), v (ix2 0 p) = 𝐇 (ix2 c p) → v (ix2 0 p) = Spec.hiSeq x p c.val :=
    fun c v hr => hr.trans (pay14_eq_hiSeq x v17 v43 v44 p (fun c => hhi c p) c)
  have l0 := l 0 v56 (hr0 p); have l1 := l 1 v67 (hr1 p); have l2 := l 2 v78 (hr2 p); have l3 := l 3 v89 (hr3 p)
  have l4 := l 4 v100 (hr4 p); have l5 := l 5 v111 (hr5 p); have l6 := l 6 v122 (hr6 p); have l7 := l 7 v133 (hr7 p)
  have l8 := l 8 v144 (hr8 p); have l9 := l 9 v155 (hr9 p); have l10 := l 10 v166 (hr10 p); have l11 := l 11 v177 (hr11 p)
  have l12 := l 12 v188 (hr12 p); have l13 := l 13 v199 (hr13 p); have l14 := l 14 v210 (hr14 p); have l15 := l 15 v221 (hr15 p)
  have m := pay13_eq_max x v17 v43 v44 p (fun c => hhi c p)
  have c2 := pay19_apply p _ v56 v67 l0 l1
  have c5 := pay27_apply p _ t77 v78 v89 v100 c2 l2 l3 l4
  have c8 := pay34_apply p _ t110 v111 v122 v133 c5 l5 l6 l7
  have c12 := pay42_apply p _ t143 v144 v155 v166 v177 c8 l8 l9 l10 l11
  refine Eq.trans ?_ (ind_eq_oh x hx k p)
  match k with
  | ⟨0, _⟩ => exact (hw0 p).trans (pay16_apply p _ v17 v43 v44 v56 _ m l0)
  | ⟨1, _⟩ => exact (hw1 p).trans (pay18_apply p _ v17 v43 v44 v56 v67 _ m l0 l1)
  | ⟨2, _⟩ => exact (hw2 p).trans (pay22_apply p _ t79 t80 _ (pay20_apply p _ v17 v43 v44 v78 _ m l2) (pay21_apply p _ v56 v67 v78 l0 l1 l2))
  | ⟨3, _⟩ => exact (hw3 p).trans (pay24_apply p _ t50 t77 v78 v89 _ m c2 l2 l3)
  | ⟨4, _⟩ => exact (hw4 p).trans (pay26_apply p _ t50 t77 v78 v89 v100 _ m c2 l2 l3 l4)
  | ⟨5, _⟩ => exact (hw5 p).trans ((pay29_apply t117 _).trans (pay28_apply p _ t50 t77 v78 v89 v100 v111 _ m c2 l2 l3 l4 l5))
  | ⟨6, _⟩ => exact (hw6 p).trans (pay31_apply p _ t50 t110 v111 v122 _ m c5 l5 l6)
  | ⟨7, _⟩ => exact (hw7 p).trans (pay33_apply p _ t50 t110 v111 v122 v133 _ m c5 l5 l6 l7)
  | ⟨8, _⟩ => exact (hw8 p).trans (pay35_apply p _ t50 t110 v111 v122 v133 v144 _ m c5 l5 l6 l7 l8)
  | ⟨9, _⟩ => exact (hw9 p).trans (pay37_apply p _ t50 t143 v144 v155 _ m c8 l8 l9)
  | ⟨10, _⟩ => exact (hw10 p).trans (pay39_apply p _ t50 t143 v144 v155 v166 _ m c8 l8 l9 l10)
  | ⟨11, _⟩ => exact (hw11 p).trans (pay41_apply p _ t50 t143 v144 v155 v166 v177 _ m c8 l8 l9 l10 l11)
  | ⟨12, _⟩ => exact (hw12 p).trans (pay45_apply p _ t189 t190 _ (pay43_apply p _ t50 v188 _ m l12) (pay44_apply p _ t143 v144 v155 v166 v177 v188 c8 l8 l9 l10 l11 l12))
  | ⟨13, _⟩ => exact (hw13 p).trans (pay47_apply p _ t50 t187 v188 v199 _ m c12 l12 l13)
  | ⟨14, _⟩ => exact (hw14 p).trans (pay49_apply p _ t50 t187 v188 v199 v210 _ m c12 l12 l13 l14)
  | ⟨15, _⟩ => exact (hw15 p).trans ((pay51_apply t227 _).trans (pay50_apply p _ t50 t187 v188 v199 v210 v221 _ m c12 l12 l13 l14 l15))
  | ⟨n + 16, h⟩ => exact absurd h (by omega)

end Chain

end Cert.KernelIdeal.KPoh

end
-- ==== Proof.KHost.lean ====
import proofs.«135277_g2000205747536381_pallasbulk_86_37_alg».proof.Proof.Gen.KernelIdeal.Frame
import proofs.«135277_g2000205747536381_pallasbulk_86_37_alg».proof.Proof.Spec
import Idealize.ShloMosaic.Lib.ValueIdx
import Idealize.ShloMosaic.Lib.Pipeline.Value
import Idealize.ShloMosaic.Lib.ValueLayout
import Idealize.ShloMosaic.Lib.StackMember
import Idealize.ShloMosaic.Lib.StableHlo.Predicate
import Idealize.ShloMosaic.PureOps.Ideal.Laws

set_option maxRecDepth 16384

noncomputable section

namespace Cert.KernelIdeal.KHost

open Idealize.ShloMosaic Idealize.ShloMosaic.TcCoe Idealize.ShloMosaic.ValueIdx
open Idealize.SL.Sem

variable (m : (ℓ : Loc nD τ sig) → Buf (Elt Ideal) ℓ) (c : Dev nD)

set_option quotPrecheck false in
local notation "A0" => (m ((c : Thread nD τ).loc main_arg0) : FVec Ideal S4x128x64x128 .f32)
set_option quotPrecheck false in
local notation "A1" => (m ((c : Thread nD τ).loc main_arg1) : FVec Ideal S128x128 .f32)
set_option quotPrecheck false in
local notation "A2" => (m ((c : Thread nD τ).loc main_arg2) : FVec Ideal S128x128x3x3 .f32)
set_option quotPrecheck false in
local notation "A3" => (m ((c : Thread nD τ).loc main_arg3) : FVec Ideal S128 .f32)
set_option quotPrecheck false in
local notation "A4" => (m ((c : Thread nD τ).loc main_arg4) : FVec Ideal S128 .f32)

theorem col_apply (a : FVec Ideal S128 .f32) (f : Fin 128) :
    shapeCast S128x1 a Gen.shapeCasts_S128_S128x1 (ix2 f (0 : Fin 1)) = a (ix1 f) :=
  shapeCast_apply a _ (ix2 f (0 : Fin 1)) (ix1 f) (by
    rw [Shape.rowMajor_val_one, Shape.rowMajor_val_two]; show f.val = f.val * 1 + 0; omega)

set_option maxHeartbeats 2000000 in
theorem V_gamma (f : Fin 128) : (Gen.V m c main_v28 : FVec Ideal S128x1 .f32) (ix2 f (0 : Fin 1)) = Cert.Spec.argV A3 f := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  exact col_apply _ f

set_option maxHeartbeats 2000000 in
theorem V_beta (f : Fin 128) : (Gen.V m c main_v29 : FVec Ideal S128x1 .f32) (ix2 f (0 : Fin 1)) = Cert.Spec.argV A4 f := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  exact col_apply _ f

def gramT (a : FVec Ideal S128x128 .f32) : FVec Ideal S128x128 .f32 :=
  Host.dotGeneral dot_S128x128_S128x128_S128x128_1_0_0_1_n_n none a (transpose S128x128 [1, 0] a Gen.transposes_S128x128_S128x128_1_0)

theorem gramT_apply (a : FVec Ideal S128x128 .f32) (i j : Fin 128) : gramT a (ix2 i j) = ∑ k : Fin 128, a (ix2 i k) * a (ix2 j k) := by
  show Host.dotGeneral (DotDims.plain 128 128 128) none a _ (ix2 i j) = _
  rw [StackMember.dotGeneral_plain_apply]
  refine Finset.sum_congr rfl fun k _ => ?_
  rw [transpose_apply _ _ _ (ix2 k j) (ix2 j k) (fun b => match b with | ⟨0, _⟩ => rfl | ⟨1, _⟩ => rfl)]

set_option maxHeartbeats 2000000 in
theorem V_M (i j : Fin 128) : (Gen.V m c main_v1 : FVec Ideal S128x128 .f32) (ix2 i j) = Cert.Spec.gram (Cert.Spec.argW A1) i j := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  show gramT _ _ = _
  rw [gramT_apply]; rfl

def wLay (a : FVec Ideal S128x128x3x3 .f32) : FVec Ideal S3x128x384 .bf16 :=
  truncf .bf16 (shapeCast S3x128x384 (transpose S3x128x3x128 [0, 2, 1, 3] (transpose S3x3x128x128 [2, 3, 0, 1] a Gen.transposes_S128x128x3x3_S3x3x128x128_2_3_0_1) Gen.transposes_S3x3x128x128_S3x128x3x128_0_2_1_3) Gen.shapeCasts_S3x128x3x128_S3x128x384) Gen.bitsLt_bf16_f32

theorem wLay_apply (a : FVec Ideal S128x128x3x3 .f32) (di : Fin 3) (f : Fin 128) (dj : Fin 3) (ch : Fin 128) :
    wLay a (ix3 di f (⟨128 * dj.val + ch.val, by omega⟩ : Fin 384)) = a (ix4 f ch di dj) := by
  unfold wLay
  rw [truncf_apply]
  rw [shapeCast_apply _ _ _ (ix4 di f dj ch) (by
    rw [Shape.rowMajor_val_four, Shape.rowMajor_val_three]
    show ((di.val * 128 + f.val) * 3 + dj.val) * 128 + ch.val = (di.val * 128 + f.val) * 384 + (128 * dj.val + ch.val)
    omega)]
  rw [transpose_apply _ _ _ (ix4 di f dj ch) (ix4 di dj f ch) (fun b => match b with | ⟨0, _⟩ => rfl | ⟨1, _⟩ => rfl | ⟨2, _⟩ => rfl | ⟨3, _⟩ => rfl)]
  rw [transpose_apply _ _ _ (ix4 di dj f ch) (ix4 f ch di dj) (fun b => match b with | ⟨0, _⟩ => rfl | ⟨1, _⟩ => rfl | ⟨2, _⟩ => rfl | ⟨3, _⟩ => rfl)]

set_option maxHeartbeats 2000000 in
theorem V_w (di : Fin 3) (f : Fin 128) (dj : Fin 3) (ch : Fin 128) : (Gen.V m c main_v5 : FVec Ideal S3x128x384 .bf16) (ix3 di f (⟨128 * dj.val + ch.val, by omega⟩ : Fin 384)) = Cert.Spec.argCw A2 f ch di dj := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  show wLay _ _ = _
  rw [wLay_apply]; rfl

theorem not_corner {x d : BitVec 32} (hd0 : 0 < d.toNat) (hd : d.toNat < 2 ^ 31) : ¬ IntOp.SDivCorner x d := by
  rintro (h | ⟨_, h⟩)
  · rw [h] at hd0; exact absurd hd0 (by decide)
  · rw [h] at hd; exact absurd hd (by decide)

theorem remsi_small {x d : BitVec 32} (hx : x.toNat < 2 ^ 31) (hd0 : 0 < d.toNat) (hd : d.toNat < 2 ^ 31) :
    IntOp.remsi .host x d = BitVec.ofNat 32 (x.toNat % d.toNat) := by
  have hmx : x.msb = false := BitVec.msb_eq_false_iff_two_mul_lt.mpr (by omega)
  have hmd : d.msb = false := BitVec.msb_eq_false_iff_two_mul_lt.mpr (by omega)
  apply BitVec.eq_of_toNat_eq
  have hlt : x.toNat % d.toNat < 2 ^ 32 := lt_of_le_of_lt (Nat.mod_le _ _) (by omega)
  simp only [IntOp.remsi, if_neg (not_corner hd0 hd), BitVec.srem_eq, hmx, hmd, BitVec.umod_eq, BitVec.toNat_umod, BitVec.toNat_ofNat,
    Nat.mod_eq_of_lt hlt]

theorem divsi_small {x d : BitVec 32} (hx : x.toNat < 2 ^ 31) (hd0 : 0 < d.toNat) (hd : d.toNat < 2 ^ 31) :
    IntOp.divsi .host x d = BitVec.ofNat 32 (x.toNat / d.toNat) := by
  have hmx : x.msb = false := BitVec.msb_eq_false_iff_two_mul_lt.mpr (by omega)
  have hmd : d.msb = false := BitVec.msb_eq_false_iff_two_mul_lt.mpr (by omega)
  apply BitVec.eq_of_toNat_eq
  have hlt : x.toNat / d.toNat < 2 ^ 32 := lt_of_le_of_lt (Nat.div_le_self _ _) (by omega)
  simp only [IntOp.divsi, if_neg (not_corner hd0 hd), BitVec.sdiv_eq, hmx, hmd, BitVec.udiv_eq, BitVec.toNat_udiv, BitVec.toNat_ofNat,
    Nat.mod_eq_of_lt hlt]

theorem slt_zero_small {a : BitVec 32} (ha : a.toNat < 2 ^ 31) : IntOp.cmpi .slt a 0#32 = 0#1 :=
  eq_zero_of_ne_one fun h => absurd ((StableHlo.Predicate.slt_iff_toNat ha (by decide)).mp h) (Nat.not_lt_zero _)

theorem andi_zero_left (b : BitVec 1) : IntOp.andi 0#1 b = 0#1 := by
  show 0#1 &&& b = 0#1
  exact BitVec.zero_and
theorem andi_zero_right (b : BitVec 1) : IntOp.andi b 0#1 = 0#1 := by
  show b &&& 0#1 = 0#1
  exact BitVec.and_zero

theorem frem_word {x d : BitVec 32} (hx : x.toNat < 2 ^ 31) (hd0 : 0 < d.toNat) (hd : d.toNat < 2 ^ 31) :
    Scalar.select
        (IntOp.andi
          (IntOp.cmpi .ne (IntOp.cmpi .slt (IntOp.remsi .host x (Scalar.select (IntOp.cmpi .eq d 0#32) 1#32 d)) 0#32)
            (IntOp.cmpi .slt (Scalar.select (IntOp.cmpi .eq d 0#32) 1#32 d) 0#32))
          (IntOp.cmpi .ne (IntOp.remsi .host x (Scalar.select (IntOp.cmpi .eq d 0#32) 1#32 d)) 0#32))
        (IntOp.addi (IntOp.remsi .host x (Scalar.select (IntOp.cmpi .eq d 0#32) 1#32 d)) (Scalar.select (IntOp.cmpi .eq d 0#32) 1#32 d))
        (IntOp.remsi .host x (Scalar.select (IntOp.cmpi .eq d 0#32) 1#32 d))
      = BitVec.ofNat 32 (x.toNat % d.toNat) := by
  have hg : Scalar.select (IntOp.cmpi .eq d 0#32) 1#32 d = d := by
    have : IntOp.cmpi .eq d 0#32 = 0#1 := eq_zero_of_ne_one fun h => by
      rw [StableHlo.Predicate.cmpi_eq_iff.mp h] at hd0; exact absurd hd0 (by decide)
    rw [this]; exact select_zero _ _
  have hr : (BitVec.ofNat 32 (x.toNat % d.toNat)).toNat < 2 ^ 31 := by
    rw [BitVec.toNat_ofNat]
    have : x.toNat % d.toNat < d.toNat := Nat.mod_lt _ hd0
    omega
  rw [hg, remsi_small hx hd0 hd, slt_zero_small hr, slt_zero_small hd,
    show IntOp.cmpi .ne (0#1) (0#1) = 0#1 from by decide, andi_zero_left]
  exact select_zero _ _

abbrev sgn (x : BitVec 32) : BitVec 32 := if x = 0 then 0 else if x.msb then -1 else 1

theorem fdiv_word {x d : BitVec 32} (hx : x.toNat < 2 ^ 31) (hd0 : 0 < d.toNat) (hd : d.toNat < 2 ^ 31) :
    Scalar.select
        (IntOp.andi (IntOp.cmpi .ne (sgn x) (sgn d)) (IntOp.cmpi .ne (IntOp.remsi .host x d) 0#32))
        (IntOp.subi (IntOp.divsi .host x d) 1#32)
        (IntOp.divsi .host x d)
      = BitVec.ofNat 32 (x.toNat / d.toNat) := by
  have hmx : x.msb = false := BitVec.msb_eq_false_iff_two_mul_lt.mpr (by omega)
  have hmd : d.msb = false := BitVec.msb_eq_false_iff_two_mul_lt.mpr (by omega)
  have hd1 : sgn d = 1 := by
    have : d ≠ 0 := fun h => by rw [h] at hd0; exact absurd hd0 (by decide)
    simp only [sgn, if_neg this, hmd, Bool.false_eq_true, if_false]
  have hc : IntOp.andi (IntOp.cmpi .ne (sgn x) (sgn d)) (IntOp.cmpi .ne (IntOp.remsi .host x d) 0#32) = 0#1 := by
    by_cases h0 : x = 0
    · subst h0
      rw [remsi_small hx hd0 hd]
      rw [show IntOp.cmpi .ne (BitVec.ofNat 32 ((0 : BitVec 32).toNat % d.toNat)) 0#32 = 0#1 from by
        rw [show ((0 : BitVec 32).toNat % d.toNat) = 0 from by simp]; decide]
      exact andi_zero_right _
    · have hx1 : sgn x = 1 := by simp only [sgn, if_neg h0, hmx, Bool.false_eq_true, if_false]
      rw [hx1, hd1, show IntOp.cmpi .ne (1 : BitVec 32) 1 = 0#1 from by decide]
      exact andi_zero_left _
  rw [hc, divsi_small hx hd0 hd]
  exact select_zero _ _

abbrev bc {w : Nat} (v : IVec S_ w) : IVec S8192 w := broadcastInDim S8192 ![] Gen.bcast_S_S8192 v

def guard (d : IVec S_ 32) : IVec S_ 32 := select (cmpi .eq d (constantI S_ 32 0#32)) (constantI S_ 32 1#32) d

def frem (x : IVec S8192 32) (d : IVec S_ 32) : IVec S8192 32 :=
  select
    (andi
      (cmpi .ne (cmpi .slt (Host.remsi x (bc (guard d))) (bc (constantI S_ 32 0#32))) (bc (cmpi .slt (guard d) (constantI S_ 32 0#32))))
      (cmpi .ne (Host.remsi x (bc (guard d))) (bc (constantI S_ 32 0#32))))
    (addi (Host.remsi x (bc (guard d))) (bc (guard d)))
    (Host.remsi x (bc (guard d)))

def fdiv (x : IVec S8192 32) (d : IVec S_ 32) : IVec S8192 32 :=
  select
    (andi (cmpi .ne (signi x) (bc (signi d))) (cmpi .ne (Host.remsi x (bc d)) (bc (constantI S_ 32 0#32))))
    (subi (Host.divsi x (bc d)) (bc (constantI S_ 32 1#32)))
    (Host.divsi x (bc d))

def rows2 (a b : IVec S8192 1) : IVec S2x8192 1 :=
  concatenate S2x8192 0 [⟨S1x8192, broadcastInDim S1x8192 ![1] Gen.bcast_S8192_S1x8192_1 a⟩,
    ⟨S1x8192, broadcastInDim S1x8192 ![1] Gen.bcast_S8192_S1x8192_1 b⟩] Gen.concatenates_S1x8192_S1x8192_S2x8192_d0

abbrev pos : IVec S8192 32 := iotaInDim S8192 32 0

theorem frem_apply (x : IVec S8192 32) (d : BitVec 32) (p : Fin 8192) (hx : (x (ix1 p)).toNat < 2 ^ 31) (hd0 : 0 < d.toNat) (hd : d.toNat < 2 ^ 31) :
    frem x (constantI S_ 32 d) (ix1 p) = BitVec.ofNat 32 ((x (ix1 p)).toNat % d.toNat) :=
  frem_word hx hd0 hd

theorem fdiv_apply (x : IVec S8192 32) (d : BitVec 32) (p : Fin 8192) (hx : (x (ix1 p)).toNat < 2 ^ 31) (hd0 : 0 < d.toNat) (hd : d.toNat < 2 ^ 31) :
    fdiv x (constantI S_ 32 d) (ix1 p) = BitVec.ofNat 32 ((x (ix1 p)).toNat / d.toNat) :=
  fdiv_word hx hd0 hd

theorem pos_apply (p : Fin 8192) : pos (ix1 p) = BitVec.ofNat 32 p.val := rfl

theorem rows2_zero (a b : IVec S8192 1) (p : Fin 8192) : rows2 a b (ix2 (0 : Fin 2) p) = a (ix1 p) := by
  unfold rows2
  rw [concatenate_pair_apply_left (s₁ := S1x8192) (s₂ := S1x8192) (0 : Fin 2) _ _ _ (ix2 (0 : Fin 2) p) rfl (ix2 (0 : Fin 1) p)
    (fun b => match b with | ⟨0, _⟩ => rfl | ⟨1, _⟩ => rfl)]
  exact broadcastInDim_apply _ _ a _ (ix1 p) (fun a => match a with | ⟨0, _⟩ => rfl)

theorem rows2_one (a b : IVec S8192 1) (p : Fin 8192) : rows2 a b (ix2 (1 : Fin 2) p) = b (ix1 p) := by
  unfold rows2
  rw [concatenate_pair_apply_right (s₁ := S1x8192) (s₂ := S1x8192) (0 : Fin 2) _ _ _ (ix2 (1 : Fin 2) p) rfl rfl (ix2 (0 : Fin 1) p)
    (fun b hb => match b, hb with | ⟨0, _⟩, hb => absurd rfl hb | ⟨1, _⟩, _ => rfl) rfl]
  exact broadcastInDim_apply _ _ b _ (ix1 p) (fun a => match a with | ⟨0, _⟩ => rfl)

set_option maxHeartbeats 8000000 in

theorem V_v19_eq : (Gen.V m c main_v19 : FVec Ideal S2x8192 .f32)
    = (uitofp .f32 (rows2
        (cmpi .eq (frem (frem pos (constantI S_ 32 128#32)) (constantI S_ 32 2#32)) (bc (constantI S_ 32 0#32)))
        (cmpi .eq (frem (fdiv pos (constantI S_ 32 128#32)) (constantI S_ 32 2#32)) (bc (constantI S_ 32 0#32)))) : FVec Ideal S2x8192 .f32) := by
  unfold rows2
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  refine congrArg (uitofp (F := Ideal) .f32) (congrArg₂ (fun (a b : IVec S1x8192 1) => concatenate S2x8192 0 [⟨S1x8192, a⟩, ⟨S1x8192, b⟩] Gen.concatenates_S1x8192_S1x8192_S2x8192_d0) ?_ ?_)
  · after_results_simp
    simp only [StableHlo.TRef.ofBuf, StableHlo.TRef.toBuf, cast_eq, id]
    rfl
  · after_results_simp
    simp only [StableHlo.TRef.ofBuf, StableHlo.TRef.toBuf, cast_eq, id]
    rfl

set_option maxHeartbeats 8000000 in

theorem V_v27_eq : (Gen.V m c main_v27 : FVec Ideal S2x8192 .bf16)
    = (uitofp .bf16 (rows2
        (cmpi .ne (frem pos (constantI S_ 32 128#32)) (bc (constantI S_ 32 0#32)))
        (cmpi .ne (frem pos (constantI S_ 32 128#32)) (bc (constantI S_ 32 127#32)))) : FVec Ideal S2x8192 .bf16) := by
  unfold rows2
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  refine congrArg (uitofp (F := Ideal) .bf16) (congrArg₂ (fun (a b : IVec S1x8192 1) => concatenate S2x8192 0 [⟨S1x8192, a⟩, ⟨S1x8192, b⟩] Gen.concatenates_S1x8192_S1x8192_S2x8192_d0) ?_ ?_)
  · after_results_simp
    simp only [StableHlo.TRef.ofBuf, StableHlo.TRef.toBuf, cast_eq, id]
    rfl
  · after_results_simp
    simp only [StableHlo.TRef.ofBuf, StableHlo.TRef.toBuf, cast_eq, id]
    rfl

theorem uitofp_bit {φ : FTy} (x : IVec S2x8192 1) (i : S2x8192.Idx) :
    (uitofp φ x : FVec Ideal S2x8192 φ) i = if x i = 1#1 then 1 else 0 := by
  show (((x i).toNat : ℝ) : EReal) = _
  rcases BitVec.eq_zero_or_eq_one (x i) with h | h
  · rw [h, if_neg (by decide)]; show (((0 : ℕ) : ℝ) : EReal) = 0; simp
  · rw [h, if_pos rfl]; show (((1 : ℕ) : ℝ) : EReal) = 1; simp

theorem ofNat_inj_small {n k : ℕ} (hn : n < 2 ^ 32) (hk : k < 2 ^ 32) : BitVec.ofNat 32 n = BitVec.ofNat 32 k ↔ n = k := by
  constructor
  · intro h
    have := congrArg BitVec.toNat h
    rwa [BitVec.toNat_ofNat, BitVec.toNat_ofNat, Nat.mod_eq_of_lt hn, Nat.mod_eq_of_lt hk] at this
  · rintro rfl; rfl

theorem col_word (p : Fin 8192) : frem pos (constantI S_ 32 128#32) (ix1 p) = BitVec.ofNat 32 (p.val % 128) := by
  have hp : (pos (ix1 p)).toNat = p.val := by
    rw [pos_apply, BitVec.toNat_ofNat]; exact Nat.mod_eq_of_lt (by have := p.isLt; omega)
  rw [frem_apply pos 128#32 p (by rw [hp]; have := p.isLt; omega) (by decide) (by decide), hp]
  rfl

theorem row_word (p : Fin 8192) : fdiv pos (constantI S_ 32 128#32) (ix1 p) = BitVec.ofNat 32 (p.val / 128) := by
  have hp : (pos (ix1 p)).toNat = p.val := by
    rw [pos_apply, BitVec.toNat_ofNat]; exact Nat.mod_eq_of_lt (by have := p.isLt; omega)
  rw [fdiv_apply pos 128#32 p (by rw [hp]; have := p.isLt; omega) (by decide) (by decide), hp]
  rfl

theorem parity_word (x : IVec S8192 32) (p : Fin 8192) (n : ℕ) (hn : n < 2 ^ 31) (hx : x (ix1 p) = BitVec.ofNat 32 n) :
    frem x (constantI S_ 32 2#32) (ix1 p) = BitVec.ofNat 32 (n % 2) := by
  have hv : (x (ix1 p)).toNat = n := by rw [hx, BitVec.toNat_ofNat]; exact Nat.mod_eq_of_lt (by omega)
  rw [frem_apply x 2#32 p (by rw [hv]; exact hn) (by decide) (by decide), hv]
  rfl

theorem V_pmask0 (p : Fin 8192) : (Gen.V m c main_v19 : FVec Ideal S2x8192 .f32) (ix2 (0 : Fin 2) p) = (if p.val % 2 = 0 then 1 else 0 : EReal) := by
  rw [V_v19_eq, uitofp_bit, rows2_zero]
  refine if_congr ?_ rfl rfl
  show IntOp.cmpi .eq (frem (frem pos (constantI S_ 32 128#32)) (constantI S_ 32 2#32) (ix1 p)) 0#32 = 1#1 ↔ _
  rw [StableHlo.Predicate.cmpi_eq_iff, parity_word _ p (p.val % 128) (by omega) (col_word p)]
  rw [show (0#32 : BitVec 32) = BitVec.ofNat 32 0 from rfl, ofNat_inj_small (by omega) (by omega)]
  omega

theorem V_pmask1 (p : Fin 8192) : (Gen.V m c main_v19 : FVec Ideal S2x8192 .f32) (ix2 (1 : Fin 2) p) = (if p.val / 128 % 2 = 0 then 1 else 0 : EReal) := by
  rw [V_v19_eq, uitofp_bit, rows2_one]
  refine if_congr ?_ rfl rfl
  show IntOp.cmpi .eq (frem (fdiv pos (constantI S_ 32 128#32)) (constantI S_ 32 2#32) (ix1 p)) 0#32 = 1#1 ↔ _
  rw [StableHlo.Predicate.cmpi_eq_iff, parity_word _ p (p.val / 128) (by have := p.isLt; omega) (row_word p)]
  rw [show (0#32 : BitVec 32) = BitVec.ofNat 32 0 from rfl, ofNat_inj_small (by omega) (by omega)]

theorem V_bmask0 (p : Fin 8192) : (Gen.V m c main_v27 : FVec Ideal S2x8192 .bf16) (ix2 (0 : Fin 2) p) = (if p.val % 128 = 0 then 0 else 1 : EReal) := by
  rw [V_v27_eq, uitofp_bit, rows2_zero]
  rw [← ite_not]
  refine if_congr ?_ rfl rfl
  show ¬ IntOp.cmpi .ne (frem pos (constantI S_ 32 128#32) (ix1 p)) 0#32 = 1#1 ↔ _
  rw [IntOp.cmpi_ne, not_not, col_word p, show (0#32 : BitVec 32) = BitVec.ofNat 32 0 from rfl, ofNat_inj_small (by omega) (by omega)]

theorem V_bmask1 (p : Fin 8192) : (Gen.V m c main_v27 : FVec Ideal S2x8192 .bf16) (ix2 (1 : Fin 2) p) = (if p.val % 128 = 127 then 0 else 1 : EReal) := by
  rw [V_v27_eq, uitofp_bit, rows2_one]
  rw [← ite_not]
  refine if_congr ?_ rfl rfl
  show ¬ IntOp.cmpi .ne (frem pos (constantI S_ 32 128#32) (ix1 p)) 127#32 = 1#1 ↔ _
  rw [IntOp.cmpi_ne, not_not, col_word p, show (127#32 : BitVec 32) = BitVec.ofNat 32 127 from rfl, ofNat_inj_small (by omega) (by omega)]

end Cert.KernelIdeal.KHost

end
-- ==== Proof.KBlk.lean ====
import proofs.«135277_g2000205747536381_pallasbulk_86_37_alg».proof.Proof.KDefs
import proofs.«135277_g2000205747536381_pallasbulk_86_37_alg».proof.Proof.Spec
import proofs.«135277_g2000205747536381_pallasbulk_86_37_alg».proof.Proof.KHost
import Idealize.ShloMosaic.Lib.ValueIdx
import Idealize.ShloMosaic.Lib.Pipeline.Value

set_option maxRecDepth 16384

noncomputable section

namespace Cert.KernelIdeal.KBlk

open Idealize.ShloMosaic Idealize.ShloMosaic.TcCoe Idealize.ShloMosaic.ValueIdx
open Idealize.SL.Sem

variable {F : FTy → Type} [FloatOps F]
variable (m : (ℓ : Loc nD τ sig) → Buf (Elt F) ℓ) (c : Dev nD)

theorem idx0 : ∀ t : Fin cfg0.N, win0_0.index t (0 : Fin 4) = (if t.val < 4 then t.val else 3)
    ∧ win0_0.index t (1 : Fin 4) = 0 ∧ win0_0.index t (2 : Fin 4) = 0 ∧ win0_0.index t (3 : Fin 4) = 0 :=
  (by decide +kernel : ∀ t : Fin grid0.N, _)

theorem iblk0_eq (t : Fin cfg0.N) :
    (Gen.iblk m c 0 t : FVec F S1x128x64x128 .f32)
      = fun j => (Gen.V m c main_arg0 : FVec F S4x128x64x128 .f32)
          (ix4 (⟨if t.val < 4 then t.val else 3, by split <;> omega⟩ : Fin 4) (j 1) (j 2) (j 3)) := by
  funext j
  show Gen.V m c main_arg0 (((cfg0.win 0).blk t).view.emb j) = Gen.V m c main_arg0 _
  obtain ⟨e0, e1, e2, e3⟩ := idx0 t
  refine congrArg _ (funext fun a => Fin.ext ?_)
  have hj : (j 0).val < 1 := (j 0).isLt
  match a with
  | ⟨0, _⟩ => show win0_0.index t (0 : Fin 4) * 1 + 1 * (j 0).val = (if t.val < 4 then t.val else 3); omega
  | ⟨1, _⟩ => show win0_0.index t (1 : Fin 4) * 128 + 1 * (j 1).val = (j 1).val; omega
  | ⟨2, _⟩ => show win0_0.index t (2 : Fin 4) * 64 + 1 * (j 2).val = (j 2).val; omega
  | ⟨3, _⟩ => show win0_0.index t (3 : Fin 4) * 128 + 1 * (j 3).val = (j 3).val; omega

theorem iblk0_apply (t : Fin cfg0.N) (ht : t.val < 4) (u : Fin 1) (ch : Fin 128) (h : Fin 64) (w : Fin 128) :
    Gen.iblk m c 0 t (ix4 u ch h w)
      = (Gen.V m c main_arg0 : FVec F S4x128x64x128 .f32) (ix4 (⟨t.val, ht⟩ : Fin 4) ch h w) := by
  refine (congrFun (iblk0_eq m c t) (ix4 u ch h w)).trans ?_
  refine congrArg (Gen.V m c main_arg0 : FVec F S4x128x64x128 .f32) (funext fun a => Fin.ext ?_)
  match a with
  | ⟨0, _⟩ => show (if t.val < 4 then t.val else 3) = t.val; rw [if_pos ht]
  | ⟨1, _⟩ => rfl
  | ⟨2, _⟩ => rfl
  | ⟨3, _⟩ => rfl

theorem idx1 : ∀ t : Fin cfg0.N, win0_1.index t (0 : Fin 2) = 0 ∧ win0_1.index t (1 : Fin 2) = 0 :=
  (by decide +kernel : ∀ t : Fin grid0.N, _)

theorem iblk1_eq (t : Fin cfg0.N) : (Gen.iblk m c 1 t : FVec F S128x128 .f32) = Gen.V m c main_v1 := by
  funext j
  show Gen.V m c main_v1 (((cfg0.win 1).blk t).view.emb j) = Gen.V m c main_v1 j
  obtain ⟨e0, e1⟩ := idx1 t
  refine congrArg _ (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega

theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)

theorem iblk2_eq (t : Fin cfg0.N) : (Gen.iblk m c 2 t : FVec F S3x128x384 .bf16) = Gen.V m c main_v5 := by
  funext j
  show Gen.V m c main_v5 (((cfg0.win 2).blk t).view.emb j) = Gen.V m c main_v5 j
  obtain ⟨e0, e1, e2⟩ := idx2 t
  refine congrArg _ (funext fun a => Fin.ext ?_)
  match a with
  | ⟨0, _⟩ => show win0_2.index t (0 : Fin 3) * 3 + 1 * (j 0).val = (j 0).val; omega
  | ⟨1, _⟩ => show win0_2.index t (1 : Fin 3) * 128 + 1 * (j 1).val = (j 1).val; omega
  | ⟨2, _⟩ => show win0_2.index t (2 : Fin 3) * 384 + 1 * (j 2).val = (j 2).val; omega

theorem idx3 : ∀ t : Fin cfg0.N, win0_3.index t (0 : Fin 2) = 0 ∧ win0_3.index t (1 : Fin 2) = 0 :=
  (by decide +kernel : ∀ t : Fin grid0.N, _)

theorem iblk3_eq (t : Fin cfg0.N) : (Gen.iblk m c 3 t : FVec F S2x8192 .f32) = Gen.V m c main_v19 := by
  funext j
  show Gen.V m c main_v19 (((cfg0.win 3).blk t).view.emb j) = Gen.V m c main_v19 j
  obtain ⟨e0, e1⟩ := idx3 t
  refine congrArg _ (funext fun a => Fin.ext ?_)
  match a with
  | ⟨0, _⟩ => show win0_3.index t (0 : Fin 2) * 2 + 1 * (j 0).val = (j 0).val; omega
  | ⟨1, _⟩ => show win0_3.index t (1 : Fin 2) * 8192 + 1 * (j 1).val = (j 1).val; omega

theorem idx4 : ∀ t : Fin cfg0.N, win0_4.index t (0 : Fin 2) = 0 ∧ win0_4.index t (1 : Fin 2) = 0 :=
  (by decide +kernel : ∀ t : Fin grid0.N, _)

theorem iblk4_eq (t : Fin cfg0.N) : (Gen.iblk m c 4 t : FVec F S2x8192 .bf16) = Gen.V m c main_v27 := by
  funext j
  show Gen.V m c main_v27 (((cfg0.win 4).blk t).view.emb j) = Gen.V m c main_v27 j
  obtain ⟨e0, e1⟩ := idx4 t
  refine congrArg _ (funext fun a => Fin.ext ?_)
  match a with
  | ⟨0, _⟩ => show win0_4.index t (0 : Fin 2) * 2 + 1 * (j 0).val = (j 0).val; omega
  | ⟨1, _⟩ => show win0_4.index t (1 : Fin 2) * 8192 + 1 * (j 1).val = (j 1).val; omega

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

section AtIdeal
variable (m : (ℓ : Loc nD τ sig) → Buf (Elt Ideal) ℓ) (c : Dev nD)

theorem iblk0_argX (t : Fin cfg0.N) (ht : t.val < 4) (u : Fin 1) (ch : Fin 128) (h : Fin 64) (w : Fin 128) :
    Gen.iblk m c 0 t (ix4 u ch h w)
      = Cert.Spec.argX (m ((c : Thread nD τ).loc main_arg0) : FVec Ideal S4x128x64x128 .f32) (⟨t.val, ht⟩ : Fin 4) ch (⟨128 * h.val + w.val, by omega⟩ : Fin 8192) := by
  rw [iblk0_apply m c t ht u ch h w, Gen.V_main_arg0]
  unfold Cert.Spec.argX
  refine congrArg _ (funext fun a => Fin.ext ?_)
  match a with
  | ⟨0, _⟩ => rfl
  | ⟨1, _⟩ => rfl
  | ⟨2, _⟩ => show h.val = (128 * h.val + w.val) / 128; omega
  | ⟨3, _⟩ => show w.val = (128 * h.val + w.val) % 128; omega

theorem iblk1_gram (t : Fin cfg0.N) (i j : Fin 128) :
    Gen.iblk m c 1 t (ix2 i j) = Cert.Spec.gram (Cert.Spec.argW (m ((c : Thread nD τ).loc main_arg1) : FVec Ideal S128x128 .f32)) i j :=
  (congrFun (iblk1_eq m c t) _).trans (KHost.V_M m c i j)

theorem iblk2_w (t : Fin cfg0.N) (di : Fin 3) (f : Fin 128) (dj : Fin 3) (ch : Fin 128) :
    Gen.iblk m c 2 t (ix3 di f (⟨128 * dj.val + ch.val, by omega⟩ : Fin 384)) = Cert.Spec.argCw (m ((c : Thread nD τ).loc main_arg2) : FVec Ideal S128x128x3x3 .f32) f ch di dj :=
  (congrFun (iblk2_eq m c t) _).trans (KHost.V_w m c di f dj ch)

theorem iblk3_of (t : Fin cfg0.N) (k : Fin 2) (g : Fin 8192 → EReal)
    (hV : ∀ p : Fin 8192, (Gen.V m c main_v19 : FVec Ideal S2x8192 .f32) (ix2 k p) = g p) (p : Fin 8192) :
    Gen.iblk m c 3 t (ix2 k p) = g p :=
  (congrFun (iblk3_eq m c t) _).trans (hV p)

theorem iblk4_of (t : Fin cfg0.N) (k : Fin 2) (g : Fin 8192 → EReal)
    (hV : ∀ p : Fin 8192, (Gen.V m c main_v27 : FVec Ideal S2x8192 .bf16) (ix2 k p) = g p) (p : Fin 8192) :
    Gen.iblk m c 4 t (ix2 k p) = g p :=
  (congrFun (iblk4_eq m c t) _).trans (hV p)

end AtIdeal

end Cert.KernelIdeal.KBlk

end
-- ==== Proof.KA1.lean ====
import proofs.«135277_g2000205747536381_pallasbulk_86_37_alg».proof.Proof.KRunA
import proofs.«135277_g2000205747536381_pallasbulk_86_37_alg».proof.Proof.KInv
import proofs.«135277_g2000205747536381_pallasbulk_86_37_alg».proof.Proof.KPhi
import proofs.«135277_g2000205747536381_pallasbulk_86_37_alg».proof.Proof.KPmid
import proofs.«135277_g2000205747536381_pallasbulk_86_37_alg».proof.Proof.KPieces
import proofs.«135277_g2000205747536381_pallasbulk_86_37_alg».proof.Proof.KPadBuf
import proofs.«135277_g2000205747536381_pallasbulk_86_37_alg».proof.Proof.KPohChain
import proofs.«135277_g2000205747536381_pallasbulk_86_37_alg».proof.Proof.KBlk
import proofs.«135277_g2000205747536381_pallasbulk_86_37_alg».proof.Proof.KHost

set_option maxRecDepth 16384

noncomputable section

namespace Cert.KernelIdeal.Gen

open Idealize.ShloMosaic Idealize.ShloMosaic.TcCoe Idealize.ShloMosaic.Tactic Idealize.ShloMosaic.ValueIdx

namespace KA1

theorem zero_border (j : S128x128.Idx) :
    shapeCast S128x128 (broadcast S128x128 (Scalar.ofBits (F := Ideal) .f32 0x00000000#32)) shapeCasts_S128x128_S128x128 j = (0 : EReal) := by
  rw [shapeCast_self]
  exact Ideal.ofBits_zero_f32

theorem padded_load {κ : Kind} {sp : Space} (v : View sig κ sp S128x8448 .f32)
    (w : (Rect.unit (s := S128x8448) ![0, 128] S128x8192.size inb_S128x8448_S128x8192_0_128).shape.Idx → Elt Ideal .f32)
    (zR : (Rect.unit (s := S128x8448) ![0, 8320] S128x128.size inb_S128x8448_S128x128_0_8320).shape.Idx → Elt Ideal .f32)
    (zL : (Rect.unit (s := S128x8448) ![0, 0] S128x128.size inb_S128x8448_S128x128_0_0).shape.Idx → Elt Ideal .f32)
    (s : Fin 128 → Fin 8192 → EReal) (hw : ∀ (ch : Fin 128) (p : Fin 8192), w (ix2 ch p) = s ch p)
    (hR : ∀ j, zR j = (0 : EReal)) (hL : ∀ j, zL j = (0 : EReal))
    (k : ℕ) (inbk : ∀ a, (![0, k] : Fin 2 → ℕ) a + S128x8192.size a ≤ S128x8448.size a)
    (ch : Fin 128) (p : Fin 8192) (hk : k + p.val < 8448) :
    v.readCov [⟨Rect.unit ![0, 128] S128x8192.size inb_S128x8448_S128x8192_0_128, w⟩,
        ⟨Rect.unit ![0, 8320] S128x128.size inb_S128x8448_S128x128_0_8320, zR⟩,
        ⟨Rect.unit ![0, 0] S128x128.size inb_S128x8448_S128x128_0_0, zL⟩]
        (Rect.unit (s := S128x8448) ![0, k] S128x8192.size inbk).toLoadRect (ix2 ch p)
      = KPhi.pad s ch ⟨k + p.val, hk⟩ := by
  have hch := ch.isLt
  have hrow : (⟨0 + ch.val, by omega⟩ : Fin 128) = ch := Fin.ext (Nat.zero_add _)
  refine (KPieces.readCov_unit2_apply v _ (n0 := 128) (n1 := 8192) inbk ch p (by omega) hk).trans ?_
  rw [hrow]
  unfold KPhi.pad
  by_cases hmid : 128 ≤ k + p.val ∧ k + p.val < 8320
  ·
    rw [dif_pos hmid]
    refine (KPieces.canon_cons_unit2 (n0 := 128) (n1 := 8192) inb_S128x8448_S128x8192_0_128 w _ ch ⟨k + p.val, hk⟩
      (by omega) (by show 128 ≤ k + p.val ∧ k + p.val < 128 + 8192; omega)).trans ?_
    exact hw _ _
  · rw [dif_neg hmid]
    refine (KPieces.canon_cons_unit2_of_not_mem (n0 := 128) (n1 := 8192) inb_S128x8448_S128x8192_0_128 w _ ch ⟨k + p.val, hk⟩
      (by show ch.val < 0 ∨ 0 + 128 ≤ ch.val ∨ k + p.val < 128 ∨ 128 + 8192 ≤ k + p.val; omega)).trans ?_
    by_cases hright : 8320 ≤ k + p.val
    ·
      refine (KPieces.canon_cons_unit2 (n0 := 128) (n1 := 128) inb_S128x8448_S128x128_0_8320 zR _ ch ⟨k + p.val, hk⟩
        (by omega) (by show 8320 ≤ k + p.val ∧ k + p.val < 8320 + 128; omega)).trans ?_
      exact hR _
    ·
      refine (KPieces.canon_cons_unit2_of_not_mem (n0 := 128) (n1 := 128) inb_S128x8448_S128x128_0_8320 zR _ ch ⟨k + p.val, hk⟩
        (by show ch.val < 0 ∨ 0 + 128 ≤ ch.val ∨ k + p.val < 8320 ∨ 8320 + 128 ≤ k + p.val; omega)).trans ?_
      refine (KPieces.canon_cons_unit2 (n0 := 128) (n1 := 128) inb_S128x8448_S128x128_0_0 zL _ ch ⟨k + p.val, hk⟩
        (by omega) (by show 0 ≤ k + p.val ∧ k + p.val < 0 + 128; omega)).trans ?_
      exact hL _

variable (c : Dev nD) (arg2 : Memref sig .tc .vmem S1x128x64x128 .f32) (harg2 : arg2.IsWhole) (arg3 : Memref sig .tc .vmem S128x128 .f32) (harg3 : arg3.IsWhole) (arg5 : Memref sig .tc .vmem S2x8192 .f32) (harg5 : arg5.IsWhole) (arg13 : Memref sig .tc .vmem S128x8448 .f32) (arg14 : Memref sig .tc .vmem S128x8448 .f32) (arg15 : Memref sig .tc .vmem S16x8192 .f32) (arg16 : Memref sig .tc .vmem S16x8192 .f32)
  (x2 : Vec Ideal S1x128x64x128 .f32) (x3 : Vec Ideal S128x128 .f32) (x5 : Vec Ideal S2x8192 .f32)

variable (X : Fin 128 → Fin 8192 → EReal) (M : Fin 128 → Fin 128 → EReal)

set_option quotPrecheck false in
local notation "𝐯17" => kernelRun0_A.sl.v17 c arg2 harg2 arg13 x2
set_option quotPrecheck false in
local notation "𝐯231" => kernelRun0_A.sl.v231 c arg2 harg2 arg5 harg5 arg13 arg14 arg15 arg16 x2 x5

section Loads
variable (hx2 : ∀ (ch : Fin 128) (r : Fin 64) (w : Fin 128), x2 (ix4 (0 : Fin 1) ch r w) = X ch ⟨128 * r.val + w.val, by omega⟩)
variable (hx3 : ∀ i j : Fin 128, x3 (ix2 i j) = M i j)
variable (hm0 : ∀ p : Fin 8192, x5 (ix2 (0 : Fin 2) p) = if p.val % 2 = 0 then 1 else 0)
variable (hm1 : ∀ p : Fin 8192, x5 (ix2 (1 : Fin 2) p) = if p.val / 128 % 2 = 0 then 1 else 0)
variable (hX : ∀ ch p, Spec.IsReal (X ch p))

include hx2 in

theorem load_xpad (k : ℕ) (inbk : ∀ a, (![0, k] : Fin 2 → ℕ) a + S128x8192.size a ≤ S128x8448.size a)
    (ch : Fin 128) (p : Fin 8192) (hk : k + p.val < 8448) :
    arg13.view.readCov (kernelRun0_A.sl.H13_3 c arg2 harg2 x2)
        (Rect.unit (s := S128x8448) ![0, k] S128x8192.size inbk).toLoadRect (ix2 ch p)
      = KPhi.pad X ch ⟨k + p.val, hk⟩ := by
  unfold kernelRun0_A.sl.H13_3 kernelRun0_A.sl.H13_2
  exact padded_load arg13.view _ _ _ X (fun ch p =>
    KPhi.pay9_eq _ X (fun ch r w => by
      rw [KPadBuf.readAt_whole_unread arg2 harg2 x2 (funext fun a => by fin_cases a <;> rfl)]
      exact hx2 ch r w) ch p) zero_border zero_border
    k inbk ch p hk

include hx2 hm0 in

theorem load_hpad (k : ℕ) (inbk : ∀ a, (![0, k] : Fin 2 → ℕ) a + S128x8192.size a ≤ S128x8448.size a)
    (ch : Fin 128) (p : Fin 8192) (hk : k + p.val < 8448) :
    arg14.view.readCov (kernelRun0_A.sl.H14_3 c arg2 harg2 arg5 harg5 arg13 x2 x5)
        (Rect.unit (s := S128x8448) ![0, k] S128x8192.size inbk).toLoadRect (ix2 ch p)
      = KPhi.pad (KPhi.hsum X) ch ⟨k + p.val, hk⟩ := by
  unfold kernelRun0_A.sl.H14_3 kernelRun0_A.sl.H14_2
  exact padded_load arg14.view _ _ _ (KPhi.hsum X) (fun ch p => by
      refine KPhi.pay10_eq_hsum_of_pad X _ _ _ _ (fun ch p => ?_) (fun p => (KPadBuf.readAt_row arg5 harg5 x5 0 _ p (by omega)).trans (hm0 p)) (fun ch p => ?_) (fun ch p => ?_) ch p
      · unfold kernelRun0_A.sl.v17
        exact load_xpad c arg2 harg2 arg13 x2 X hx2 128 _ ch p _
      · unfold kernelRun0_A.sl.v22
        exact load_xpad c arg2 harg2 arg13 x2 X hx2 127 _ ch p _
      · unfold kernelRun0_A.sl.v23
        exact load_xpad c arg2 harg2 arg13 x2 X hx2 129 _ ch p _)
    zero_border zero_border k inbk ch p hk

include hx2 in

theorem load_v17 (ch : Fin 128) (p : Fin 8192) : 𝐯17 (ix2 ch p) = X ch p := by
  unfold kernelRun0_A.sl.v17
  exact (load_xpad c arg2 harg2 arg13 x2 X hx2 128 _ ch p (by omega)).trans (KPhi.pad_mid X ch p)

local macro "kept_row " n:ident k:num : tactic =>
  `(tactic| (unfold $n kernelRun0_A.sl.H15_1; exact KPadBuf.readCov_whole_row _ _ _ $k (by omega) _ _))

local macro "indicator_row " k:num : tactic =>
  `(tactic| (
    unfold kernelRun0_A.sl.v231
    refine (KPadBuf.readCov_whole_apply _ _ _ ($k : Fin 16) _).trans ?_
    unfold kernelRun0_A.sl.H16_16 kernelRun0_A.sl.H16_15 kernelRun0_A.sl.H16_12 kernelRun0_A.sl.H16_9 kernelRun0_A.sl.H16_5 kernelRun0_A.sl.H16_2
    repeat (refine (KPadBuf.canon_row_miss _ _ _ _ ($k : Fin 16) (by decide) _).trans ?_)
    exact KPadBuf.canon_row_hit $k (by omega) _ _ _ _))

set_option maxHeartbeats 1600000 in
include hx2 hm0 hm1 hX in

theorem indicator (k : Fin 16) (p : Fin 8192) : 𝐯231 (ix2 k p) = Spec.oh X k p :=
  KPoh.onehot_of_rows X hX 𝐯17 (kernelRun0_A.sl.r c arg2 harg2 arg5 harg5 arg13 arg14 x2 x5) (kernelRun0_A.sl.v44 c arg2 harg2 arg5 harg5 arg13 arg14 x2 x5) (fun ch p => by
      unfold kernelRun0_A.sl.r
      refine KPhi.pay12_eq_hi_of_pad X _ _ _ _ _ (load_v17 c arg2 harg2 arg13 x2 X hx2) (fun p => (KPadBuf.readAt_row arg5 harg5 x5 1 _ p (by omega)).trans (hm1 p))
        (fun ch p => ?_) (fun ch p => ?_) (fun ch p => ?_) ch p
      · unfold kernelRun0_A.sl.v35
        exact (load_hpad c arg2 harg2 arg5 harg5 arg13 arg14 x2 x5 X hx2 hm0 0 _ ch p (by omega)).trans (congrArg _ (Fin.ext (Nat.zero_add _)))
      · unfold kernelRun0_A.sl.v36
        exact load_hpad c arg2 harg2 arg5 harg5 arg13 arg14 x2 x5 X hx2 hm0 256 _ ch p _
      · unfold kernelRun0_A.sl.v44
        exact load_hpad c arg2 harg2 arg5 harg5 arg13 arg14 x2 x5 X hx2 hm0 128 _ ch p _)
    (kernelRun0_A.sl.v56 c arg2 harg2 arg5 harg5 arg13 arg14 arg15 x2 x5) (kernelRun0_A.sl.v67 c arg2 harg2 arg5 harg5 arg13 arg14 arg15 x2 x5)
    (kernelRun0_A.sl.v78 c arg2 harg2 arg5 harg5 arg13 arg14 arg15 x2 x5) (kernelRun0_A.sl.v89 c arg2 harg2 arg5 harg5 arg13 arg14 arg15 x2 x5)
    (kernelRun0_A.sl.v100 c arg2 harg2 arg5 harg5 arg13 arg14 arg15 x2 x5) (kernelRun0_A.sl.v111 c arg2 harg2 arg5 harg5 arg13 arg14 arg15 x2 x5)
    (kernelRun0_A.sl.v122 c arg2 harg2 arg5 harg5 arg13 arg14 arg15 x2 x5) (kernelRun0_A.sl.v133 c arg2 harg2 arg5 harg5 arg13 arg14 arg15 x2 x5)
    (kernelRun0_A.sl.v144 c arg2 harg2 arg5 harg5 arg13 arg14 arg15 x2 x5) (kernelRun0_A.sl.v155 c arg2 harg2 arg5 harg5 arg13 arg14 arg15 x2 x5)
    (kernelRun0_A.sl.v166 c arg2 harg2 arg5 harg5 arg13 arg14 arg15 x2 x5) (kernelRun0_A.sl.v177 c arg2 harg2 arg5 harg5 arg13 arg14 arg15 x2 x5)
    (kernelRun0_A.sl.v188 c arg2 harg2 arg5 harg5 arg13 arg14 arg15 x2 x5) (kernelRun0_A.sl.v199 c arg2 harg2 arg5 harg5 arg13 arg14 arg15 x2 x5)
    (kernelRun0_A.sl.v210 c arg2 harg2 arg5 harg5 arg13 arg14 arg15 x2 x5) (kernelRun0_A.sl.v221 c arg2 harg2 arg5 harg5 arg13 arg14 arg15 x2 x5)
    _
    (fun p => by kept_row kernelRun0_A.sl.v56 0) (fun p => by kept_row kernelRun0_A.sl.v67 1)
    (fun p => by kept_row kernelRun0_A.sl.v78 2) (fun p => by kept_row kernelRun0_A.sl.v89 3)
    (fun p => by kept_row kernelRun0_A.sl.v100 4) (fun p => by kept_row kernelRun0_A.sl.v111 5)
    (fun p => by kept_row kernelRun0_A.sl.v122 6) (fun p => by kept_row kernelRun0_A.sl.v133 7)
    (fun p => by kept_row kernelRun0_A.sl.v144 8) (fun p => by kept_row kernelRun0_A.sl.v155 9)
    (fun p => by kept_row kernelRun0_A.sl.v166 10) (fun p => by kept_row kernelRun0_A.sl.v177 11)
    (fun p => by kept_row kernelRun0_A.sl.v188 12) (fun p => by kept_row kernelRun0_A.sl.v199 13)
    (fun p => by kept_row kernelRun0_A.sl.v210 14) (fun p => by kept_row kernelRun0_A.sl.v221 15)
    (fun p => by indicator_row 0) (fun p => by indicator_row 1) (fun p => by indicator_row 2) (fun p => by indicator_row 3)
    (fun p => by indicator_row 4) (fun p => by indicator_row 5) (fun p => by indicator_row 6) (fun p => by indicator_row 7)
    (fun p => by indicator_row 8) (fun p => by indicator_row 9) (fun p => by indicator_row 10) (fun p => by indicator_row 11)
    (fun p => by indicator_row 12) (fun p => by indicator_row 13) (fun p => by indicator_row 14) (fun p => by indicator_row 15)
    k p

include hx2 hx3 hm0 hm1 hX in

theorem features (ch : Fin 128) (p : Fin 8192) : k0_pay53 𝐯17 𝐯231 (kernelRun0_A.sl.r_12 c arg2 harg2 arg3 harg3 arg5 harg5 arg13 arg14 arg15 arg16 x2 x3 x5) (ix2 ch p) = Spec.feat X M ch p := by
  unfold kernelRun0_A.sl.r_12
  refine KPmid.pay53_pay52_apply _ _ _ X M (load_v17 c arg2 harg2 arg13 x2 X hx2)
    (indicator c arg2 harg2 arg5 harg5 arg13 arg14 arg15 arg16 x2 x5 X hx2 hm0 hm1 hX) (fun i j => ?_) ch p
  rw [KPadBuf.readAt_whole_unread arg3 harg3 x3 (funext fun a => by fin_cases a <;> rfl)]
  exact hx3 i j

end Loads

end KA1

section FirstPoint
variable (m : (ℓ : Loc nD τ sig) → Buf (Elt Ideal) ℓ)

theorem featA (c : Dev nD) (hfin : FinArgs m c) (t : Fin cfg0.N) (ht : t.val = 0) (ch : Fin 128) (p : Fin 8192) :
    k0_pay53 (kernelRun0_A.sl.v17 c (ms0_0 t) (hs0_0 t) scM0_3 (iblk m c 0 t))
        (kernelRun0_A.sl.v231 c (ms0_0 t) (hs0_0 t) (ms0_3 t) (hs0_3 t) scM0_3 scM0_4 scM0_5 scM0_6 (iblk m c 0 t) (iblk m c 3 t))
        (kernelRun0_A.sl.r_12 c (ms0_0 t) (hs0_0 t) (ms0_1 t) (hs0_1 t) (ms0_3 t) (hs0_3 t) scM0_3 scM0_4 scM0_5 scM0_6
          (iblk m c 0 t) (iblk m c 1 t) (iblk m c 3 t)) (ix2 ch p)
      = Cert.Spec.feat (Cert.Spec.argX (sA0 m c) (⟨0, by decide⟩ : Fin 4)) (Cert.Spec.gram (Cert.Spec.argW (sA1 m c))) ch p := by
  have ht4 : t.val < 4 := by omega
  have eb : (⟨t.val, ht4⟩ : Fin 4) = ⟨0, by decide⟩ := Fin.ext ht
  refine KA1.features c (ms0_0 t) (hs0_0 t) (ms0_1 t) (hs0_1 t) (ms0_3 t) (hs0_3 t) scM0_3 scM0_4 scM0_5 scM0_6
    (iblk m c 0 t) (iblk m c 1 t) (iblk m c 3 t)
    (Cert.Spec.argX (sA0 m c) (⟨0, by decide⟩ : Fin 4)) (Cert.Spec.gram (Cert.Spec.argW (sA1 m c)))
    (fun ch r w => ?_) (fun i j => KBlk.iblk1_gram m c t i j)
    (fun p => KBlk.iblk3_of m c t 0 _ (KHost.V_pmask0 m c) p)
    (fun p => KBlk.iblk3_of m c t 1 _ (KHost.V_pmask1 m c) p)
    (fun ch p => hfin.1 _) ch p
  rw [← eb]
  exact KBlk.iblk0_argX m c t ht4 0 ch r w

end FirstPoint

end Cert.KernelIdeal.Gen

end
-- ==== Proof.KPconv.lean ====
import proofs.«135277_g2000205747536381_pallasbulk_86_37_alg».proof.Proof.Gen.KernelIdeal.Skeleton
import proofs.«135277_g2000205747536381_pallasbulk_86_37_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KPconv

open Idealize.ShloMosaic Idealize.ShloMosaic.ValueIdx Finset
open Cert.KernelIdeal Cert.KernelIdeal.Gen

def pix (q : Fin 8) (l : Fin 1024) : Fin 8192 := ⟨1024 * q.val + l.val, by omega⟩

variable (cw : Fin 128 → Fin 128 → Fin 3 → Fin 3 → EReal) (ft : Fin 128 → Fin 8192 → EReal) (g : Fin 128 → Fin 8192 → EReal) (arg1 : BitVec 32) (v520 v527 : Vec Ideal S128x1 .f32)
  (v276 : Vec Ideal S128x8192 .bf16) (v277 : Vec Ideal S1x8192 .bf16) (v284 : Vec Ideal S128x8192 .bf16) (v285 : Vec Ideal S1x8192 .bf16) (v295 : Vec Ideal S384x1024 .bf16) (v296 : Vec Ideal S1x128x384 .bf16) (v299 : FVec Ideal S128x1024 .f32) (v300 : Vec Ideal S384x1024 .bf16) (v301 : Vec Ideal S1x128x384 .bf16) (v305 : Vec Ideal S384x1024 .bf16) (v306 : Vec Ideal S1x128x384 .bf16) (v323 : Vec Ideal S384x1024 .bf16) (v324 : Vec Ideal S1x128x384 .bf16) (v328 : Vec Ideal S384x1024 .bf16) (v329 : Vec Ideal S1x128x384 .bf16) (v332 : FVec Ideal S128x1024 .f32) (v333 : Vec Ideal S384x1024 .bf16) (v334 : Vec Ideal S1x128x384 .bf16) (v351 : Vec Ideal S384x1024 .bf16) (v352 : Vec Ideal S1x128x384 .bf16) (v356 : Vec Ideal S384x1024 .bf16) (v357 : Vec Ideal S1x128x384 .bf16) (v360 : FVec Ideal S128x1024 .f32) (v361 : Vec Ideal S384x1024 .bf16) (v362 : Vec Ideal S1x128x384 .bf16) (v363 : FVec Ideal S128x384 .bf16) (v379 : Vec Ideal S384x1024 .bf16) (v380 : Vec Ideal S1x128x384 .bf16) (v384 : Vec Ideal S384x1024 .bf16) (v385 : Vec Ideal S1x128x384 .bf16) (v389 : Vec Ideal S384x1024 .bf16) (v390 : Vec Ideal S1x128x384 .bf16) (v394 : FVec Ideal S128x1024 .bf16) (v407 : Vec Ideal S384x1024 .bf16) (v408 : Vec Ideal S1x128x384 .bf16) (v412 : Vec Ideal S384x1024 .bf16) (v413 : Vec Ideal S1x128x384 .bf16) (v417 : Vec Ideal S384x1024 .bf16) (v418 : Vec Ideal S1x128x384 .bf16) (v435 : Vec Ideal S384x1024 .bf16) (v436 : Vec Ideal S1x128x384 .bf16) (v440 : Vec Ideal S384x1024 .bf16) (v441 : Vec Ideal S1x128x384 .bf16) (v445 : Vec Ideal S384x1024 .bf16) (v446 : Vec Ideal S1x128x384 .bf16) (v462 : FVec Ideal S128x1024 .f32) (v463 : Vec Ideal S384x1024 .bf16) (v464 : Vec Ideal S1x128x384 .bf16) (v468 : Vec Ideal S384x1024 .bf16) (v469 : Vec Ideal S1x128x384 .bf16) (v473 : Vec Ideal S384x1024 .bf16) (v474 : Vec Ideal S1x128x384 .bf16) (v485 : FVec Ideal S128x1 .f32) (v490 : FVec Ideal S128x1024 .f32) (v491 : Vec Ideal S384x1024 .bf16) (v492 : Vec Ideal S1x128x384 .bf16) (v494 : FVec Ideal S128x1024 .f32) (v496 : Vec Ideal S384x1024 .bf16) (v497 : Vec Ideal S1x128x384 .bf16) (v501 : Vec Ideal S384x1024 .bf16) (v502 : Vec Ideal S1x128x384 .bf16)

def crow (f : Fin 128) (p : Fin 8192) (di : Fin 3) : EReal :=
  ∑ dj : Fin 3, ∑ c : Fin 128, cw f c di dj * Spec.tap ft c p di dj

theorem conv_eq_crow (f : Fin 128) (p : Fin 8192) :
    Spec.conv cw ft f p = crow cw ft f p 0 + crow cw ft f p 1 + crow cw ft f p 2 := by
  unfold Spec.conv crow
  rw [Fin.sum_univ_three]

def row3 (dj : Fin 3) (c : Fin 128) : Fin 384 := ⟨128 * dj.val + c.val, by omega⟩

def WSlab (di : Fin 3) (w : Vec Ideal S1x128x384 .bf16) : Prop :=
  ∀ (f : Fin 128) (dj : Fin 3) (c : Fin 128), w (ix3 (0 : Fin 1) f (row3 dj c)) = cw f c di dj

def FSlice (q : Fin 8) (di : Fin 3) (s : Vec Ideal S384x1024 .bf16) : Prop :=
  ∀ (dj : Fin 3) (c : Fin 128) (l : Fin 1024), s (ix2 (row3 dj c) l) = Spec.tap ft c (pix q l) di dj

theorem sum_row3 (g : Fin 384 → EReal) : ∑ k : Fin 384, g k = ∑ dj : Fin 3, ∑ c : Fin 128, g (row3 dj c) := by
  rw [← Equiv.sum_comp (finProdFinEquiv : Fin 3 × Fin 128 ≃ Fin 384) g, Fintype.sum_prod_type]
  refine Finset.sum_congr rfl fun dj _ => Finset.sum_congr rfl fun c _ => congrArg g (Fin.ext ?_)
  simp only [finProdFinEquiv_apply_val, row3]
  omega

theorem mm_apply (w : FVec Ideal S128x384 .bf16) (s : FVec Ideal S384x1024 .bf16) (f : Fin 128) (l : Fin 1024) :
    matmul dot_S128x384_S384x1024_S128x1024_1_0_0_1_n_n none w s (constant S128x1024 .f32 0x00000000#32) (ix2 f l)
      = ∑ k : Fin 384, w (ix2 f k) * s (ix2 k l) := by
  show FloatOps.matmul _ none w s _ (ix2 f l) = _
  rw [Ideal.matmul_constant_zero_apply,
    ← Equiv.sum_comp (contrEquiv1 dot_S128x384_S384x1024_S128x1024_1_0_0_1_n_n 384 rfl rfl).symm]
  refine Finset.sum_congr rfl fun c _ => ?_
  have c2 := contrEquiv1_symm_val dot_S128x384_S384x1024_S128x1024_1_0_0_1_n_n 384 rfl rfl c
  have l2 : dot_S128x384_S384x1024_S128x1024_1_0_0_1_n_n.lhsIdx (ix2 f l) ((contrEquiv1 _ 384 rfl rfl).symm c) = ix2 f c := by
    funext ax; apply Fin.ext
    match ax with
    | ⟨0, _⟩ => simp [DotDims.lhsIdx, dot_S128x384_S384x1024_S128x1024_1_0_0_1_n_n]; rfl
    | ⟨1, _⟩ => simp [DotDims.lhsIdx, dot_S128x384_S384x1024_S128x1024_1_0_0_1_n_n]; exact c2
  have r2 : dot_S128x384_S384x1024_S128x1024_1_0_0_1_n_n.rhsIdx (ix2 f l) ((contrEquiv1 _ 384 rfl rfl).symm c) = ix2 c l := by
    funext ax; apply Fin.ext
    match ax with
    | ⟨0, _⟩ => simp [DotDims.rhsIdx, dot_S128x384_S384x1024_S128x1024_1_0_0_1_n_n]; exact c2
    | ⟨1, _⟩ => simp [DotDims.rhsIdx, dot_S128x384_S384x1024_S128x1024_1_0_0_1_n_n]; rfl
  rw [l2, r2]

theorem sum_pix (g : Fin 8192 → EReal) : ∑ p : Fin 8192, g p = ∑ q : Fin 8, ∑ l : Fin 1024, g (pix q l) := by
  rw [← Equiv.sum_comp (finProdFinEquiv : Fin 8 × Fin 1024 ≃ Fin 8192) g, Fintype.sum_prod_type]
  refine Finset.sum_congr rfl fun q _ => Finset.sum_congr rfl fun l _ => congrArg g (Fin.ext ?_)
  simp only [finProdFinEquiv_apply_val, pix]
  omega

theorem wcast_apply (w : Vec Ideal S1x128x384 .bf16) (f : Fin 128) (k : Fin 384) :
    shapeCast S128x384 w shapeCasts_S1x128x384_S128x384 (ix2 f k) = w (ix3 (0 : Fin 1) f k) :=
  shapeCast_1ab_ab_apply w _ f k

def WRows (di : Fin 3) (w : FVec Ideal S128x384 .bf16) : Prop :=
  ∀ (f : Fin 128) (dj : Fin 3) (c : Fin 128), w (ix2 f (row3 dj c)) = cw f c di dj

theorem WSlab.rows {cw : Fin 128 → Fin 128 → Fin 3 → Fin 3 → EReal} {di : Fin 3} {w : Vec Ideal S1x128x384 .bf16} (h : WSlab cw di w) :
    WRows cw di (shapeCast S128x384 w shapeCasts_S1x128x384_S128x384) :=
  fun f dj c => (wcast_apply w f (row3 dj c)).trans (h f dj c)

theorem mm_crow (q : Fin 8) (di : Fin 3) (w : FVec Ideal S128x384 .bf16) (s : FVec Ideal S384x1024 .bf16) (hw : WRows cw di w) (hs : FSlice ft q di s) (f : Fin 128) (l : Fin 1024) :
    matmul dot_S128x384_S384x1024_S128x1024_1_0_0_1_n_n none w s (constant S128x1024 .f32 0x00000000#32) (ix2 f l)
      = crow cw ft f (pix q l) di := by
  rw [mm_apply, sum_row3]
  unfold crow
  refine Finset.sum_congr rfl fun dj _ => Finset.sum_congr rfl fun c _ => ?_
  rw [hw f dj c, hs dj c l]

theorem zsplat_apply (s : Shape) (i : s.Idx) : broadcast s (Scalar.ofBits (F := Ideal) .f32 0x00000000#32) i = (0 : EReal) := by
  rw [broadcast_apply]
  exact Ideal.ofBits_zero_f32

theorem rowsum_apply (a : FVec Ideal S128x1024 .f32) (f : Fin 128) (j : Fin 1) :
    shapeCast S128x1 (multiReduction .add [1] S128 a 0x00000000#32 reduces_S128x1024_S128 (.inl rfl) rfl) shapeCasts_S128_S128x1 (ix2 f j)
      = ∑ l : Fin 1024, a (ix2 f l) := by
  refine (shapeCast_apply _ shapeCasts_S128_S128x1 (ix2 f j) (ix1 f) ?_).trans ?_
  · rw [Shape.rowMajor_val_one, Shape.rowMajor_val_two]
    show f.val = f.val * 1 + j.val
    omega
  · refine (Ideal.multiReduction_add_single a 0x00000000#32 reduces_S128x1024_S128 (.inl rfl) rfl (ix1 f)).trans ?_
    show ∑ k : Fin 1024, a (reduces_S128x1024_S128.lift (ix1 f) k) = _
    refine Finset.sum_congr rfl fun k _ => congrArg a (funext fun d => ?_)
    match d with
    | ⟨0, _⟩ => rfl
    | ⟨1, _⟩ => rfl

theorem cmpi_eq_zero (a : BitVec 32) : (Scalar.cmpi .eq a 0#32 = 1#1) ↔ a = 0#32 := by
  show BitVec.ofBool (a == 0#32) = 1#1 ↔ _
  by_cases h : a = 0#32
  · subst h
    exact ⟨fun _ => rfl, fun _ => rfl⟩
  · have hb : (a == 0#32) = false := beq_false_of_ne h
    rw [hb]
    exact ⟨fun h1 => absurd h1 (by decide), fun h1 => absurd h1 h⟩

abbrev mm (w : FVec Ideal S128x384 .bf16) (s : FVec Ideal S384x1024 .bf16) : FVec Ideal S128x1024 .f32 :=
  matmul dot_S128x384_S384x1024_S128x1024_1_0_0_1_n_n none w s (constant S128x1024 .f32 0x00000000#32)

abbrev wc (w : Vec Ideal S1x128x384 .bf16) : FVec Ideal S128x384 .bf16 := shapeCast S128x384 w shapeCasts_S1x128x384_S128x384

abbrev zacc : FVec Ideal S128x1024 .f32 := broadcast S128x1024 (Scalar.ofBits (F := Ideal) .f32 0x00000000#32)

abbrev rs (a : FVec Ideal S128x1024 .f32) : FVec Ideal S128x1 .f32 :=
  shapeCast S128x1 (multiReduction .add [1] S128 a 0x00000000#32 reduces_S128x1024_S128 (.inl rfl) rfl) shapeCasts_S128_S128x1

theorem mmc_crow (q : Fin 8) (di : Fin 3) (w : Vec Ideal S1x128x384 .bf16) (s : Vec Ideal S384x1024 .bf16) (hw : WSlab cw di w) (hs : FSlice ft q di s) (f : Fin 128) (l : Fin 1024) :
    mm (wc w) s (ix2 f l) = crow cw ft f (pix q l) di :=
  mm_crow cw ft q di _ _ hw.rows hs f l

-- Three slab products over a zero accumulator are the three kernel rows of the convolution.
theorem conv_of_slabs (q : Fin 8) (w0 : Vec Ideal S1x128x384 .bf16) (s0 : Vec Ideal S384x1024 .bf16) (w1 : Vec Ideal S1x128x384 .bf16) (s1 : Vec Ideal S384x1024 .bf16) (w2 : Vec Ideal S1x128x384 .bf16) (s2 : Vec Ideal S384x1024 .bf16)
    (hw0 : WSlab cw 0 w0) (hs0 : FSlice ft q 0 s0) (hw1 : WSlab cw 1 w1) (hs1 : FSlice ft q 1 s1) (hw2 : WSlab cw 2 w2) (hs2 : FSlice ft q 2 s2) (f : Fin 128) (l : Fin 1024) :
    zacc (ix2 f l) + mm (wc w0) s0 (ix2 f l) + mm (wc w1) s1 (ix2 f l) + mm (wc w2) s2 (ix2 f l) = Spec.conv cw ft f (pix q l) := by
  rw [show zacc (ix2 f l) = (0 : EReal) from zsplat_apply _ _, zero_add, mmc_crow cw ft q 0 w0 s0 hw0 hs0 f l, mmc_crow cw ft q 1 w1 s1 hw1 hs1 f l, mmc_crow cw ft q 2 w2 s2 hw2 hs2 f l, conv_eq_crow]

theorem pay60_apply (u : Fin 1) (f : Fin 128) (l : Fin 1024) :
    k0_pay60 v299 v300 v301 v305 v306 (ix3 u f l) = k0_pay59 v299 v300 v301 v305 v306 (ix2 f l) :=
  shapeCast_ab_1ab_apply (truncf .bf16 (k0_pay59 v299 v300 v301 v305 v306) bitsLt_bf16_f32) shapeCasts_S128x1024_S1x128x1024 u f l

theorem pay65_apply (u : Fin 1) (f : Fin 128) (l : Fin 1024) :
    k0_pay65 v332 v333 v334 (ix3 u f l) = k0_pay64 v332 v333 v334 (ix2 f l) :=
  shapeCast_ab_1ab_apply (truncf .bf16 (k0_pay64 v332 v333 v334) bitsLt_bf16_f32) shapeCasts_S128x1024_S1x128x1024 u f l

theorem pay71_apply (u : Fin 1) (f : Fin 128) (l : Fin 1024) :
    k0_pay71 v360 v361 v363 (ix3 u f l) = k0_pay70 v360 v361 v363 (ix2 f l) :=
  shapeCast_ab_1ab_apply (truncf .bf16 (k0_pay70 v360 v361 v363) bitsLt_bf16_f32) shapeCasts_S128x1024_S1x128x1024 u f l

theorem pay79_apply (u : Fin 1) (f : Fin 128) (l : Fin 1024) :
    k0_pay79 v407 v408 v412 v413 v417 v418 (ix3 u f l) = k0_pay78 v407 v408 v412 v413 v417 v418 (ix2 f l) :=
  shapeCast_ab_1ab_apply (truncf .bf16 (k0_pay78 v407 v408 v412 v413 v417 v418) bitsLt_bf16_f32) shapeCasts_S128x1024_S1x128x1024 u f l

theorem pay83_apply (u : Fin 1) (f : Fin 128) (l : Fin 1024) :
    k0_pay83 v435 v436 v440 v441 v445 v446 (ix3 u f l) = k0_pay82 v435 v436 v440 v441 v445 v446 (ix2 f l) :=
  shapeCast_ab_1ab_apply (truncf .bf16 (k0_pay82 v435 v436 v440 v441 v445 v446) bitsLt_bf16_f32) shapeCasts_S128x1024_S1x128x1024 u f l

theorem pay88_apply (u : Fin 1) (f : Fin 128) (l : Fin 1024) :
    k0_pay88 v462 v463 v464 v468 v469 v473 v474 (ix3 u f l) = k0_pay87 v462 v463 v464 v468 v469 v473 v474 (ix2 f l) :=
  shapeCast_ab_1ab_apply (truncf .bf16 (k0_pay87 v462 v463 v464 v468 v469 v473 v474) bitsLt_bf16_f32) shapeCasts_S128x1024_S1x128x1024 u f l

theorem pay94_apply (u : Fin 1) (f : Fin 128) (l : Fin 1024) :
    k0_pay94 v490 v494 v496 v497 v501 v502 (ix3 u f l) = k0_pay93 v490 v494 v496 v497 v501 v502 (ix2 f l) :=
  shapeCast_ab_1ab_apply (truncf .bf16 (k0_pay93 v490 v494 v496 v497 v501 v502) bitsLt_bf16_f32) shapeCasts_S128x1024_S1x128x1024 u f l

theorem pay75_apply (f : Fin 128) (l : Fin 1024) :
    k0_pay75 v379 v380 v384 v385 v389 v390 (ix2 f l) = k0_pay74 v379 v380 v384 v385 v389 v390 (ix2 f l) :=
  rfl

theorem pay76_apply (u : Fin 1) (f : Fin 128) (l : Fin 1024) :
    k0_pay76 v394 (ix3 u f l) = v394 (ix2 f l) :=
  shapeCast_ab_1ab_apply v394 shapeCasts_S128x1024_S1x128x1024 u f l

theorem pay97_apply (f : Fin 128) (j : Fin 1) :
    k0_pay97 arg1 v485 v490 v494 v496 v497 v501 v502 v520 (ix2 f j) = (if arg1 = 0#32 then 0 else v520 (ix2 f j)) + (v485 (ix2 f j) + ∑ l : Fin 1024, k0_pay93 v490 v494 v496 v497 v501 v502 (ix2 f l)) := by
  show (shapeCast S128x1 (addf (Scalar.select (Scalar.cmpi .eq arg1 0#32) (k0_pay96 (F := Ideal)) v520) (addf v485 (rs (k0_pay93 v490 v494 v496 v497 v501 v502)))) shapeCasts_S128x1_S128x1) (ix2 f j) = _
  rw [shapeCast_self]
  show Scalar.select (Scalar.cmpi .eq arg1 0#32) (k0_pay96 (F := Ideal)) v520 (ix2 f j) + (v485 (ix2 f j) + rs (k0_pay93 v490 v494 v496 v497 v501 v502) (ix2 f j)) = _
  rw [show rs (k0_pay93 v490 v494 v496 v497 v501 v502) (ix2 f j) = _ from rowsum_apply _ f j]
  refine congrArg (· + _) ?_
  by_cases h : arg1 = 0#32
  · rw [if_pos h, (cmpi_eq_zero arg1).2 h, select_one]
    exact zsplat_apply S128x1 (ix2 f j)
  · rw [if_neg h, eq_zero_of_ne_one (fun h1 => h ((cmpi_eq_zero arg1).1 h1)), select_zero]

theorem pay8_apply (v517 v518 : FVec Ideal S128x1 .f32) (v526 : BitVec 1) (v527 : Vec Ideal S128x1 .f32) (f : Fin 128) (j : Fin 1) :
    k0_pay8 v517 v518 v526 v527 (ix2 f j) = (if v526 = 1#1 then v518 (ix2 f j) else v527 (ix2 f j)) + v517 (ix2 f j) := by
  show (shapeCast S128x1 (addf (Scalar.select v526 v518 v527) v517) shapeCasts_S128x1_S128x1) (ix2 f j) = _
  rw [shapeCast_self]
  show Scalar.select v526 v518 v527 (ix2 f j) + v517 (ix2 f j) = _
  refine congrArg (· + _) ?_
  by_cases h : v526 = 1#1
  · rw [if_pos h, h, select_one]
  · rw [if_neg h, eq_zero_of_ne_one h, select_zero]

-- A row mask multiplies every channel's value at a pixel by the mask's value there.
theorem maskmul_apply (v : Vec Ideal S128x8192 .bf16) (m : Vec Ideal S1x8192 .bf16) (c : Fin 128) (p : Fin 8192) :
    shapeCast (α := Ideal .bf16) S128x8192 (mulf (v : FVec Ideal S128x8192 .bf16) (broadcastTo (α := Ideal .bf16) S128x8192 (shapeCast (α := Ideal .bf16) S1x8192 m shapeCasts_S1x8192_S1x8192) broadcasts_S1x8192_S128x8192)) shapeCasts_S128x8192_S128x8192 (ix2 c p) = v (ix2 c p) * m (ix2 (0 : Fin 1) p) := by
  rw [shapeCast_self, shapeCast_self]
  exact congrArg (v (ix2 c p) * ·) (broadcastTo_1b_ab_apply (α := Ideal .bf16) m broadcasts_S1x8192_S128x8192 c p)

theorem pay54_tap (hv : ∀ (c : Fin 128) (p : Fin 8192) (h : 0 < p.val % 128), v276 (ix2 c p) = ft c ⟨p.val - 1, by omega⟩) (hm : ∀ p : Fin 8192, v277 (ix2 (0 : Fin 1) p) = if p.val % 128 = 0 then 0 else 1) (c : Fin 128) (p : Fin 8192) :
    k0_pay54 v276 v277 (ix2 c p) = Spec.tap ft c p 1 0 := by
  rw [show k0_pay54 v276 v277 (ix2 c p) = _ from maskmul_apply v276 v277 c p, hm p]
  have hp := p.isLt
  unfold Spec.tap
  by_cases h0 : p.val % 128 = 0
  · rw [if_pos h0, mul_zero, dif_neg]
    rintro ⟨_, h1, _⟩
    simp at h1
    omega
  · rw [if_neg h0, mul_one, hv c p (by omega), dif_pos (by refine ⟨⟨?_, ?_⟩, ?_, ?_⟩ <;> simp <;> omega)]
    refine congrArg (ft c) (Fin.ext ?_)
    simp
    omega

theorem pay55_tap (hv : ∀ (c : Fin 128) (p : Fin 8192) (h : p.val % 128 < 127), v284 (ix2 c p) = ft c ⟨p.val + 1, by omega⟩) (hm : ∀ p : Fin 8192, v285 (ix2 (0 : Fin 1) p) = if p.val % 128 = 127 then 0 else 1) (c : Fin 128) (p : Fin 8192) :
    k0_pay55 v284 v285 (ix2 c p) = Spec.tap ft c p 1 2 := by
  rw [show k0_pay55 v284 v285 (ix2 c p) = _ from maskmul_apply v284 v285 c p, hm p]
  have hp := p.isLt
  unfold Spec.tap
  by_cases h0 : p.val % 128 = 127
  · rw [if_pos h0, mul_zero, dif_neg]
    rintro ⟨_, _, h1⟩
    simp at h1
    omega
  · rw [if_neg h0, mul_one, hv c p (by omega), dif_pos (by refine ⟨⟨?_, ?_⟩, ?_, ?_⟩ <;> simp <;> omega)]
    refine congrArg (ft c) (Fin.ext ?_)
    simp
    omega

theorem tap_centre (c : Fin 128) (p : Fin 8192) :
    Spec.tap ft c p 1 1 = ft c p := by
  unfold Spec.tap
  have hp := p.isLt
  rw [dif_pos (by refine ⟨⟨?_, ?_⟩, ?_, ?_⟩ <;> simp <;> omega)]
  refine congrArg (ft c) (Fin.ext ?_)
  simp
  omega

theorem acc0_conv (hw0 : WSlab cw 0 v296) (hs0 : FSlice ft 0 0 v295) (hw1 : WSlab cw 1 v301) (hs1 : FSlice ft 0 1 v300) (hw2 : WSlab cw 2 v306) (hs2 : FSlice ft 0 2 v305) (f : Fin 128) (l : Fin 1024) :
    (k0_pay59 (k0_pay58 v295 v296) v300 v301 v305 v306) (ix2 f l) = Spec.conv cw ft f (pix 0 l) :=
  conv_of_slabs cw ft 0 v296 v295 v301 v300 v306 v305 hw0 hs0 hw1 hs1 hw2 hs2 f l

theorem acc1_conv (hw0 : WSlab cw 0 v324) (hs0 : FSlice ft 1 0 v323) (hw1 : WSlab cw 1 v329) (hs1 : FSlice ft 1 1 v328) (hw2 : WSlab cw 2 v334) (hs2 : FSlice ft 1 2 v333) (f : Fin 128) (l : Fin 1024) :
    (k0_pay64 (k0_pay63 v323 v324 v328 v329) v333 v334) (ix2 f l) = Spec.conv cw ft f (pix 1 l) :=
  conv_of_slabs cw ft 1 v324 v323 v329 v328 v334 v333 hw0 hs0 hw1 hs1 hw2 hs2 f l

theorem acc2_conv (hw0 : WSlab cw 0 v352) (hs0 : FSlice ft 2 0 v351) (hw1 : WSlab cw 1 v357) (hs1 : FSlice ft 2 1 v356) (hw2 : WSlab cw 2 v362) (hs2 : FSlice ft 2 2 v361) (f : Fin 128) (l : Fin 1024) :
    (k0_pay70 (k0_pay68 v351 v352 v356 v357) v361 (k0_pay69 v362)) (ix2 f l) = Spec.conv cw ft f (pix 2 l) :=
  conv_of_slabs cw ft 2 v352 v351 v357 v356 v362 v361 hw0 hs0 hw1 hs1 hw2 hs2 f l

theorem acc3_conv (hw0 : WSlab cw 0 v380) (hs0 : FSlice ft 3 0 v379) (hw1 : WSlab cw 1 v385) (hs1 : FSlice ft 3 1 v384) (hw2 : WSlab cw 2 v390) (hs2 : FSlice ft 3 2 v389) (f : Fin 128) (l : Fin 1024) :
    (k0_pay74 v379 v380 v384 v385 v389 v390) (ix2 f l) = Spec.conv cw ft f (pix 3 l) :=
  conv_of_slabs cw ft 3 v380 v379 v385 v384 v390 v389 hw0 hs0 hw1 hs1 hw2 hs2 f l

theorem acc4_conv (hw0 : WSlab cw 0 v408) (hs0 : FSlice ft 4 0 v407) (hw1 : WSlab cw 1 v413) (hs1 : FSlice ft 4 1 v412) (hw2 : WSlab cw 2 v418) (hs2 : FSlice ft 4 2 v417) (f : Fin 128) (l : Fin 1024) :
    (k0_pay78 v407 v408 v412 v413 v417 v418) (ix2 f l) = Spec.conv cw ft f (pix 4 l) :=
  conv_of_slabs cw ft 4 v408 v407 v413 v412 v418 v417 hw0 hs0 hw1 hs1 hw2 hs2 f l

theorem acc5_conv (hw0 : WSlab cw 0 v436) (hs0 : FSlice ft 5 0 v435) (hw1 : WSlab cw 1 v441) (hs1 : FSlice ft 5 1 v440) (hw2 : WSlab cw 2 v446) (hs2 : FSlice ft 5 2 v445) (f : Fin 128) (l : Fin 1024) :
    (k0_pay82 v435 v436 v440 v441 v445 v446) (ix2 f l) = Spec.conv cw ft f (pix 5 l) :=
  conv_of_slabs cw ft 5 v436 v435 v441 v440 v446 v445 hw0 hs0 hw1 hs1 hw2 hs2 f l

theorem acc6_conv (hw0 : WSlab cw 0 v464) (hs0 : FSlice ft 6 0 v463) (hw1 : WSlab cw 1 v469) (hs1 : FSlice ft 6 1 v468) (hw2 : WSlab cw 2 v474) (hs2 : FSlice ft 6 2 v473) (f : Fin 128) (l : Fin 1024) :
    (k0_pay87 k0_pay86 v463 v464 v468 v469 v473 v474) (ix2 f l) = Spec.conv cw ft f (pix 6 l) :=
  conv_of_slabs cw ft 6 v464 v463 v469 v468 v474 v473 hw0 hs0 hw1 hs1 hw2 hs2 f l

theorem acc7_conv (hw0 : WSlab cw 0 v492) (hs0 : FSlice ft 7 0 v491) (hw1 : WSlab cw 1 v497) (hs1 : FSlice ft 7 1 v496) (hw2 : WSlab cw 2 v502) (hs2 : FSlice ft 7 2 v501) (f : Fin 128) (l : Fin 1024) :
    (k0_pay93 k0_pay91 (k0_pay92 v491 v492) v496 v497 v501 v502) (ix2 f l) = Spec.conv cw ft f (pix 7 l) :=
  conv_of_slabs cw ft 7 v492 v491 v497 v496 v502 v501 hw0 hs0 hw1 hs1 hw2 hs2 f l

section Totals
variable (h0 : ∀ (f : Fin 128) (l : Fin 1024), (k0_pay59 (k0_pay58 v295 v296) v300 v301 v305 v306) (ix2 f l) = g f (pix 0 l))
  (h1 : ∀ (f : Fin 128) (l : Fin 1024), (k0_pay64 (k0_pay63 v323 v324 v328 v329) v333 v334) (ix2 f l) = g f (pix 1 l))
  (h2 : ∀ (f : Fin 128) (l : Fin 1024), (k0_pay70 (k0_pay68 v351 v352 v356 v357) v361 (k0_pay69 v362)) (ix2 f l) = g f (pix 2 l))
  (h3 : ∀ (f : Fin 128) (l : Fin 1024), (k0_pay74 v379 v380 v384 v385 v389 v390) (ix2 f l) = g f (pix 3 l))
  (h4 : ∀ (f : Fin 128) (l : Fin 1024), (k0_pay78 v407 v408 v412 v413 v417 v418) (ix2 f l) = g f (pix 4 l))
  (h5 : ∀ (f : Fin 128) (l : Fin 1024), (k0_pay82 v435 v436 v440 v441 v445 v446) (ix2 f l) = g f (pix 5 l))
  (h6 : ∀ (f : Fin 128) (l : Fin 1024), (k0_pay87 k0_pay86 v463 v464 v468 v469 v473 v474) (ix2 f l) = g f (pix 6 l))
  (h7 : ∀ (f : Fin 128) (l : Fin 1024), (k0_pay93 k0_pay91 (k0_pay92 v491 v492) v496 v497 v501 v502) (ix2 f l) = g f (pix 7 l))
include h0 h1 h2 h3 h4 h5 h6 h7

theorem bsum_total (f : Fin 128) (j : Fin 1) :
    k0_pay97 arg1 (k0_pay89 (k0_pay84 (k0_pay80 (k0_pay72 (k0_pay66 (k0_pay61 k0_pay56 (k0_pay58 v295 v296) v300 v301 v305 v306) (k0_pay63 v323 v324 v328 v329) v333 v334) (k0_pay68 v351 v352 v356 v357) v361 (k0_pay69 v362)) (k0_pay74 v379 v380 v384 v385 v389 v390) v407 v408 v412 v413 v417 v418) v435 v436 v440 v441 v445 v446) k0_pay86 v463 v464 v468 v469 v473 v474) k0_pay91 (k0_pay92 v491 v492) v496 v497 v501 v502 v520 (ix2 f j)
      = (if arg1 = 0#32 then 0 else v520 (ix2 f j)) + ∑ p : Fin 8192, g f p := by
  rw [pay97_apply]
  simp only [k0_pay89, k0_pay84, k0_pay80, k0_pay72, k0_pay66, k0_pay61, k0_pay56, addf_apply, zsplat_apply]
  rw [rowsum_apply, rowsum_apply, rowsum_apply, rowsum_apply, rowsum_apply, rowsum_apply, rowsum_apply]
  simp only [h0, h1, h2, h3, h4, h5, h6, h7]
  rw [sum_pix (g f), Fin.sum_univ_eight, zero_add]

theorem bsq_total (f : Fin 128) (j : Fin 1) :
    k0_pay8 (k0_pay95 (k0_pay90 (k0_pay85 (k0_pay77 (k0_pay73 (k0_pay67 (k0_pay62 k0_pay57 (k0_pay58 v295 v296) v300 v301 v305 v306) (k0_pay63 v323 v324 v328 v329) v333 v334) (k0_pay68 v351 v352 v356 v357) v361 (k0_pay69 v362)) (k0_pay74 v379 v380 v384 v385 v389 v390)) (k0_pay81 v407 v408 v412 v413 v417 v418) v435 v436 v440 v441 v445 v446) k0_pay86 v463 v464 v468 v469 v473 v474) k0_pay91 (k0_pay92 v491 v492) v496 v497 v501 v502) k0_pay96 (Scalar.cmpi .eq arg1 0#32) v527 (ix2 f j)
      = (if arg1 = 0#32 then 0 else v527 (ix2 f j)) + ∑ p : Fin 8192, g f p * g f p := by
  rw [pay8_apply]
  simp only [k0_pay95, k0_pay90, k0_pay85, k0_pay81, k0_pay77, k0_pay73, k0_pay67, k0_pay62, k0_pay57, k0_pay96, addf_apply, zsplat_apply]
  rw [rowsum_apply, rowsum_apply, rowsum_apply, rowsum_apply, rowsum_apply, rowsum_apply, rowsum_apply, rowsum_apply]
  simp only [mulf_apply, h0, h1, h2, h3, h4, h5, h6, h7]
  have hs := sum_pix (fun p => g f p * g f p)
  rw [Fin.sum_univ_eight] at hs
  rw [hs, zero_add]
  refine congrArg (· + _) ?_
  by_cases h : arg1 = 0#32
  · rw [if_pos h, if_pos ((cmpi_eq_zero arg1).2 h)]
  · rw [if_neg h, if_neg (fun h1 => h ((cmpi_eq_zero arg1).1 h1))]

end Totals

end Cert.KernelIdeal.KPconv
end
-- ==== Proof.KFb.lean ====
import Mathlib.Data.EReal.Basic
import Mathlib.Data.EReal.Operations
import proofs.«135277_g2000205747536381_pallasbulk_86_37_alg».proof.Proof.Spec
import proofs.«135277_g2000205747536381_pallasbulk_86_37_alg».proof.Proof.SpecLemmas

noncomputable section

namespace Cert.KernelIdeal.KFb

variable (ft : Fin 128 → Fin 8192 → EReal)

def fbSpec (r : Fin 384) (col : Fin 8448) : EReal :=
  if h : 128 ≤ col.val ∧ col.val < 8320 then
    if r.val / 128 = 0 then
      (if h1 : 1 ≤ col.val - 128 then ft ⟨r.val % 128, Nat.mod_lt _ (by norm_num)⟩ ⟨col.val - 128 - 1, by omega⟩ else 0)
        * (if (col.val - 128) % 128 = 0 then 0 else 1)
    else if r.val / 128 = 1 then ft ⟨r.val % 128, Nat.mod_lt _ (by norm_num)⟩ ⟨col.val - 128, by omega⟩
    else
      (if h2 : col.val - 128 + 1 < 8192 then ft ⟨r.val % 128, Nat.mod_lt _ (by norm_num)⟩ ⟨col.val - 128 + 1, h2⟩ else 0)
        * (if (col.val - 128) % 128 = 127 then 0 else 1)
  else 0

theorem fbSpec_pad (r : Fin 384) (col : Fin 8448) (h : col.val < 128 ∨ 8320 ≤ col.val) :
    fbSpec ft r col = 0 := by
  unfold fbSpec
  rw [dif_neg (by omega)]

theorem fbSpec_mid (r : Fin 384) (p : Fin 8192) :
    fbSpec ft r ⟨128 + p.val, by omega⟩
      = Spec.tap ft ⟨r.val % 128, Nat.mod_lt _ (by norm_num)⟩ p 1 ⟨r.val / 128, by omega⟩ := by
  have hr := r.isLt
  have hp := p.isLt
  have h1 : ((1 : Fin 3) : ℕ) = 1 := rfl
  unfold fbSpec Spec.tap
  dsimp only
  rw [dif_pos (show 128 ≤ 128 + p.val ∧ 128 + p.val < 8320 by omega)]
  have e0 : 128 + p.val - 128 = p.val := by omega
  simp only [e0]
  by_cases hr0 : r.val / 128 = 0
  ·
    rw [if_pos hr0]
    by_cases hc : p.val % 128 = 0
    · rw [if_pos hc, mul_zero, dif_neg (by omega)]
    · rw [if_neg hc, mul_one, dif_pos (show 1 ≤ p.val by omega), dif_pos (by omega)]
      exact congrArg (ft _) (Fin.ext (by dsimp only; omega))
  · rw [if_neg hr0]
    by_cases hr1 : r.val / 128 = 1
    ·
      rw [if_pos hr1, dif_pos (by omega)]
      exact congrArg (ft _) (Fin.ext (by dsimp only; omega))
    ·
      rw [if_neg hr1]
      by_cases hc : p.val % 128 = 127
      · rw [if_pos hc, mul_zero, dif_neg (by omega)]
      · rw [if_neg hc, mul_one, dif_pos (show p.val + 1 < 8192 by omega), dif_pos (by omega)]
        exact congrArg (ft _) (Fin.ext (by dsimp only; omega))

theorem tap_shift (c : Fin 128) (p p' : Fin 8192) (di dj : Fin 3)
    (hrow : p'.val / 128 + 1 = p.val / 128 + di.val) (hcol : p'.val % 128 = p.val % 128) :
    Spec.tap ft c p' 1 dj = Spec.tap ft c p di dj := by
  have h1 : ((1 : Fin 3) : ℕ) = 1 := rfl
  have hp := p.isLt
  have hp' := p'.isLt
  have hdi := di.isLt
  have hdj := dj.isLt
  unfold Spec.tap
  by_cases h : (1 ≤ p.val / 128 + di.val ∧ p.val / 128 + di.val ≤ 64)
      ∧ (1 ≤ p.val % 128 + dj.val ∧ p.val % 128 + dj.val ≤ 128)
  · rw [dif_pos h, dif_pos (by omega)]
    exact congrArg (ft c) (Fin.ext (by dsimp only; omega))
  · rw [dif_neg h, dif_neg (by omega)]

theorem fbSpec_tap (r : Fin 384) (col : Fin 8448) (c : Fin 128) (di dj : Fin 3)
    (p : Fin 8192) (hr : r.val = 128 * dj.val + c.val) (hcol : col.val = 128 * di.val + p.val) :
    fbSpec ft r col = Spec.tap ft c p di dj := by
  have hp := p.isLt
  have hc := c.isLt
  have hdi := di.isLt
  have hdj := dj.isLt
  by_cases hin : 128 ≤ col.val ∧ col.val < 8320
  ·
    have hp' : col.val - 128 < 8192 := by omega
    have e1 : col = ⟨128 + (⟨col.val - 128, hp'⟩ : Fin 8192).val, by dsimp only; omega⟩ :=
      Fin.ext (by dsimp only; omega)
    have ec : (⟨r.val % 128, Nat.mod_lt _ (by norm_num)⟩ : Fin 128) = c := Fin.ext (by dsimp only; omega)
    have ed : (⟨r.val / 128, by omega⟩ : Fin 3) = dj := Fin.ext (by dsimp only; omega)
    rw [e1, fbSpec_mid, ec, ed]
    exact tap_shift ft c p ⟨col.val - 128, hp'⟩ di dj (by dsimp only; omega) (by dsimp only; omega)
  ·
    rw [fbSpec_pad ft r col (by omega)]
    unfold Spec.tap
    rw [dif_neg (by omega)]

theorem fbSpec_slice (q : Fin 8) (di dj : Fin 3) (c : Fin 128) (l : Fin 1024) :
    fbSpec ft ⟨128 * dj.val + c.val, by omega⟩ ⟨128 * di.val + 1024 * q.val + l.val, by omega⟩
      = Spec.tap ft c ⟨1024 * q.val + l.val, by omega⟩ di dj :=
  fbSpec_tap ft _ _ c di dj _ rfl (by dsimp only; omega)

end Cert.KernelIdeal.KFb

end
-- ==== Proof.KFbRead.lean ====
import Mathlib.Data.EReal.Basic
import Idealize.ShloMosaic.Lib.Writes
import Idealize.ShloMosaic.Lib.WritesUnit
import Idealize.ShloMosaic.Lib.ValueIdx
import Idealize.ShloMosaic.Lib.Pipeline.Frame
import proofs.«135277_g2000205747536381_pallasbulk_86_37_alg».proof.Proof.Gen.KernelIdeal
import proofs.«135277_g2000205747536381_pallasbulk_86_37_alg».proof.Proof.Spec
import proofs.«135277_g2000205747536381_pallasbulk_86_37_alg».proof.Proof.KFb

noncomputable section

namespace Cert.KernelIdeal.KFb

open Idealize.ShloMosaic Idealize.ShloMosaic.ValueIdx

variable {sig : RefSig} {κ : Kind} {sp : Space} (v : View sig κ sp S384x8448 .bf16) (f : v.ty.Contents (Elt Ideal))

theorem read_cons_mem (o : ℕ) (inb : ∀ a, (![o, 128] : Fin 2 → ℕ) a + S128x8192.size a ≤ S384x8448.size a)
    (P : FVec Ideal S128x8192 .bf16) (L : List (View.Piece (Elt Ideal) S384x8448 .bf16)) (c : Fin 128) (p : Fin 8192)
    (r : Fin 384) (col : Fin 8448) (hr : r.val = o + c.val) (hcol : col.val = 128 + p.val) :
    v.read (Elt Ideal) (v.writes (Elt Ideal) f (⟨Rect.unit (s := S384x8448) ![o, 128] S128x8192.size inb, P⟩ :: L)) (ix2 r col)
      = P (ix2 c p) := by
  exact View.read_writes_cons_unit_of_mem v f inb P L (ix2 r col) (ix2 c p) rfl (fun a => by
    match a with
    | ⟨0, _⟩ => exact hr
    | ⟨1, _⟩ => exact hcol)

theorem read_cons_not_mem (o : ℕ) (inb : ∀ a, (![o, 128] : Fin 2 → ℕ) a + S128x8192.size a ≤ S384x8448.size a)
    (P : FVec Ideal S128x8192 .bf16) (L : List (View.Piece (Elt Ideal) S384x8448 .bf16)) (r : Fin 384) (col : Fin 8448)
    (h : (r.val < o ∨ o + 128 ≤ r.val) ∨ (col.val < 128 ∨ 8320 ≤ col.val)) :
    v.read (Elt Ideal) (v.writes (Elt Ideal) f (⟨Rect.unit (s := S384x8448) ![o, 128] S128x8192.size inb, P⟩ :: L)) (ix2 r col)
      = v.read (Elt Ideal) (v.writes (Elt Ideal) f L) (ix2 r col) := by
  rcases h with h | h
  · exact View.read_writes_cons_unit_of_not_mem v f inb P L (ix2 r col) rfl (0 : Fin 2) h
  · exact View.read_writes_cons_unit_of_not_mem v f inb P L (ix2 r col) rfl (1 : Fin 2) (by
      rcases h with h | h
      · exact Or.inl h
      · exact Or.inr (by show 128 + 8192 ≤ col.val; omega))

theorem readAt_unit {off size : Fin 2 → ℕ} (inb : ∀ a, off a + size a ≤ S384x8448.size a) (g : v.ty.Contents (Elt Ideal))
    (x : (⟨2, size⟩ : Shape).Idx) (r : Fin 384) (col : Fin 8448) (hr : r.val = off 0 + (x 0).val)
    (hcol : col.val = off 1 + (x 1).val) :
    v.readAt (Elt Ideal) (Rect.unit (s := S384x8448) off size inb).toLoadRect g x = v.read (Elt Ideal) g (ix2 r col) := by
  refine congrArg (v.read (Elt Ideal) g) (funext fun a => Fin.ext ?_)
  match a with
  | ⟨0, _⟩ => show off 0 + 1 * (x 0).val = r.val; omega
  | ⟨1, _⟩ => show off 1 + 1 * (x 1).val = col.val; omega

variable (ft : Fin 128 → Fin 8192 → EReal) (P53 P54 P55 : FVec Ideal S128x8192 .bf16)
    (inb53 : ∀ a, (![128, 128] : Fin 2 → ℕ) a + S128x8192.size a ≤ S384x8448.size a)
    (inb54 : ∀ a, (![0, 128] : Fin 2 → ℕ) a + S128x8192.size a ≤ S384x8448.size a)
    (inb55 : ∀ a, (![256, 128] : Fin 2 → ℕ) a + S128x8192.size a ≤ S384x8448.size a)

theorem tap_centre (c : Fin 128) (p : Fin 8192) (dj : Fin 3) (hdj : dj.val = 1) :
    Spec.tap ft c p 1 dj = ft c p := by
  have hp := p.isLt
  have h1 : ((1 : Fin 3) : ℕ) = 1 := rfl
  unfold Spec.tap
  rw [dif_pos (by omega)]
  exact congrArg (ft c) (Fin.ext (by dsimp only; omega))

theorem shiftL_apply
    (inbL : ∀ a, (![128, 127] : Fin 2 → ℕ) a + S128x8192.size a ≤ S384x8448.size a)
    (hpad : ∀ (r : Fin 384) (col : Fin 8448), (col.val < 128 ∨ 8320 ≤ col.val) → v.read (Elt Ideal) f (ix2 r col) = (0 : EReal))
    (c : Fin 128) (p : Fin 8192) :
    v.readAt (Elt Ideal) (Rect.unit (s := S384x8448) ![128, 127] S128x8192.size inbL).toLoadRect
        (v.writes (Elt Ideal) f [⟨Rect.unit (s := S384x8448) ![128, 128] S128x8192.size inb53, P53⟩]) (ix2 c p)
      = if h : 1 ≤ p.val then P53 (ix2 c ⟨p.val - 1, by omega⟩) else (0 : EReal) := by
  have hc := c.isLt
  have hp := p.isLt
  by_cases h : 1 ≤ p.val
  · rw [dif_pos h]
    refine (readAt_unit v (off := ![128, 127]) (size := S128x8192.size) inbL _ (ix2 c p) ⟨128 + c.val, by omega⟩
      ⟨128 + (p.val - 1), by omega⟩ rfl (by show 128 + (p.val - 1) = 127 + p.val; omega)).trans ?_
    exact read_cons_mem v f 128 inb53 P53 [] c ⟨p.val - 1, by omega⟩ _ _ rfl rfl
  · rw [dif_neg h]
    refine (readAt_unit v (off := ![128, 127]) (size := S128x8192.size) inbL _ (ix2 c p) ⟨128 + c.val, by omega⟩
      ⟨127, by omega⟩ rfl (by show 127 = 127 + p.val; omega)).trans ?_
    rw [read_cons_not_mem v f 128 inb53 P53 [] _ _ (Or.inr (Or.inl (by show 127 < 128; omega))), View.writes_nil]
    exact hpad _ _ (Or.inl (by show 127 < 128; omega))

theorem shiftR_apply
    (inbR : ∀ a, (![128, 129] : Fin 2 → ℕ) a + S128x8192.size a ≤ S384x8448.size a)
    (hpad : ∀ (r : Fin 384) (col : Fin 8448), (col.val < 128 ∨ 8320 ≤ col.val) → v.read (Elt Ideal) f (ix2 r col) = (0 : EReal))
    (c : Fin 128) (p : Fin 8192) :
    v.readAt (Elt Ideal) (Rect.unit (s := S384x8448) ![128, 129] S128x8192.size inbR).toLoadRect
        (v.writes (Elt Ideal) f [⟨Rect.unit (s := S384x8448) ![0, 128] S128x8192.size inb54, P54⟩,
          ⟨Rect.unit (s := S384x8448) ![128, 128] S128x8192.size inb53, P53⟩]) (ix2 c p)
      = if h : p.val + 1 < 8192 then P53 (ix2 c ⟨p.val + 1, h⟩) else (0 : EReal) := by
  have hc := c.isLt
  have hp := p.isLt
  by_cases h : p.val + 1 < 8192
  · rw [dif_pos h]
    refine (readAt_unit v (off := ![128, 129]) (size := S128x8192.size) inbR _ (ix2 c p) ⟨128 + c.val, by omega⟩
      ⟨128 + (p.val + 1), by omega⟩ rfl (by show 128 + (p.val + 1) = 129 + p.val; omega)).trans ?_
    rw [read_cons_not_mem v f 0 inb54 P54 _ _ _ (Or.inl (Or.inr (by show 0 + 128 ≤ 128 + c.val; omega)))]
    exact read_cons_mem v f 128 inb53 P53 [] c ⟨p.val + 1, h⟩ _ _ rfl rfl
  · rw [dif_neg h]
    refine (readAt_unit v (off := ![128, 129]) (size := S128x8192.size) inbR _ (ix2 c p) ⟨128 + c.val, by omega⟩
      ⟨8320, by omega⟩ rfl (by show 8320 = 129 + p.val; omega)).trans ?_
    rw [read_cons_not_mem v f 0 inb54 P54 _ _ _ (Or.inr (Or.inr (by show 8320 ≤ 8320; omega))),
      read_cons_not_mem v f 128 inb53 P53 [] _ _ (Or.inr (Or.inr (by show 8320 ≤ 8320; omega))), View.writes_nil]
    exact hpad _ _ (Or.inr (by show 8320 ≤ 8320; omega))

variable
    (hP53 : ∀ (c : Fin 128) (p : Fin 8192), P53 (ix2 c p) = ft c p)
    (hP54 : ∀ (c : Fin 128) (p : Fin 8192), P54 (ix2 c p) = Spec.tap ft c p 1 0)
    (hP55 : ∀ (c : Fin 128) (p : Fin 8192), P55 (ix2 c p) = Spec.tap ft c p 1 2)
    (hpad : ∀ (r : Fin 384) (col : Fin 8448), (col.val < 128 ∨ 8320 ≤ col.val) → v.read (Elt Ideal) f (ix2 r col) = (0 : EReal))
include hP53 hP54 hP55 hpad

theorem fb_read (r : Fin 384) (col : Fin 8448) :
    v.read (Elt Ideal) (v.writes (Elt Ideal) f [⟨Rect.unit (s := S384x8448) ![256, 128] S128x8192.size inb55, P55⟩,
        ⟨Rect.unit (s := S384x8448) ![0, 128] S128x8192.size inb54, P54⟩,
        ⟨Rect.unit (s := S384x8448) ![128, 128] S128x8192.size inb53, P53⟩]) (ix2 r col)
      = fbSpec ft r col := by
  have hr := r.isLt
  by_cases hin : 128 ≤ col.val ∧ col.val < 8320
  ·
    have hp' : col.val - 128 < 8192 := by omega
    obtain ⟨p, hp⟩ : ∃ p : Fin 8192, col.val = 128 + p.val :=
      ⟨⟨col.val - 128, hp'⟩, by show col.val = 128 + (col.val - 128); omega⟩
    have hb : 128 + p.val < 8448 := Nat.lt_of_lt_of_le (Nat.add_lt_add_left p.isLt 128) (by norm_num)
    have ecol : col = ⟨128 + p.val, hb⟩ := Fin.ext hp
    subst ecol
    rw [fbSpec_mid]
    by_cases h2 : 256 ≤ r.val
    ·
      refine (read_cons_mem v f 256 inb55 P55 _ ⟨r.val % 128, Nat.mod_lt _ (by norm_num)⟩ p r _
        (by show r.val = 256 + r.val % 128; omega) rfl).trans ?_
      rw [hP55]
      exact congrArg (Spec.tap ft _ p 1) (Fin.ext (by show 2 = r.val / 128; omega))
    · by_cases h1 : 128 ≤ r.val
      ·
        rw [read_cons_not_mem v f 256 inb55 P55 _ r _ (Or.inl (Or.inl (by omega))),
          read_cons_not_mem v f 0 inb54 P54 _ r _ (Or.inl (Or.inr (by omega)))]
        refine (read_cons_mem v f 128 inb53 P53 [] ⟨r.val % 128, Nat.mod_lt _ (by norm_num)⟩ p r _
          (by show r.val = 128 + r.val % 128; omega) rfl).trans ?_
        rw [hP53]
        exact (tap_centre ft _ p _ (by show r.val / 128 = 1; omega)).symm
      ·
        rw [read_cons_not_mem v f 256 inb55 P55 _ r _ (Or.inl (Or.inl (by omega)))]
        refine (read_cons_mem v f 0 inb54 P54 _ ⟨r.val % 128, Nat.mod_lt _ (by norm_num)⟩ p r _
          (by show r.val = 0 + r.val % 128; omega) rfl).trans ?_
        rw [hP54]
        exact congrArg (Spec.tap ft _ p 1) (Fin.ext (by show 0 = r.val / 128; omega))
  ·
    rw [read_cons_not_mem v f 256 inb55 P55 _ r col (Or.inr (by omega)),
      read_cons_not_mem v f 0 inb54 P54 _ r col (Or.inr (by omega)),
      read_cons_not_mem v f 128 inb53 P53 [] r col (Or.inr (by omega)), View.writes_nil,
      hpad r col (by omega), fbSpec_pad ft r col (by omega)]

theorem slice_read (q : Fin 8) (di : Fin 3) (off : Fin 2 → ℕ) (hoff : off = ![0, 128 * di.val + 1024 * q.val])
    (inbS : ∀ a, off a + S384x1024.size a ≤ S384x8448.size a) (dj : Fin 3) (c : Fin 128) (l : Fin 1024) :
    v.readAt (Elt Ideal) (Rect.unit (s := S384x8448) off S384x1024.size inbS).toLoadRect
        (v.writes (Elt Ideal) f [⟨Rect.unit (s := S384x8448) ![256, 128] S128x8192.size inb55, P55⟩,
          ⟨Rect.unit (s := S384x8448) ![0, 128] S128x8192.size inb54, P54⟩,
          ⟨Rect.unit (s := S384x8448) ![128, 128] S128x8192.size inb53, P53⟩])
        (ix2 (⟨128 * dj.val + c.val, by omega⟩ : Fin 384) l)
      = Spec.tap ft c ⟨1024 * q.val + l.val, by omega⟩ di dj := by
  subst hoff
  have hq := q.isLt
  have hl := l.isLt
  have hc := c.isLt
  have hdi := di.isLt
  have hdj := dj.isLt
  refine (readAt_unit v (off := ![0, 128 * di.val + 1024 * q.val]) (size := S384x1024.size) inbS _
    (ix2 (⟨128 * dj.val + c.val, by omega⟩ : Fin 384) l) ⟨128 * dj.val + c.val, by omega⟩
    ⟨128 * di.val + 1024 * q.val + l.val, by omega⟩
    (by show 128 * dj.val + c.val = 0 + (128 * dj.val + c.val); omega) rfl).trans ?_
  rw [fb_read v f ft P53 P54 P55 inb53 inb54 inb55 hP53 hP54 hP55 hpad]
  exact fbSpec_slice ft q di dj c l

end Cert.KernelIdeal.KFb

end
-- ==== Proof.KHalf2.lean ====
import proofs.«135277_g2000205747536381_pallasbulk_86_37_alg».proof.Proof.KPconv
import proofs.«135277_g2000205747536381_pallasbulk_86_37_alg».proof.Proof.KFbRead
import proofs.«135277_g2000205747536381_pallasbulk_86_37_alg».proof.Proof.KPieces
import Idealize.ShloMosaic.Lib.Exec.Geometry

noncomputable section

namespace Cert.KernelIdeal.KHalf2

open Idealize.ShloMosaic Idealize.ShloMosaic.ValueIdx
open Cert.KernelIdeal Cert.KernelIdeal.Gen Cert.KernelIdeal.KPconv

variable {sig : RefSig} {κ : Kind} {sp : Space} (v : View sig κ sp S384x8448 .bf16) (f : v.ty.Contents (Elt Ideal))
  (P53 : FVec Ideal S128x8192 .bf16) (m0 m1 : Vec Ideal S1x8192 .bf16)

abbrev L1 : List (View.Piece (Elt Ideal) S384x8448 .bf16) :=
  [⟨Rect.unit (s := S384x8448) ![128, 128] S128x8192.size inb_S384x8448_S128x8192_128_128, P53⟩]

abbrev vL : Vec Ideal S128x8192 .bf16 :=
  v.readAt (Elt Ideal) (Rect.unit (s := S384x8448) ![128, 127] S128x8192.size inb_S384x8448_S128x8192_128_127).toLoadRect
    (v.writes (Elt Ideal) f (L1 P53))

abbrev P54 : FVec Ideal S128x8192 .bf16 := k0_pay54 (vL v f P53) m0

abbrev L2 : List (View.Piece (Elt Ideal) S384x8448 .bf16) :=
  ⟨Rect.unit (s := S384x8448) ![0, 128] S128x8192.size inb_S384x8448_S128x8192_0_128, P54 v f P53 m0⟩ :: L1 P53

abbrev vR : Vec Ideal S128x8192 .bf16 :=
  v.readAt (Elt Ideal) (Rect.unit (s := S384x8448) ![128, 129] S128x8192.size inb_S384x8448_S128x8192_128_129).toLoadRect
    (v.writes (Elt Ideal) f (L2 v f P53 m0))

abbrev P55 : FVec Ideal S128x8192 .bf16 := k0_pay55 (vR v f P53 m0) m1

abbrev L3 : List (View.Piece (Elt Ideal) S384x8448 .bf16) :=
  ⟨Rect.unit (s := S384x8448) ![256, 128] S128x8192.size inb_S384x8448_S128x8192_256_128, P55 v f P53 m0 m1⟩ :: L2 v f P53 m0

section Taps
variable (ft : Fin 128 → Fin 8192 → EReal)
  (hP53 : ∀ (c : Fin 128) (p : Fin 8192), P53 (ix2 c p) = ft c p)
  (hm0 : ∀ p : Fin 8192, m0 (ix2 (0 : Fin 1) p) = if p.val % 128 = 0 then 0 else 1)
  (hm1 : ∀ p : Fin 8192, m1 (ix2 (0 : Fin 1) p) = if p.val % 128 = 127 then 0 else 1)
  (hpad : ∀ (r : Fin 384) (col : Fin 8448), (col.val < 128 ∨ 8320 ≤ col.val) → v.read (Elt Ideal) f (ix2 r col) = (0 : EReal))
include hP53 hpad

include hm0 hm1 in

theorem slice_FSlice (q : Fin 8) (di : Fin 3) (off : Fin 2 → ℕ) (hoff : off = ![0, 128 * di.val + 1024 * q.val])
    (inbS : ∀ a, off a + S384x1024.size a ≤ S384x8448.size a) :
    FSlice ft q di (v.readAt (Elt Ideal) (Rect.unit (s := S384x8448) off S384x1024.size inbS).toLoadRect
      (v.writes (Elt Ideal) f (L3 v f P53 m0 m1))) := by
  have h54 : ∀ (c : Fin 128) (p : Fin 8192), P54 v f P53 m0 (ix2 c p) = Spec.tap ft c p 1 0 := by
    refine pay54_tap ft (vL v f P53) m0 (fun c p h => ?_) hm0
    refine (KFb.shiftL_apply v f P53 inb_S384x8448_S128x8192_128_128 inb_S384x8448_S128x8192_128_127 hpad c p).trans ?_
    rw [dif_pos (by omega)]; exact hP53 c _
  have h55 : ∀ (c : Fin 128) (p : Fin 8192), P55 v f P53 m0 m1 (ix2 c p) = Spec.tap ft c p 1 2 := by
    refine pay55_tap ft (vR v f P53 m0) m1 (fun c p h => ?_) hm1
    refine (KFb.shiftR_apply v f P53 (P54 v f P53 m0) inb_S384x8448_S128x8192_128_128 inb_S384x8448_S128x8192_0_128
      inb_S384x8448_S128x8192_128_129 hpad c p).trans ?_
    rw [dif_pos (by have := p.isLt; omega)]; exact hP53 c _
  exact fun dj c l => KFb.slice_read v f ft P53 _ _ inb_S384x8448_S128x8192_128_128 inb_S384x8448_S128x8192_0_128
    inb_S384x8448_S128x8192_256_128 hP53 h54 h55 hpad q di off hoff inbS dj c l

end Taps

theorem L3_cover (r : Fin 384) (col : Fin 8448) (h : 128 ≤ col.val ∧ col.val < 8320) :
    ∃ p ∈ L3 v f P53 m0 m1, ix2 r col ∈ p.1.set := by
  by_cases h0 : r.val < 128
  · exact ⟨_, List.mem_cons_of_mem _ List.mem_cons_self,
      (KPieces.mem_unit2 inb_S384x8448_S128x8192_0_128 r col).mpr ⟨⟨by omega, by omega⟩, by omega, by omega⟩⟩
  · by_cases h1 : r.val < 256
    · exact ⟨_, List.mem_cons_of_mem _ (List.mem_cons_of_mem _ List.mem_cons_self),
        (KPieces.mem_unit2 inb_S384x8448_S128x8192_128_128 r col).mpr ⟨⟨by omega, by omega⟩, by omega, by omega⟩⟩
    · exact ⟨_, List.mem_cons_self,
        (KPieces.mem_unit2 inb_S384x8448_S128x8192_256_128 r col).mpr ⟨⟨by omega, by have := r.isLt; omega⟩, by omega, by omega⟩⟩

theorem readCov_slice_eq [∀ e, Nonempty (Elt Ideal e)] (o1 : ℕ) (inbS : ∀ a, (![0, o1] : Fin 2 → ℕ) a + S384x1024.size a ≤ S384x8448.size a)
    (h : 128 ≤ o1 ∧ o1 + 1024 ≤ 8320) :
    v.readCov (L3 v f P53 m0 m1) (Rect.unit (s := S384x8448) ![0, o1] S384x1024.size inbS).toLoadRect
      = v.readAt (Elt Ideal) (Rect.unit (s := S384x8448) ![0, o1] S384x1024.size inbS).toLoadRect
          (v.writes (Elt Ideal) f (L3 v f P53 m0 m1)) := by
  refine (View.readAt_writes_of_cover v f _ _ fun j => ?_).symm
  obtain ⟨a, b, rfl⟩ : ∃ (a : Fin 384) (b : Fin 1024), j = ix2 a b := ⟨j 0, j 1, eq_ix2 j⟩
  have e := KPieces.emb_unit2 inbS a b (by have := a.isLt; omega) (by have := b.isLt; omega)
  rw [show (Rect.unit (s := S384x8448) ![0, o1] S384x1024.size inbS).toLoadRect.idx (ix2 a b) = _ from e]
  exact L3_cover v f P53 m0 m1 _ _ ⟨by show 128 ≤ o1 + b.val; omega, by show o1 + b.val < 8320; have := b.isLt; omega⟩

section Chunks
variable (cw : Fin 128 → Fin 128 → Fin 3 → Fin 3 → EReal) (ft : Fin 128 → Fin 8192 → EReal)
  (w0 w1 w2 : Vec Ideal S1x128x384 .bf16) (hw0 : WSlab cw 0 w0) (hw1 : WSlab cw 1 w1) (hw2 : WSlab cw 2 w2)
  (s0 s1 s2 : Vec Ideal S384x1024 .bf16)
include hw0 hw1 hw2

theorem y0 (hs0 : FSlice ft 0 0 s0) (hs1 : FSlice ft 0 1 s1) (hs2 : FSlice ft 0 2 s2) (u : Fin 1) (f' : Fin 128) (l : Fin 1024) :
    k0_pay60 (k0_pay58 s0 w0) s1 w1 s2 w2 (ix3 u f' l) = Spec.conv cw ft f' (pix 0 l) :=
  (pay60_apply _ s1 w1 s2 w2 u f' l).trans (acc0_conv cw ft s0 w0 s1 w1 s2 w2 hw0 hs0 hw1 hs1 hw2 hs2 f' l)
theorem y1 (hs0 : FSlice ft 1 0 s0) (hs1 : FSlice ft 1 1 s1) (hs2 : FSlice ft 1 2 s2) (u : Fin 1) (f' : Fin 128) (l : Fin 1024) :
    k0_pay65 (k0_pay63 s0 w0 s1 w1) s2 w2 (ix3 u f' l) = Spec.conv cw ft f' (pix 1 l) :=
  (pay65_apply _ s2 w2 u f' l).trans (acc1_conv cw ft s0 w0 s1 w1 s2 w2 hw0 hs0 hw1 hs1 hw2 hs2 f' l)
theorem y2 (hs0 : FSlice ft 2 0 s0) (hs1 : FSlice ft 2 1 s1) (hs2 : FSlice ft 2 2 s2) (u : Fin 1) (f' : Fin 128) (l : Fin 1024) :
    k0_pay71 (k0_pay68 s0 w0 s1 w1) s2 (k0_pay69 w2) (ix3 u f' l) = Spec.conv cw ft f' (pix 2 l) :=
  (pay71_apply _ s2 _ u f' l).trans (acc2_conv cw ft s0 w0 s1 w1 s2 w2 hw0 hs0 hw1 hs1 hw2 hs2 f' l)
theorem y3 (hs0 : FSlice ft 3 0 s0) (hs1 : FSlice ft 3 1 s1) (hs2 : FSlice ft 3 2 s2) (u : Fin 1) (f' : Fin 128) (l : Fin 1024) :
    k0_pay76 (k0_pay75 s0 w0 s1 w1 s2 w2) (ix3 u f' l) = Spec.conv cw ft f' (pix 3 l) :=
  (pay76_apply _ u f' l).trans ((pay75_apply s0 w0 s1 w1 s2 w2 f' l).trans (acc3_conv cw ft s0 w0 s1 w1 s2 w2 hw0 hs0 hw1 hs1 hw2 hs2 f' l))
theorem y4 (hs0 : FSlice ft 4 0 s0) (hs1 : FSlice ft 4 1 s1) (hs2 : FSlice ft 4 2 s2) (u : Fin 1) (f' : Fin 128) (l : Fin 1024) :
    k0_pay79 s0 w0 s1 w1 s2 w2 (ix3 u f' l) = Spec.conv cw ft f' (pix 4 l) :=
  (pay79_apply s0 w0 s1 w1 s2 w2 u f' l).trans (acc4_conv cw ft s0 w0 s1 w1 s2 w2 hw0 hs0 hw1 hs1 hw2 hs2 f' l)
theorem y5 (hs0 : FSlice ft 5 0 s0) (hs1 : FSlice ft 5 1 s1) (hs2 : FSlice ft 5 2 s2) (u : Fin 1) (f' : Fin 128) (l : Fin 1024) :
    k0_pay83 s0 w0 s1 w1 s2 w2 (ix3 u f' l) = Spec.conv cw ft f' (pix 5 l) :=
  (pay83_apply s0 w0 s1 w1 s2 w2 u f' l).trans (acc5_conv cw ft s0 w0 s1 w1 s2 w2 hw0 hs0 hw1 hs1 hw2 hs2 f' l)
theorem y6 (hs0 : FSlice ft 6 0 s0) (hs1 : FSlice ft 6 1 s1) (hs2 : FSlice ft 6 2 s2) (u : Fin 1) (f' : Fin 128) (l : Fin 1024) :
    k0_pay88 k0_pay86 s0 w0 s1 w1 s2 w2 (ix3 u f' l) = Spec.conv cw ft f' (pix 6 l) :=
  (pay88_apply _ s0 w0 s1 w1 s2 w2 u f' l).trans (acc6_conv cw ft s0 w0 s1 w1 s2 w2 hw0 hs0 hw1 hs1 hw2 hs2 f' l)
theorem y7 (hs0 : FSlice ft 7 0 s0) (hs1 : FSlice ft 7 1 s1) (hs2 : FSlice ft 7 2 s2) (u : Fin 1) (f' : Fin 128) (l : Fin 1024) :
    k0_pay94 k0_pay91 (k0_pay92 s0 w0) s1 w1 s2 w2 (ix3 u f' l) = Spec.conv cw ft f' (pix 7 l) :=
  (pay94_apply _ _ s1 w1 s2 w2 u f' l).trans (acc7_conv cw ft s0 w0 s1 w1 s2 w2 hw0 hs0 hw1 hs1 hw2 hs2 f' l)

end Chunks

end Cert.KernelIdeal.KHalf2

end
-- ==== Proof.KPconvC.lean ====
import proofs.«135277_g2000205747536381_pallasbulk_86_37_alg».proof.Proof.KPconv
import Idealize.ShloMosaic.Lib.WholeRead

noncomputable section

namespace Cert.KernelIdeal.KPconv

open Idealize.ShloMosaic Idealize.ShloMosaic.ValueIdx Finset
open Cert.KernelIdeal Cert.KernelIdeal.Gen

theorem wslab_load (arg4 : Memref sig .tc .vmem S3x128x384 .bf16) (harg4 : arg4.IsWhole) (x4 : Vec Ideal S3x128x384 .bf16)
    (cw : Fin 128 → Fin 128 → Fin 3 → Fin 3 → EReal)
    (hx4 : ∀ (di : Fin 3) (f : Fin 128) (dj : Fin 3) (ch : Fin 128), x4 (ix3 di f (row3 dj ch)) = cw f ch di dj)
    (t : Fin 3) (off : Fin 3 → ℕ) (hoff : off = ![t.val, 0, 0]) (inb : ∀ a, off a + S1x128x384.size a ≤ S3x128x384.size a) :
    WSlab cw t (View.readAt (Elt Ideal) arg4.view (Rect.unit (s := S3x128x384) off S1x128x384.size inb).toLoadRect (harg4.unread x4)) := by
  subst hoff
  intro f dj c
  refine (harg4.readAt_unread x4 _ _).trans ?_
  refine Eq.trans (congrArg x4 ?_) (hx4 t f dj c)
  funext a
  refine Fin.ext ?_
  match a with
  | ⟨0, _⟩ => show t.val + 1 * 0 = t.val; omega
  | ⟨1, _⟩ => show 0 + 1 * f.val = f.val; omega
  | ⟨2, _⟩ => show 0 + 1 * (row3 dj c).val = (row3 dj c).val; omega

theorem wslab0 (arg4 : Memref sig .tc .vmem S3x128x384 .bf16) (harg4 : arg4.IsWhole) (x4 : Vec Ideal S3x128x384 .bf16)
    (cw : Fin 128 → Fin 128 → Fin 3 → Fin 3 → EReal)
    (hx4 : ∀ (di : Fin 3) (f : Fin 128) (dj : Fin 3) (ch : Fin 128), x4 (ix3 di f (row3 dj ch)) = cw f ch di dj) :
    WSlab cw 0 (View.readAt (Elt Ideal) arg4.view (Rect.unit (s := S3x128x384) ![0, 0, 0] S1x128x384.size inb_S3x128x384_S1x128x384_0_0_0).toLoadRect (harg4.unread x4)) :=
  wslab_load arg4 harg4 x4 cw hx4 0 _ rfl _

theorem wslab1 (arg4 : Memref sig .tc .vmem S3x128x384 .bf16) (harg4 : arg4.IsWhole) (x4 : Vec Ideal S3x128x384 .bf16)
    (cw : Fin 128 → Fin 128 → Fin 3 → Fin 3 → EReal)
    (hx4 : ∀ (di : Fin 3) (f : Fin 128) (dj : Fin 3) (ch : Fin 128), x4 (ix3 di f (row3 dj ch)) = cw f ch di dj) :
    WSlab cw 1 (View.readAt (Elt Ideal) arg4.view (Rect.unit (s := S3x128x384) ![1, 0, 0] S1x128x384.size inb_S3x128x384_S1x128x384_1_0_0).toLoadRect (harg4.unread x4)) :=
  wslab_load arg4 harg4 x4 cw hx4 1 _ rfl _

theorem wslab2 (arg4 : Memref sig .tc .vmem S3x128x384 .bf16) (harg4 : arg4.IsWhole) (x4 : Vec Ideal S3x128x384 .bf16)
    (cw : Fin 128 → Fin 128 → Fin 3 → Fin 3 → EReal)
    (hx4 : ∀ (di : Fin 3) (f : Fin 128) (dj : Fin 3) (ch : Fin 128), x4 (ix3 di f (row3 dj ch)) = cw f ch di dj) :
    WSlab cw 2 (View.readAt (Elt Ideal) arg4.view (Rect.unit (s := S3x128x384) ![2, 0, 0] S1x128x384.size inb_S3x128x384_S1x128x384_2_0_0).toLoadRect (harg4.unread x4)) :=
  wslab_load arg4 harg4 x4 cw hx4 2 _ rfl _

end Cert.KernelIdeal.KPconv
end
-- ==== Proof.KStepA2.lean ====
import proofs.«135277_g2000205747536381_pallasbulk_86_37_alg».proof.Proof.KRunA
import proofs.«135277_g2000205747536381_pallasbulk_86_37_alg».proof.Proof.KHalf2
import proofs.«135277_g2000205747536381_pallasbulk_86_37_alg».proof.Proof.KPconvC
import Idealize.ShloMosaic.Lib.WholeRead

set_option maxRecDepth 16384

noncomputable section

namespace Cert.KernelIdeal.Gen

open Idealize.ShloMosaic Idealize.ShloMosaic.ValueIdx
open Cert.KernelIdeal.KPconv

theorem ofBits_zero_bf16 : Ideal.ofBits .bf16 0x0000#16 = 0 := by simp [Ideal.ofBits, Ideal.ieee]

-- A whole column held at contents `d` loads as `d`.
theorem col_load (M : Memref sig .tc .vmem S128x1 .f32) (hM : M.IsWhole) (d : Vec Ideal S128x1 .f32) (f : Fin 128) (j : Fin 1) :
    View.readAt (Elt Ideal) M.view (Rect.unit (s := S128x1) ![0, 0] S128x1.size inb_S128x1_S128x1_0_0).toLoadRect (hM.unread d) (ix2 f j)
      = d (ix2 f j) := by
  refine (hM.readAt_unread d _ _).trans (congrArg d ?_)
  funext a; apply Fin.ext
  match a with
  | ⟨0, _⟩ => show 0 + 1 * f.val = f.val; omega
  | ⟨1, _⟩ => show 0 + 1 * j.val = j.val; omega

-- After one write of the whole column, the column reads the written payload.
theorem read_whole_col {κ : Kind} {sp : Space} (v : View sig κ sp S128x1 .f32) (g : v.ty.Contents (Elt Ideal))
    (w : (Rect.unit (s := S128x1) ![0, 0] S128x1.size inb_S128x1_S128x1_0_0).shape.Idx → Elt Ideal .f32) (f : Fin 128) :
    v.read (Elt Ideal) (v.writes (Elt Ideal) g [⟨Rect.unit ![0, 0] S128x1.size inb_S128x1_S128x1_0_0, w⟩]) (ix2 f (0 : Fin 1))
      = w (ix2 f (0 : Fin 1)) := by
  have hf := f.isLt
  exact KPieces.read_writes_cons_unit2 v g inb_S128x1_S128x1_0_0 w [] f 0 (by omega) (by omega)

variable (c : Dev nD) (i : grid0.Coords) (arg2 : Memref sig .tc .vmem S1x128x64x128 .f32) (harg2 : arg2.IsWhole) (arg3 : Memref sig .tc .vmem S128x128 .f32) (harg3 : arg3.IsWhole) (arg4 : Memref sig .tc .vmem S3x128x384 .bf16) (harg4 : arg4.IsWhole) (arg5 : Memref sig .tc .vmem S2x8192 .f32) (harg5 : arg5.IsWhole) (arg6 : Memref sig .tc .vmem S2x8192 .bf16) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x64x128 .f32) (harg9 : arg9.IsWhole) (arg10 : Memref sig .tc .vmem S4x128x8192 .bf16) (harg10 : arg10.IsWhole) (arg11 : Memref sig .tc .vmem S128x1 .f32) (harg11 : arg11.IsWhole) (arg12 : Memref sig .tc .vmem S128x1 .f32) (harg12 : arg12.IsWhole) (arg13 : Memref sig .tc .vmem S128x8448 .f32) (harg13 : arg13.IsWhole) (arg14 : Memref sig .tc .vmem S128x8448 .f32) (harg14 : arg14.IsWhole) (arg15 : Memref sig .tc .vmem S16x8192 .f32) (harg15 : arg15.IsWhole) (arg16 : Memref sig .tc .vmem S16x8192 .f32) (harg16 : arg16.IsWhole) (arg17 : Memref sig .tc .vmem S384x8448 .bf16) (harg17 : arg17.IsWhole)
    (hc1 : cond0_1 i) (hc2 : cond0_2 i) (hc3 : ¬cond0_3 i)
    (x2 : Vec Ideal S1x128x64x128 .f32) (x3 : Vec Ideal S128x128 .f32) (x4 : Vec Ideal S3x128x384 .bf16) (x5 : Vec Ideal S2x8192 .f32) (x6 : Vec Ideal S2x8192 .bf16) (d10 : Vec Ideal S4x128x8192 .bf16) (d11 : Vec Ideal S128x1 .f32) (d12 : Vec Ideal S128x1 .f32) (d13 : Vec Ideal S128x8448 .f32) (d14 : Vec Ideal S128x8448 .f32) (d15 : Vec Ideal S16x8192 .f32) (d16 : Vec Ideal S16x8192 .f32) (d17 : Vec Ideal S384x8448 .bf16)

abbrev A17f : arg17.view.ty.Contents (Elt Ideal) :=
  arg17.view.writes (Elt Ideal) arg17.view.junk (kernelRun0_A.sl.H17_2 (F := Ideal))

abbrev AP53 : FVec Ideal S128x8192 .bf16 := k0_pay53 (kernelRun0_A.sl.v17 (F := Ideal) c arg2 harg2 arg13 x2) (kernelRun0_A.sl.v231 (F := Ideal) c arg2 harg2 arg5 harg5 arg13 arg14 arg15 arg16 x2 x5) (kernelRun0_A.sl.r_12 (F := Ideal) c arg2 harg2 arg3 harg3 arg5 harg5 arg13 arg14 arg15 arg16 x2 x3 x5)

-- The pad columns on either side of the stacked operand read zero.
theorem A_hpad17 (r : Fin 384) (col : Fin 8448) (h : col.val < 128 ∨ 8320 ≤ col.val) :
    arg17.view.read (Elt Ideal) (A17f arg17) (ix2 r col) = (0 : EReal) := by
  unfold A17f kernelRun0_A.sl.H17_2
  have hr := r.isLt
  have hc := col.isLt
  rcases h with h | h
  · exact (KPieces.read_writes_cons_unit2_of_not_mem arg17.view _ inb_S384x8448_S384x128_0_8320 _ _ r col (by omega)).trans
      ((KPieces.read_writes_cons_unit2 arg17.view _ inb_S384x8448_S384x128_0_0 _ _ r col (by omega) (by omega)).trans ofBits_zero_bf16)
  · exact (KPieces.read_writes_cons_unit2 arg17.view _ inb_S384x8448_S384x128_0_8320 _ _ r col (by omega) (by omega)).trans ofBits_zero_bf16

-- Row `r` of the mask input, loaded whole, is the mask `g`.
theorem A_m (r : Fin 2) (inb : ∀ a, (![r.val, 0] : Fin 2 → ℕ) a + S1x8192.size a ≤ S2x8192.size a) (g : Fin 8192 → EReal)
    (hx : ∀ p : Fin 8192, x6 (ix2 r p) = g p) (p : Fin 8192) :
    View.readAt (Elt Ideal) arg6.view (Rect.unit (s := S2x8192) ![r.val, 0] S1x8192.size inb).toLoadRect (harg6.unread x6) (ix2 (0 : Fin 1) p) = g p := by
  refine (harg6.readAt_unread x6 _ _).trans ((congrArg x6 (funext fun a => Fin.ext ?_)).trans (hx p))
  match a with
  | ⟨0, _⟩ => rfl
  | ⟨1, _⟩ => show 0 + 1 * p.val = p.val; omega

variable
  (cw : Fin 128 → Fin 128 → Fin 3 → Fin 3 → EReal) (ft : Fin 128 → Fin 8192 → EReal)
  (hP53 : ∀ (ch : Fin 128) (p : Fin 8192), AP53 c arg2 harg2 arg3 harg3 arg5 harg5 arg13 arg14 arg15 arg16 x2 x3 x5 (ix2 ch p) = ft ch p)
  (hx60 : ∀ p : Fin 8192, x6 (ix2 (0 : Fin 2) p) = if p.val % 128 = 0 then 0 else 1)
  (hx61 : ∀ p : Fin 8192, x6 (ix2 (1 : Fin 2) p) = if p.val % 128 = 127 then 0 else 1)
  (hx4 : ∀ (di : Fin 3) (f : Fin 128) (dj : Fin 3) (ch : Fin 128), x4 (ix3 di f (row3 dj ch)) = cw f ch di dj)
include hP53 hx60 hx61

-- Chunk `q`'s slice for row tap `di` holds the taps of `ft`.
theorem A_fs (q : Fin 8) (di : Fin 3) (o1 : ℕ) (ho : o1 = 128 * di.val + 1024 * q.val)
    (inbS : ∀ a, (![0, o1] : Fin 2 → ℕ) a + S384x1024.size a ≤ S384x8448.size a) :
    FSlice ft q di (arg17.view.readCov (kernelRun0_A.sl.H17_5 (F := Ideal) c arg2 harg2 arg3 harg3 arg5 harg5 arg6 harg6 arg13 arg14 arg15 arg16 arg17 x2 x3 x5 x6) (Rect.unit (s := S384x8448) ![0, o1] S384x1024.size inbS).toLoadRect) :=
  KHalf2.slice_FSlice arg17.view (A17f arg17) _ _ _ ft hP53 (A_m arg6 harg6 x6 0 inb_S2x8192_S1x8192_0_0 _ hx60)
    (A_m arg6 harg6 x6 1 inb_S2x8192_S1x8192_1_0 _ hx61) (A_hpad17 arg17) q di ![0, o1] (by rw [ho]) inbS

include hx4

-- The stored running sum: each chunk's accumulator is the convolution at its pixels.
theorem A_ps (f : Fin 128) :
    arg11.view.read (Elt Ideal) (arg11.view.writes (Elt Ideal) (harg11.unread d11) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.1) (ix2 f (0 : Fin 1))
      = (if BitVec.ofNat 32 (i 1).val = 0#32 then 0 else d11 (ix2 f (0 : Fin 1))) + ∑ p : Fin 8192, Spec.conv cw ft f p := by
  unfold kernelRun0_A; dsimp only
  have fs := fun q di => A_fs c arg2 harg2 arg3 harg3 arg5 harg5 arg6 harg6 arg13 arg14 arg15 arg16 arg17 x2 x3 x5 x6 ft hP53 hx60 hx61 q di _ rfl
  have w0 := wslab0 arg4 harg4 x4 cw hx4
  have w1 := wslab1 arg4 harg4 x4 cw hx4
  have w2 := wslab2 arg4 harg4 x4 cw hx4
  refine (read_whole_col arg11.view _ _ f).trans ((bsum_total (g := Spec.conv cw ft) (f := f)
    (h0 := acc0_conv cw ft _ _ _ _ _ _ w0 (fs 0 0 _) w1 (fs 0 1 _) w2 (fs 0 2 _))
    (h1 := acc1_conv cw ft _ _ _ _ _ _ w0 (fs 1 0 _) w1 (fs 1 1 _) w2 (fs 1 2 _))
    (h2 := acc2_conv cw ft _ _ _ _ _ _ w0 (fs 2 0 _) w1 (fs 2 1 _) w2 (fs 2 2 _))
    (h3 := acc3_conv cw ft _ _ _ _ _ _ w0 (fs 3 0 _) w1 (fs 3 1 _) w2 (fs 3 2 _))
    (h4 := acc4_conv cw ft _ _ _ _ _ _ w0 (fs 4 0 _) w1 (fs 4 1 _) w2 (fs 4 2 _))
    (h5 := acc5_conv cw ft _ _ _ _ _ _ w0 (fs 5 0 _) w1 (fs 5 1 _) w2 (fs 5 2 _))
    (h6 := acc6_conv cw ft _ _ _ _ _ _ w0 (fs 6 0 _) w1 (fs 6 1 _) w2 (fs 6 2 _))
    (h7 := acc7_conv cw ft _ _ _ _ _ _ w0 (fs 7 0 _) w1 (fs 7 1 _) w2 (fs 7 2 _)) ..).trans ?_)
  congr 2; exact col_load arg11 harg11 d11 f _

-- The stored running sum of squares, likewise.
theorem A_psq (f : Fin 128) :
    arg12.view.read (Elt Ideal) (arg12.view.writes (Elt Ideal) (harg12.unread d12) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.2.2.1) (ix2 f (0 : Fin 1))
      = (if BitVec.ofNat 32 (i 1).val = 0#32 then 0 else d12 (ix2 f (0 : Fin 1))) + ∑ p : Fin 8192, Spec.conv cw ft f p * Spec.conv cw ft f p := by
  unfold kernelRun0_A; dsimp only
  have fs := fun q di => A_fs c arg2 harg2 arg3 harg3 arg5 harg5 arg6 harg6 arg13 arg14 arg15 arg16 arg17 x2 x3 x5 x6 ft hP53 hx60 hx61 q di _ rfl
  have w0 := wslab0 arg4 harg4 x4 cw hx4
  have w1 := wslab1 arg4 harg4 x4 cw hx4
  have w2 := wslab2 arg4 harg4 x4 cw hx4
  refine (read_whole_col arg12.view _ _ f).trans ((bsq_total (g := Spec.conv cw ft) (f := f)
    (h0 := acc0_conv cw ft _ _ _ _ _ _ w0 (fs 0 0 _) w1 (fs 0 1 _) w2 (fs 0 2 _))
    (h1 := acc1_conv cw ft _ _ _ _ _ _ w0 (fs 1 0 _) w1 (fs 1 1 _) w2 (fs 1 2 _))
    (h2 := acc2_conv cw ft _ _ _ _ _ _ w0 (fs 2 0 _) w1 (fs 2 1 _) w2 (fs 2 2 _))
    (h3 := acc3_conv cw ft _ _ _ _ _ _ w0 (fs 3 0 _) w1 (fs 3 1 _) w2 (fs 3 2 _))
    (h4 := acc4_conv cw ft _ _ _ _ _ _ w0 (fs 4 0 _) w1 (fs 4 1 _) w2 (fs 4 2 _))
    (h5 := acc5_conv cw ft _ _ _ _ _ _ w0 (fs 5 0 _) w1 (fs 5 1 _) w2 (fs 5 2 _))
    (h6 := acc6_conv cw ft _ _ _ _ _ _ w0 (fs 6 0 _) w1 (fs 6 1 _) w2 (fs 6 2 _))
    (h7 := acc7_conv cw ft _ _ _ _ _ _ w0 (fs 7 0 _) w1 (fs 7 1 _) w2 (fs 7 2 _)) ..).trans ?_)
  congr 2; exact col_load arg12 harg12 d12 f _

end Cert.KernelIdeal.Gen

end
-- ==== Proof.LibStat.lean ====
import Mathlib.Data.EReal.Basic
import Mathlib.Algebra.BigOperators.Group.Finset.Basic
import Mathlib.Algebra.BigOperators.Fin
import Idealize.ShloMosaic.PureOps.Float

noncomputable section

namespace Cert.LibMath

open Finset Idealize.ShloMosaic

section Running
variable (Y : Fin 4 → EReal)

def partialSum (n : ℕ) : EReal := ∑ b : Fin 4, if b.val ≤ n then Y b else 0

theorem partialSum_zero : partialSum Y 0 = Y 0 := by
  unfold partialSum
  rw [Fin.sum_univ_four]
  simp

theorem partialSum_succ (n : ℕ) (hn : n + 1 < 4) : partialSum Y (n + 1) = partialSum Y n + Y ⟨n + 1, hn⟩ := by
  obtain rfl | rfl | rfl : n = 0 ∨ n = 1 ∨ n = 2 := by omega
  all_goals
    unfold partialSum
    rw [Fin.sum_univ_four, Fin.sum_univ_four]
    simp
    try rfl

theorem step_first (new : EReal) (junk : EReal) (h : new = (if (0 : ℕ) = 0 then 0 else junk) + Y 0) :
    new = partialSum Y 0 := by
  rw [h, if_pos rfl, zero_add, partialSum_zero]

theorem step_next (t : ℕ) (ht1 : 1 ≤ t) (ht3 : t ≤ 3) (old new : EReal) (hold : old = partialSum Y (t - 1))
    (hnew : new = (if t = 0 then 0 else old) + Y ⟨t, by omega⟩) : new = partialSum Y t := by
  obtain ⟨n, rfl⟩ : ∃ n, t = n + 1 := ⟨t - 1, by omega⟩
  rw [hnew, if_neg (by omega), hold, partialSum_succ Y n (by omega), Nat.add_sub_cancel]

end Running

theorem ofNat_eq_zero_iff (t : ℕ) (ht : t < 4) : BitVec.ofNat 32 t = 0#32 ↔ t = 0 := by
  obtain rfl | rfl | rfl | rfl : t = 0 ∨ t = 1 ∨ t = 2 ∨ t = 3 := by omega
  all_goals decide

end Cert.LibMath

end
-- ==== Proof.KStat.lean ====
import proofs.«135277_g2000205747536381_pallasbulk_86_37_alg».proof.Proof.KInv
import proofs.«135277_g2000205747536381_pallasbulk_86_37_alg».proof.Proof.LibStat

noncomputable section

namespace Cert.KernelIdeal.Gen

open Idealize.ShloMosaic Idealize.ShloMosaic.TcCoe Idealize.ShloMosaic.ValueIdx
open Cert.LibMath (partialSum step_first step_next ofNat_eq_zero_iff)

theorem run_field (Z : Fin 4 → Fin 128 → EReal) (t : ℕ) (ht : t < 4) (add : Fin 128 → EReal)
    (hadd : ∀ f, add f = Z ⟨t, ht⟩ f) (old new : FVec Ideal S128x1 .f32)
    (hold : t ≠ 0 → ∀ f, old (ix2 f (0 : Fin 1)) = ∑ b : Fin 4, if b.val ≤ t - 1 then Z b f else 0)
    (hnew : ∀ f, new (ix2 f (0 : Fin 1)) = (if BitVec.ofNat 32 t = 0#32 then 0 else old (ix2 f 0)) + add f) :
    ∀ f, new (ix2 f (0 : Fin 1)) = ∑ b : Fin 4, if b.val ≤ t then Z b f else 0 := by
  intro f
  show new (ix2 f (0 : Fin 1)) = partialSum (fun b => Z b f) t
  by_cases h0 : t = 0
  · subst h0
    refine step_first (fun b => Z b f) _ (old (ix2 f 0)) ?_
    rw [hnew f, if_pos rfl, if_pos rfl, hadd f]
    rfl
  · refine step_next (fun b => Z b f) t (by omega) (by omega) (old (ix2 f 0)) _ (hold h0 f) ?_
    rw [hnew f, if_neg ((ofNat_eq_zero_iff t ht).not.mpr h0), if_neg h0, hadd f]

variable (m : (ℓ : Loc nD τ sig) → Buf (Elt Ideal) ℓ) (c : Dev nD)

theorem ps_field (t : ℕ) (ht : t < 4) (g : Fin 128 → Fin 8192 → EReal) (hg : ∀ f p, g f p = sY m c ⟨t, ht⟩ f p)
    (old new : FVec Ideal S128x1 .f32)
    (hold : t ≠ 0 → ∀ f, old (ix2 f (0 : Fin 1)) = ∑ b : Fin 4, if b.val ≤ t - 1 then ∑ p, sY m c b f p else 0)
    (hnew : ∀ f, new (ix2 f (0 : Fin 1)) = (if BitVec.ofNat 32 t = 0#32 then 0 else old (ix2 f 0)) + ∑ p, g f p) :
    ∀ f, new (ix2 f (0 : Fin 1)) = ∑ b : Fin 4, if b.val ≤ t then ∑ p, sY m c b f p else 0 :=
  run_field (fun b f => ∑ p, sY m c b f p) t ht (fun f => ∑ p, g f p)
    (fun f => Finset.sum_congr rfl fun p _ => hg f p) old new hold hnew

theorem psq_field (t : ℕ) (ht : t < 4) (g : Fin 128 → Fin 8192 → EReal) (hg : ∀ f p, g f p = sY m c ⟨t, ht⟩ f p)
    (old new : FVec Ideal S128x1 .f32)
    (hold : t ≠ 0 → ∀ f, old (ix2 f (0 : Fin 1)) = ∑ b : Fin 4, if b.val ≤ t - 1 then ∑ p, sY m c b f p * sY m c b f p else 0)
    (hnew : ∀ f, new (ix2 f (0 : Fin 1)) = (if BitVec.ofNat 32 t = 0#32 then 0 else old (ix2 f 0)) + ∑ p, g f p * g f p) :
    ∀ f, new (ix2 f (0 : Fin 1)) = ∑ b : Fin 4, if b.val ≤ t then ∑ p, sY m c b f p * sY m c b f p else 0 :=
  run_field (fun b f => ∑ p, sY m c b f p * sY m c b f p) t ht (fun f => ∑ p, g f p * g f p)
    (fun f => Finset.sum_congr rfl fun p _ => by rw [hg f p]) old new hold hnew

end Cert.KernelIdeal.Gen

end
-- ==== Proof.KA2s.lean ====
import proofs.«135277_g2000205747536381_pallasbulk_86_37_alg».proof.Proof.KInv
import proofs.«135277_g2000205747536381_pallasbulk_86_37_alg».proof.Proof.KStepA2
import proofs.«135277_g2000205747536381_pallasbulk_86_37_alg».proof.Proof.KStat
import proofs.«135277_g2000205747536381_pallasbulk_86_37_alg».proof.Proof.KBlk

set_option maxRecDepth 16384

noncomputable section

namespace Cert.KernelIdeal.Gen

open Idealize.ShloMosaic Idealize.ShloMosaic.TcCoe Idealize.ShloMosaic.Tactic Idealize.ShloMosaic.ValueIdx

variable (m : (ℓ : Loc nD τ sig) → Buf (Elt Ideal) ℓ)

namespace StepA2

theorem batch_word0 : ∀ t : Fin cfg0.N, t.val < 4 → BitVec.ofNat 32 ((grid0.coords t) 1).val = BitVec.ofNat 32 t.val :=
  (by decide +kernel : ∀ t : Fin grid0.N, t.val < 4 → BitVec.ofNat 32 ((grid0.coords t) 1).val = BitVec.ofNat 32 t.val)

abbrev cwA (c : Dev nD) : Fin 128 → Fin 128 → Fin 3 → Fin 3 → EReal := Cert.Spec.argCw (sA2 m c)

abbrev ft0 (c : Dev nD) : Fin 128 → Fin 8192 → EReal :=
  Cert.Spec.feat (Cert.Spec.argX (sA0 m c) (⟨0, by decide⟩ : Fin 4)) (Cert.Spec.gram (Cert.Spec.argW (sA1 m c)))

theorem conv_eq_sY (c : Dev nD) (t : Fin cfg0.N) (ht : t.val = 0) (h4 : t.val < 4) (f : Fin 128) (p : Fin 8192) :
    Cert.Spec.conv (cwA m c) (ft0 m c) f p = sY m c ⟨t.val, h4⟩ f p := by
  have e : (⟨t.val, h4⟩ : Fin 4) = ⟨0, by decide⟩ := Fin.ext ht
  rw [e]
  rfl

end StepA2

variable (c : Dev nD) (hfin : FinArgs m c) (t : Fin cfg0.N) (ht : t.val = 0) (s10 : Vec Ideal S4x128x8192 .bf16) (s11 s12 : Vec Ideal S128x1 .f32) (s13 s14 : Vec Ideal S128x8448 .f32) (s15 s16 : Vec Ideal S16x8192 .f32) (s17 : Vec Ideal S384x8448 .bf16)
    (hfeat : ∀ (ch : Fin 128) (p : Fin 8192), AP53 c (ms0_0 t) (hs0_0 t) (ms0_1 t) (hs0_1 t) (ms0_3 t) (hs0_3 t) scM0_3 scM0_4 scM0_5 scM0_6 (iblk m c 0 t) (iblk m c 1 t) (iblk m c 3 t) (ix2 ch p)
      = Cert.Spec.feat (Cert.Spec.argX (sA0 m c) (⟨0, by decide⟩ : Fin 4)) (Cert.Spec.gram (Cert.Spec.argW (sA1 m c))) ch p)
include hfin hfeat

theorem stepA_ps :
    ∀ f : Fin 128, (scM0_1.view.read (Elt Ideal) (scM0_1.view.writes (Elt Ideal) ((Memref.isWhole_whole _ : scM0_1.IsWhole).unread s11) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_1 t).mpr ht) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.2.1)) (ix2 f (0 : Fin 1))
      = ∑ b : Fin 4, if b.val ≤ t.val then ∑ p, sY m c b f p else 0 := by
  have h4 : t.val < 4 := by omega
  refine ps_field m c t.val h4 (Cert.Spec.conv (StepA2.cwA m c) (StepA2.ft0 m c)) (StepA2.conv_eq_sY m c t ht h4) s11 _ (fun h => absurd ht h) ?_
  intro f
  refine (A_ps _ _ _ _ _ _ _ _ _ _ _ _ _ _ _ _ _ _ _ _ _ _ _ _ _ _ _ _ _ _ _ _ _ _ _ _ _ _ _ _ _ _ _ _ _ _ _ _ _ _ (StepA2.cwA m c) (StepA2.ft0 m c) hfeat
      (fun p => KBlk.iblk4_of m c t 0 _ (KHost.V_bmask0 m c) p) (fun p => KBlk.iblk4_of m c t 1 _ (KHost.V_bmask1 m c) p)
      (fun di f dj ch => KBlk.iblk2_w m c t di f dj ch) f).trans ?_
  rw [StepA2.batch_word0 t h4]

theorem stepA_psq :
    ∀ f : Fin 128, (scM0_2.view.read (Elt Ideal) (scM0_2.view.writes (Elt Ideal) ((Memref.isWhole_whole _ : scM0_2.IsWhole).unread s12) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_1 t).mpr ht) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.2.2.1)) (ix2 f (0 : Fin 1))
      = ∑ b : Fin 4, if b.val ≤ t.val then ∑ p, sY m c b f p * sY m c b f p else 0 := by
  have h4 : t.val < 4 := by omega
  refine psq_field m c t.val h4 (Cert.Spec.conv (StepA2.cwA m c) (StepA2.ft0 m c)) (StepA2.conv_eq_sY m c t ht h4) s12 _ (fun h => absurd ht h) ?_
  intro f
  refine (A_psq _ _ _ _ _ _ _ _ _ _ _ _ _ _ _ _ _ _ _ _ _ _ _ _ _ _ _ _ _ _ _ _ _ _ _ _ _ _ _ _ _ _ _ _ _ _ _ _ _ _ (StepA2.cwA m c) (StepA2.ft0 m c) hfeat
      (fun p => KBlk.iblk4_of m c t 0 _ (KHost.V_bmask0 m c) p) (fun p => KBlk.iblk4_of m c t 1 _ (KHost.V_bmask1 m c) p)
      (fun di f dj ch => KBlk.iblk2_w m c t di f dj ch) f).trans ?_
  rw [StepA2.batch_word0 t h4]

end Cert.KernelIdeal.Gen

end
-- ==== Proof.KYRead.lean ====
import proofs.«135277_g2000205747536381_pallasbulk_86_37_alg».proof.Proof.KRunA
import proofs.«135277_g2000205747536381_pallasbulk_86_37_alg».proof.Proof.KRunB
import Idealize.ShloMosaic.Lib.WritesUnit
import Idealize.ShloMosaic.Lib.ValueIdx

set_option maxRecDepth 16384

noncomputable section

namespace Cert.KernelIdeal.KYRead

open Idealize.ShloMosaic Idealize.ShloMosaic.TcCoe Idealize.ShloMosaic.ValueIdx Cert.KernelIdeal Cert.KernelIdeal.Gen

variable {F : FTy → Type} [FloatOps F]

section Tiles
variable {sig : RefSig} {κ : Kind} {sp : Space} {e : EltTy} {Val : EltTy → Type} {v : View sig κ sp S4x128x8192 e} {g : v.ty.Contents Val}
  {off : Fin 8 → Fin 3 → ℕ} {inb : ∀ k a, off k a + S1x128x1024.size a ≤ S4x128x8192.size a} {P : Fin 8 → S1x128x1024.Idx → Val e}
  {r : ℕ} (h : ∀ k, off k = ![r, 0, 1024 * k.val])
include h

-- Every tile lies in batch r, so an index of another batch keeps its contents.
theorem read_lanes_other (y : S4x128x8192.Idx) (hy : (y 0).val ≠ r) (j : ℕ) (hj : j ≤ 8) :
    v.read Val (v.writes Val g (View.tilePieces S1x128x1024.size off inb P j hj)) y = v.read Val g y := by
  induction j with
  | zero => rfl
  | succ j ih =>
    refine (View.read_writes_cons_unit_of_not_mem v g _ _ _ y (h _) 0 ?_).trans (ih _)
    show (y 0).val < r ∨ r + 1 ≤ (y 0).val; omega

-- Lane 1024 k + l of batch r lies in tile k and, on the lane axis, in no other.
theorem read_lanes (k : Fin 8) (b : Fin 4) (hb : b.val = r) (f : Fin 128) (l : Fin 1024) :
    v.read Val (v.writes Val g (View.tilePieces S1x128x1024.size off inb P 8 le_rfl)) (ix3 b f (⟨1024 * k.val + l.val, by omega⟩ : Fin 8192)) = P k (ix3 (0 : Fin 1) f l) := by
  refine View.read_tilePieces v g _ off inb P 8 le_rfl _ k k.isLt _ (fun a => ?_) 2 fun k' hk' => ?_
  · rw [h k]
    match a with
    | ⟨0, _⟩ => show b.val = r + 0; omega
    | ⟨1, _⟩ => show f.val = 0 + f.val; omega
    | ⟨2, _⟩ => rfl
  · rw [h k']
    have : k'.val ≠ k.val := fun e => hk' (Fin.ext e)
    show 1024 * k.val + l.val < 1024 * k'.val ∨ 1024 * k'.val + 1024 ≤ 1024 * k.val + l.val; omega

end Tiles

-- Tile k of the eight stores starts at batch (i 1), row 0, lane 1024 k.
abbrev yOffs (i : grid0.Coords) : Fin 8 → Fin 3 → ℕ :=
  ![k0_off1 i, k0_off2 i, k0_off3 i, k0_off4 i, k0_off5 i, k0_off6 i, k0_off7 i, k0_off8 i]

theorem yOffs_eq (i : grid0.Coords) (k : Fin 8) : yOffs i k = ![(i 1).val, 0, 1024 * k.val] := by
  fin_cases k
  exacts [k0_off1_eq i, k0_off2_eq i, k0_off3_eq i, k0_off4_eq i, k0_off5_eq i, k0_off6_eq i, k0_off7_eq i, k0_off8_eq i]

theorem yOffs_inb (i : grid0.Coords) (hc2 : cond0_2 i) (k : Fin 8) : ∀ a, yOffs i k a + S1x128x1024.size a ≤ S4x128x8192.size a := by
  fin_cases k
  exacts [k0_off1_inb i hc2, k0_off2_inb i hc2, k0_off3_inb i hc2, k0_off4_inb i hc2, k0_off5_inb i hc2, k0_off6_inb i hc2, k0_off7_inb i hc2, k0_off8_inb i hc2]

theorem coords_batch : ∀ t : Fin cfg0.N, ((grid0.coords t) 1).val = t.val % 4 :=
  (by decide +kernel : ∀ t : Fin grid0.N, _)

section Run
variable (c : Dev nD) (i : grid0.Coords) (arg2 : Memref sig .tc .vmem S1x128x64x128 .f32) (harg2 : arg2.IsWhole) (arg3 : Memref sig .tc .vmem S128x128 .f32) (harg3 : arg3.IsWhole) (arg4 : Memref sig .tc .vmem S3x128x384 .bf16) (harg4 : arg4.IsWhole) (arg5 : Memref sig .tc .vmem S2x8192 .f32) (harg5 : arg5.IsWhole) (arg6 : Memref sig .tc .vmem S2x8192 .bf16) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x64x128 .f32) (harg9 : arg9.IsWhole) (arg10 : Memref sig .tc .vmem S4x128x8192 .bf16) (harg10 : arg10.IsWhole) (arg11 : Memref sig .tc .vmem S128x1 .f32) (harg11 : arg11.IsWhole) (arg12 : Memref sig .tc .vmem S128x1 .f32) (harg12 : arg12.IsWhole) (arg13 : Memref sig .tc .vmem S128x8448 .f32) (harg13 : arg13.IsWhole) (arg14 : Memref sig .tc .vmem S128x8448 .f32) (harg14 : arg14.IsWhole) (arg15 : Memref sig .tc .vmem S16x8192 .f32) (harg15 : arg15.IsWhole) (arg16 : Memref sig .tc .vmem S16x8192 .f32) (harg16 : arg16.IsWhole) (arg17 : Memref sig .tc .vmem S384x8448 .bf16) (harg17 : arg17.IsWhole)

-- The weight slab of kernel row k, as the run loads it.
abbrev wl0 (x4 : Vec F S3x128x384 .bf16) : Vec F S1x128x384 .bf16 :=
  View.readAt (Elt F) arg4.view (Rect.unit (s := S3x128x384) ![0, 0, 0] S1x128x384.size inb_S3x128x384_S1x128x384_0_0_0).toLoadRect (harg4.unread x4)
abbrev wl1 (x4 : Vec F S3x128x384 .bf16) : Vec F S1x128x384 .bf16 :=
  View.readAt (Elt F) arg4.view (Rect.unit (s := S3x128x384) ![1, 0, 0] S1x128x384.size inb_S3x128x384_S1x128x384_1_0_0).toLoadRect (harg4.unread x4)
abbrev wl2 (x4 : Vec F S3x128x384 .bf16) : Vec F S1x128x384 .bf16 :=
  View.readAt (Elt F) arg4.view (Rect.unit (s := S3x128x384) ![2, 0, 0] S1x128x384.size inb_S3x128x384_S1x128x384_2_0_0).toLoadRect (harg4.unread x4)

section B
variable (hc1 : ¬cond0_1 i) (hc2 : cond0_2 i) (hc3 : ¬cond0_3 i) (x2 : Vec F S1x128x64x128 .f32) (x3 : Vec F S128x128 .f32) (x4 : Vec F S3x128x384 .bf16) (x5 : Vec F S2x8192 .f32) (x6 : Vec F S2x8192 .bf16) (d10 : Vec F S4x128x8192 .bf16) (d11 : Vec F S128x1 .f32) (d12 : Vec F S128x1 .f32) (d13 : Vec F S128x8448 .f32) (d14 : Vec F S128x8448 .f32) (d15 : Vec F S16x8192 .f32) (d16 : Vec F S16x8192 .f32) (d17 : Vec F S384x8448 .bf16)

abbrev yB1 : Vec F S1x128x1024 .bf16 :=
  k0_pay60 (kernelRun0_B.sl.r_13 c arg2 harg2 arg3 harg3 arg4 harg4 arg5 harg5 arg6 harg6 arg13 harg13 arg14 harg14 arg15 arg16 arg17 harg17 x2 x3 x4 x5 x6 d13 d14 d17) (kernelRun0_B.sl.v300 c arg2 harg2 arg3 harg3 arg5 harg5 arg6 harg6 arg13 harg13 arg14 harg14 arg15 arg16 arg17 harg17 x2 x3 x5 x6 d13 d14 d17) (wl1 arg4 harg4 x4) (kernelRun0_B.sl.v305 c arg2 harg2 arg3 harg3 arg5 harg5 arg6 harg6 arg13 harg13 arg14 harg14 arg15 arg16 arg17 harg17 x2 x3 x5 x6 d13 d14 d17) (wl2 arg4 harg4 x4)

abbrev yB2 : Vec F S1x128x1024 .bf16 :=
  k0_pay65 (kernelRun0_B.sl.r_16 c arg2 harg2 arg3 harg3 arg4 harg4 arg5 harg5 arg6 harg6 arg13 harg13 arg14 harg14 arg15 arg16 arg17 harg17 x2 x3 x4 x5 x6 d13 d14 d17) (kernelRun0_B.sl.v333 c arg2 harg2 arg3 harg3 arg5 harg5 arg6 harg6 arg13 harg13 arg14 harg14 arg15 arg16 arg17 harg17 x2 x3 x5 x6 d13 d14 d17) (wl2 arg4 harg4 x4)

abbrev yB3 : Vec F S1x128x1024 .bf16 :=
  k0_pay71 (kernelRun0_B.sl.r_19 c arg2 harg2 arg3 harg3 arg4 harg4 arg5 harg5 arg6 harg6 arg13 harg13 arg14 harg14 arg15 arg16 arg17 harg17 x2 x3 x4 x5 x6 d13 d14 d17) (kernelRun0_B.sl.v361 c arg2 harg2 arg3 harg3 arg5 harg5 arg6 harg6 arg13 harg13 arg14 harg14 arg15 arg16 arg17 harg17 x2 x3 x5 x6 d13 d14 d17) (kernelRun0_B.sl.r_20 c arg4 harg4 x4)

abbrev yB4 : Vec F S1x128x1024 .bf16 :=
  k0_pay76 (kernelRun0_B.sl.r_24 c arg2 harg2 arg3 harg3 arg4 harg4 arg5 harg5 arg6 harg6 arg13 harg13 arg14 harg14 arg15 arg16 arg17 harg17 x2 x3 x4 x5 x6 d13 d14 d17)

abbrev yB5 : Vec F S1x128x1024 .bf16 :=
  k0_pay79 (kernelRun0_B.sl.v407 c arg2 harg2 arg3 harg3 arg5 harg5 arg6 harg6 arg13 harg13 arg14 harg14 arg15 arg16 arg17 harg17 x2 x3 x5 x6 d13 d14 d17) (wl0 arg4 harg4 x4) (kernelRun0_B.sl.v412 c arg2 harg2 arg3 harg3 arg5 harg5 arg6 harg6 arg13 harg13 arg14 harg14 arg15 arg16 arg17 harg17 x2 x3 x5 x6 d13 d14 d17) (wl1 arg4 harg4 x4) (kernelRun0_B.sl.v417 c arg2 harg2 arg3 harg3 arg5 harg5 arg6 harg6 arg13 harg13 arg14 harg14 arg15 arg16 arg17 harg17 x2 x3 x5 x6 d13 d14 d17) (wl2 arg4 harg4 x4)

abbrev yB6 : Vec F S1x128x1024 .bf16 :=
  k0_pay83 (kernelRun0_B.sl.v435 c arg2 harg2 arg3 harg3 arg5 harg5 arg6 harg6 arg13 harg13 arg14 harg14 arg15 arg16 arg17 harg17 x2 x3 x5 x6 d13 d14 d17) (wl0 arg4 harg4 x4) (kernelRun0_B.sl.v440 c arg2 harg2 arg3 harg3 arg5 harg5 arg6 harg6 arg13 harg13 arg14 harg14 arg15 arg16 arg17 harg17 x2 x3 x5 x6 d13 d14 d17) (wl1 arg4 harg4 x4) (kernelRun0_B.sl.v445 c arg2 harg2 arg3 harg3 arg5 harg5 arg6 harg6 arg13 harg13 arg14 harg14 arg15 arg16 arg17 harg17 x2 x3 x5 x6 d13 d14 d17) (wl2 arg4 harg4 x4)

abbrev yB7 : Vec F S1x128x1024 .bf16 :=
  k0_pay88 k0_pay86 (kernelRun0_B.sl.v463 c arg2 harg2 arg3 harg3 arg5 harg5 arg6 harg6 arg13 harg13 arg14 harg14 arg15 arg16 arg17 harg17 x2 x3 x5 x6 d13 d14 d17) (wl0 arg4 harg4 x4) (kernelRun0_B.sl.v468 c arg2 harg2 arg3 harg3 arg5 harg5 arg6 harg6 arg13 harg13 arg14 harg14 arg15 arg16 arg17 harg17 x2 x3 x5 x6 d13 d14 d17) (wl1 arg4 harg4 x4) (kernelRun0_B.sl.v473 c arg2 harg2 arg3 harg3 arg5 harg5 arg6 harg6 arg13 harg13 arg14 harg14 arg15 arg16 arg17 harg17 x2 x3 x5 x6 d13 d14 d17) (wl2 arg4 harg4 x4)

abbrev yB8 : Vec F S1x128x1024 .bf16 :=
  k0_pay94 k0_pay91 (kernelRun0_B.sl.r_32 c arg2 harg2 arg3 harg3 arg4 harg4 arg5 harg5 arg6 harg6 arg13 harg13 arg14 harg14 arg15 arg16 arg17 harg17 x2 x3 x4 x5 x6 d13 d14 d17) (kernelRun0_B.sl.v496 c arg2 harg2 arg3 harg3 arg5 harg5 arg6 harg6 arg13 harg13 arg14 harg14 arg15 arg16 arg17 harg17 x2 x3 x5 x6 d13 d14 d17) (wl1 arg4 harg4 x4) (kernelRun0_B.sl.v501 c arg2 harg2 arg3 harg3 arg5 harg5 arg6 harg6 arg13 harg13 arg14 harg14 arg15 arg16 arg17 harg17 x2 x3 x5 x6 d13 d14 d17) (wl2 arg4 harg4 x4)

-- The stores into the output are the eight lane tiles, the last one first.
theorem yB_pieces :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1
      = View.tilePieces (s := S4x128x8192) S1x128x1024.size (yOffs i) (yOffs_inb i hc2) ![yB1 c arg2 harg2 arg3 harg3 arg4 harg4 arg5 harg5 arg6 harg6 arg13 harg13 arg14 harg14 arg15 arg16 arg17 harg17 x2 x3 x4 x5 x6 d13 d14 d17,
        yB2 c arg2 harg2 arg3 harg3 arg4 harg4 arg5 harg5 arg6 harg6 arg13 harg13 arg14 harg14 arg15 arg16 arg17 harg17 x2 x3 x4 x5 x6 d13 d14 d17,
        yB3 c arg2 harg2 arg3 harg3 arg4 harg4 arg5 harg5 arg6 harg6 arg13 harg13 arg14 harg14 arg15 arg16 arg17 harg17 x2 x3 x4 x5 x6 d13 d14 d17,
        yB4 c arg2 harg2 arg3 harg3 arg4 harg4 arg5 harg5 arg6 harg6 arg13 harg13 arg14 harg14 arg15 arg16 arg17 harg17 x2 x3 x4 x5 x6 d13 d14 d17,
        yB5 c arg2 harg2 arg3 harg3 arg4 harg4 arg5 harg5 arg6 harg6 arg13 harg13 arg14 harg14 arg15 arg16 arg17 harg17 x2 x3 x4 x5 x6 d13 d14 d17,
        yB6 c arg2 harg2 arg3 harg3 arg4 harg4 arg5 harg5 arg6 harg6 arg13 harg13 arg14 harg14 arg15 arg16 arg17 harg17 x2 x3 x4 x5 x6 d13 d14 d17,
        yB7 c arg2 harg2 arg3 harg3 arg4 harg4 arg5 harg5 arg6 harg6 arg13 harg13 arg14 harg14 arg15 arg16 arg17 harg17 x2 x3 x4 x5 x6 d13 d14 d17,
        yB8 c arg2 harg2 arg3 harg3 arg4 harg4 arg5 harg5 arg6 harg6 arg13 harg13 arg14 harg14 arg15 arg16 arg17 harg17 x2 x3 x4 x5 x6 d13 d14 d17] 8 le_rfl := by
  unfold kernelRun0_B
  dsimp only
  unfold kernelRun0_B.sl.H10_7 kernelRun0_B.sl.H10_6 kernelRun0_B.sl.H10_5 kernelRun0_B.sl.H10_3 kernelRun0_B.sl.H10_2 kernelRun0_B.sl.H10_1
  rfl

theorem yB_read_other (b : Fin 4) (hb : b.val ≠ (i 1).val) (f : Fin 128) (p : Fin 8192) :
    arg10.view.read (Elt F) (arg10.view.writes (Elt F) (harg10.unread d10) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f p)
      = d10 (ix3 b f p) := by
  rw [yB_pieces]
  exact (read_lanes_other (yOffs_eq i) (ix3 b f p) hb 8 le_rfl).trans (congrFun (harg10.read_unread d10) _)

theorem yB_read_1 (b : Fin 4) (hb : b.val = (i 1).val) (f : Fin 128) (l : Fin 1024) :
    arg10.view.read (Elt F) (arg10.view.writes (Elt F) (harg10.unread d10) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨0 + l.val, by omega⟩ : Fin 8192))
      = yB1 c arg2 harg2 arg3 harg3 arg4 harg4 arg5 harg5 arg6 harg6 arg13 harg13 arg14 harg14 arg15 arg16 arg17 harg17 x2 x3 x4 x5 x6 d13 d14 d17 (ix3 (0 : Fin 1) f l) := by
  rw [yB_pieces]
  exact read_lanes (yOffs_eq i) 0 b hb f l

theorem yB_read_2 (b : Fin 4) (hb : b.val = (i 1).val) (f : Fin 128) (l : Fin 1024) :
    arg10.view.read (Elt F) (arg10.view.writes (Elt F) (harg10.unread d10) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨1024 + l.val, by omega⟩ : Fin 8192))
      = yB2 c arg2 harg2 arg3 harg3 arg4 harg4 arg5 harg5 arg6 harg6 arg13 harg13 arg14 harg14 arg15 arg16 arg17 harg17 x2 x3 x4 x5 x6 d13 d14 d17 (ix3 (0 : Fin 1) f l) := by
  rw [yB_pieces]
  exact read_lanes (yOffs_eq i) 1 b hb f l

theorem yB_read_3 (b : Fin 4) (hb : b.val = (i 1).val) (f : Fin 128) (l : Fin 1024) :
    arg10.view.read (Elt F) (arg10.view.writes (Elt F) (harg10.unread d10) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨2048 + l.val, by omega⟩ : Fin 8192))
      = yB3 c arg2 harg2 arg3 harg3 arg4 harg4 arg5 harg5 arg6 harg6 arg13 harg13 arg14 harg14 arg15 arg16 arg17 harg17 x2 x3 x4 x5 x6 d13 d14 d17 (ix3 (0 : Fin 1) f l) := by
  rw [yB_pieces]
  exact read_lanes (yOffs_eq i) 2 b hb f l

theorem yB_read_4 (b : Fin 4) (hb : b.val = (i 1).val) (f : Fin 128) (l : Fin 1024) :
    arg10.view.read (Elt F) (arg10.view.writes (Elt F) (harg10.unread d10) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨3072 + l.val, by omega⟩ : Fin 8192))
      = yB4 c arg2 harg2 arg3 harg3 arg4 harg4 arg5 harg5 arg6 harg6 arg13 harg13 arg14 harg14 arg15 arg16 arg17 harg17 x2 x3 x4 x5 x6 d13 d14 d17 (ix3 (0 : Fin 1) f l) := by
  rw [yB_pieces]
  exact read_lanes (yOffs_eq i) 3 b hb f l

theorem yB_read_5 (b : Fin 4) (hb : b.val = (i 1).val) (f : Fin 128) (l : Fin 1024) :
    arg10.view.read (Elt F) (arg10.view.writes (Elt F) (harg10.unread d10) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨4096 + l.val, by omega⟩ : Fin 8192))
      = yB5 c arg2 harg2 arg3 harg3 arg4 harg4 arg5 harg5 arg6 harg6 arg13 harg13 arg14 harg14 arg15 arg16 arg17 harg17 x2 x3 x4 x5 x6 d13 d14 d17 (ix3 (0 : Fin 1) f l) := by
  rw [yB_pieces]
  exact read_lanes (yOffs_eq i) 4 b hb f l

theorem yB_read_6 (b : Fin 4) (hb : b.val = (i 1).val) (f : Fin 128) (l : Fin 1024) :
    arg10.view.read (Elt F) (arg10.view.writes (Elt F) (harg10.unread d10) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨5120 + l.val, by omega⟩ : Fin 8192))
      = yB6 c arg2 harg2 arg3 harg3 arg4 harg4 arg5 harg5 arg6 harg6 arg13 harg13 arg14 harg14 arg15 arg16 arg17 harg17 x2 x3 x4 x5 x6 d13 d14 d17 (ix3 (0 : Fin 1) f l) := by
  rw [yB_pieces]
  exact read_lanes (yOffs_eq i) 5 b hb f l

theorem yB_read_7 (b : Fin 4) (hb : b.val = (i 1).val) (f : Fin 128) (l : Fin 1024) :
    arg10.view.read (Elt F) (arg10.view.writes (Elt F) (harg10.unread d10) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨6144 + l.val, by omega⟩ : Fin 8192))
      = yB7 c arg2 harg2 arg3 harg3 arg4 harg4 arg5 harg5 arg6 harg6 arg13 harg13 arg14 harg14 arg15 arg16 arg17 harg17 x2 x3 x4 x5 x6 d13 d14 d17 (ix3 (0 : Fin 1) f l) := by
  rw [yB_pieces]
  exact read_lanes (yOffs_eq i) 6 b hb f l

theorem yB_read_8 (b : Fin 4) (hb : b.val = (i 1).val) (f : Fin 128) (l : Fin 1024) :
    arg10.view.read (Elt F) (arg10.view.writes (Elt F) (harg10.unread d10) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨7168 + l.val, by omega⟩ : Fin 8192))
      = yB8 c arg2 harg2 arg3 harg3 arg4 harg4 arg5 harg5 arg6 harg6 arg13 harg13 arg14 harg14 arg15 arg16 arg17 harg17 x2 x3 x4 x5 x6 d13 d14 d17 (ix3 (0 : Fin 1) f l) := by
  rw [yB_pieces]
  exact read_lanes (yOffs_eq i) 7 b hb f l

end B

section A
variable (hc1 : cond0_1 i) (hc2 : cond0_2 i) (hc3 : ¬cond0_3 i) (x2 : Vec F S1x128x64x128 .f32) (x3 : Vec F S128x128 .f32) (x4 : Vec F S3x128x384 .bf16) (x5 : Vec F S2x8192 .f32) (x6 : Vec F S2x8192 .bf16) (d10 : Vec F S4x128x8192 .bf16) (d11 : Vec F S128x1 .f32) (d12 : Vec F S128x1 .f32) (d13 : Vec F S128x8448 .f32) (d14 : Vec F S128x8448 .f32) (d15 : Vec F S16x8192 .f32) (d16 : Vec F S16x8192 .f32) (d17 : Vec F S384x8448 .bf16)

abbrev yA1 : Vec F S1x128x1024 .bf16 :=
  k0_pay60 (kernelRun0_A.sl.r_13 c arg2 harg2 arg3 harg3 arg4 harg4 arg5 harg5 arg6 harg6 arg13 arg14 arg15 arg16 arg17 x2 x3 x4 x5 x6) (kernelRun0_A.sl.v300 c arg2 harg2 arg3 harg3 arg5 harg5 arg6 harg6 arg13 arg14 arg15 arg16 arg17 x2 x3 x5 x6) (wl1 arg4 harg4 x4) (kernelRun0_A.sl.v305 c arg2 harg2 arg3 harg3 arg5 harg5 arg6 harg6 arg13 arg14 arg15 arg16 arg17 x2 x3 x5 x6) (wl2 arg4 harg4 x4)

abbrev yA2 : Vec F S1x128x1024 .bf16 :=
  k0_pay65 (kernelRun0_A.sl.r_16 c arg2 harg2 arg3 harg3 arg4 harg4 arg5 harg5 arg6 harg6 arg13 arg14 arg15 arg16 arg17 x2 x3 x4 x5 x6) (kernelRun0_A.sl.v333 c arg2 harg2 arg3 harg3 arg5 harg5 arg6 harg6 arg13 arg14 arg15 arg16 arg17 x2 x3 x5 x6) (wl2 arg4 harg4 x4)

abbrev yA3 : Vec F S1x128x1024 .bf16 :=
  k0_pay71 (kernelRun0_A.sl.r_19 c arg2 harg2 arg3 harg3 arg4 harg4 arg5 harg5 arg6 harg6 arg13 arg14 arg15 arg16 arg17 x2 x3 x4 x5 x6) (kernelRun0_A.sl.v361 c arg2 harg2 arg3 harg3 arg5 harg5 arg6 harg6 arg13 arg14 arg15 arg16 arg17 x2 x3 x5 x6) (kernelRun0_A.sl.r_20 c arg4 harg4 x4)

abbrev yA4 : Vec F S1x128x1024 .bf16 :=
  k0_pay76 (kernelRun0_A.sl.r_24 c arg2 harg2 arg3 harg3 arg4 harg4 arg5 harg5 arg6 harg6 arg13 arg14 arg15 arg16 arg17 x2 x3 x4 x5 x6)

abbrev yA5 : Vec F S1x128x1024 .bf16 :=
  k0_pay79 (kernelRun0_A.sl.v407 c arg2 harg2 arg3 harg3 arg5 harg5 arg6 harg6 arg13 arg14 arg15 arg16 arg17 x2 x3 x5 x6) (wl0 arg4 harg4 x4) (kernelRun0_A.sl.v412 c arg2 harg2 arg3 harg3 arg5 harg5 arg6 harg6 arg13 arg14 arg15 arg16 arg17 x2 x3 x5 x6) (wl1 arg4 harg4 x4) (kernelRun0_A.sl.v417 c arg2 harg2 arg3 harg3 arg5 harg5 arg6 harg6 arg13 arg14 arg15 arg16 arg17 x2 x3 x5 x6) (wl2 arg4 harg4 x4)

abbrev yA6 : Vec F S1x128x1024 .bf16 :=
  k0_pay83 (kernelRun0_A.sl.v435 c arg2 harg2 arg3 harg3 arg5 harg5 arg6 harg6 arg13 arg14 arg15 arg16 arg17 x2 x3 x5 x6) (wl0 arg4 harg4 x4) (kernelRun0_A.sl.v440 c arg2 harg2 arg3 harg3 arg5 harg5 arg6 harg6 arg13 arg14 arg15 arg16 arg17 x2 x3 x5 x6) (wl1 arg4 harg4 x4) (kernelRun0_A.sl.v445 c arg2 harg2 arg3 harg3 arg5 harg5 arg6 harg6 arg13 arg14 arg15 arg16 arg17 x2 x3 x5 x6) (wl2 arg4 harg4 x4)

abbrev yA7 : Vec F S1x128x1024 .bf16 :=
  k0_pay88 k0_pay86 (kernelRun0_A.sl.v463 c arg2 harg2 arg3 harg3 arg5 harg5 arg6 harg6 arg13 arg14 arg15 arg16 arg17 x2 x3 x5 x6) (wl0 arg4 harg4 x4) (kernelRun0_A.sl.v468 c arg2 harg2 arg3 harg3 arg5 harg5 arg6 harg6 arg13 arg14 arg15 arg16 arg17 x2 x3 x5 x6) (wl1 arg4 harg4 x4) (kernelRun0_A.sl.v473 c arg2 harg2 arg3 harg3 arg5 harg5 arg6 harg6 arg13 arg14 arg15 arg16 arg17 x2 x3 x5 x6) (wl2 arg4 harg4 x4)

abbrev yA8 : Vec F S1x128x1024 .bf16 :=
  k0_pay94 k0_pay91 (kernelRun0_A.sl.r_32 c arg2 harg2 arg3 harg3 arg4 harg4 arg5 harg5 arg6 harg6 arg13 arg14 arg15 arg16 arg17 x2 x3 x4 x5 x6) (kernelRun0_A.sl.v496 c arg2 harg2 arg3 harg3 arg5 harg5 arg6 harg6 arg13 arg14 arg15 arg16 arg17 x2 x3 x5 x6) (wl1 arg4 harg4 x4) (kernelRun0_A.sl.v501 c arg2 harg2 arg3 harg3 arg5 harg5 arg6 harg6 arg13 arg14 arg15 arg16 arg17 x2 x3 x5 x6) (wl2 arg4 harg4 x4)

theorem yA_pieces :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1
      = View.tilePieces (s := S4x128x8192) S1x128x1024.size (yOffs i) (yOffs_inb i hc2) ![yA1 c arg2 harg2 arg3 harg3 arg4 harg4 arg5 harg5 arg6 harg6 arg13 arg14 arg15 arg16 arg17 x2 x3 x4 x5 x6,
        yA2 c arg2 harg2 arg3 harg3 arg4 harg4 arg5 harg5 arg6 harg6 arg13 arg14 arg15 arg16 arg17 x2 x3 x4 x5 x6,
        yA3 c arg2 harg2 arg3 harg3 arg4 harg4 arg5 harg5 arg6 harg6 arg13 arg14 arg15 arg16 arg17 x2 x3 x4 x5 x6,
        yA4 c arg2 harg2 arg3 harg3 arg4 harg4 arg5 harg5 arg6 harg6 arg13 arg14 arg15 arg16 arg17 x2 x3 x4 x5 x6,
        yA5 c arg2 harg2 arg3 harg3 arg4 harg4 arg5 harg5 arg6 harg6 arg13 arg14 arg15 arg16 arg17 x2 x3 x4 x5 x6,
        yA6 c arg2 harg2 arg3 harg3 arg4 harg4 arg5 harg5 arg6 harg6 arg13 arg14 arg15 arg16 arg17 x2 x3 x4 x5 x6,
        yA7 c arg2 harg2 arg3 harg3 arg4 harg4 arg5 harg5 arg6 harg6 arg13 arg14 arg15 arg16 arg17 x2 x3 x4 x5 x6,
        yA8 c arg2 harg2 arg3 harg3 arg4 harg4 arg5 harg5 arg6 harg6 arg13 arg14 arg15 arg16 arg17 x2 x3 x4 x5 x6] 8 le_rfl := by
  unfold kernelRun0_A
  dsimp only
  unfold kernelRun0_A.sl.H10_7 kernelRun0_A.sl.H10_6 kernelRun0_A.sl.H10_5 kernelRun0_A.sl.H10_3 kernelRun0_A.sl.H10_2 kernelRun0_A.sl.H10_1
  rfl

theorem yA_read_1 (b : Fin 4) (hb : b.val = (i 1).val) (f : Fin 128) (l : Fin 1024) :
    arg10.view.read (Elt F) (arg10.view.writes (Elt F) (harg10.unread d10) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨0 + l.val, by omega⟩ : Fin 8192))
      = yA1 c arg2 harg2 arg3 harg3 arg4 harg4 arg5 harg5 arg6 harg6 arg13 arg14 arg15 arg16 arg17 x2 x3 x4 x5 x6 (ix3 (0 : Fin 1) f l) := by
  rw [yA_pieces]
  exact read_lanes (yOffs_eq i) 0 b hb f l

theorem yA_read_2 (b : Fin 4) (hb : b.val = (i 1).val) (f : Fin 128) (l : Fin 1024) :
    arg10.view.read (Elt F) (arg10.view.writes (Elt F) (harg10.unread d10) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨1024 + l.val, by omega⟩ : Fin 8192))
      = yA2 c arg2 harg2 arg3 harg3 arg4 harg4 arg5 harg5 arg6 harg6 arg13 arg14 arg15 arg16 arg17 x2 x3 x4 x5 x6 (ix3 (0 : Fin 1) f l) := by
  rw [yA_pieces]
  exact read_lanes (yOffs_eq i) 1 b hb f l

theorem yA_read_3 (b : Fin 4) (hb : b.val = (i 1).val) (f : Fin 128) (l : Fin 1024) :
    arg10.view.read (Elt F) (arg10.view.writes (Elt F) (harg10.unread d10) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨2048 + l.val, by omega⟩ : Fin 8192))
      = yA3 c arg2 harg2 arg3 harg3 arg4 harg4 arg5 harg5 arg6 harg6 arg13 arg14 arg15 arg16 arg17 x2 x3 x4 x5 x6 (ix3 (0 : Fin 1) f l) := by
  rw [yA_pieces]
  exact read_lanes (yOffs_eq i) 2 b hb f l

theorem yA_read_4 (b : Fin 4) (hb : b.val = (i 1).val) (f : Fin 128) (l : Fin 1024) :
    arg10.view.read (Elt F) (arg10.view.writes (Elt F) (harg10.unread d10) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨3072 + l.val, by omega⟩ : Fin 8192))
      = yA4 c arg2 harg2 arg3 harg3 arg4 harg4 arg5 harg5 arg6 harg6 arg13 arg14 arg15 arg16 arg17 x2 x3 x4 x5 x6 (ix3 (0 : Fin 1) f l) := by
  rw [yA_pieces]
  exact read_lanes (yOffs_eq i) 3 b hb f l

theorem yA_read_5 (b : Fin 4) (hb : b.val = (i 1).val) (f : Fin 128) (l : Fin 1024) :
    arg10.view.read (Elt F) (arg10.view.writes (Elt F) (harg10.unread d10) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨4096 + l.val, by omega⟩ : Fin 8192))
      = yA5 c arg2 harg2 arg3 harg3 arg4 harg4 arg5 harg5 arg6 harg6 arg13 arg14 arg15 arg16 arg17 x2 x3 x4 x5 x6 (ix3 (0 : Fin 1) f l) := by
  rw [yA_pieces]
  exact read_lanes (yOffs_eq i) 4 b hb f l

theorem yA_read_6 (b : Fin 4) (hb : b.val = (i 1).val) (f : Fin 128) (l : Fin 1024) :
    arg10.view.read (Elt F) (arg10.view.writes (Elt F) (harg10.unread d10) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨5120 + l.val, by omega⟩ : Fin 8192))
      = yA6 c arg2 harg2 arg3 harg3 arg4 harg4 arg5 harg5 arg6 harg6 arg13 arg14 arg15 arg16 arg17 x2 x3 x4 x5 x6 (ix3 (0 : Fin 1) f l) := by
  rw [yA_pieces]
  exact read_lanes (yOffs_eq i) 5 b hb f l

theorem yA_read_7 (b : Fin 4) (hb : b.val = (i 1).val) (f : Fin 128) (l : Fin 1024) :
    arg10.view.read (Elt F) (arg10.view.writes (Elt F) (harg10.unread d10) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨6144 + l.val, by omega⟩ : Fin 8192))
      = yA7 c arg2 harg2 arg3 harg3 arg4 harg4 arg5 harg5 arg6 harg6 arg13 arg14 arg15 arg16 arg17 x2 x3 x4 x5 x6 (ix3 (0 : Fin 1) f l) := by
  rw [yA_pieces]
  exact read_lanes (yOffs_eq i) 6 b hb f l

theorem yA_read_8 (b : Fin 4) (hb : b.val = (i 1).val) (f : Fin 128) (l : Fin 1024) :
    arg10.view.read (Elt F) (arg10.view.writes (Elt F) (harg10.unread d10) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f (⟨7168 + l.val, by omega⟩ : Fin 8192))
      = yA8 c arg2 harg2 arg3 harg3 arg4 harg4 arg5 harg5 arg6 harg6 arg13 arg14 arg15 arg16 arg17 x2 x3 x4 x5 x6 (ix3 (0 : Fin 1) f l) := by
  rw [yA_pieces]
  exact read_lanes (yOffs_eq i) 7 b hb f l

end A

end Run

end Cert.KernelIdeal.KYRead

end
-- ==== Proof.KA2y.lean ====
import proofs.«135277_g2000205747536381_pallasbulk_86_37_alg».proof.Proof.KStepA2
import proofs.«135277_g2000205747536381_pallasbulk_86_37_alg».proof.Proof.KYRead

set_option maxRecDepth 16384

noncomputable section

namespace Cert.KernelIdeal.Gen

open Idealize.ShloMosaic Idealize.ShloMosaic.ValueIdx
open Cert.KernelIdeal.KPconv

variable (c : Dev nD) (i : grid0.Coords) (arg2 : Memref sig .tc .vmem S1x128x64x128 .f32) (harg2 : arg2.IsWhole) (arg3 : Memref sig .tc .vmem S128x128 .f32) (harg3 : arg3.IsWhole) (arg4 : Memref sig .tc .vmem S3x128x384 .bf16) (harg4 : arg4.IsWhole) (arg5 : Memref sig .tc .vmem S2x8192 .f32) (harg5 : arg5.IsWhole) (arg6 : Memref sig .tc .vmem S2x8192 .bf16) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x64x128 .f32) (harg9 : arg9.IsWhole) (arg10 : Memref sig .tc .vmem S4x128x8192 .bf16) (harg10 : arg10.IsWhole) (arg11 : Memref sig .tc .vmem S128x1 .f32) (harg11 : arg11.IsWhole) (arg12 : Memref sig .tc .vmem S128x1 .f32) (harg12 : arg12.IsWhole) (arg13 : Memref sig .tc .vmem S128x8448 .f32) (harg13 : arg13.IsWhole) (arg14 : Memref sig .tc .vmem S128x8448 .f32) (harg14 : arg14.IsWhole) (arg15 : Memref sig .tc .vmem S16x8192 .f32) (harg15 : arg15.IsWhole) (arg16 : Memref sig .tc .vmem S16x8192 .f32) (harg16 : arg16.IsWhole) (arg17 : Memref sig .tc .vmem S384x8448 .bf16) (harg17 : arg17.IsWhole)
    (hc1 : cond0_1 i) (hc2 : cond0_2 i) (hc3 : ¬cond0_3 i)
    (x2 : Vec Ideal S1x128x64x128 .f32) (x3 : Vec Ideal S128x128 .f32) (x4 : Vec Ideal S3x128x384 .bf16) (x5 : Vec Ideal S2x8192 .f32) (x6 : Vec Ideal S2x8192 .bf16) (d10 : Vec Ideal S4x128x8192 .bf16) (d11 : Vec Ideal S128x1 .f32) (d12 : Vec Ideal S128x1 .f32) (d13 : Vec Ideal S128x8448 .f32) (d14 : Vec Ideal S128x8448 .f32) (d15 : Vec Ideal S16x8192 .f32) (d16 : Vec Ideal S16x8192 .f32) (d17 : Vec Ideal S384x8448 .bf16)
  (cw : Fin 128 → Fin 128 → Fin 3 → Fin 3 → EReal) (ft : Fin 128 → Fin 8192 → EReal)
  (hP53 : ∀ (ch : Fin 128) (p : Fin 8192), AP53 c arg2 harg2 arg3 harg3 arg5 harg5 arg13 arg14 arg15 arg16 x2 x3 x5 (ix2 ch p) = ft ch p)
  (hx60 : ∀ p : Fin 8192, x6 (ix2 (0 : Fin 2) p) = if p.val % 128 = 0 then 0 else 1)
  (hx61 : ∀ p : Fin 8192, x6 (ix2 (1 : Fin 2) p) = if p.val % 128 = 127 then 0 else 1)
  (hx4 : ∀ (di : Fin 3) (f : Fin 128) (dj : Fin 3) (ch : Fin 128), x4 (ix3 di f (row3 dj ch)) = cw f ch di dj)
include hP53 hx60 hx61 hx4

-- Every pixel lies in one of the eight chunks, whose stored block is the convolution there.
theorem A_y (b : Fin 4) (hb : b.val = (i 1).val) (f : Fin 128) (p : Fin 8192) :
    arg10.view.read (Elt Ideal) (arg10.view.writes (Elt Ideal) (harg10.unread d10) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17).1.1) (ix3 b f p)
      = Spec.conv cw ft f p := by
  have hp := p.isLt
  obtain ⟨q, l, rfl⟩ : ∃ (q : Fin 8) (l : Fin 1024), p = pix q l :=
    ⟨⟨p.val / 1024, by omega⟩, ⟨p.val % 1024, by omega⟩, Fin.ext (Nat.div_add_mod p.val 1024).symm⟩
  have fs := fun q di => A_fs c arg2 harg2 arg3 harg3 arg5 harg5 arg6 harg6 arg13 arg14 arg15 arg16 arg17 x2 x3 x5 x6 ft hP53 hx60 hx61 q di _ rfl
  have w0 := wslab0 arg4 harg4 x4 cw hx4
  have w1 := wslab1 arg4 harg4 x4 cw hx4
  have w2 := wslab2 arg4 harg4 x4 cw hx4
  match q with
  | ⟨0, _⟩ => exact (KYRead.yA_read_1 (hb := hb) (l := l) ..).trans (KHalf2.y0 cw ft _ _ _ w0 w1 w2 _ _ _ (fs 0 0 _) (fs 0 1 _) (fs 0 2 _) 0 f l)
  | ⟨1, _⟩ => exact (KYRead.yA_read_2 (hb := hb) (l := l) ..).trans (KHalf2.y1 cw ft _ _ _ w0 w1 w2 _ _ _ (fs 1 0 _) (fs 1 1 _) (fs 1 2 _) 0 f l)
  | ⟨2, _⟩ => exact (KYRead.yA_read_3 (hb := hb) (l := l) ..).trans (KHalf2.y2 cw ft _ _ _ w0 w1 w2 _ _ _ (fs 2 0 _) (fs 2 1 _) (fs 2 2 _) 0 f l)
  | ⟨3, _⟩ => exact (KYRead.yA_read_4 (hb := hb) (l := l) ..).trans (KHalf2.y3 cw ft _ _ _ w0 w1 w2 _ _ _ (fs 3 0 _) (fs 3 1 _) (fs 3 2 _) 0 f l)
  | ⟨4, _⟩ => exact (KYRead.yA_read_5 (hb := hb) (l := l) ..).trans (KHalf2.y4 cw ft _ _ _ w0 w1 w2 _ _ _ (fs 4 0 _) (fs 4 1 _) (fs 4 2 _) 0 f l)
  | ⟨5, _⟩ => exact (KYRead.yA_read_6 (hb := hb) (l := l) ..).trans (KHalf2.y5 cw ft _ _ _ w0 w1 w2 _ _ _ (fs 5 0 _) (fs 5 1 _) (fs 5 2 _) 0 f l)
  | ⟨6, _⟩ => exact (KYRead.yA_read_7 (hb := hb) (l := l) ..).trans (KHalf2.y6 cw ft _ _ _ w0 w1 w2 _ _ _ (fs 6 0 _) (fs 6 1 _) (fs 6 2 _) 0 f l)
  | ⟨7, _⟩ => exact (KYRead.yA_read_8 (hb := hb) (l := l) ..).trans (KHalf2.y7 cw ft _ _ _ w0 w1 w2 _ _ _ (fs 7 0 _) (fs 7 1 _) (fs 7 2 _) 0 f l)

end Cert.KernelIdeal.Gen

end
-- ==== Proof.KA2yA.lean ====
import proofs.«135277_g2000205747536381_pallasbulk_86_37_alg».proof.Proof.KA2y
import proofs.«135277_g2000205747536381_pallasbulk_86_37_alg».proof.Proof.KA2s

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

theorem stepA_y (c : Dev nD) (hfin : FinArgs m c) (t : Fin cfg0.N) (ht : t.val = 0) (s10 : Vec Ideal S4x128x8192 .bf16) (s11 : Vec Ideal S128x1 .f32) (s12 : Vec Ideal S128x1 .f32) (s13 : Vec Ideal S128x8448 .f32) (s14 : Vec Ideal S128x8448 .f32) (s15 : Vec Ideal S16x8192 .f32) (s16 : Vec Ideal S16x8192 .f32) (s17 : Vec Ideal S384x8448 .bf16)
    (hfeat : ∀ (ch : Fin 128) (p : Fin 8192), AP53 c (ms0_0 t) (hs0_0 t) (ms0_1 t) (hs0_1 t) (ms0_3 t) (hs0_3 t) scM0_3 scM0_4 scM0_5 scM0_6 (iblk m c 0 t) (iblk m c 1 t) (iblk m c 3 t) (ix2 ch p)
      = Cert.Spec.feat (Cert.Spec.argX (sA0 m c) (⟨0, by decide⟩ : Fin 4)) (Cert.Spec.gram (Cert.Spec.argW (sA1 m c))) ch p) :
    ∀ (b : Fin 4) (f : Fin 128) (p : Fin 8192), b.val ≤ t.val →
      (scM0_0.view.read (Elt Ideal) (scM0_0.view.writes (Elt Ideal) ((Memref.isWhole_whole _ : scM0_0.IsWhole).unread s10) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_1 t).mpr ht) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.1)) (ix3 b f p)
        = sY m c b f p := by
  intro b f p hb
  have h4 : t.val < 4 := by omega
  have hb0 : b = (⟨t.val, h4⟩ : Fin 4) := Fin.ext (by show b.val = t.val; omega)
  rw [hb0]
  refine (A_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_1 t).mpr ht) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17 (StepA2.cwA m c) (StepA2.ft0 m c) hfeat
      (fun p => KBlk.iblk4_of m c t 0 _ (KHost.V_bmask0 m c) p) (fun p => KBlk.iblk4_of m c t 1 _ (KHost.V_bmask1 m c) p)
      (fun di f dj ch => KBlk.iblk2_w m c t di f dj ch) (⟨t.val, h4⟩ : Fin 4) ?_ f p).trans (StepA2.conv_eq_sY m c t ht h4 f p)
  show t.val = ((grid0.coords t) 1).val
  rw [Cert.KernelIdeal.KYRead.coords_batch t]; omega

end Cert.KernelIdeal.Gen

end
-- ==== Proof.KStepBPads.lean ====
import proofs.«135277_g2000205747536381_pallasbulk_86_37_alg».proof.Proof.KInv
import proofs.«135277_g2000205747536381_pallasbulk_86_37_alg».proof.Proof.KRunB

set_option maxRecDepth 16384

noncomputable section

namespace Cert.KernelIdeal.Gen

open Idealize.ShloMosaic Idealize.ShloMosaic.TcCoe Idealize.ShloMosaic.Tactic Idealize.ShloMosaic.ValueIdx

section Within

variable {sig : RefSig} {κ : Kind} {sp : Space} {s : Shape} {e : EltTy} {Val : EltTy → Type}

def piecesWithin (L : List (View.Piece Val s e)) (a : Fin s.rank) (lo hi : ℕ) : Bool :=
  L.all fun p => decide (lo ≤ p.1.off a ∧ p.1.off a + p.1.stride a * (p.1.size a - 1) < hi)

theorem not_mem_of_piecesWithin (L : List (View.Piece Val s e)) (a : Fin s.rank) (lo hi : ℕ)
    (h : piecesWithin L a lo hi = true) (y : s.Idx) (hy : (y a).val < lo ∨ hi ≤ (y a).val) :
    ∀ p ∈ L, y ∉ p.1.set := by
  intro p hp hm
  have hp' := List.all_eq_true.mp h p hp
  simp only [decide_eq_true_eq] at hp'
  obtain ⟨j, hj, e⟩ := (LoadRect.mem_set p.1.toLoadRect).mp hm a
  have hmul : p.1.stride a * j ≤ p.1.stride a * (p.1.size a - 1) := Nat.mul_le_mul_left _ (by omega)
  omega

theorem read_writes_of_piecesWithin (v : View sig κ sp s e) (f : v.ty.Contents Val) (L : List (View.Piece Val s e))
    (a : Fin s.rank) (lo hi : ℕ) (h : piecesWithin L a lo hi = true) (y : s.Idx) (hy : (y a).val < lo ∨ hi ≤ (y a).val) :
    v.read Val (v.writes Val f L) y = v.read Val f y :=
  View.read_writes_apply_of_forall_not_mem v f y L (not_mem_of_piecesWithin L a lo hi h y hy)

end Within

variable (m : (ℓ : Loc nD τ sig) → Buf (Elt Ideal) ℓ) (c : Dev nD) (t : Fin cfg0.N) (hc1 : ¬cond0_1 (grid0.coords t)) (hc2 : cond0_2 (grid0.coords t)) (hc3 : ¬cond0_3 (grid0.coords t)) (s10 : Vec Ideal S4x128x8192 .bf16) (s11 s12 : Vec Ideal S128x1 .f32) (s13 s14 : Vec Ideal S128x8448 .f32) (s15 s16 : Vec Ideal S16x8192 .f32) (s17 : Vec Ideal S384x8448 .bf16)

-- Writing pieces that lie within [lo, hi) along an axis leaves a whole memref's values elsewhere along that axis unchanged.
theorem read_writes_unread_of_piecesWithin {κ : Kind} {sp : Space} {s : Shape} {e : EltTy} (v : Memref sig κ sp s e) (hw : v.IsWhole) (d : Vec Ideal s e)
    (L : List (View.Piece (Elt Ideal) s e)) (a : Fin s.rank) (lo hi : ℕ) (hL : piecesWithin L a lo hi = true) (y : s.Idx) (hy : (y a).val < lo ∨ hi ≤ (y a).val) :
    v.view.read (Elt Ideal) (v.view.writes (Elt Ideal) (hw.unread d) L) y = d y :=
  (read_writes_of_piecesWithin v.view _ L a lo hi hL y hy).trans (congrFun (hw.read_unread d) y)

theorem stepB_xpad (r : Fin 128) (col : Fin 8448) (h : col.val < 128 ∨ 8320 ≤ col.val) :
    scM0_3.view.read (Elt Ideal) (scM0_3.view.writes (Elt Ideal) ((Memref.isWhole_whole _ : scM0_3.IsWhole).unread s13) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc1 hc2 hc3 (iblk m c 0 t) (iblk m c 1 t) (iblk m c 2 t) (iblk m c 3 t) (iblk m c 4 t) s10 s11 s12 s13 s14 s15 s16 s17).1.2.2.2.1) (ix2 r col) = s13 (ix2 r col) :=
  read_writes_unread_of_piecesWithin _ _ s13 _ 1 128 8320 (by sl_kernel_rfl) (ix2 r col) h

theorem stepB_hpad (r : Fin 128) (col : Fin 8448) (h : col.val < 128 ∨ 8320 ≤ col.val) :
    scM0_4.view.read (Elt Ideal) (scM0_4.view.writes (Elt Ideal) ((Memref.isWhole_whole _ : scM0_4.IsWhole).unread s14) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc1 hc2 hc3 (iblk m c 0 t) (iblk m c 1 t) (iblk m c 2 t) (iblk m c 3 t) (iblk m c 4 t) s10 s11 s12 s13 s14 s15 s16 s17).1.2.2.2.2.1) (ix2 r col) = s14 (ix2 r col) :=
  read_writes_unread_of_piecesWithin _ _ s14 _ 1 128 8320 (by sl_kernel_rfl) (ix2 r col) h

theorem stepB_fb (r : Fin 384) (col : Fin 8448) (h : col.val < 128 ∨ 8320 ≤ col.val) :
    scM0_7.view.read (Elt Ideal) (scM0_7.view.writes (Elt Ideal) ((Memref.isWhole_whole _ : scM0_7.IsWhole).unread s17) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc1 hc2 hc3 (iblk m c 0 t) (iblk m c 1 t) (iblk m c 2 t) (iblk m c 3 t) (iblk m c 4 t) s10 s11 s12 s13 s14 s15 s16 s17).1.2.2.2.2.2.2.2) (ix2 r col) = s17 (ix2 r col) :=
  read_writes_unread_of_piecesWithin _ _ s17 _ 1 128 8320 (by sl_kernel_rfl) (ix2 r col) h

end Cert.KernelIdeal.Gen

end
-- ==== Proof.KStepAPads.lean ====
import proofs.«135277_g2000205747536381_pallasbulk_86_37_alg».proof.Proof.KInv
import proofs.«135277_g2000205747536381_pallasbulk_86_37_alg».proof.Proof.KRunA
import proofs.«135277_g2000205747536381_pallasbulk_86_37_alg».proof.Proof.KStepBPads
import Idealize.ShloMosaic.Lib.Pipeline.Value
import Idealize.ShloMosaic.Lib.IdealHost

set_option maxRecDepth 16384

noncomputable section

namespace Cert.KernelIdeal.Gen

open Idealize.ShloMosaic Idealize.ShloMosaic.TcCoe Idealize.ShloMosaic.Tactic Idealize.ShloMosaic.ValueIdx

section Const

variable {sig : RefSig} {κ : Kind} {sp : Space} {s : Shape} {e : EltTy} {Val : EltTy → Type}

-- If the first n pieces miss the border, the remaining ones all carry z, and the pieces cover the shape, a border cell reads z.
theorem read_writes_split_const (v : View sig κ sp s e) (f : v.ty.Contents Val) (L T : List (View.Piece Val s e)) (n : ℕ)
    (a : Fin s.rank) (lo hi : ℕ) (z : Val e) (h₁ : piecesWithin (L.take n) a lo hi = true) (hT : L.drop n = T)
    (h₂ : ∀ p ∈ T, ∀ x : p.1.shape.Idx, p.2 x = z) (hc : ∀ y : s.Idx, ∃ p ∈ L, y ∈ p.1.set)
    (y : s.Idx) (hy : (y a).val < lo ∨ hi ≤ (y a).val) :
    v.read Val (v.writes Val f L) y = z := by
  subst hT
  rw [← List.take_append_drop n L, View.writes_append, read_writes_of_piecesWithin v _ _ a lo hi h₁ y hy]
  refine View.read_writes_apply_of_pieces v f (fun _ => z) _ h₂ y ?_
  obtain ⟨p, hp, hm⟩ := hc y
  rcases List.mem_append.mp (show p ∈ L.take n ++ L.drop n by rwa [List.take_append_drop]) with hp | hp
  · exact absurd hm (not_mem_of_piecesWithin _ a lo hi h₁ y hy p hp)
  · exact ⟨p, hp, hm⟩

theorem payload_pair_const (p q : View.Piece Val s e) (z : Val e) (hp : ∀ x, p.2 x = z) (hq : ∀ x, q.2 x = z) :
    ∀ r ∈ [p, q], ∀ x : r.1.shape.Idx, r.2 x = z := by
  intro r hr
  rcases List.mem_pair.mp hr with rfl | rfl <;> assumption

-- A broadcast constant, recast to its own shape, is that constant at every index.
theorem shapeCast_broadcast_const {s : Shape} {α : Type} (z c : α) (hz : z = c) (x : s.Idx) :
    shapeCast s (broadcast s z) rfl x = c := by
  rw [shapeCast_self, broadcast_apply, hz]

end Const

variable (m : (ℓ : Loc nD τ sig) → Buf (Elt Ideal) ℓ) (c : Dev nD) (t : Fin cfg0.N) (hc1 : cond0_1 (grid0.coords t)) (hc2 : cond0_2 (grid0.coords t)) (hc3 : ¬cond0_3 (grid0.coords t)) (s10 : Vec Ideal S4x128x8192 .bf16) (s11 s12 : Vec Ideal S128x1 .f32) (s13 s14 : Vec Ideal S128x8448 .f32) (s15 s16 : Vec Ideal S16x8192 .f32) (s17 : Vec Ideal S384x8448 .bf16)

theorem stepA_xpad (r : Fin 128) (col : Fin 8448) (h : col.val < 128 ∨ 8320 ≤ col.val) :
    scM0_3.view.read (Elt Ideal) (scM0_3.view.writes (Elt Ideal) ((Memref.isWhole_whole _ : scM0_3.IsWhole).unread s13) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc1 hc2 hc3 (iblk m c 0 t) (iblk m c 1 t) (iblk m c 2 t) (iblk m c 3 t) (iblk m c 4 t) s10 s11 s12 s13 s14 s15 s16 s17).1.2.2.2.1) (ix2 r col) = 0 :=
  read_writes_split_const scM0_3.view _ _ [⟨Rect.unit ![0, 8320] S128x128.size (by decide), k0_pay2 (F := Ideal)⟩, ⟨Rect.unit ![0, 0] S128x128.size (by decide), k0_pay1 (F := Ideal)⟩] 1 1 128 8320 0 (by sl_kernel_rfl) (by sl_kernel_rfl)
    (payload_pair_const _ _ 0 (shapeCast_broadcast_const _ _ Ideal.ofBits_zero_f32) (shapeCast_broadcast_const _ _ Ideal.ofBits_zero_f32)) (fun _ => cover0_A_13 ..) (ix2 r col) h

theorem stepA_hpad (r : Fin 128) (col : Fin 8448) (h : col.val < 128 ∨ 8320 ≤ col.val) :
    scM0_4.view.read (Elt Ideal) (scM0_4.view.writes (Elt Ideal) ((Memref.isWhole_whole _ : scM0_4.IsWhole).unread s14) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc1 hc2 hc3 (iblk m c 0 t) (iblk m c 1 t) (iblk m c 2 t) (iblk m c 3 t) (iblk m c 4 t) s10 s11 s12 s13 s14 s15 s16 s17).1.2.2.2.2.1) (ix2 r col) = 0 :=
  read_writes_split_const scM0_4.view _ _ [⟨Rect.unit ![0, 8320] S128x128.size (by decide), k0_pay4 (F := Ideal)⟩, ⟨Rect.unit ![0, 0] S128x128.size (by decide), k0_pay3 (F := Ideal)⟩] 1 1 128 8320 0 (by sl_kernel_rfl) (by sl_kernel_rfl)
    (payload_pair_const _ _ 0 (shapeCast_broadcast_const _ _ Ideal.ofBits_zero_f32) (shapeCast_broadcast_const _ _ Ideal.ofBits_zero_f32)) (fun _ => cover0_A_14 ..) (ix2 r col) h

theorem stepA_fb (r : Fin 384) (col : Fin 8448) (h : col.val < 128 ∨ 8320 ≤ col.val) :
    scM0_7.view.read (Elt Ideal) (scM0_7.view.writes (Elt Ideal) ((Memref.isWhole_whole _ : scM0_7.IsWhole).unread s17) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc1 hc2 hc3 (iblk m c 0 t) (iblk m c 1 t) (iblk m c 2 t) (iblk m c 3 t) (iblk m c 4 t) s10 s11 s12 s13 s14 s15 s16 s17).1.2.2.2.2.2.2.2) (ix2 r col) = 0 :=
  read_writes_split_const scM0_7.view _ _ [⟨Rect.unit ![0, 8320] S384x128.size (by decide), k0_pay7 (F := Ideal)⟩, ⟨Rect.unit ![0, 0] S384x128.size (by decide), k0_pay6 (F := Ideal)⟩] 3 1 128 8320 0 (by sl_kernel_rfl) (by sl_kernel_rfl)
    (payload_pair_const _ _ 0 (shapeCast_broadcast_const _ _ Ideal.ofBits_zero_bf16) (shapeCast_broadcast_const _ _ Ideal.ofBits_zero_bf16)) (fun _ => cover0_A_17 ..) (ix2 r col) h

end Cert.KernelIdeal.Gen

end
-- ==== Proof.KStepA.lean ====
import proofs.«135277_g2000205747536381_pallasbulk_86_37_alg».proof.Proof.KInv
import proofs.«135277_g2000205747536381_pallasbulk_86_37_alg».proof.Proof.KRunA
import proofs.«135277_g2000205747536381_pallasbulk_86_37_alg».proof.Proof.KA1
import proofs.«135277_g2000205747536381_pallasbulk_86_37_alg».proof.Proof.KA2s
import proofs.«135277_g2000205747536381_pallasbulk_86_37_alg».proof.Proof.KA2yA
import proofs.«135277_g2000205747536381_pallasbulk_86_37_alg».proof.Proof.KStepAPads

set_option maxRecDepth 16384

noncomputable section

namespace Cert.KernelIdeal.Gen

open Idealize.ShloMosaic Idealize.ShloMosaic.TcCoe Idealize.ShloMosaic.Tactic Idealize.ShloMosaic.ValueIdx

variable (m : (ℓ : Loc nD τ sig) → Buf (Elt Ideal) ℓ)

theorem stepA (c : Dev nD) (hfin : FinArgs m c) (t : Fin cfg0.N) (ht : t.val = 0) (s10 : Vec Ideal S4x128x8192 .bf16) (s11 s12 : Vec Ideal S128x1 .f32) (s13 s14 : Vec Ideal S128x8448 .f32) (s15 s16 : Vec Ideal S16x8192 .f32) (s17 : Vec Ideal S384x8448 .bf16) :
    Inv m c t.val (scM0_0.view.read (Elt Ideal) (scM0_0.view.writes (Elt Ideal) ((Memref.isWhole_whole _ : scM0_0.IsWhole).unread s10) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_1 t).mpr ht) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.1))
      (scM0_1.view.read (Elt Ideal) (scM0_1.view.writes (Elt Ideal) ((Memref.isWhole_whole _ : scM0_1.IsWhole).unread s11) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_1 t).mpr ht) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.2.1))
      (scM0_2.view.read (Elt Ideal) (scM0_2.view.writes (Elt Ideal) ((Memref.isWhole_whole _ : scM0_2.IsWhole).unread s12) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_1 t).mpr ht) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.2.2.1))
      (scM0_3.view.read (Elt Ideal) (scM0_3.view.writes (Elt Ideal) ((Memref.isWhole_whole _ : scM0_3.IsWhole).unread s13) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_1 t).mpr ht) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.2.2.2.1))
      (scM0_4.view.read (Elt Ideal) (scM0_4.view.writes (Elt Ideal) ((Memref.isWhole_whole _ : scM0_4.IsWhole).unread s14) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_1 t).mpr ht) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.2.2.2.2.1))
      (scM0_7.view.read (Elt Ideal) (scM0_7.view.writes (Elt Ideal) ((Memref.isWhole_whole _ : scM0_7.IsWhole).unread s17) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_1 t).mpr ht) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.2.2.2.2.2.2.2)) := by
  have hfeat := featA m c hfin t ht
  exact ⟨stepA_y m c hfin t ht s10 s11 s12 s13 s14 s15 s16 s17 hfeat,
    stepA_ps m c hfin t ht s10 s11 s12 s13 s14 s15 s16 s17 hfeat,
    stepA_psq m c hfin t ht s10 s11 s12 s13 s14 s15 s16 s17 hfeat,
    stepA_xpad m c t _ _ _ s10 s11 s12 s13 s14 s15 s16 s17,
    stepA_hpad m c t _ _ _ s10 s11 s12 s13 s14 s15 s16 s17,
    stepA_fb m c t _ _ _ s10 s11 s12 s13 s14 s15 s16 s17⟩

end Cert.KernelIdeal.Gen

end
-- ==== Proof.KHalf1.lean ====
import proofs.«135277_g2000205747536381_pallasbulk_86_37_alg».proof.Proof.KPhi
import proofs.«135277_g2000205747536381_pallasbulk_86_37_alg».proof.Proof.KPoh
import proofs.«135277_g2000205747536381_pallasbulk_86_37_alg».proof.Proof.KPmid

noncomputable section

namespace Cert.KernelIdeal.KHalf1

open Idealize.ShloMosaic Idealize.ShloMosaic.ValueIdx
open Cert.KernelIdeal Cert.Spec

variable (X : Fin 128 → Fin 8192 → EReal) (M : Fin 128 → Fin 128 → EReal)
variable (v11 : Vec Ideal S1x128x64x128 .f32) (v17 v22 v23 v35 v36 v44 : Vec Ideal S128x8192 .f32) (v18 v20 : Vec Ideal S1x8192 .f32)
variable (v231 : Vec Ideal S16x8192 .f32) (v242 : Vec Ideal S128x128 .f32)

abbrev P10 (v17 : Vec Ideal S128x8192 .f32) (v18 : Vec Ideal S1x8192 .f32) (v22 v23 : Vec Ideal S128x8192 .f32) : FVec Ideal S128x8192 .f32 :=
  Gen.k0_pay10 v17 v18 v22 v23

abbrev P11 (v20 : Vec Ideal S1x8192 .f32) (v35 v36 : Vec Ideal S128x8192 .f32) : FVec Ideal S128x8192 .f32 :=
  Gen.k0_pay11 v20 v35 v36

section Links
variable (h11 : ∀ (c : Fin 128) (r : Fin 64) (w : Fin 128), v11 (ix4 (0 : Fin 1) c r w) = X c ⟨128 * r.val + w.val, by omega⟩)
variable (h17 : ∀ (c : Fin 128) (p : Fin 8192), v17 (ix2 c p) = Gen.k0_pay9 v11 (ix2 c p))
variable (h18 : ∀ p : Fin 8192, v18 (ix2 (0 : Fin 1) p) = if p.val % 2 = 0 then 1 else 0)
variable (h22 : ∀ (c : Fin 128) (p : Fin 8192), v22 (ix2 c p) = KPhi.pad (fun c p => Gen.k0_pay9 v11 (ix2 c p)) c ⟨127 + p.val, by omega⟩)
variable (h23 : ∀ (c : Fin 128) (p : Fin 8192), v23 (ix2 c p) = KPhi.pad (fun c p => Gen.k0_pay9 v11 (ix2 c p)) c ⟨129 + p.val, by omega⟩)
variable (h20 : ∀ p : Fin 8192, v20 (ix2 (0 : Fin 1) p) = if p.val / 128 % 2 = 0 then 1 else 0)
variable (h44 : ∀ (c : Fin 128) (p : Fin 8192), v44 (ix2 c p) = P10 v17 v18 v22 v23 (ix2 c p))
variable (h35 : ∀ (c : Fin 128) (p : Fin 8192), v35 (ix2 c p) = KPhi.pad (fun c p => P10 v17 v18 v22 v23 (ix2 c p)) c ⟨p.val, by omega⟩)
variable (h36 : ∀ (c : Fin 128) (p : Fin 8192), v36 (ix2 c p) = KPhi.pad (fun c p => P10 v17 v18 v22 v23 (ix2 c p)) c ⟨256 + p.val, by omega⟩)

include h11 in

theorem p9_eq (c : Fin 128) (p : Fin 8192) : Gen.k0_pay9 v11 (ix2 c p) = X c p := KPhi.pay9_eq v11 X h11 c p

include h11 in
theorem p9_fun : (fun c p => Gen.k0_pay9 v11 (ix2 c p)) = X := funext fun c => funext fun p => p9_eq X v11 h11 c p

include h11 h17 h18 h22 h23 in

theorem p10_eq (c : Fin 128) (p : Fin 8192) : P10 v17 v18 v22 v23 (ix2 c p) = KPhi.hsum X c p := by
  refine KPhi.pay10_eq_hsum_of_pad X v17 v18 v22 v23 (fun c p => ?_) h18 (fun c p => ?_) (fun c p => ?_) c p
  · rw [h17, p9_eq X v11 h11, KPhi.pad_mid]
  · rw [h22, p9_fun X v11 h11]
  · rw [h23, p9_fun X v11 h11]

include h11 h17 h18 h22 h23 in
theorem p10_fun : (fun c p => P10 v17 v18 v22 v23 (ix2 c p)) = KPhi.hsum X :=
  funext fun c => funext fun p => p10_eq X v11 v17 v22 v23 v18 h11 h17 h18 h22 h23 c p

include h11 h17 h18 h22 h23 h20 h44 h35 h36 in

theorem hi_eq (c : Fin 128) (p : Fin 8192) :
    Gen.k0_pay12 v17 (P11 v20 v35 v36) v44 (ix2 c p) = Spec.hi X c p := by
  refine KPhi.pay12_eq_hi_of_pad X v17 v20 v35 v36 v44 (fun c p => ?_) h20 (fun c p => ?_) (fun c p => ?_) (fun c p => ?_) c p
  · rw [h17, p9_eq X v11 h11]
  · rw [h35, p10_fun X v11 v17 v22 v23 v18 h11 h17 h18 h22 h23]
  · rw [h36, p10_fun X v11 v17 v22 v23 v18 h11 h17 h18 h22 h23]
  · rw [h44, p10_eq X v11 v17 v22 v23 v18 h11 h17 h18 h22 h23, KPhi.pad_mid]

include h11 h17 in

theorem v17_eq (c : Fin 128) (p : Fin 8192) : v17 (ix2 c p) = X c p := by rw [h17, p9_eq X v11 h11]

include h11 h17 in

theorem feat_eq (hoh : ∀ (k : Fin 16) (p : Fin 8192), v231 (ix2 k p) = Spec.oh X k p)
    (h242 : ∀ i j : Fin 128, v242 (ix2 i j) = M i j) (c : Fin 128) (p : Fin 8192) :
    Gen.k0_pay53 (F := Ideal) v17 v231 (Gen.k0_pay52 (F := Ideal) v17 v231 v242) (ix2 c p) = Spec.feat X M c p :=
  KPmid.pay53_pay52_apply v17 v231 v242 X M (v17_eq X v11 v17 h11 h17) hoh h242 c p

end Links

end Cert.KernelIdeal.KHalf1

end
-- ==== Proof.KStepB_h1.lean ====
import proofs.«135277_g2000205747536381_pallasbulk_86_37_alg».proof.Proof.KRunB
import proofs.«135277_g2000205747536381_pallasbulk_86_37_alg».proof.Proof.KPadBuf
import proofs.«135277_g2000205747536381_pallasbulk_86_37_alg».proof.Proof.KHalf1
import proofs.«135277_g2000205747536381_pallasbulk_86_37_alg».proof.Proof.KPohChain

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open KPadBuf

variable (c : Dev nD) (i : grid0.Coords) (arg2 : Memref sig .tc .vmem S1x128x64x128 .f32) (harg2 : arg2.IsWhole) (arg3 : Memref sig .tc .vmem S128x128 .f32) (harg3 : arg3.IsWhole) (arg4 : Memref sig .tc .vmem S3x128x384 .bf16) (harg4 : arg4.IsWhole) (arg5 : Memref sig .tc .vmem S2x8192 .f32) (harg5 : arg5.IsWhole) (arg6 : Memref sig .tc .vmem S2x8192 .bf16) (harg6 : arg6.IsWhole) (arg10 : Memref sig .tc .vmem S4x128x8192 .bf16) (harg10 : arg10.IsWhole) (arg11 : Memref sig .tc .vmem S128x1 .f32) (harg11 : arg11.IsWhole) (arg12 : Memref sig .tc .vmem S128x1 .f32) (harg12 : arg12.IsWhole) (arg13 : Memref sig .tc .vmem S128x8448 .f32) (harg13 : arg13.IsWhole) (arg14 : Memref sig .tc .vmem S128x8448 .f32) (harg14 : arg14.IsWhole) (arg15 : Memref sig .tc .vmem S16x8192 .f32) (harg15 : arg15.IsWhole) (arg16 : Memref sig .tc .vmem S16x8192 .f32) (harg16 : arg16.IsWhole) (arg17 : Memref sig .tc .vmem S384x8448 .bf16) (harg17 : arg17.IsWhole)
  (hc2 : cond0_2 i)
  (x2 : Vec Ideal S1x128x64x128 .f32) (x3 : Vec Ideal S128x128 .f32) (x4 : Vec Ideal S3x128x384 .bf16) (x5 : Vec Ideal S2x8192 .f32) (x6 : Vec Ideal S2x8192 .bf16) (d10 : Vec Ideal S4x128x8192 .bf16) (d11 : Vec Ideal S128x1 .f32) (d12 : Vec Ideal S128x1 .f32) (d13 : Vec Ideal S128x8448 .f32) (d14 : Vec Ideal S128x8448 .f32) (d15 : Vec Ideal S16x8192 .f32) (d16 : Vec Ideal S16x8192 .f32) (d17 : Vec Ideal S384x8448 .bf16)

variable (X : Fin 128 → Fin 8192 → EReal) (M : Fin 128 → Fin 128 → EReal)

set_option quotPrecheck false in
local notation "𝐯11" => View.readAt (Elt Ideal) arg2.view (Rect.unit (s := S1x128x64x128) ![0, 0, 0, 0] S1x128x64x128.size inb_S1x128x64x128_S1x128x64x128_0_0_0_0).toLoadRect (harg2.unread x2)
set_option quotPrecheck false in
local notation "𝐯17" => kernelRun0_B.sl.v17 c arg2 harg2 arg13 x2
set_option quotPrecheck false in
local notation "𝐇13" => kernelRun0_B.sl.H13_1 c arg2 harg2 x2
set_option quotPrecheck false in
local notation "𝐯18" => View.readAt (Elt Ideal) arg5.view (Rect.unit (s := S2x8192) ![0, 0] S1x8192.size inb_S2x8192_S1x8192_0_0).toLoadRect (harg5.unread x5)
set_option quotPrecheck false in
local notation "𝐯20" => View.readAt (Elt Ideal) arg5.view (Rect.unit (s := S2x8192) ![1, 0] S1x8192.size inb_S2x8192_S1x8192_1_0).toLoadRect (harg5.unread x5)
set_option quotPrecheck false in
local notation "𝐯22" => View.readAt (Elt Ideal) arg13.view (Rect.unit (s := S128x8448) ![0, 127] S128x8192.size inb_S128x8448_S128x8192_0_127).toLoadRect (arg13.view.writes (Elt Ideal) (harg13.unread d13) 𝐇13)
set_option quotPrecheck false in
local notation "𝐯23" => View.readAt (Elt Ideal) arg13.view (Rect.unit (s := S128x8448) ![0, 129] S128x8192.size inb_S128x8448_S128x8192_0_129).toLoadRect (arg13.view.writes (Elt Ideal) (harg13.unread d13) 𝐇13)
set_option quotPrecheck false in
local notation "𝐇14" => kernelRun0_B.sl.H14_1 c arg2 harg2 arg5 harg5 arg13 harg13 x2 x5 d13
set_option quotPrecheck false in
local notation "𝐯44" => kernelRun0_B.sl.v44 c arg2 harg2 arg5 harg5 arg13 harg13 arg14 x2 x5 d13
set_option quotPrecheck false in
local notation "𝐯35" => View.readAt (Elt Ideal) arg14.view (Rect.unit (s := S128x8448) ![0, 0] S128x8192.size inb_S128x8448_S128x8192_0_0).toLoadRect (arg14.view.writes (Elt Ideal) (harg14.unread d14) 𝐇14)
set_option quotPrecheck false in
local notation "𝐯36" => View.readAt (Elt Ideal) arg14.view (Rect.unit (s := S128x8448) ![0, 256] S128x8192.size inb_S128x8448_S128x8192_0_256).toLoadRect (arg14.view.writes (Elt Ideal) (harg14.unread d14) 𝐇14)
set_option quotPrecheck false in
local notation "𝐫" => kernelRun0_B.sl.r c arg2 harg2 arg5 harg5 arg13 harg13 arg14 harg14 x2 x5 d13 d14
set_option quotPrecheck false in
local notation "𝐯231" => kernelRun0_B.sl.v231 c arg2 harg2 arg5 harg5 arg13 harg13 arg14 harg14 arg15 arg16 x2 x5 d13 d14
set_option quotPrecheck false in
local notation "𝐯242" => View.readAt (Elt Ideal) arg3.view (Rect.unit (s := S128x128) ![0, 0] S128x128.size inb_S128x128_S128x128_0_0).toLoadRect (harg3.unread x3)
set_option quotPrecheck false in
local notation "𝐫12" => kernelRun0_B.sl.r_12 c arg2 harg2 arg3 harg3 arg5 harg5 arg13 harg13 arg14 harg14 arg15 arg16 x2 x3 x5 d13 d14

section Loads
variable (hx2 : ∀ (ch : Fin 128) (r : Fin 64) (w : Fin 128), x2 (ix4 (0 : Fin 1) ch r w) = X ch ⟨128 * r.val + w.val, by omega⟩)
variable (hx3 : ∀ i j : Fin 128, x3 (ix2 i j) = M i j)
variable (hm0 : ∀ p : Fin 8192, x5 (ix2 (0 : Fin 2) p) = if p.val % 2 = 0 then 1 else 0)
variable (hm1 : ∀ p : Fin 8192, x5 (ix2 (1 : Fin 2) p) = if p.val / 128 % 2 = 0 then 1 else 0)
variable (hd13 : ∀ (r : Fin 128) (col : Fin 8448), (col.val < 128 ∨ 8320 ≤ col.val) → d13 (ix2 r col) = 0)
variable (hd14 : ∀ (r : Fin 128) (col : Fin 8448), (col.val < 128 ∨ 8320 ≤ col.val) → d14 (ix2 r col) = 0)
variable (hX : ∀ ch p, Spec.IsReal (X ch p))

include hx2 in

theorem b_h11 (ch : Fin 128) (r : Fin 64) (w : Fin 128) : 𝐯11 (ix4 (0 : Fin 1) ch r w) = X ch ⟨128 * r.val + w.val, by omega⟩ := by
  rw [readAt_whole_unread arg2 harg2 x2 (funext fun a => by fin_cases a <;> rfl)]
  exact hx2 ch r w

theorem b_h17 (ch : Fin 128) (p : Fin 8192) : 𝐯17 (ix2 ch p) = k0_pay9 𝐯11 (ix2 ch p) := by
  unfold kernelRun0_B.sl.v17 kernelRun0_B.sl.H13_1
  rw [View.readCov_cons_toLoadRect]

include hm0 in
theorem b_h18 (p : Fin 8192) : 𝐯18 (ix2 (0 : Fin 1) p) = if p.val % 2 = 0 then 1 else 0 :=
  (readAt_row arg5 harg5 x5 0 _ p (by omega)).trans (hm0 p)

include hm1 in
theorem b_h20 (p : Fin 8192) : 𝐯20 (ix2 (0 : Fin 1) p) = if p.val / 128 % 2 = 0 then 1 else 0 :=
  (readAt_row arg5 harg5 x5 1 _ p (by omega)).trans (hm1 p)

include hd13 in
theorem b_h22 (ch : Fin 128) (p : Fin 8192) :
    𝐯22 (ix2 ch p) = KPhi.pad (fun c p => k0_pay9 𝐯11 (ix2 c p)) ch ⟨127 + p.val, by omega⟩ := by
  unfold kernelRun0_B.sl.H13_1
  exact padbuf_readAt arg13 harg13 d13 _ _ _ (fun _ _ => rfl) hd13 127 _ ch p _

include hd13 in
theorem b_h23 (ch : Fin 128) (p : Fin 8192) :
    𝐯23 (ix2 ch p) = KPhi.pad (fun c p => k0_pay9 𝐯11 (ix2 c p)) ch ⟨129 + p.val, by omega⟩ := by
  unfold kernelRun0_B.sl.H13_1
  exact padbuf_readAt arg13 harg13 d13 _ _ _ (fun _ _ => rfl) hd13 129 _ ch p _

theorem b_h44 (ch : Fin 128) (p : Fin 8192) : 𝐯44 (ix2 ch p) = KHalf1.P10 𝐯17 𝐯18 𝐯22 𝐯23 (ix2 ch p) := by
  unfold kernelRun0_B.sl.v44 kernelRun0_B.sl.H14_1
  rw [View.readCov_cons_toLoadRect]

include hd14 in
theorem b_h35 (ch : Fin 128) (p : Fin 8192) :
    𝐯35 (ix2 ch p) = KPhi.pad (fun c p => KHalf1.P10 𝐯17 𝐯18 𝐯22 𝐯23 (ix2 c p)) ch ⟨p.val, by omega⟩ := by
  unfold kernelRun0_B.sl.H14_1
  exact (padbuf_readAt arg14 harg14 d14 _ _ _ (fun _ _ => rfl) hd14 0 _ ch p (by omega)).trans
    (congrArg _ (Fin.ext (Nat.zero_add _)))

include hd14 in
theorem b_h36 (ch : Fin 128) (p : Fin 8192) :
    𝐯36 (ix2 ch p) = KPhi.pad (fun c p => KHalf1.P10 𝐯17 𝐯18 𝐯22 𝐯23 (ix2 c p)) ch ⟨256 + p.val, by omega⟩ := by
  unfold kernelRun0_B.sl.H14_1
  exact padbuf_readAt arg14 harg14 d14 _ _ _ (fun _ _ => rfl) hd14 256 _ ch p _

include hx2 hm0 hm1 hd13 hd14 in

theorem b_hi (ch : Fin 128) (p : Fin 8192) : k0_pay12 𝐯17 𝐫 𝐯44 (ix2 ch p) = Spec.hi X ch p := by
  unfold kernelRun0_B.sl.r
  exact KHalf1.hi_eq X 𝐯11 𝐯17 𝐯22 𝐯23 𝐯35 𝐯36 𝐯44 𝐯18 𝐯20
    (b_h11 arg2 harg2 x2 X hx2) (b_h17 c arg2 harg2 arg13 x2) (b_h18 arg5 harg5 x5 hm0)
    (b_h22 c arg2 harg2 arg13 harg13 x2 d13 hd13) (b_h23 c arg2 harg2 arg13 harg13 x2 d13 hd13)
    (b_h20 arg5 harg5 x5 hm1)
    (b_h44 c arg2 harg2 arg5 harg5 arg13 harg13 arg14 x2 x5 d13)
    (b_h35 c arg2 harg2 arg5 harg5 arg13 harg13 arg14 harg14 x2 x5 d13 d14 hd14)
    (b_h36 c arg2 harg2 arg5 harg5 arg13 harg13 arg14 harg14 x2 x5 d13 d14 hd14) ch p

include hx2 hm0 hm1 hd13 hd14 hX in

theorem b_oh (k : Fin 16) (p : Fin 8192) : 𝐯231 (ix2 k p) = Spec.oh X k p := by
  apply KPoh.onehot_of_rows X hX 𝐯17 𝐫 𝐯44
    (b_hi c arg2 harg2 arg5 harg5 arg13 harg13 arg14 harg14 x2 x5 d13 d14 X hx2 hm0 hm1 hd13 hd14)
    (kernelRun0_B.sl.v56 c arg2 harg2 arg5 harg5 arg13 harg13 arg14 harg14 arg15 x2 x5 d13 d14)
    (kernelRun0_B.sl.v67 c arg2 harg2 arg5 harg5 arg13 harg13 arg14 harg14 arg15 x2 x5 d13 d14)
    (kernelRun0_B.sl.v78 c arg2 harg2 arg5 harg5 arg13 harg13 arg14 harg14 arg15 x2 x5 d13 d14)
    (kernelRun0_B.sl.v89 c arg2 harg2 arg5 harg5 arg13 harg13 arg14 harg14 arg15 x2 x5 d13 d14)
    (kernelRun0_B.sl.v100 c arg2 harg2 arg5 harg5 arg13 harg13 arg14 harg14 arg15 x2 x5 d13 d14)
    (kernelRun0_B.sl.v111 c arg2 harg2 arg5 harg5 arg13 harg13 arg14 harg14 arg15 x2 x5 d13 d14)
    (kernelRun0_B.sl.v122 c arg2 harg2 arg5 harg5 arg13 harg13 arg14 harg14 arg15 x2 x5 d13 d14)
    (kernelRun0_B.sl.v133 c arg2 harg2 arg5 harg5 arg13 harg13 arg14 harg14 arg15 x2 x5 d13 d14)
    (kernelRun0_B.sl.v144 c arg2 harg2 arg5 harg5 arg13 harg13 arg14 harg14 arg15 x2 x5 d13 d14)
    (kernelRun0_B.sl.v155 c arg2 harg2 arg5 harg5 arg13 harg13 arg14 harg14 arg15 x2 x5 d13 d14)
    (kernelRun0_B.sl.v166 c arg2 harg2 arg5 harg5 arg13 harg13 arg14 harg14 arg15 x2 x5 d13 d14)
    (kernelRun0_B.sl.v177 c arg2 harg2 arg5 harg5 arg13 harg13 arg14 harg14 arg15 x2 x5 d13 d14)
    (kernelRun0_B.sl.v188 c arg2 harg2 arg5 harg5 arg13 harg13 arg14 harg14 arg15 x2 x5 d13 d14)
    (kernelRun0_B.sl.v199 c arg2 harg2 arg5 harg5 arg13 harg13 arg14 harg14 arg15 x2 x5 d13 d14)
    (kernelRun0_B.sl.v210 c arg2 harg2 arg5 harg5 arg13 harg13 arg14 harg14 arg15 x2 x5 d13 d14)
    (kernelRun0_B.sl.v221 c arg2 harg2 arg5 harg5 arg13 harg13 arg14 harg14 arg15 x2 x5 d13 d14)
    𝐯231
  all_goals intro q
  iterate 16 exact KPadBuf.readCov_whole_row arg15.view _ _ _ (by omega) _ q
  all_goals
    refine (KPadBuf.readCov_whole_apply arg16.view _ _ _ q).trans ?_
    repeat refine (KPadBuf.canon_row_miss _ _ _ _ _ (by decide) q).trans ?_
    exact KPadBuf.canon_row_hit _ (by omega) _ _ _ q

include hx2 hx3 hm0 hm1 hd13 hd14 hX in

theorem featB (ch : Fin 128) (p : Fin 8192) : k0_pay53 𝐯17 𝐯231 𝐫12 (ix2 ch p) = Spec.feat X M ch p := by
  unfold kernelRun0_B.sl.r_12
  refine KHalf1.feat_eq X M 𝐯11 𝐯17 𝐯231 𝐯242 (b_h11 arg2 harg2 x2 X hx2) (b_h17 c arg2 harg2 arg13 x2)
    (b_oh c arg2 harg2 arg5 harg5 arg13 harg13 arg14 harg14 arg15 arg16 x2 x5 d13 d14 X hx2 hm0 hm1 hd13 hd14 hX)
    (fun i j => ?_) ch p
  rw [readAt_whole_unread arg3 harg3 x3 (funext fun a => by fin_cases a <;> rfl)]
  exact hx3 i j

end Loads

end Cert.KernelIdeal.Gen

end
-- ==== Proof.KStepB_feat.lean ====
import proofs.«135277_g2000205747536381_pallasbulk_86_37_alg».proof.Proof.KInv
import proofs.«135277_g2000205747536381_pallasbulk_86_37_alg».proof.Proof.KRunB
import proofs.«135277_g2000205747536381_pallasbulk_86_37_alg».proof.Proof.KStepB_h1
import proofs.«135277_g2000205747536381_pallasbulk_86_37_alg».proof.Proof.KBlk
import proofs.«135277_g2000205747536381_pallasbulk_86_37_alg».proof.Proof.KHost

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

theorem stepB_feat (c : Dev nD) (hfin : FinArgs m c) (t : Fin cfg0.N) (h3 : t.val ≤ 3)
    (s13 : Vec Ideal S128x8448 .f32) (s14 : Vec Ideal S128x8448 .f32)
    (hxpad : ∀ (r : Fin 128) (col : Fin 8448), (col.val < 128 ∨ 8320 ≤ col.val) → s13 (ix2 r col) = 0)
    (hhpad : ∀ (r : Fin 128) (col : Fin 8448), (col.val < 128 ∨ 8320 ≤ col.val) → s14 (ix2 r col) = 0)
    (ch : Fin 128) (p : Fin 8192) :
    k0_pay53 (kernelRun0_B.sl.v17 c (ms0_0 t) (hs0_0 t) scM0_3 (iblk m c 0 t))
        (kernelRun0_B.sl.v231 c (ms0_0 t) (hs0_0 t) (ms0_3 t) (hs0_3 t) scM0_3 (Memref.isWhole_whole _) scM0_4 (Memref.isWhole_whole _) scM0_5 scM0_6 (iblk m c 0 t) (iblk m c 3 t) s13 s14)
        (kernelRun0_B.sl.r_12 c (ms0_0 t) (hs0_0 t) (ms0_1 t) (hs0_1 t) (ms0_3 t) (hs0_3 t) scM0_3 (Memref.isWhole_whole _) scM0_4 (Memref.isWhole_whole _) scM0_5 scM0_6 (iblk m c 0 t) (iblk m c 1 t) (iblk m c 3 t) s13 s14)
        (ix2 ch p)
      = Cert.Spec.feat (Cert.Spec.argX (sA0 m c) (⟨t.val, by omega⟩ : Fin 4)) (Cert.Spec.gram (Cert.Spec.argW (sA1 m c))) ch p :=
  featB (c := c) (arg2 := ms0_0 t) (harg2 := hs0_0 t) (arg3 := ms0_1 t) (harg3 := hs0_1 t) (arg5 := ms0_3 t) (harg5 := hs0_3 t)
    (arg13 := scM0_3) (harg13 := Memref.isWhole_whole _) (arg14 := scM0_4) (harg14 := Memref.isWhole_whole _) (arg15 := scM0_5) (arg16 := scM0_6)
    (x2 := iblk m c 0 t) (x3 := iblk m c 1 t) (x5 := iblk m c 3 t) (d13 := s13) (d14 := s14)
    (X := Cert.Spec.argX (sA0 m c) (⟨t.val, by omega⟩ : Fin 4)) (M := Cert.Spec.gram (Cert.Spec.argW (sA1 m c)))
    (hx2 := fun ch r w => KBlk.iblk0_argX m c t (by omega) (0 : Fin 1) ch r w)
    (hx3 := fun i j => KBlk.iblk1_gram m c t i j)
    (hm0 := fun p => KBlk.iblk3_of m c t (0 : Fin 2) _ (KHost.V_pmask0 m c) p)
    (hm1 := fun p => KBlk.iblk3_of m c t (1 : Fin 2) _ (KHost.V_pmask1 m c) p)
    (hd13 := hxpad) (hd14 := hhpad)
    (hX := fun ch p => hfin.1 _) ch p

end Cert.KernelIdeal.Gen

end
-- ==== Proof.KB2y.lean ====
import proofs.«135277_g2000205747536381_pallasbulk_86_37_alg».proof.Proof.KInv
import proofs.«135277_g2000205747536381_pallasbulk_86_37_alg».proof.Proof.KYRead
import proofs.«135277_g2000205747536381_pallasbulk_86_37_alg».proof.Proof.KHalf2
import proofs.«135277_g2000205747536381_pallasbulk_86_37_alg».proof.Proof.KPconvC
import proofs.«135277_g2000205747536381_pallasbulk_86_37_alg».proof.Proof.KBlk
import Idealize.ShloMosaic.Lib.WholeRead

set_option maxRecDepth 16384

noncomputable section

namespace Cert.KernelIdeal.Gen

open Idealize.ShloMosaic Idealize.ShloMosaic.TcCoe Idealize.ShloMosaic.ValueIdx
open Cert.KernelIdeal Cert.KernelIdeal.KPconv

section
variable {v : View sig .tc .vmem S384x8448 .bf16} {g : v.ty.Contents (Elt Ideal)} {P53 : FVec Ideal S128x8192 .bf16} {m0 m1 : Vec Ideal S1x8192 .bf16}
  (ft : Fin 128 → Fin 8192 → EReal) (hP53 : ∀ (ch : Fin 128) (p : Fin 8192), P53 (ix2 ch p) = ft ch p)
  (hm0 : ∀ p : Fin 8192, m0 (ix2 (0 : Fin 1) p) = if p.val % 128 = 0 then 0 else 1)
  (hm1 : ∀ p : Fin 8192, m1 (ix2 (0 : Fin 1) p) = if p.val % 128 = 127 then 0 else 1)
  (hpad : ∀ (r : Fin 384) (col : Fin 8448), (col.val < 128 ∨ 8320 ≤ col.val) → v.read (Elt Ideal) g (ix2 r col) = (0 : EReal))
  (q : Fin 8) (di : Fin 3) (inb : ∀ a, (![0, 128 * di.val + 1024 * q.val] : Fin 2 → ℕ) a + S384x1024.size a ≤ S384x8448.size a)
include hP53 hm0 hm1 hpad

-- A slice load inside the columns the three stores cover sees only what they stored, so it holds the convolution's taps.
theorem covSlice (h : 128 ≤ 128 * di.val + 1024 * q.val ∧ 128 * di.val + 1024 * q.val + 1024 ≤ 8320 := by decide) :
    FSlice ft q di (v.readCov (KHalf2.L3 v g P53 m0 m1) (Rect.unit (s := S384x8448) _ S384x1024.size inb).toLoadRect) := by
  rw [KHalf2.readCov_slice_eq v g P53 m0 m1 _ inb h]
  exact KHalf2.slice_FSlice v g P53 m0 m1 ft hP53 hm0 hm1 hpad q di _ rfl inb

end

section
variable (c : Dev nD) (arg2 : Memref sig .tc .vmem S1x128x64x128 .f32) (harg2 : arg2.IsWhole) (arg3 : Memref sig .tc .vmem S128x128 .f32) (harg3 : arg3.IsWhole) (arg4 : Memref sig .tc .vmem S3x128x384 .bf16) (harg4 : arg4.IsWhole) (arg5 : Memref sig .tc .vmem S2x8192 .f32) (harg5 : arg5.IsWhole) (arg6 : Memref sig .tc .vmem S2x8192 .bf16) (harg6 : arg6.IsWhole) (arg13 : Memref sig .tc .vmem S128x8448 .f32) (harg13 : arg13.IsWhole) (arg14 : Memref sig .tc .vmem S128x8448 .f32) (harg14 : arg14.IsWhole) (arg15 : Memref sig .tc .vmem S16x8192 .f32) (arg16 : Memref sig .tc .vmem S16x8192 .f32) (arg17 : Memref sig .tc .vmem S384x8448 .bf16) (harg17 : arg17.IsWhole) (x2 : Vec Ideal S1x128x64x128 .f32) (x3 : Vec Ideal S128x128 .f32) (x4 : Vec Ideal S3x128x384 .bf16) (x5 : Vec Ideal S2x8192 .f32) (x6 : Vec Ideal S2x8192 .bf16) (d13 : Vec Ideal S128x8448 .f32) (d14 : Vec Ideal S128x8448 .f32) (d17 : Vec Ideal S384x8448 .bf16)

abbrev P53B : FVec Ideal S128x8192 .bf16 :=
  k0_pay53 (kernelRun0_B.sl.v17 c arg2 harg2 arg13 x2) (kernelRun0_B.sl.v231 c arg2 harg2 arg5 harg5 arg13 harg13 arg14 harg14 arg15 arg16 x2 x5 d13 d14) (kernelRun0_B.sl.r_12 c arg2 harg2 arg3 harg3 arg5 harg5 arg13 harg13 arg14 harg14 arg15 arg16 x2 x3 x5 d13 d14)

abbrev m0B : Vec Ideal S1x8192 .bf16 :=
  View.readAt (Elt Ideal) arg6.view (Rect.unit (s := S2x8192) ![0, 0] S1x8192.size inb_S2x8192_S1x8192_0_0).toLoadRect (harg6.unread x6)

abbrev m1B : Vec Ideal S1x8192 .bf16 :=
  View.readAt (Elt Ideal) arg6.view (Rect.unit (s := S2x8192) ![1, 0] S1x8192.size inb_S2x8192_S1x8192_1_0).toLoadRect (harg6.unread x6)

theorem maskrow_load (k : Fin 2) (off : Fin 2 → ℕ) (hoff : off = ![k.val, 0]) (inb : ∀ a, off a + S1x8192.size a ≤ S2x8192.size a) (p : Fin 8192) :
    View.readAt (Elt Ideal) arg6.view (Rect.unit (s := S2x8192) off S1x8192.size inb).toLoadRect (harg6.unread x6) (ix2 (0 : Fin 1) p)
      = x6 (ix2 k p) := by
  subst hoff
  refine (harg6.readAt_unread x6 _ _).trans (congrArg x6 ?_)
  funext a
  refine Fin.ext ?_
  match a with
  | ⟨0, _⟩ => show k.val + 1 * 0 = k.val; omega
  | ⟨1, _⟩ => show 0 + 1 * p.val = p.val; omega

variable (ft : Fin 128 → Fin 8192 → EReal)
    (hP53 : ∀ (ch : Fin 128) (p : Fin 8192), P53B c arg2 harg2 arg3 harg3 arg5 harg5 arg13 harg13 arg14 harg14 arg15 arg16 x2 x3 x5 d13 d14 (ix2 ch p) = ft ch p)
    (hm0 : ∀ p : Fin 8192, m0B arg6 harg6 x6 (ix2 (0 : Fin 1) p) = if p.val % 128 = 0 then 0 else 1)
    (hm1 : ∀ p : Fin 8192, m1B arg6 harg6 x6 (ix2 (0 : Fin 1) p) = if p.val % 128 = 127 then 0 else 1)
    (hpad : ∀ (r : Fin 384) (col : Fin 8448), (col.val < 128 ∨ 8320 ≤ col.val) → arg17.view.read (Elt Ideal) (harg17.unread d17) (ix2 r col) = (0 : EReal))
    (cw : Fin 128 → Fin 128 → Fin 3 → Fin 3 → EReal)
    (hx4 : ∀ (di : Fin 3) (f : Fin 128) (dj : Fin 3) (ch : Fin 128), x4 (ix3 di f (row3 dj ch)) = cw f ch di dj)
include hP53 hm0 hm1 hpad hx4

-- Chunk q's accumulator is the convolution at the chunk's pixels: its three slices hold the taps, the three slabs the weights.
theorem accB_0 (f : Fin 128) (l : Fin 1024) :
    (k0_pay59 (k0_pay58 (kernelRun0_B.sl.v295 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![0, 0, 0] S1x128x384.size inb_S3x128x384_S1x128x384_0_0_0).toLoadRect (harg4.unread x4))) (kernelRun0_B.sl.v300 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![1, 0, 0] S1x128x384.size inb_S3x128x384_S1x128x384_1_0_0).toLoadRect (harg4.unread x4)) (kernelRun0_B.sl.v305 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![2, 0, 0] S1x128x384.size inb_S3x128x384_S1x128x384_2_0_0).toLoadRect (harg4.unread x4))) (ix2 f l)
      = Spec.conv cw ft f (pix 0 l) :=
  acc0_conv cw ft _ _ _ _ _ _ (wslab0 _ _ _ _ hx4) (KHalf2.slice_FSlice _ _ _ _ _ ft hP53 hm0 hm1 hpad 0 0 _ rfl _) (wslab1 _ _ _ _ hx4) (covSlice ft hP53 hm0 hm1 hpad 0 1 _) (wslab2 _ _ _ _ hx4) (covSlice ft hP53 hm0 hm1 hpad 0 2 _) f l

theorem accB_1 (f : Fin 128) (l : Fin 1024) :
    (k0_pay64 (k0_pay63 (kernelRun0_B.sl.v323 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![0, 0, 0] S1x128x384.size inb_S3x128x384_S1x128x384_0_0_0).toLoadRect (harg4.unread x4)) (kernelRun0_B.sl.v328 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![1, 0, 0] S1x128x384.size inb_S3x128x384_S1x128x384_1_0_0).toLoadRect (harg4.unread x4))) (kernelRun0_B.sl.v333 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![2, 0, 0] S1x128x384.size inb_S3x128x384_S1x128x384_2_0_0).toLoadRect (harg4.unread x4))) (ix2 f l)
      = Spec.conv cw ft f (pix 1 l) :=
  acc1_conv cw ft _ _ _ _ _ _ (wslab0 _ _ _ _ hx4) (covSlice ft hP53 hm0 hm1 hpad 1 0 _) (wslab1 _ _ _ _ hx4) (covSlice ft hP53 hm0 hm1 hpad 1 1 _) (wslab2 _ _ _ _ hx4) (covSlice ft hP53 hm0 hm1 hpad 1 2 _) f l

theorem accB_2 (f : Fin 128) (l : Fin 1024) :
    (k0_pay70 (k0_pay68 (kernelRun0_B.sl.v351 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![0, 0, 0] S1x128x384.size inb_S3x128x384_S1x128x384_0_0_0).toLoadRect (harg4.unread x4)) (kernelRun0_B.sl.v356 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![1, 0, 0] S1x128x384.size inb_S3x128x384_S1x128x384_1_0_0).toLoadRect (harg4.unread x4))) (kernelRun0_B.sl.v361 c arg2 harg2 arg3 harg3 arg5 harg5 arg6 harg6 arg13 harg13 arg14 harg14 arg15 arg16 arg17 harg17 x2 x3 x5 x6 d13 d14 d17) (k0_pay69 (View.readAt (Elt Ideal) arg4.view (Rect.unit (s := S3x128x384) ![2, 0, 0] S1x128x384.size inb_S3x128x384_S1x128x384_2_0_0).toLoadRect (harg4.unread x4)))) (ix2 f l)
      = Spec.conv cw ft f (pix 2 l) :=
  acc2_conv cw ft _ _ _ _ _ _ (wslab0 _ _ _ _ hx4) (covSlice ft hP53 hm0 hm1 hpad 2 0 _) (wslab1 _ _ _ _ hx4) (covSlice ft hP53 hm0 hm1 hpad 2 1 _) (wslab2 _ _ _ _ hx4) (covSlice ft hP53 hm0 hm1 hpad 2 2 _) f l

theorem accB_3 (f : Fin 128) (l : Fin 1024) :
    (k0_pay74 (kernelRun0_B.sl.v379 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![0, 0, 0] S1x128x384.size inb_S3x128x384_S1x128x384_0_0_0).toLoadRect (harg4.unread x4)) (kernelRun0_B.sl.v384 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![1, 0, 0] S1x128x384.size inb_S3x128x384_S1x128x384_1_0_0).toLoadRect (harg4.unread x4)) (kernelRun0_B.sl.v389 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![2, 0, 0] S1x128x384.size inb_S3x128x384_S1x128x384_2_0_0).toLoadRect (harg4.unread x4))) (ix2 f l)
      = Spec.conv cw ft f (pix 3 l) :=
  acc3_conv cw ft _ _ _ _ _ _ (wslab0 _ _ _ _ hx4) (covSlice ft hP53 hm0 hm1 hpad 3 0 _) (wslab1 _ _ _ _ hx4) (covSlice ft hP53 hm0 hm1 hpad 3 1 _) (wslab2 _ _ _ _ hx4) (covSlice ft hP53 hm0 hm1 hpad 3 2 _) f l

theorem accB_4 (f : Fin 128) (l : Fin 1024) :
    (k0_pay78 (kernelRun0_B.sl.v407 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![0, 0, 0] S1x128x384.size inb_S3x128x384_S1x128x384_0_0_0).toLoadRect (harg4.unread x4)) (kernelRun0_B.sl.v412 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![1, 0, 0] S1x128x384.size inb_S3x128x384_S1x128x384_1_0_0).toLoadRect (harg4.unread x4)) (kernelRun0_B.sl.v417 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![2, 0, 0] S1x128x384.size inb_S3x128x384_S1x128x384_2_0_0).toLoadRect (harg4.unread x4))) (ix2 f l)
      = Spec.conv cw ft f (pix 4 l) :=
  acc4_conv cw ft _ _ _ _ _ _ (wslab0 _ _ _ _ hx4) (covSlice ft hP53 hm0 hm1 hpad 4 0 _) (wslab1 _ _ _ _ hx4) (covSlice ft hP53 hm0 hm1 hpad 4 1 _) (wslab2 _ _ _ _ hx4) (covSlice ft hP53 hm0 hm1 hpad 4 2 _) f l

theorem accB_5 (f : Fin 128) (l : Fin 1024) :
    (k0_pay82 (kernelRun0_B.sl.v435 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![0, 0, 0] S1x128x384.size inb_S3x128x384_S1x128x384_0_0_0).toLoadRect (harg4.unread x4)) (kernelRun0_B.sl.v440 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![1, 0, 0] S1x128x384.size inb_S3x128x384_S1x128x384_1_0_0).toLoadRect (harg4.unread x4)) (kernelRun0_B.sl.v445 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![2, 0, 0] S1x128x384.size inb_S3x128x384_S1x128x384_2_0_0).toLoadRect (harg4.unread x4))) (ix2 f l)
      = Spec.conv cw ft f (pix 5 l) :=
  acc5_conv cw ft _ _ _ _ _ _ (wslab0 _ _ _ _ hx4) (covSlice ft hP53 hm0 hm1 hpad 5 0 _) (wslab1 _ _ _ _ hx4) (covSlice ft hP53 hm0 hm1 hpad 5 1 _) (wslab2 _ _ _ _ hx4) (covSlice ft hP53 hm0 hm1 hpad 5 2 _) f l

theorem accB_6 (f : Fin 128) (l : Fin 1024) :
    (k0_pay87 k0_pay86 (kernelRun0_B.sl.v463 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![0, 0, 0] S1x128x384.size inb_S3x128x384_S1x128x384_0_0_0).toLoadRect (harg4.unread x4)) (kernelRun0_B.sl.v468 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![1, 0, 0] S1x128x384.size inb_S3x128x384_S1x128x384_1_0_0).toLoadRect (harg4.unread x4)) (kernelRun0_B.sl.v473 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![2, 0, 0] S1x128x384.size inb_S3x128x384_S1x128x384_2_0_0).toLoadRect (harg4.unread x4))) (ix2 f l)
      = Spec.conv cw ft f (pix 6 l) :=
  acc6_conv cw ft _ _ _ _ _ _ (wslab0 _ _ _ _ hx4) (covSlice ft hP53 hm0 hm1 hpad 6 0 _) (wslab1 _ _ _ _ hx4) (covSlice ft hP53 hm0 hm1 hpad 6 1 _) (wslab2 _ _ _ _ hx4) (covSlice ft hP53 hm0 hm1 hpad 6 2 _) f l

theorem accB_7 (f : Fin 128) (l : Fin 1024) :
    (k0_pay93 k0_pay91 (k0_pay92 (kernelRun0_B.sl.v491 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![0, 0, 0] S1x128x384.size inb_S3x128x384_S1x128x384_0_0_0).toLoadRect (harg4.unread x4))) (kernelRun0_B.sl.v496 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![1, 0, 0] S1x128x384.size inb_S3x128x384_S1x128x384_1_0_0).toLoadRect (harg4.unread x4)) (kernelRun0_B.sl.v501 c arg2 harg2 arg3 harg3 arg5 harg5 arg6 harg6 arg13 harg13 arg14 harg14 arg15 arg16 arg17 harg17 x2 x3 x5 x6 d13 d14 d17) (View.readAt (Elt Ideal) arg4.view (Rect.unit (s := S3x128x384) ![2, 0, 0] S1x128x384.size inb_S3x128x384_S1x128x384_2_0_0).toLoadRect (harg4.unread x4))) (ix2 f l)
      = Spec.conv cw ft f (pix 7 l) :=
  acc7_conv cw ft _ _ _ _ _ _ (wslab0 _ _ _ _ hx4) (covSlice ft hP53 hm0 hm1 hpad 7 0 _) (wslab1 _ _ _ _ hx4) (covSlice ft hP53 hm0 hm1 hpad 7 1 _) (wslab2 _ _ _ _ hx4) (KHalf2.slice_FSlice _ _ _ _ _ ft hP53 hm0 hm1 hpad 7 2 _ rfl _) f l

end

variable (m : (ℓ : Loc nD τ sig) → Buf (Elt Ideal) ℓ)

-- After the step at batch element t the result buffer holds the convolution up to t: the eight stored chunks at t, the earlier contents elsewhere.
theorem stepB_y (c : Dev nD) (hfin : FinArgs m c) (t : Fin cfg0.N) (h1 : 1 ≤ t.val) (h3 : t.val ≤ 3) (s10 : Vec Ideal S4x128x8192 .bf16) (s11 : Vec Ideal S128x1 .f32) (s12 : Vec Ideal S128x1 .f32) (s13 : Vec Ideal S128x8448 .f32) (s14 : Vec Ideal S128x8448 .f32) (s15 : Vec Ideal S16x8192 .f32) (s16 : Vec Ideal S16x8192 .f32) (s17 : Vec Ideal S384x8448 .bf16)
    (hI : Inv m c (t.val - 1) s10 s11 s12 s13 s14 s17)
    (hfeat : ∀ (ch : Fin 128) (p : Fin 8192), P53B c (ms0_0 t) (hs0_0 t) (ms0_1 t) (hs0_1 t) (ms0_3 t) (hs0_3 t) scM0_3 (Memref.isWhole_whole _ : scM0_3.IsWhole) scM0_4 (Memref.isWhole_whole _ : scM0_4.IsWhole) scM0_5 scM0_6 (iblk m c 0 t) (iblk m c 1 t) (iblk m c 3 t) s13 s14 (ix2 ch p)
      = (Cert.Spec.feat (Cert.Spec.argX (sA0 m c) (⟨t.val, by omega⟩ : Fin 4)) (Cert.Spec.gram (Cert.Spec.argW (sA1 m c)))) ch p) :
    ∀ (b : Fin 4) (f : Fin 128) (p : Fin 8192), b.val ≤ t.val →
      scM0_0.view.read (Elt Ideal) (scM0_0.view.writes (Elt Ideal) ((Memref.isWhole_whole _ : scM0_0.IsWhole).unread s10) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => absurd ((hcond0_1 t).mp h) (by omega)) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.1) (ix3 b f p)
        = sY m c b f p := by
  have ht4 : t.val < 4 := by omega
  intro b f p hb
  have hi1 : ((grid0.coords t) 1).val = t.val := by rw [KYRead.coords_batch t]; omega
  by_cases hbt : b.val = t.val
  · have hbi := hbt.trans hi1.symm
    obtain rfl : b = (⟨t.val, ht4⟩ : Fin 4) := Fin.ext hbt
    have hm0 : ∀ p : Fin 8192, m0B (ms0_4 t) (hs0_4 t) (iblk m c 4 t) (ix2 (0 : Fin 1) p) = if p.val % 128 = 0 then 0 else 1 :=
      fun p => (maskrow_load _ _ _ 0 _ rfl _ p).trans (KBlk.iblk4_of m c t 0 _ (KHost.V_bmask0 m c) p)
    have hm1 : ∀ p : Fin 8192, m1B (ms0_4 t) (hs0_4 t) (iblk m c 4 t) (ix2 (0 : Fin 1) p) = if p.val % 128 = 127 then 0 else 1 :=
      fun p => (maskrow_load _ _ _ 1 _ rfl _ p).trans (KBlk.iblk4_of m c t 1 _ (KHost.V_bmask1 m c) p)
    have hpad : ∀ (r : Fin 384) (col : Fin 8448), (col.val < 128 ∨ 8320 ≤ col.val) →
        scM0_7.view.read (Elt Ideal) ((Memref.isWhole_whole _ : scM0_7.IsWhole).unread s17) (ix2 r col) = (0 : EReal) :=
      fun r col h => (congrFun ((Memref.isWhole_whole _ : scM0_7.IsWhole).read_unread s17) (ix2 r col)).trans (hI.fb r col h)
    have R := KHalf2.slice_FSlice _ _ _ _ _ _ hfeat hm0 hm1 hpad
    have S := @covSlice _ _ _ _ _ _ hfeat hm0 hm1 hpad
    have w0 := wslab0 (ms0_2 t) (hs0_2 t) _ _ (KBlk.iblk2_w m c t)
    have w1 := wslab1 (ms0_2 t) (hs0_2 t) _ _ (KBlk.iblk2_w m c t)
    have w2 := wslab2 (ms0_2 t) (hs0_2 t) _ _ (KBlk.iblk2_w m c t)
    obtain ⟨q, l, rfl⟩ : ∃ (q : Fin 8) (l : Fin 1024), p = pix q l :=
      ⟨⟨p.val / 1024, by omega⟩, ⟨p.val % 1024, by omega⟩, Fin.ext (by show p.val = 1024 * (p.val / 1024) + p.val % 1024; omega)⟩
    match q with
    | ⟨0, _⟩ => exact (KYRead.yB_read_1 (hb := hbi) ..).trans (KHalf2.y0 _ _ _ _ _ w0 w1 w2 _ _ _ (R 0 0 _ rfl _) (S 0 1 _) (S 0 2 _) 0 f l)
    | ⟨1, _⟩ => exact (KYRead.yB_read_2 (hb := hbi) ..).trans (KHalf2.y1 _ _ _ _ _ w0 w1 w2 _ _ _ (S 1 0 _) (S 1 1 _) (S 1 2 _) 0 f l)
    | ⟨2, _⟩ => exact (KYRead.yB_read_3 (hb := hbi) ..).trans (KHalf2.y2 _ _ _ _ _ w0 w1 w2 _ _ _ (S 2 0 _) (S 2 1 _) (S 2 2 _) 0 f l)
    | ⟨3, _⟩ => exact (KYRead.yB_read_4 (hb := hbi) ..).trans (KHalf2.y3 _ _ _ _ _ w0 w1 w2 _ _ _ (S 3 0 _) (S 3 1 _) (S 3 2 _) 0 f l)
    | ⟨4, _⟩ => exact (KYRead.yB_read_5 (hb := hbi) ..).trans (KHalf2.y4 _ _ _ _ _ w0 w1 w2 _ _ _ (S 4 0 _) (S 4 1 _) (S 4 2 _) 0 f l)
    | ⟨5, _⟩ => exact (KYRead.yB_read_6 (hb := hbi) ..).trans (KHalf2.y5 _ _ _ _ _ w0 w1 w2 _ _ _ (S 5 0 _) (S 5 1 _) (S 5 2 _) 0 f l)
    | ⟨6, _⟩ => exact (KYRead.yB_read_7 (hb := hbi) ..).trans (KHalf2.y6 _ _ _ _ _ w0 w1 w2 _ _ _ (S 6 0 _) (S 6 1 _) (S 6 2 _) 0 f l)
    | ⟨7, _⟩ => exact (KYRead.yB_read_8 (hb := hbi) ..).trans (KHalf2.y7 _ _ _ _ _ w0 w1 w2 _ _ _ (S 7 0 _) (S 7 1 _) (R 7 2 _ rfl _) 0 f l)
    | ⟨n + 8, hn⟩ => exact absurd hn (by omega)
  · exact (KYRead.yB_read_other (hb := by rw [hi1]; exact hbt) ..).trans (hI.y b f p (by omega))

end Cert.KernelIdeal.Gen

end
-- ==== Proof.KB2.lean ====
import proofs.«135277_g2000205747536381_pallasbulk_86_37_alg».proof.Proof.KInv
import proofs.«135277_g2000205747536381_pallasbulk_86_37_alg».proof.Proof.KRunB
import proofs.«135277_g2000205747536381_pallasbulk_86_37_alg».proof.Proof.KPconv
import proofs.«135277_g2000205747536381_pallasbulk_86_37_alg».proof.Proof.KStat
import Idealize.ShloMosaic.Lib.WholeRead
import Idealize.ShloMosaic.Lib.WritesUnit

set_option maxRecDepth 16384
set_option quotPrecheck false

noncomputable section

namespace Cert.KernelIdeal.Gen

open Idealize.ShloMosaic Idealize.ShloMosaic.TcCoe Idealize.ShloMosaic.ValueIdx
open Cert.KernelIdeal.KPconv

theorem coords_batch1 : ∀ t : Fin cfg0.N, ((grid0.coords t) 1).val = t.val % 4 :=
  (by decide +kernel : ∀ t : Fin grid0.N, _)

section RunB
variable (c : Dev nD) (i : grid0.Coords) (arg2 : Memref sig .tc .vmem S1x128x64x128 .f32) (harg2 : arg2.IsWhole) (arg3 : Memref sig .tc .vmem S128x128 .f32) (harg3 : arg3.IsWhole) (arg4 : Memref sig .tc .vmem S3x128x384 .bf16) (harg4 : arg4.IsWhole) (arg5 : Memref sig .tc .vmem S2x8192 .f32) (harg5 : arg5.IsWhole) (arg6 : Memref sig .tc .vmem S2x8192 .bf16) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x64x128 .f32) (harg9 : arg9.IsWhole) (arg10 : Memref sig .tc .vmem S4x128x8192 .bf16) (harg10 : arg10.IsWhole) (arg11 : Memref sig .tc .vmem S128x1 .f32) (harg11 : arg11.IsWhole) (arg12 : Memref sig .tc .vmem S128x1 .f32) (harg12 : arg12.IsWhole) (arg13 : Memref sig .tc .vmem S128x8448 .f32) (harg13 : arg13.IsWhole) (arg14 : Memref sig .tc .vmem S128x8448 .f32) (harg14 : arg14.IsWhole) (arg15 : Memref sig .tc .vmem S16x8192 .f32) (harg15 : arg15.IsWhole) (arg16 : Memref sig .tc .vmem S16x8192 .f32) (harg16 : arg16.IsWhole) (arg17 : Memref sig .tc .vmem S384x8448 .bf16) (harg17 : arg17.IsWhole)
  (hc1 : ¬cond0_1 i) (hc2 : cond0_2 i) (hc3 : ¬cond0_3 i)
  (x2 : Vec Ideal S1x128x64x128 .f32) (x3 : Vec Ideal S128x128 .f32) (x4 : Vec Ideal S3x128x384 .bf16) (x5 : Vec Ideal S2x8192 .f32) (x6 : Vec Ideal S2x8192 .bf16) (d10 : Vec Ideal S4x128x8192 .bf16) (d11 : Vec Ideal S128x1 .f32) (d12 : Vec Ideal S128x1 .f32) (d13 : Vec Ideal S128x8448 .f32) (d14 : Vec Ideal S128x8448 .f32) (d15 : Vec Ideal S16x8192 .f32) (d16 : Vec Ideal S16x8192 .f32) (d17 : Vec Ideal S384x8448 .bf16)

local notation "𝐑" => kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x2 x3 x4 x5 x6 d10 d11 d12 d13 d14 d15 d16 d17

local notation "𝐰0" => View.readAt (Elt Ideal) arg4.view (Rect.unit (s := S3x128x384) ![0, 0, 0] S1x128x384.size inb_S3x128x384_S1x128x384_0_0_0).toLoadRect (harg4.unread x4)
local notation "𝐰1" => View.readAt (Elt Ideal) arg4.view (Rect.unit (s := S3x128x384) ![1, 0, 0] S1x128x384.size inb_S3x128x384_S1x128x384_1_0_0).toLoadRect (harg4.unread x4)
local notation "𝐰2" => View.readAt (Elt Ideal) arg4.view (Rect.unit (s := S3x128x384) ![2, 0, 0] S1x128x384.size inb_S3x128x384_S1x128x384_2_0_0).toLoadRect (harg4.unread x4)

local notation "𝐯295" => kernelRun0_B.sl.v295 (F := Ideal) c arg2 harg2 arg3 harg3 arg5 harg5 arg6 harg6 arg13 harg13 arg14 harg14 arg15 arg16 arg17 harg17 x2 x3 x5 x6 d13 d14 d17
local notation "𝐯300" => kernelRun0_B.sl.v300 (F := Ideal) c arg2 harg2 arg3 harg3 arg5 harg5 arg6 harg6 arg13 harg13 arg14 harg14 arg15 arg16 arg17 harg17 x2 x3 x5 x6 d13 d14 d17
local notation "𝐯305" => kernelRun0_B.sl.v305 (F := Ideal) c arg2 harg2 arg3 harg3 arg5 harg5 arg6 harg6 arg13 harg13 arg14 harg14 arg15 arg16 arg17 harg17 x2 x3 x5 x6 d13 d14 d17
local notation "𝐯323" => kernelRun0_B.sl.v323 (F := Ideal) c arg2 harg2 arg3 harg3 arg5 harg5 arg6 harg6 arg13 harg13 arg14 harg14 arg15 arg16 arg17 harg17 x2 x3 x5 x6 d13 d14 d17
local notation "𝐯328" => kernelRun0_B.sl.v328 (F := Ideal) c arg2 harg2 arg3 harg3 arg5 harg5 arg6 harg6 arg13 harg13 arg14 harg14 arg15 arg16 arg17 harg17 x2 x3 x5 x6 d13 d14 d17
local notation "𝐯333" => kernelRun0_B.sl.v333 (F := Ideal) c arg2 harg2 arg3 harg3 arg5 harg5 arg6 harg6 arg13 harg13 arg14 harg14 arg15 arg16 arg17 harg17 x2 x3 x5 x6 d13 d14 d17
local notation "𝐯351" => kernelRun0_B.sl.v351 (F := Ideal) c arg2 harg2 arg3 harg3 arg5 harg5 arg6 harg6 arg13 harg13 arg14 harg14 arg15 arg16 arg17 harg17 x2 x3 x5 x6 d13 d14 d17
local notation "𝐯356" => kernelRun0_B.sl.v356 (F := Ideal) c arg2 harg2 arg3 harg3 arg5 harg5 arg6 harg6 arg13 harg13 arg14 harg14 arg15 arg16 arg17 harg17 x2 x3 x5 x6 d13 d14 d17
local notation "𝐯361" => kernelRun0_B.sl.v361 (F := Ideal) c arg2 harg2 arg3 harg3 arg5 harg5 arg6 harg6 arg13 harg13 arg14 harg14 arg15 arg16 arg17 harg17 x2 x3 x5 x6 d13 d14 d17
local notation "𝐯379" => kernelRun0_B.sl.v379 (F := Ideal) c arg2 harg2 arg3 harg3 arg5 harg5 arg6 harg6 arg13 harg13 arg14 harg14 arg15 arg16 arg17 harg17 x2 x3 x5 x6 d13 d14 d17
local notation "𝐯384" => kernelRun0_B.sl.v384 (F := Ideal) c arg2 harg2 arg3 harg3 arg5 harg5 arg6 harg6 arg13 harg13 arg14 harg14 arg15 arg16 arg17 harg17 x2 x3 x5 x6 d13 d14 d17
local notation "𝐯389" => kernelRun0_B.sl.v389 (F := Ideal) c arg2 harg2 arg3 harg3 arg5 harg5 arg6 harg6 arg13 harg13 arg14 harg14 arg15 arg16 arg17 harg17 x2 x3 x5 x6 d13 d14 d17
local notation "𝐯407" => kernelRun0_B.sl.v407 (F := Ideal) c arg2 harg2 arg3 harg3 arg5 harg5 arg6 harg6 arg13 harg13 arg14 harg14 arg15 arg16 arg17 harg17 x2 x3 x5 x6 d13 d14 d17
local notation "𝐯412" => kernelRun0_B.sl.v412 (F := Ideal) c arg2 harg2 arg3 harg3 arg5 harg5 arg6 harg6 arg13 harg13 arg14 harg14 arg15 arg16 arg17 harg17 x2 x3 x5 x6 d13 d14 d17
local notation "𝐯417" => kernelRun0_B.sl.v417 (F := Ideal) c arg2 harg2 arg3 harg3 arg5 harg5 arg6 harg6 arg13 harg13 arg14 harg14 arg15 arg16 arg17 harg17 x2 x3 x5 x6 d13 d14 d17
local notation "𝐯435" => kernelRun0_B.sl.v435 (F := Ideal) c arg2 harg2 arg3 harg3 arg5 harg5 arg6 harg6 arg13 harg13 arg14 harg14 arg15 arg16 arg17 harg17 x2 x3 x5 x6 d13 d14 d17
local notation "𝐯440" => kernelRun0_B.sl.v440 (F := Ideal) c arg2 harg2 arg3 harg3 arg5 harg5 arg6 harg6 arg13 harg13 arg14 harg14 arg15 arg16 arg17 harg17 x2 x3 x5 x6 d13 d14 d17
local notation "𝐯445" => kernelRun0_B.sl.v445 (F := Ideal) c arg2 harg2 arg3 harg3 arg5 harg5 arg6 harg6 arg13 harg13 arg14 harg14 arg15 arg16 arg17 harg17 x2 x3 x5 x6 d13 d14 d17
local notation "𝐯463" => kernelRun0_B.sl.v463 (F := Ideal) c arg2 harg2 arg3 harg3 arg5 harg5 arg6 harg6 arg13 harg13 arg14 harg14 arg15 arg16 arg17 harg17 x2 x3 x5 x6 d13 d14 d17
local notation "𝐯468" => kernelRun0_B.sl.v468 (F := Ideal) c arg2 harg2 arg3 harg3 arg5 harg5 arg6 harg6 arg13 harg13 arg14 harg14 arg15 arg16 arg17 harg17 x2 x3 x5 x6 d13 d14 d17
local notation "𝐯473" => kernelRun0_B.sl.v473 (F := Ideal) c arg2 harg2 arg3 harg3 arg5 harg5 arg6 harg6 arg13 harg13 arg14 harg14 arg15 arg16 arg17 harg17 x2 x3 x5 x6 d13 d14 d17
local notation "𝐯491" => kernelRun0_B.sl.v491 (F := Ideal) c arg2 harg2 arg3 harg3 arg5 harg5 arg6 harg6 arg13 harg13 arg14 harg14 arg15 arg16 arg17 harg17 x2 x3 x5 x6 d13 d14 d17
local notation "𝐯496" => kernelRun0_B.sl.v496 (F := Ideal) c arg2 harg2 arg3 harg3 arg5 harg5 arg6 harg6 arg13 harg13 arg14 harg14 arg15 arg16 arg17 harg17 x2 x3 x5 x6 d13 d14 d17
local notation "𝐯501" => kernelRun0_B.sl.v501 (F := Ideal) c arg2 harg2 arg3 harg3 arg5 harg5 arg6 harg6 arg13 harg13 arg14 harg14 arg15 arg16 arg17 harg17 x2 x3 x5 x6 d13 d14 d17

structure AccB (g : Fin 128 → Fin 8192 → EReal) : Prop where
  a0 : ∀ (f : Fin 128) (l : Fin 1024), k0_pay59 (k0_pay58 𝐯295 𝐰0) 𝐯300 𝐰1 𝐯305 𝐰2 (ix2 f l) = g f (pix 0 l)
  a1 : ∀ (f : Fin 128) (l : Fin 1024), k0_pay64 (k0_pay63 𝐯323 𝐰0 𝐯328 𝐰1) 𝐯333 𝐰2 (ix2 f l) = g f (pix 1 l)
  a2 : ∀ (f : Fin 128) (l : Fin 1024), k0_pay70 (k0_pay68 𝐯351 𝐰0 𝐯356 𝐰1) 𝐯361 (k0_pay69 𝐰2) (ix2 f l) = g f (pix 2 l)
  a3 : ∀ (f : Fin 128) (l : Fin 1024), k0_pay74 𝐯379 𝐰0 𝐯384 𝐰1 𝐯389 𝐰2 (ix2 f l) = g f (pix 3 l)
  a4 : ∀ (f : Fin 128) (l : Fin 1024), k0_pay78 𝐯407 𝐰0 𝐯412 𝐰1 𝐯417 𝐰2 (ix2 f l) = g f (pix 4 l)
  a5 : ∀ (f : Fin 128) (l : Fin 1024), k0_pay82 𝐯435 𝐰0 𝐯440 𝐰1 𝐯445 𝐰2 (ix2 f l) = g f (pix 5 l)
  a6 : ∀ (f : Fin 128) (l : Fin 1024), k0_pay87 k0_pay86 𝐯463 𝐰0 𝐯468 𝐰1 𝐯473 𝐰2 (ix2 f l) = g f (pix 6 l)
  a7 : ∀ (f : Fin 128) (l : Fin 1024), k0_pay93 k0_pay91 (k0_pay92 𝐯491 𝐰0) 𝐯496 𝐰1 𝐯501 𝐰2 (ix2 f l) = g f (pix 7 l)

theorem whole_col_read (arg : Memref sig .tc .vmem S128x1 .f32) (harg : arg.IsWhole) (d : Vec Ideal S128x1 .f32) (f : Fin 128) :
    View.readAt (Elt Ideal) arg.view (Rect.unit (s := S128x1) ![0, 0] S128x1.size inb_S128x1_S128x1_0_0).toLoadRect (harg.unread d)
      (ix2 f (0 : Fin 1)) = d (ix2 f (0 : Fin 1)) := by
  refine (harg.readAt_unread d _ _).trans (congrArg d ?_)
  funext a
  refine Fin.ext ?_
  match a with
  | ⟨0, _⟩ => show 0 + 1 * f.val = f.val; omega
  | ⟨1, _⟩ => show 0 + 1 * 0 = 0; rfl

theorem read_whole_piece (arg : Memref sig .tc .vmem S128x1 .f32) (g : arg.view.ty.Contents (Elt Ideal))
    (w : (Rect.unit (s := S128x1) ![0, 0] S128x1.size inb_S128x1_S128x1_0_0).shape.Idx → Elt Ideal .f32) (f : Fin 128) :
    arg.view.read (Elt Ideal) (arg.view.writes (Elt Ideal) g
      [⟨Rect.unit (s := S128x1) ![0, 0] S128x1.size inb_S128x1_S128x1_0_0, w⟩]) (ix2 f (0 : Fin 1)) = w (ix2 f (0 : Fin 1)) := by
  refine View.read_writes_cons_unit_of_mem arg.view g inb_S128x1_S128x1_0_0 w [] (ix2 f (0 : Fin 1)) (ix2 f (0 : Fin 1)) rfl ?_
  intro a
  match a with
  | ⟨0, _⟩ => show f.val = 0 + f.val; omega
  | ⟨1, _⟩ => show (0 : ℕ) = 0 + 0; rfl

theorem psB_new (g : Fin 128 → Fin 8192 → EReal) (hacc : AccB c arg2 harg2 arg3 harg3 arg4 harg4 arg5 harg5 arg6 harg6 arg13 harg13 arg14 harg14 arg15 arg16 arg17 harg17 x2 x3 x4 x5 x6 d13 d14 d17 g) (f : Fin 128) :
    arg11.view.read (Elt Ideal) (arg11.view.writes (Elt Ideal) (harg11.unread d11) 𝐑.1.2.1) (ix2 f (0 : Fin 1))
      = (if BitVec.ofNat 32 (i 1).val = 0#32 then 0 else d11 (ix2 f (0 : Fin 1))) + ∑ p : Fin 8192, g f p := by
  unfold kernelRun0_B
  dsimp only
  refine (read_whole_piece arg11 _ _ f).trans ?_
  refine (bsum_total (h0 := hacc.a0) (h1 := hacc.a1) (h2 := hacc.a2) (h3 := hacc.a3) (h4 := hacc.a4) (h5 := hacc.a5) (h6 := hacc.a6) (h7 := hacc.a7) (f := f) (j := 0) ..).trans ?_
  rw [whole_col_read arg11 harg11 d11 f]

theorem psqB_new (g : Fin 128 → Fin 8192 → EReal) (hacc : AccB c arg2 harg2 arg3 harg3 arg4 harg4 arg5 harg5 arg6 harg6 arg13 harg13 arg14 harg14 arg15 arg16 arg17 harg17 x2 x3 x4 x5 x6 d13 d14 d17 g) (f : Fin 128) :
    arg12.view.read (Elt Ideal) (arg12.view.writes (Elt Ideal) (harg12.unread d12) 𝐑.1.2.2.1) (ix2 f (0 : Fin 1))
      = (if BitVec.ofNat 32 (i 1).val = 0#32 then 0 else d12 (ix2 f (0 : Fin 1))) + ∑ p : Fin 8192, g f p * g f p := by
  unfold kernelRun0_B
  dsimp only
  refine (read_whole_piece arg12 _ _ f).trans ?_
  refine (bsq_total (h0 := hacc.a0) (h1 := hacc.a1) (h2 := hacc.a2) (h3 := hacc.a3) (h4 := hacc.a4) (h5 := hacc.a5) (h6 := hacc.a6) (h7 := hacc.a7) (f := f) (j := 0) ..).trans ?_
  rw [show kernelRun0_B.sl.r_34 (F := Ideal) c arg12 harg12 d12 (ix2 f (0 : Fin 1)) = d12 (ix2 f (0 : Fin 1)) from
    whole_col_read arg12 harg12 d12 f]

end RunB

section StepB
variable (m : (ℓ : Loc nD τ sig) → Buf (Elt Ideal) ℓ)

theorem stepB_ps_of_acc (c : Dev nD) (t : Fin cfg0.N) (h1 : 1 ≤ t.val) (h3 : t.val ≤ 3)
    (hc1 : ¬cond0_1 (grid0.coords t)) (hc2 : cond0_2 (grid0.coords t)) (hc3 : ¬cond0_3 (grid0.coords t))
    (s10 : Vec Ideal S4x128x8192 .bf16) (s11 : Vec Ideal S128x1 .f32) (s12 : Vec Ideal S128x1 .f32) (s13 : Vec Ideal S128x8448 .f32) (s14 : Vec Ideal S128x8448 .f32) (s15 : Vec Ideal S16x8192 .f32) (s16 : Vec Ideal S16x8192 .f32) (s17 : Vec Ideal S384x8448 .bf16)
    (hI : Inv m c (t.val - 1) s10 s11 s12 s13 s14 s17)
    (hacc : AccB c (ms0_0 t) (hs0_0 t) (ms0_1 t) (hs0_1 t) (ms0_2 t) (hs0_2 t) (ms0_3 t) (hs0_3 t) (ms0_4 t) (hs0_4 t) scM0_3 (Memref.isWhole_whole _) scM0_4 (Memref.isWhole_whole _) scM0_5 scM0_6 scM0_7 (Memref.isWhole_whole _) (iblk m c 0 t) (iblk m c 1 t) (iblk m c 2 t) (iblk m c 3 t) (iblk m c 4 t) s13 s14 s17 (fun f p => sY m c ⟨t.val, by omega⟩ f p)) :
    ∀ f : Fin 128, (scM0_1.view.read (Elt Ideal) (scM0_1.view.writes (Elt Ideal) ((Memref.isWhole_whole _ : scM0_1.IsWhole).unread s11) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc1 hc2 hc3 (iblk m c 0 t) (iblk m c 1 t) (iblk m c 2 t) (iblk m c 3 t) (iblk m c 4 t) s10 s11 s12 s13 s14 s15 s16 s17).1.2.1)) (ix2 f (0 : Fin 1))
      = ∑ b : Fin 4, if b.val ≤ t.val then ∑ p : Fin 8192, sY m c b f p else 0 := by
  have ht4 : t.val < 4 := by omega
  have hi1 : ((grid0.coords t) 1).val = t.val := by rw [coords_batch1 t]; omega
  refine ps_field m c t.val ht4 (fun f p => sY m c ⟨t.val, ht4⟩ f p) (fun f p => rfl) s11 _ (fun _ f => hI.ps f) (fun f => ?_)
  refine (psB_new (hacc := hacc) (f := f) ..).trans ?_
  rw [hi1]

theorem stepB_psq_of_acc (c : Dev nD) (t : Fin cfg0.N) (h1 : 1 ≤ t.val) (h3 : t.val ≤ 3)
    (hc1 : ¬cond0_1 (grid0.coords t)) (hc2 : cond0_2 (grid0.coords t)) (hc3 : ¬cond0_3 (grid0.coords t))
    (s10 : Vec Ideal S4x128x8192 .bf16) (s11 : Vec Ideal S128x1 .f32) (s12 : Vec Ideal S128x1 .f32) (s13 : Vec Ideal S128x8448 .f32) (s14 : Vec Ideal S128x8448 .f32) (s15 : Vec Ideal S16x8192 .f32) (s16 : Vec Ideal S16x8192 .f32) (s17 : Vec Ideal S384x8448 .bf16)
    (hI : Inv m c (t.val - 1) s10 s11 s12 s13 s14 s17)
    (hacc : AccB c (ms0_0 t) (hs0_0 t) (ms0_1 t) (hs0_1 t) (ms0_2 t) (hs0_2 t) (ms0_3 t) (hs0_3 t) (ms0_4 t) (hs0_4 t) scM0_3 (Memref.isWhole_whole _) scM0_4 (Memref.isWhole_whole _) scM0_5 scM0_6 scM0_7 (Memref.isWhole_whole _) (iblk m c 0 t) (iblk m c 1 t) (iblk m c 2 t) (iblk m c 3 t) (iblk m c 4 t) s13 s14 s17 (fun f p => sY m c ⟨t.val, by omega⟩ f p)) :
    ∀ f : Fin 128, (scM0_2.view.read (Elt Ideal) (scM0_2.view.writes (Elt Ideal) ((Memref.isWhole_whole _ : scM0_2.IsWhole).unread s12) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc1 hc2 hc3 (iblk m c 0 t) (iblk m c 1 t) (iblk m c 2 t) (iblk m c 3 t) (iblk m c 4 t) s10 s11 s12 s13 s14 s15 s16 s17).1.2.2.1)) (ix2 f (0 : Fin 1))
      = ∑ b : Fin 4, if b.val ≤ t.val then ∑ p : Fin 8192, sY m c b f p * sY m c b f p else 0 := by
  have ht4 : t.val < 4 := by omega
  have hi1 : ((grid0.coords t) 1).val = t.val := by rw [coords_batch1 t]; omega
  refine psq_field m c t.val ht4 (fun f p => sY m c ⟨t.val, ht4⟩ f p) (fun f p => rfl) s12 _ (fun _ f => hI.psq f) (fun f => ?_)
  refine (psqB_new (hacc := hacc) (f := f) ..).trans ?_
  rw [hi1]

end StepB

end Cert.KernelIdeal.Gen

end
-- ==== Proof.KStepB.lean ====
import proofs.«135277_g2000205747536381_pallasbulk_86_37_alg».proof.Proof.KInv
import proofs.«135277_g2000205747536381_pallasbulk_86_37_alg».proof.Proof.KRunB
import proofs.«135277_g2000205747536381_pallasbulk_86_37_alg».proof.Proof.KStepBPads
import proofs.«135277_g2000205747536381_pallasbulk_86_37_alg».proof.Proof.KStepB_feat
import proofs.«135277_g2000205747536381_pallasbulk_86_37_alg».proof.Proof.KB2y
import proofs.«135277_g2000205747536381_pallasbulk_86_37_alg».proof.Proof.KB2

set_option maxRecDepth 16384

noncomputable section

namespace Cert.KernelIdeal.Gen

open Idealize.ShloMosaic Idealize.ShloMosaic.TcCoe Idealize.ShloMosaic.Tactic Idealize.ShloMosaic.ValueIdx
open Cert.KernelIdeal.KPconv (row3)

variable (m : (ℓ : Loc nD τ sig) → Buf (Elt Ideal) ℓ)

theorem stepB (c : Dev nD) (hfin : FinArgs m c) (t : Fin cfg0.N) (h1 : 1 ≤ t.val) (h3 : t.val ≤ 3) (s10 : Vec Ideal S4x128x8192 .bf16) (s11 s12 : Vec Ideal S128x1 .f32) (s13 s14 : Vec Ideal S128x8448 .f32) (s15 s16 : Vec Ideal S16x8192 .f32) (s17 : Vec Ideal S384x8448 .bf16)
    (hI : Inv m c (t.val - 1) s10 s11 s12 s13 s14 s17) :
    Inv m c t.val (scM0_0.view.read (Elt Ideal) (scM0_0.view.writes (Elt Ideal) ((Memref.isWhole_whole _ : scM0_0.IsWhole).unread s10) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => absurd ((hcond0_1 t).mp h) (by omega)) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.1))
      (scM0_1.view.read (Elt Ideal) (scM0_1.view.writes (Elt Ideal) ((Memref.isWhole_whole _ : scM0_1.IsWhole).unread s11) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => absurd ((hcond0_1 t).mp h) (by omega)) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.2.1))
      (scM0_2.view.read (Elt Ideal) (scM0_2.view.writes (Elt Ideal) ((Memref.isWhole_whole _ : scM0_2.IsWhole).unread s12) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => absurd ((hcond0_1 t).mp h) (by omega)) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.2.2.1))
      (scM0_3.view.read (Elt Ideal) (scM0_3.view.writes (Elt Ideal) ((Memref.isWhole_whole _ : scM0_3.IsWhole).unread s13) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => absurd ((hcond0_1 t).mp h) (by omega)) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.2.2.2.1))
      (scM0_4.view.read (Elt Ideal) (scM0_4.view.writes (Elt Ideal) ((Memref.isWhole_whole _ : scM0_4.IsWhole).unread s14) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => absurd ((hcond0_1 t).mp h) (by omega)) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.2.2.2.2.1))
      (scM0_7.view.read (Elt Ideal) (scM0_7.view.writes (Elt Ideal) ((Memref.isWhole_whole _ : scM0_7.IsWhole).unread s17) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => absurd ((hcond0_1 t).mp h) (by omega)) ((hcond0_2 t).mpr (by omega)) (fun h => absurd ((hcond0_3 t).mp h) (by omega)) (iblk m c 0 t) (iblk m c 1 t) (iblk m c 2 t) (iblk m c 3 t) (iblk m c 4 t) s10 s11 s12 s13 s14 s15 s16 s17).1.2.2.2.2.2.2.2)) := by
  have hfeat := stepB_feat m c hfin t h3 s13 s14 hI.xpad hI.hpad
  have hm0 : ∀ p : Fin 8192, m0B (ms0_4 t) (hs0_4 t) (iblk m c 4 t) (ix2 (0 : Fin 1) p) = if p.val % 128 = 0 then 0 else 1 :=
    fun p => (maskrow_load _ _ _ 0 _ rfl _ p).trans (KBlk.iblk4_of m c t 0 _ (KHost.V_bmask0 m c) p)
  have hm1 : ∀ p : Fin 8192, m1B (ms0_4 t) (hs0_4 t) (iblk m c 4 t) (ix2 (0 : Fin 1) p) = if p.val % 128 = 127 then 0 else 1 :=
    fun p => (maskrow_load _ _ _ 1 _ rfl _ p).trans (KBlk.iblk4_of m c t 1 _ (KHost.V_bmask1 m c) p)
  have hpad := fun r col h => (congrFun ((Memref.isWhole_whole _ : scM0_7.IsWhole).read_unread s17) (ix2 r col)).trans (hI.fb r col h)
  have hx4 := KBlk.iblk2_w m c t
  refine ⟨stepB_y m c hfin t h1 h3 s10 s11 s12 s13 s14 s15 s16 s17 hI hfeat,
    stepB_ps_of_acc m c t h1 h3 _ _ _ s10 s11 s12 s13 s14 s15 s16 s17 hI ?a,
    stepB_psq_of_acc m c t h1 h3 _ _ _ s10 s11 s12 s13 s14 s15 s16 s17 hI ?a,
    fun r col h => (stepB_xpad m c t _ _ _ s10 s11 s12 s13 s14 s15 s16 s17 r col h).trans (hI.xpad r col h),
    fun r col h => (stepB_hpad m c t _ _ _ s10 s11 s12 s13 s14 s15 s16 s17 r col h).trans (hI.hpad r col h),
    fun r col h => (stepB_fb m c t _ _ _ s10 s11 s12 s13 s14 s15 s16 s17 r col h).trans (hI.fb r col h)⟩
  exact ⟨fun f l => accB_0 (hP53 := hfeat) (hm0 := hm0) (hm1 := hm1) (hpad := hpad) (hx4 := hx4) ..,
    fun f l => accB_1 (hP53 := hfeat) (hm0 := hm0) (hm1 := hm1) (hpad := hpad) (hx4 := hx4) ..,
    fun f l => accB_2 (hP53 := hfeat) (hm0 := hm0) (hm1 := hm1) (hpad := hpad) (hx4 := hx4) ..,
    fun f l => accB_3 (hP53 := hfeat) (hm0 := hm0) (hm1 := hm1) (hpad := hpad) (hx4 := hx4) ..,
    fun f l => accB_4 (hP53 := hfeat) (hm0 := hm0) (hm1 := hm1) (hpad := hpad) (hx4 := hx4) ..,
    fun f l => accB_5 (hP53 := hfeat) (hm0 := hm0) (hm1 := hm1) (hpad := hpad) (hx4 := hx4) ..,
    fun f l => accB_6 (hP53 := hfeat) (hm0 := hm0) (hm1 := hm1) (hpad := hpad) (hx4 := hx4) ..,
    fun f l => accB_7 (hP53 := hfeat) (hm0 := hm0) (hm1 := hm1) (hpad := hpad) (hx4 := hx4) ..⟩

end Cert.KernelIdeal.Gen

end
-- ==== Proof.KRunC.lean ====
import proofs.«135277_g2000205747536381_pallasbulk_86_37_alg».proof.Proof.KDefs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1x128x64x128 .f32) (harg2 : arg2.IsWhole) (arg3 : Memref sig .tc .vmem S128x128 .f32) (harg3 : arg3.IsWhole) (arg4 : Memref sig .tc .vmem S3x128x384 .bf16) (harg4 : arg4.IsWhole) (arg5 : Memref sig .tc .vmem S2x8192 .f32) (harg5 : arg5.IsWhole) (arg6 : Memref sig .tc .vmem S2x8192 .bf16) (harg6 : arg6.IsWhole) (arg7 : Memref sig .tc .vmem S128x1 .f32) (harg7 : arg7.IsWhole) (arg8 : Memref sig .tc .vmem S128x1 .f32) (harg8 : arg8.IsWhole) (arg9 : Memref sig .tc .vmem S1x128x64x128 .f32) (harg9 : arg9.IsWhole) (arg10 : Memref sig .tc .vmem S4x128x8192 .bf16) (harg10 : arg10.IsWhole) (arg11 : Memref sig .tc .vmem S128x1 .f32) (harg11 : arg11.IsWhole) (arg12 : Memref sig .tc .vmem S128x1 .f32) (harg12 : arg12.IsWhole) (arg13 : Memref sig .tc .vmem S128x8448 .f32) (harg13 : arg13.IsWhole) (arg14 : Memref sig .tc .vmem S128x8448 .f32) (harg14 : arg14.IsWhole) (arg15 : Memref sig .tc .vmem S16x8192 .f32) (harg15 : arg15.IsWhole) (arg16 : Memref sig .tc .vmem S16x8192 .f32) (harg16 : arg16.IsWhole) (arg17 : Memref sig .tc .vmem S384x8448 .bf16) (harg17 : arg17.IsWhole)
    (hc1 : ¬cond0_1 i) (hc2 : ¬cond0_2 i) (hc3 : cond0_3 i)
    (x7 : Vec F S128x1 .f32) (x8 : Vec F S128x1 .f32) (s10 : Vec F S4x128x8192 .bf16) (s11 : Vec F S128x1 .f32) (s12 : Vec F S128x1 .f32)

set_option maxHeartbeats 1000000 in

include hc1 hc2 hc3 in
noncomputable def kernelRun0_C :
    { L9 : List (View.Piece (Elt F) S1x128x64x128 .f32) //
      ∀ (E : Set ℕ) (K : PUnit → sProp 𝕄),
        iprop(owns (c : Thread nD τ) arg7 fullShare x7 ∗ owns (c : Thread nD τ) arg8 fullShare x8 ∗ (∃ d, owns (c : Thread nD τ) arg9 fullShare d) ∗ owns (c : Thread nD τ) arg10 fullShare s10 ∗ owns (c : Thread nD τ) arg11 fullShare s11 ∗ owns (c : Thread nD τ) arg12 fullShare s12
            ∗ (iprop(owns (c : Thread nD τ) arg7 fullShare x7 ∗ owns (c : Thread nD τ) arg8 fullShare x8 ∗ (∃ f, arg9.view.loc (c : Thread nD τ) ↦[arg9.view.set]{fullShare} arg9.view.writes (Elt F) f L9) ∗ owns (c : Thread nD τ) arg10 fullShare s10 ∗ owns (c : Thread nD τ) arg11 fullShare s11 ∗ owns (c : Thread nD τ) arg12 fullShare s12) -∗ K ⟨⟩))
          ⊢ wp frame (wpE (defs₀ (F := F)) Variants.none c none) E (cc0__mega_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0__mega_kernel_eq_skeleton]; unfold cc0__mega_kernel_skel
    simp only [k0_part16_eq_skeleton, k0_part17_eq_skeleton, k0_part18_eq_skeleton]
    unfold owns
    iintro ⟨⟨%f7, %hf7, H7⟩, ⟨%f8, %hf8, H8⟩, ⟨%d9, %f9, -, H9⟩, ⟨%f10, %hf10, H10⟩, ⟨%f11, %hf11, H11⟩, ⟨%f12, %hf12, H12⟩, Hk⟩
    obtain rfl := harg7.eq_unread hf7; obtain rfl := harg8.eq_unread hf8; obtain rfl := harg10.eq_unread hf10; obtain rfl := harg11.eq_unread hf11; obtain rfl := harg12.eq_unread hf12
    sl_exec (disch := first | exact hc1 | exact hc2 | exact hc3)
    sl_step
    iapply Hk
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12

theorem cover0_C_9 (y : S1x128x64x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x7 x8 s10 s11 s12).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x7 x8 s10 s11 s12).1 S1x128x8x128.size (by sl_kernel_rfl) y

def out0_C_9 : Vec F S1x128x64x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 x7 x8 s10 s11 s12).1)

end Cert.KernelIdeal.Gen

end
-- ==== Proof.KPbn.lean ====
import Mathlib.Data.EReal.Basic
import Mathlib.Data.EReal.Operations
import Mathlib.Tactic.NormNum
import Idealize.ShloMosaic.PureOps.Ideal
import Idealize.ShloMosaic.Lib.ValueIdx
import Idealize.ShloMosaic.Lib.Pipeline.Value
import Idealize.ShloMosaic.Lib.ValueLayout
import proofs.«135277_g2000205747536381_pallasbulk_86_37_alg».proof.Proof.Gen.KernelIdeal.Skeleton
import proofs.«135277_g2000205747536381_pallasbulk_86_37_alg».proof.Proof.Spec
import proofs.«135277_g2000205747536381_pallasbulk_86_37_alg».proof.Proof.SpecLemmas
import proofs.«135277_g2000205747536381_pallasbulk_86_37_alg».proof.Proof.LibShared

noncomputable section

namespace Cert.KernelIdeal.KPbn

open Idealize.ShloMosaic Idealize.ShloMosaic.ValueIdx Finset
open Cert.Spec (IsReal)

export Cert.LibShared (rsqrt_apply)

theorem lit_cN : Ideal.ofBits .f32 0x38000000#32 = Cert.Spec.cN := Cert.LibShared.lit_c

theorem pay98_apply (v11 : Vec Ideal S128x1 .f32) (j : S128x1.Idx) :
    Gen.k0_pay98 v11 j = v11 j * Cert.Spec.cN := by
  rw [← lit_cN]
  rfl

theorem pay99_apply (v11 v14 v22 : Vec Ideal S128x1 .f32) (j : S128x1.Idx) :
    Gen.k0_pay99 v11 v14 v22 j
      = Ideal.rsqrt ((v14 j * Cert.Spec.cN - (v11 j * Cert.Spec.cN) * (v11 j * Cert.Spec.cN)) + Cert.Spec.eps) * v22 j := by
  unfold Gen.k0_pay99
  show Ideal.rsqrt ((v14 j * Ideal.ofBits .f32 0x38000000#32 - Gen.k0_pay98 v11 j * Gen.k0_pay98 v11 j)
      + Ideal.ofBits .f32 0x3727C5AC#32) * shapeCast S128x1 v22 _ j = _
  rw [shapeCast_self, pay98_apply, lit_cN]
  rfl

theorem pay100_apply (v11 v14 v22 v25 : Vec Ideal S128x1 .f32) (j : S128x1.Idx) :
    Gen.k0_pay100 v11 v14 v22 v25 j = v25 j - (v11 j * Cert.Spec.cN) * Gen.k0_pay99 v11 v14 v22 j := by
  unfold Gen.k0_pay100
  show shapeCast S128x1 v25 _ j - Gen.k0_pay98 v11 j * Gen.k0_pay99 v11 v14 v22 j = _
  rw [shapeCast_self, pay98_apply]

section Sums
variable (y : Fin 4 → Fin 128 → Fin 8192 → EReal) (γ β : Fin 128 → EReal)

theorem scale_of_sums (hy : ∀ b f p, IsReal (y b f p)) (v11 v14 v22 : Vec Ideal S128x1 .f32) (f : Fin 128)
    (h11 : v11 (ix2 f (0 : Fin 1)) = ∑ b, ∑ p, y b f p)
    (h14 : v14 (ix2 f (0 : Fin 1)) = ∑ b, ∑ p, y b f p * y b f p)
    (h22 : v22 (ix2 f (0 : Fin 1)) = γ f) :
    Gen.k0_pay99 v11 v14 v22 (ix2 f (0 : Fin 1)) = Cert.Spec.scale y γ f := by
  rw [pay99_apply, h11, h14, h22]
  show Ideal.rsqrt (((∑ b, ∑ p, y b f p * y b f p) * Cert.Spec.cN - Cert.Spec.mean y f * Cert.Spec.mean y f)
      + Cert.Spec.eps) * γ f = _
  rw [Cert.Spec.var_alt y hy f]
  rfl

theorem shift_of_sums (hy : ∀ b f p, IsReal (y b f p)) (v11 v14 v22 v25 : Vec Ideal S128x1 .f32) (f : Fin 128)
    (h11 : v11 (ix2 f (0 : Fin 1)) = ∑ b, ∑ p, y b f p)
    (h14 : v14 (ix2 f (0 : Fin 1)) = ∑ b, ∑ p, y b f p * y b f p)
    (h22 : v22 (ix2 f (0 : Fin 1)) = γ f) (h25 : v25 (ix2 f (0 : Fin 1)) = β f) :
    Gen.k0_pay100 v11 v14 v22 v25 (ix2 f (0 : Fin 1)) = Cert.Spec.shift y γ β f := by
  rw [pay100_apply, scale_of_sums y γ hy v11 v14 v22 f h11 h14 h22, h11, h25]
  rfl

end Sums

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) :=
  Cert.LibShared.broadcastTo_a1_ab_apply v h p c

theorem chunk_apply (sc sh : FVec Ideal S128x1 .f32) (v : Vec Ideal S1x128x1024 .bf16)
    (h1 : S1x128x1024.ShapeCasts S128x1024) (hb : FTy.bits .bf16 < FTy.bits .f32)
    (hbc : S128x1.Broadcasts S128x1024) (h2 : S128x1024.ShapeCasts S128x8x128)
    (f : Fin 128) (r : Fin 8) (w : Fin 128) :
    shapeCast S128x8x128 (addf (mulf (extf .f32 (shapeCast S128x1024 v h1 : FVec Ideal S128x1024 .bf16) hb)
        (broadcastTo S128x1024 sc hbc)) (broadcastTo S128x1024 sh hbc)) h2 (ix3 f r w)
      = v (ix3 (0 : Fin 1) f (⟨128 * r.val + w.val, by omega⟩ : Fin 1024)) * sc (ix2 f (0 : Fin 1))
        + sh (ix2 f (0 : Fin 1)) := by
  refine (shapeCast_apply _ h2 (ix3 f r w) (ix2 f (⟨128 * r.val + w.val, by omega⟩ : Fin 1024)) ?_).trans ?_
  · rw [Shape.rowMajor_val_two, Shape.rowMajor_val_three]
    show f.val * 1024 + (128 * r.val + w.val) = (f.val * 8 + r.val) * 128 + w.val
    omega
  · show shapeCast S128x1024 v h1 (ix2 f _) * broadcastTo S128x1024 sc hbc (ix2 f _)
        + broadcastTo S128x1024 sh hbc (ix2 f _) = _
    rw [shapeCast_1ab_ab_apply, broadcastTo_a1_ab_apply, broadcastTo_a1_ab_apply]

section Final
variable (y : Fin 4 → Fin 128 → Fin 8192 → EReal) (γ β : Fin 128 → EReal)

theorem affine_bn (b : Fin 4) (q : ℕ) (hq : q < 8) (v : Vec Ideal S1x128x1024 .bf16) (sc sh : FVec Ideal S128x1 .f32)
    (f : Fin 128) (hsc : sc (ix2 f (0 : Fin 1)) = Cert.Spec.scale y γ f)
    (hsh : sh (ix2 f (0 : Fin 1)) = Cert.Spec.shift y γ β f)
    (hv : ∀ l : Fin 1024, v (ix3 (0 : Fin 1) f l) = y b f ⟨1024 * q + l.val, by omega⟩)
    (r : Fin 8) (w : Fin 128) :
    v (ix3 (0 : Fin 1) f (⟨128 * r.val + w.val, by omega⟩ : Fin 1024)) * sc (ix2 f (0 : Fin 1)) + sh (ix2 f (0 : Fin 1))
      = Cert.Spec.bn y γ β b f ⟨128 * (8 * q + r.val) + w.val, by omega⟩ := by
  rw [hv, hsc, hsh]
  unfold Cert.Spec.bn
  refine congrArg (fun p => y b f p * Cert.Spec.scale y γ f + Cert.Spec.shift y γ β f) (Fin.ext ?_)
  show 1024 * q + (128 * r.val + w.val) = 128 * (8 * q + r.val) + w.val
  omega

section FromSums
variable (hy : ∀ b f p, IsReal (y b f p)) (b : Fin 4) (v11 v14 v22 v25 : Vec Ideal S128x1 .f32) (v30 v42 : Vec Ideal S1x128x1024 .bf16) (f : Fin 128)
  (h11 : v11 (ix2 f (0 : Fin 1)) = ∑ b, ∑ p, y b f p) (h14 : v14 (ix2 f (0 : Fin 1)) = ∑ b, ∑ p, y b f p * y b f p)
  (h22 : v22 (ix2 f (0 : Fin 1)) = γ f) (h25 : v25 (ix2 f (0 : Fin 1)) = β f)
include hy h11 h14 h22 h25

theorem pay101_bn (hv : ∀ l : Fin 1024, v30 (ix3 (0 : Fin 1) f l) = y b f ⟨1024 * 0 + l.val, by omega⟩)
    (u : Fin 1) (r : Fin 8) (w : Fin 128) :
    Gen.k0_pay101 v11 v14 v22 v25 v30 (ix4 u f r w)
      = Cert.Spec.bn y γ β b f ⟨128 * (8 * 0 + r.val) + w.val, by omega⟩ := by
  unfold Gen.k0_pay101
  exact ((shapeCast_abc_1abc_apply _ _ u f r w).trans (chunk_apply _ _ _ _ _ _ _ f r w)).trans (affine_bn y γ β b 0 (by omega) v30 _ _ f (scale_of_sums y γ hy v11 v14 v22 f h11 h14 h22)
    (shift_of_sums y γ β hy v11 v14 v22 v25 f h11 h14 h22 h25) hv r w)

theorem pay102_bn (hv : ∀ l : Fin 1024, v42 (ix3 (0 : Fin 1) f l) = y b f ⟨1024 * 1 + l.val, by omega⟩)
    (r : Fin 8) (w : Fin 128) :
    Gen.k0_pay102 v11 v14 v22 v25 v42 (ix3 f r w)
      = Cert.Spec.bn y γ β b f ⟨128 * (8 * 1 + r.val) + w.val, by omega⟩ := by
  unfold Gen.k0_pay102
  exact ((chunk_apply _ _ _ _ _ _ _ f r w)).trans (affine_bn y γ β b 1 (by omega) v42 _ _ f (scale_of_sums y γ hy v11 v14 v22 f h11 h14 h22)
    (shift_of_sums y γ β hy v11 v14 v22 v25 f h11 h14 h22 h25) hv r w)

end FromSums

section FromScale
variable (b : Fin 4) (v24 v28 : FVec Ideal S128x1 .f32) (v54 v66 v78 v90 v102 v114 : Vec Ideal S1x128x1024 .bf16) (f : Fin 128)
  (h24 : v24 (ix2 f (0 : Fin 1)) = Cert.Spec.scale y γ f) (h28 : v28 (ix2 f (0 : Fin 1)) = Cert.Spec.shift y γ β f)
include h24 h28

theorem pay104_bn (hv : ∀ l : Fin 1024, v54 (ix3 (0 : Fin 1) f l) = y b f ⟨1024 * 2 + l.val, by omega⟩)
    (u : Fin 1) (r : Fin 8) (w : Fin 128) :
    Gen.k0_pay104 v24 v28 v54 (ix4 u f r w)
      = Cert.Spec.bn y γ β b f ⟨128 * (8 * 2 + r.val) + w.val, by omega⟩ := by
  unfold Gen.k0_pay104
  exact ((shapeCast_abc_1abc_apply _ _ u f r w).trans (chunk_apply _ _ _ _ _ _ _ f r w)).trans (affine_bn y γ β b 2 (by omega) v54 v24 v28 f h24 h28 hv r w)

theorem pay105_bn (hv : ∀ l : Fin 1024, v66 (ix3 (0 : Fin 1) f l) = y b f ⟨1024 * 3 + l.val, by omega⟩)
    (u : Fin 1) (r : Fin 8) (w : Fin 128) :
    Gen.k0_pay105 v24 v28 v66 (ix4 u f r w)
      = Cert.Spec.bn y γ β b f ⟨128 * (8 * 3 + r.val) + w.val, by omega⟩ := by
  unfold Gen.k0_pay105
  exact ((shapeCast_abc_1abc_apply _ _ u f r w).trans (chunk_apply _ _ _ _ _ _ _ f r w)).trans (affine_bn y γ β b 3 (by omega) v66 v24 v28 f h24 h28 hv r w)

theorem pay106_bn (hv : ∀ l : Fin 1024, v78 (ix3 (0 : Fin 1) f l) = y b f ⟨1024 * 4 + l.val, by omega⟩)
    (r : Fin 8) (w : Fin 128) :
    Gen.k0_pay106 v24 v28 v78 (ix3 f r w)
      = Cert.Spec.bn y γ β b f ⟨128 * (8 * 4 + r.val) + w.val, by omega⟩ := by
  unfold Gen.k0_pay106
  exact ((chunk_apply _ _ _ _ _ _ _ f r w)).trans (affine_bn y γ β b 4 (by omega) v78 v24 v28 f h24 h28 hv r w)

theorem pay108_bn (hv : ∀ l : Fin 1024, v90 (ix3 (0 : Fin 1) f l) = y b f ⟨1024 * 5 + l.val, by omega⟩)
    (u : Fin 1) (r : Fin 8) (w : Fin 128) :
    Gen.k0_pay108 v24 v28 v90 (ix4 u f r w)
      = Cert.Spec.bn y γ β b f ⟨128 * (8 * 5 + r.val) + w.val, by omega⟩ := by
  unfold Gen.k0_pay108
  exact ((shapeCast_abc_1abc_apply _ _ u f r w).trans (chunk_apply _ _ _ _ _ _ _ f r w)).trans (affine_bn y γ β b 5 (by omega) v90 v24 v28 f h24 h28 hv r w)

theorem pay109_bn (hv : ∀ l : Fin 1024, v102 (ix3 (0 : Fin 1) f l) = y b f ⟨1024 * 6 + l.val, by omega⟩)
    (u : Fin 1) (r : Fin 8) (w : Fin 128) :
    Gen.k0_pay109 v24 v28 v102 (ix4 u f r w)
      = Cert.Spec.bn y γ β b f ⟨128 * (8 * 6 + r.val) + w.val, by omega⟩ := by
  unfold Gen.k0_pay109
  exact ((shapeCast_abc_1abc_apply _ _ u f r w).trans (chunk_apply _ _ _ _ _ _ _ f r w)).trans (affine_bn y γ β b 6 (by omega) v102 v24 v28 f h24 h28 hv r w)

theorem pay110_bn (hv : ∀ l : Fin 1024, v114 (ix3 (0 : Fin 1) f l) = y b f ⟨1024 * 7 + l.val, by omega⟩)
    (u : Fin 1) (r : Fin 8) (w : Fin 128) :
    Gen.k0_pay110 v24 v28 v114 (ix4 u f r w)
      = Cert.Spec.bn y γ β b f ⟨128 * (8 * 7 + r.val) + w.val, by omega⟩ := by
  unfold Gen.k0_pay110
  exact ((shapeCast_abc_1abc_apply _ _ u f r w).trans (chunk_apply _ _ _ _ _ _ _ f r w)).trans (affine_bn y γ β b 7 (by omega) v114 v24 v28 f h24 h28 hv r w)

end FromScale

theorem pay103_bn (b : Fin 4) (v49 : FVec Ideal S128x8x128 .f32) (f : Fin 128)
    (h49 : ∀ (r : Fin 8) (w : Fin 128), v49 (ix3 f r w) = Cert.Spec.bn y γ β b f ⟨128 * (8 * 1 + r.val) + w.val, by omega⟩)
    (u : Fin 1) (r : Fin 8) (w : Fin 128) :
    Gen.k0_pay103 v49 (ix4 u f r w) = Cert.Spec.bn y γ β b f ⟨128 * (8 * 1 + r.val) + w.val, by omega⟩ := by
  unfold Gen.k0_pay103
  exact (shapeCast_abc_1abc_apply _ _ u f r w).trans (h49 r w)

theorem pay107_bn (b : Fin 4) (v85 : FVec Ideal S128x8x128 .f32) (f : Fin 128)
    (h85 : ∀ (r : Fin 8) (w : Fin 128), v85 (ix3 f r w) = Cert.Spec.bn y γ β b f ⟨128 * (8 * 4 + r.val) + w.val, by omega⟩)
    (u : Fin 1) (r : Fin 8) (w : Fin 128) :
    Gen.k0_pay107 v85 (ix4 u f r w) = Cert.Spec.bn y γ β b f ⟨128 * (8 * 4 + r.val) + w.val, by omega⟩ := by
  unfold Gen.k0_pay107
  exact (shapeCast_abc_1abc_apply _ _ u f r w).trans (h85 r w)

end Final

end Cert.KernelIdeal.KPbn

end
-- ==== Proof.KStepC.lean ====
import proofs.«135277_g2000205747536381_pallasbulk_86_37_alg».proof.Proof.KInv
import proofs.«135277_g2000205747536381_pallasbulk_86_37_alg».proof.Proof.KRunC
import proofs.«135277_g2000205747536381_pallasbulk_86_37_alg».proof.Proof.KHost
import proofs.«135277_g2000205747536381_pallasbulk_86_37_alg».proof.Proof.KPbn

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

namespace StepC

theorem batch_word : ∀ t : Fin cfg0.N, (Scalar.indexCast (BitVec.ofNat 32 ((grid0.coords t) 1).val)).toNat = t.val % 4 :=
  (by decide +kernel : ∀ t : Fin grid0.N, (Scalar.indexCast (BitVec.ofNat 32 ((grid0.coords t) 1).val)).toNat = t.val % 4)

theorem col_index : ∀ t : Fin cfg0.N, win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem gammaBlk (c : Dev nD) (t : Fin cfg0.N) (f : Fin 128) :
    (iblk m c 5 t : Vec Ideal S128x1 .f32) (ix2 f (0 : Fin 1)) = Cert.Spec.argV (sA3 m c) f := by
  obtain ⟨e0, e1, -, -⟩ := col_index t
  refine Eq.trans ?_ (KHost.V_gamma m c f)
  show V m c main_v28 (((cfg0.win 5).blk t).view.emb (ix2 f (0 : Fin 1))) = V m c main_v28 (ix2 f (0 : Fin 1))
  refine congrArg (V m c main_v28) ?_
  funext a; apply Fin.ext
  match a with
  | ⟨0, _⟩ => show win0_5.index t (0 : Fin 2) * 128 + 1 * f.val = f.val; omega
  | ⟨1, _⟩ => show win0_5.index t (1 : Fin 2) * 1 + 1 * 0 = 0; omega

theorem betaBlk (c : Dev nD) (t : Fin cfg0.N) (f : Fin 128) :
    (iblk m c 6 t : Vec Ideal S128x1 .f32) (ix2 f (0 : Fin 1)) = Cert.Spec.argV (sA4 m c) f := by
  obtain ⟨-, -, e0, e1⟩ := col_index t
  refine Eq.trans ?_ (KHost.V_beta m c f)
  show V m c main_v29 (((cfg0.win 6).blk t).view.emb (ix2 f (0 : Fin 1))) = V m c main_v29 (ix2 f (0 : Fin 1))
  refine congrArg (V m c main_v29) ?_
  funext a; apply Fin.ext
  match a with
  | ⟨0, _⟩ => show win0_6.index t (0 : Fin 2) * 128 + 1 * f.val = f.val; omega
  | ⟨1, _⟩ => show win0_6.index t (1 : Fin 2) * 1 + 1 * 0 = 0; omega

section Bands
variable (y : Fin 4 → Fin 128 → Fin 8192 → EReal) (γ β : Fin 128 → EReal)

def bnBlk (b : Fin 4) : Vec Ideal S1x128x64x128 .f32 :=
  fun j => Cert.Spec.bn y γ β b
    (⟨(j 1).val, by have := (j 1).isLt; simp only [Matrix.cons_val] at this; omega⟩ : Fin 128)
    (⟨128 * (j 2).val + (j 3).val, by have h2 := (j 2).isLt; have h3 := (j 3).isLt; simp only [Matrix.cons_val] at h2 h3; omega⟩ : Fin 8192)

theorem band_at (b : Fin 4) (q : ℕ) (hq : q < 8)
    (inb : ∀ a, (![0, 0, 8 * q, 0] : Fin 4 → ℕ) a + (![1, 128, 8, 128] : Fin 4 → ℕ) a ≤ S1x128x64x128.size a)
    (u : Fin 1) (f : Fin 128) (r : Fin 8) (w : Fin 128) :
    Cert.Spec.bn y γ β b f ⟨128 * (8 * q + r.val) + w.val, by omega⟩
      = bnBlk y γ β b ((Rect.unit (s := S1x128x64x128) ![0, 0, 8 * q, 0] ![1, 128, 8, 128] inb).emb (ix4 u f r w)) := by
  unfold bnBlk
  refine congrArg₂ (Cert.Spec.bn y γ β b) (Fin.ext ?_) (Fin.ext ?_)
  · show f.val = 0 + 1 * f.val; omega
  · show 128 * (8 * q + r.val) + w.val = 128 * (8 * q + 1 * r.val) + (0 + 1 * w.val); omega

-- A payload that is the normalised band q at every position agrees with the block on the band's rectangle.
theorem band_piece (b : Fin 4) (q : ℕ) (hq : q < 8)
    (inb : ∀ a, (![0, 0, 8 * q, 0] : Fin 4 → ℕ) a + (![1, 128, 8, 128] : Fin 4 → ℕ) a ≤ S1x128x64x128.size a)
    (P : (Rect.unit (s := S1x128x64x128) ![0, 0, 8 * q, 0] ![1, 128, 8, 128] inb).shape.Idx → Elt Ideal .f32)
    (hP : ∀ (u : Fin 1) (f : Fin 128) (r : Fin 8) (w : Fin 128), P (ix4 u f r w) = Cert.Spec.bn y γ β b f ⟨128 * (8 * q + r.val) + w.val, by omega⟩) (x) :
    P x = bnBlk y γ β b ((Rect.unit (s := S1x128x64x128) ![0, 0, 8 * q, 0] ![1, 128, 8, 128] inb).emb x) := by
  obtain ⟨u, f, r, w, rfl⟩ : ∃ (u : Fin 1) (f : Fin 128) (r : Fin 8) (w : Fin 128), x = ix4 u f r w := ⟨x 0, x 1, x 2, x 3, eq_ix4 x⟩
  exact (hP u f r w).trans (band_at y γ β b q hq inb u f r w)

end Bands

theorem chunk_read (t : Fin cfg0.N) (s10 : Vec Ideal S4x128x8192 .bf16) (Y : Fin 4 → Fin 128 → Fin 8192 → EReal)
    (hy10 : ∀ (b : Fin 4) (f : Fin 128) (p : Fin 8192), s10 (ix3 b f p) = Y b f p) (q : ℕ) (hq : q < 8)
    (off : Fin 3 → ℕ) (hoff : off = ![t.val % 4, 0, 1024 * q])
    (inb : ∀ a, off a + S1x128x1024.size a ≤ S4x128x8192.size a) (f : Fin 128) (l : Fin 1024) :
    View.ld s10 (Rect.unit (s := S4x128x8192) off S1x128x1024.size inb) (ix3 (0 : Fin 1) f l)
      = Y ⟨t.val % 4, Nat.mod_lt _ (by decide)⟩ f ⟨1024 * q + l.val, by omega⟩ := by
  subst hoff
  refine Eq.trans ?_ (hy10 _ _ _)
  show s10 _ = s10 _
  refine congrArg s10 ?_
  funext a; apply Fin.ext
  match a with
  | ⟨0, _⟩ => show t.val % 4 + 1 * 0 = t.val % 4; omega
  | ⟨1, _⟩ => show 0 + 1 * f.val = f.val; omega
  | ⟨2, _⟩ => show 1024 * q + 1 * l.val = 1024 * q + l.val; omega

end StepC

open StepC in

theorem stepC (c : Dev nD) (hfin : FinArgs m c) (t : Fin cfg0.N) (h4 : 4 ≤ t.val) (s10 : Vec Ideal S4x128x8192 .bf16) (s11 : Vec Ideal S128x1 .f32) (s12 : Vec Ideal S128x1 .f32) (s13 : Vec Ideal S128x8448 .f32) (s14 : Vec Ideal S128x8448 .f32) (s17 : Vec Ideal S384x8448 .bf16)
    (hI : Inv m c 3 s10 s11 s12 s13 s14 s17) :
    VO0_7.read (Elt Ideal) (VO0_7.writes (Elt Ideal) VO0_7.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => absurd ((hcond0_1 t).mp h) (by omega)) (fun h => absurd ((hcond0_2 t).mp h) (by omega)) ((hcond0_3 t).mpr h4) (iblk m c 5 t) (iblk m c 6 t) s10 s11 s12).1) = outBlk m c t := by
  have hY : ∀ b f p, Cert.Spec.IsReal (sY m c b f p) := fun b f p =>
    Cert.Spec.ybatch_real _ (fun b c p => hfin.1 _) _ (fun i j => hfin.2.1 _) _ (fun f c di dj => hfin.2.2.1 _) b f p
  have hz0 : (![0, 0] : Fin 2 → ℕ) = fun _ => 0 := by funext a; match a with | ⟨0, _⟩ => rfl | ⟨1, _⟩ => rfl
  rw [View.read_writes_eq_canon _ _ _ (fun y => cover0_C_9 (y := y) ..)]
  unfold kernelRun0_C
  dsimp only
  sl_unfold_words
  have e10 : View.read (Elt Ideal) (View.whole cc0_scratch0) ((Memref.isWhole_whole cc0_scratch0).unread s10) = s10 :=
    Memref.IsWhole.read_unread (Memref.isWhole_whole cc0_scratch0) s10
  have e11 : View.read (Elt Ideal) (View.whole cc0_scratch1) ((Memref.isWhole_whole cc0_scratch1).unread s11) = s11 :=
    Memref.IsWhole.read_unread (Memref.isWhole_whole cc0_scratch1) s11
  have e12 : View.read (Elt Ideal) (View.whole cc0_scratch2) ((Memref.isWhole_whole cc0_scratch2).unread s12) = s12 :=
    Memref.IsWhole.read_unread (Memref.isWhole_whole cc0_scratch2) s12
  simp only [View.readAt_eq_ld, Memref.IsWhole.read_unread, View.ld_unit_zero (S := S128x1) hz0, e10, e11, e12]
  have h11 : ∀ f : Fin 128, s11 (ix2 f (0 : Fin 1)) = ∑ b, ∑ p, sY m c b f p :=
    fun f => (hI.ps f).trans (Finset.sum_congr rfl fun b _ => if_pos (by omega))
  have h14 : ∀ f : Fin 128, s12 (ix2 f (0 : Fin 1)) = ∑ b, ∑ p, sY m c b f p * sY m c b f p :=
    fun f => (hI.psq f).trans (Finset.sum_congr rfl fun b _ => if_pos (by omega))
  have hsc := fun f => KPbn.scale_of_sums (sY m c) _ hY s11 s12 (iblk m c 5 t) f (h11 f) (h14 f) (gammaBlk m c t f)
  have hsh := fun f => KPbn.shift_of_sums (sY m c) _ _ hY s11 s12 (iblk m c 5 t) (iblk m c 6 t) f (h11 f) (h14 f) (gammaBlk m c t f) (betaBlk m c t f)
  have hw := fun (q : ℕ) (hq : q < 8) => chunk_read t s10 (sY m c) (fun b f p => hI.y b f p (by omega)) q hq _
    (congrArg (fun k => (![k, 0, 1024 * q] : Fin 3 → ℕ)) (batch_word t))
  refine Eq.trans (funext fun j => View.canon_apply_of_pieces (bnBlk (sY m c) (Cert.Spec.argV (sA3 m c)) (Cert.Spec.argV (sA4 m c)) ⟨t.val % 4, Nat.mod_lt _ (by decide)⟩) _ ?_ j
    (View.cover_of_tiledL (s := S1x128x64x128) _ S1x128x8x128.size (by sl_kernel_rfl) j)) rfl
  intro p hp
  rcases List.mem_cons.mp hp with rfl | hp
  · exact band_piece _ _ _ _ 7 (by omega) inb_S1x128x64x128_S1x128x8x128_0_0_56_0 _ fun u f r w => KPbn.pay110_bn _ _ _ _ _ _ _ f (hsc f) (hsh f) (hw 7 (by omega) _ f) u r w
  rcases List.mem_cons.mp hp with rfl | hp
  · exact band_piece _ _ _ _ 6 (by omega) inb_S1x128x64x128_S1x128x8x128_0_0_48_0 _ fun u f r w => KPbn.pay109_bn _ _ _ _ _ _ _ f (hsc f) (hsh f) (hw 6 (by omega) _ f) u r w
  rcases List.mem_cons.mp hp with rfl | hp
  · exact band_piece _ _ _ _ 5 (by omega) inb_S1x128x64x128_S1x128x8x128_0_0_40_0 _ fun u f r w => KPbn.pay108_bn _ _ _ _ _ _ _ f (hsc f) (hsh f) (hw 5 (by omega) _ f) u r w
  rcases List.mem_cons.mp hp with rfl | hp
  · exact band_piece _ _ _ _ 4 (by omega) inb_S1x128x64x128_S1x128x8x128_0_0_32_0 _ fun u f r w => KPbn.pay107_bn _ _ _ _ _ f (fun r w => KPbn.pay106_bn _ _ _ _ _ _ _ f (hsc f) (hsh f) (hw 4 (by omega) _ f) r w) u r w
  rcases List.mem_cons.mp hp with rfl | hp
  · exact band_piece _ _ _ _ 3 (by omega) inb_S1x128x64x128_S1x128x8x128_0_0_24_0 _ fun u f r w => KPbn.pay105_bn _ _ _ _ _ _ _ f (hsc f) (hsh f) (hw 3 (by omega) _ f) u r w
  rcases List.mem_cons.mp hp with rfl | hp
  · exact band_piece _ _ _ _ 2 (by omega) inb_S1x128x64x128_S1x128x8x128_0_0_16_0 _ fun u f r w => KPbn.pay104_bn _ _ _ _ _ _ _ f (hsc f) (hsh f) (hw 2 (by omega) _ f) u r w
  rcases List.mem_cons.mp hp with rfl | hp
  · exact band_piece _ _ _ _ 1 (by omega) inb_S1x128x64x128_S1x128x8x128_0_0_8_0 _ fun u f r w => KPbn.pay103_bn _ _ _ _ _ f (fun r w => KPbn.pay102_bn _ _ _ hY _ s11 s12 (iblk m c 5 t) (iblk m c 6 t) _ f (h11 f) (h14 f) (gammaBlk m c t f) (betaBlk m c t f) (hw 1 (by omega) _ f) r w) u r w
  rcases List.mem_cons.mp hp with rfl | hp
  · exact band_piece _ _ _ _ 0 (by omega) inb_S1x128x64x128_S1x128x8x128_0_0_0_0 _ fun u f r w => KPbn.pay101_bn _ _ _ hY _ s11 s12 (iblk m c 5 t) (iblk m c 6 t) _ f (h11 f) (h14 f) (gammaBlk m c t f) (betaBlk m c t f) (hw 0 (by omega) _ f) u r w
  exact absurd hp List.not_mem_nil

end Cert.KernelIdeal.Gen

end
-- ==== Proof.KDat.lean ====
import proofs.«135277_g2000205747536381_pallasbulk_86_37_alg».proof.Proof.KInv
import proofs.«135277_g2000205747536381_pallasbulk_86_37_alg».proof.Proof.KStepA
import proofs.«135277_g2000205747536381_pallasbulk_86_37_alg».proof.Proof.KStepB
import proofs.«135277_g2000205747536381_pallasbulk_86_37_alg».proof.Proof.KStepC

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

def PhiI (c : Dev nD) (k : ℕ) : sProp 𝕄 :=
  iprop(iprop(∃ (s10 : Vec Ideal S4x128x8192 .bf16) (s11 : Vec Ideal S128x1 .f32) (s12 : Vec Ideal S128x1 .f32) (s13 : Vec Ideal S128x8448 .f32) (s14 : Vec Ideal S128x8448 .f32) (s15 : Vec Ideal S16x8192 .f32) (s16 : Vec Ideal S16x8192 .f32) (s17 : Vec Ideal S384x8448 .bf16),
      ⌜Inv m c k s10 s11 s12 s13 s14 s17⌝ ∗ owns (c : Thread nD τ) scM0_0 fullShare s10 ∗ owns (c : Thread nD τ) scM0_1 fullShare s11 ∗ owns (c : Thread nD τ) scM0_2 fullShare s12 ∗ owns (c : Thread nD τ) scM0_3 fullShare s13 ∗ owns (c : Thread nD τ) scM0_4 fullShare s14 ∗ owns (c : Thread nD τ) scM0_5 fullShare s15 ∗ owns (c : Thread nD τ) scM0_6 fullShare s16 ∗ owns (c : Thread nD τ) scM0_7 fullShare s17) ∗ (∃ r, prngReg c r))

def PhiS (c : Dev nD) : (n : ℕ) → n ≤ cfg0.N → sProp 𝕄
  | 0, _ => Pipeline.ΦA spec0 c
  | n + 1, _ => PhiI m c (min n 3)

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = PhiI m c (min n 3) := rfl

theorem PhiS_pos (c : Dev nD) (n : ℕ) (h : n ≤ cfg0.N) (hz : n ≠ 0) :
    PhiS m c n h = PhiI m c (min (n - 1) 3) := by
  cases n with
  | zero => exact absurd rfl hz
  | succ n => rfl

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem Inv_of_eq (c : Dev nD) {n n' : ℕ} (h : n = n') {s10 : Vec Ideal S4x128x8192 .bf16} {s11 : Vec Ideal S128x1 .f32} {s12 : Vec Ideal S128x1 .f32} {s13 : Vec Ideal S128x8448 .f32} {s14 : Vec Ideal S128x8448 .f32} {s17 : Vec Ideal S384x8448 .bf16}
    (hI : Inv m c n' s10 s11 s12 s13 s14 s17) : Inv m c n s10 s11 s12 s13 s14 s17 := by
  subst h; exact hI

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem sound_body (c : Dev nD) (hfin : FinArgs m c) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  unfold PhiI
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h4 : 4 ≤ t.val
  ·
    have hA : t.val ≠ 0 := by omega
    have hc1 : ¬cond0_1 (grid0.coords t) := fun h => absurd ((hcond0_1 t).mp h) (by omega)
    have hc2 : ¬cond0_2 (grid0.coords t) := fun h => absurd ((hcond0_2 t).mp h) (by omega)
    have hc3 : cond0_3 (grid0.coords t) := (hcond0_3 t).mpr h4
    rw [show (dats m 0 c).leavesExact 7 t = owns (c : Thread nD τ) (ms0_7 t) fullShare ((dats m 0 c).after 7 t) from by
      unfold Dat.leavesExact; rw [liveAt0_7 t hc3], after0_7]
    rw [PhiS_castSucc m c t, PhiS_pos m c _ _ hA]
    unfold PhiI
    iintro ⟨⟨⟨%s10, %s11, %s12, %s13, %s14, %s15, %s16, %s17, %hI, HS0, HS1, HS2, HS3, HS4, HS5, HS6, HS7⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    have hI' : Inv m c 3 s10 s11 s12 s13 s14 s17 := Inv_of_eq m c (show 3 = min (t.val - 1) 3 by omega) hI
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc1 hc2 hc3 (iblk m c 5 t) (iblk m c 6 t) s10 s11 s12).2 Set.univ _)
    iframe H5 H6
    isplitl [H7]; · iexists _; iexact H7
    iframe HS0 HS1 HS2
    iintro ⟨H5, H6, ⟨%f9, H7⟩, HS0, HS1, HS2⟩
    isplitl [HS0 HS1 HS2 HS3 HS4 HS5 HS6 HS7 Hg]
    · isplitl [HS0 HS1 HS2 HS3 HS4 HS5 HS6 HS7]
      swap; · iexact Hg
      iexists s10, s11, s12, s13, s14, s15, s16, s17
      isplitr
      · ipureintro; exact Inv_of_eq m c (show min t.val 3 = 3 by omega) hI'
      iframe HS0 HS1 HS2 HS3 HS4 HS5 HS6 HS7
    iframe Ho H0 H1 H2 H3 H4 H5 H6
    unfold owns; iexists _; isplitr
    swap; · iexact H7
    ipureintro
    exact (View.read_writes_of_cover _ _ _ _ _ (fun y => cover0_C_9 (y := y) ..)).trans
      (stepC m c hfin t h4 s10 s11 s12 s13 s14 s17 hI')
  have hc2 : cond0_2 (grid0.coords t) := (hcond0_2 t).mpr (by omega)
  have hc3 : ¬cond0_3 (grid0.coords t) := fun h => absurd ((hcond0_3 t).mp h) (by omega)
  rw [Dat.leavesExact_idle (dats m 0 c) 7 t (idleAt0_7 t hc3) (noFlush0_7 t hc3)]
  by_cases hA : t.val = 0
  case' pos =>
    have hc1 : cond0_1 (grid0.coords t) := (hcond0_1 t).mpr hA
    rw [PhiS_castSucc m c t, PhiS_zero m c _ _ hA, PhiA0_eq]
    iintro ⟨⟨⟨⟨%s10, HS0⟩, ⟨%s11, HS1⟩, ⟨%s12, HS2⟩, ⟨%s13, HS3⟩, ⟨%s14, HS4⟩, ⟨%s15, HS5⟩, ⟨%s16, HS6⟩, ⟨%s17, HS7⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc1 hc2 hc3 (iblk m c 0 t) (iblk m c 1 t) (iblk m c 2 t) (iblk m c 3 t) (iblk m c 4 t) s10 s11 s12 s13 s14 s15 s16 s17).2 Set.univ _)
  case' neg =>
    have hc1 : ¬cond0_1 (grid0.coords t) := fun h => absurd ((hcond0_1 t).mp h) (by omega)
    rw [PhiS_castSucc m c t, PhiS_pos m c _ _ hA]
    unfold PhiI
    iintro ⟨⟨⟨%s10, %s11, %s12, %s13, %s14, %s15, %s16, %s17, %hI, HS0, HS1, HS2, HS3, HS4, HS5, HS6, HS7⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    have hI' : Inv m c (t.val - 1) s10 s11 s12 s13 s14 s17 := Inv_of_eq m c (show t.val - 1 = min (t.val - 1) 3 by omega) hI
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) hc1 hc2 hc3 (iblk m c 0 t) (iblk m c 1 t) (iblk m c 2 t) (iblk m c 3 t) (iblk m c 4 t) s10 s11 s12 s13 s14 s15 s16 s17).2 Set.univ _)
  all_goals
    iframe H0 H1 H2 H3 H4 HS0 HS1 HS2 HS3 HS4 HS5 HS6 HS7
    iintro ⟨H0, H1, H2, H3, H4, HS0, HS1, HS2, HS3, HS4, HS5, HS6, HS7⟩
    isplitl [HS0 HS1 HS2 HS3 HS4 HS5 HS6 HS7 Hg]
    · isplitl [HS0 HS1 HS2 HS3 HS4 HS5 HS6 HS7]
      swap; · iexact Hg
      unfold owns
      iexists _, _, _, _, _, _, _, _
      isplitr
      swap
      isplitl [HS0]
      · iexists _; isplitr
        swap; · iexact HS0
        ipureintro; rfl
      isplitl [HS1]
      · iexists _; isplitr
        swap; · iexact HS1
        ipureintro; rfl
      isplitl [HS2]
      · iexists _; isplitr
        swap; · iexact HS2
        ipureintro; rfl
      isplitl [HS3]
      · iexists _; isplitr
        swap; · iexact HS3
        ipureintro; rfl
      isplitl [HS4]
      · iexists _; isplitr
        swap; · iexact HS4
        ipureintro; rfl
      isplitl [HS5]
      · iexists _; isplitr
        swap; · iexact HS5
        ipureintro; rfl
      isplitl [HS6]
      · iexists _; isplitr
        swap; · iexact HS6
        ipureintro; rfl
      · iexists _; isplitr
        swap; · iexact HS7
        ipureintro; rfl
      ipureintro
      first
        | exact Inv_of_eq m c (show min t.val 3 = t.val by omega) (stepA m c hfin t hA s10 s11 s12 s13 s14 s15 s16 s17)
        | exact Inv_of_eq m c (show min t.val 3 = t.val by omega) (stepB m c hfin t (by omega) (by omega) s10 s11 s12 s13 s14 s15 s16 s17 hI')
    iframe Ho H0 H1 H2 H3 H4 H5 H6
    iexists _; iexact H7

theorem body_obligation (c : Dev nD) (hfin : FinArgs m c) : BodyObligation (dats m 0 c) (defs₀ (F := Ideal)) Variants.none () Set.univ := fun t => by
  rw [bigSep_W0, bigSep_W0]
  exact sound_body m c hfin t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), PhiA0_eq]
  unfold PhiI
  iintro ⟨⟨%s10, %s11, %s12, %s13, %s14, %s15, %s16, %s17, -, HS0, HS1, HS2, HS3, HS4, HS5, HS6, HS7⟩, Hg⟩
  isplitl [HS0 HS1 HS2 HS3 HS4 HS5 HS6 HS7]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7
  iexact Hg

set_option backward.isDefEq.respectTransparency.types false in
theorem run_main (hfin : ∀ c, FinArgs m c) : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m c (hfin c)).loose) (hshare := fun c => (dats m 0 c).share_full fun _ => rfl)
    (howed := fun _ _ => rfl) (V := V m) (hmain := hmain m Variants.none) (hA := A_eq m) (hin := hin m) (hout := hout m)

theorem frameI (hfin : ∀ c, FinArgs m c) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ hfin)

end Cert.KernelIdeal.Gen

end
-- ==== Proof.KValue.lean ====
import proofs.«135277_g2000205747536381_pallasbulk_86_37_alg».proof.Proof.KDat
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic Idealize.ShloMosaic.ValueIdx
open Idealize.ShloMosaic.Pipeline (Dat Cfg Window BodyObligation cellOf)

variable (m : (ℓ : Loc nD τ sig) → Buf (Elt Ideal) ℓ) (ρ : Dev nD → PrngReg)

theorem out_index : ∀ t : Fin cfg0.N, win0_7.index t (0 : Fin 4) = (if 4 ≤ t.val then t.val - 4 else 0)
    ∧ win0_7.index t (1 : Fin 4) = 0 ∧ win0_7.index t (2 : Fin 4) = 0 ∧ win0_7.index t (3 : Fin 4) = 0 :=
  (by decide +kernel : ∀ t : Fin grid0.N, _)

theorem out_flush : ∀ t : Fin cfg0.N, (cfg0.win 7).flush t = true ↔ 4 ≤ t.val :=
  (by decide +kernel : ∀ t : Fin grid0.N, win0_7.flush t = true ↔ 4 ≤ t.val)

theorem congr_bfp (o : Fin 4 → Fin 128 → Fin 8192 → EReal) {b b' : Fin 4} {f f' : Fin 128} {p p' : Fin 8192}
    (hb : b.val = b'.val) (hf : f.val = f'.val) (hp : p.val = p'.val) : o b f p = o b' f' p' := by
  rw [Fin.ext hb, Fin.ext hf, Fin.ext hp]

theorem out_flushed_eq (c : Dev nD) (dat : Dat τ (Elt Ideal) Unit ℕ (UR sig nD τ) ℕ cfg0 c)
    (hafter : ∀ t, dat.after 7 t = outBlk m c t) (t : Fin cfg0.N) (hf : (cfg0.win 7).flush t = true) :
    dat.flushed 7 t = ((cfg0.win 7).blk t).view.read (Elt Ideal)
      (Cert.Spec.result (sA0 m c) (sA1 m c) (sA2 m c) (sA3 m c) (sA4 m c)) := by
  have ht : 4 ≤ t.val := (out_flush t).mp hf
  have hN : t.val < 8 := t.isLt
  obtain ⟨e0, e1, e2, e3⟩ := out_index t
  rw [if_pos ht] at e0
  show (cfg0.win 7).cut (grid0.coords t) (dat.after 7 t) = _
  rw [hafter]
  funext j
  have hj0 : (j 0).val < 1 := (j 0).isLt
  have hj1 : (j 1).val < 128 := (j 1).isLt
  have hj2 : (j 2).val < 64 := (j 2).isLt
  have hj3 : (j 3).val < 128 := (j 3).isLt
  show outBlk m c t j = Cert.Spec.result (sA0 m c) (sA1 m c) (sA2 m c) (sA3 m c) (sA4 m c) (((cfg0.win 7).blk t).view.emb j)
  unfold outBlk Cert.Spec.result
  refine congr_bfp _ ?_ ?_ ?_
  · show t.val % 4 = win0_7.index t (0 : Fin 4) * 1 + 1 * (j 0).val
    omega
  · show (j 1).val = win0_7.index t (1 : Fin 4) * 128 + 1 * (j 1).val
    omega
  · show 128 * (j 2).val + (j 3).val
      = 128 * (win0_7.index t (2 : Fin 4) * 64 + 1 * (j 2).val) + (win0_7.index t (3 : Fin 4) * 128 + 1 * (j 3).val)
    omega

theorem out_cover (i : S4x128x64x128.Idx) :
    ∃ t : Fin cfg0.N, (cfg0.win 7).flush t = true ∧ i ∈ ((cfg0.win 7).blk t).view.set := by
  have h0 : (i 0).val < 4 := (i 0).isLt
  have h1 : (i 1).val < 128 := (i 1).isLt
  have h2 : (i 2).val < 64 := (i 2).isLt
  have h3 : (i 3).val < 128 := (i 3).isLt
  have hN : cfg0.N = 8 := by decide
  obtain ⟨t, htv⟩ : ∃ t : Fin cfg0.N, t.val = 4 + (i 0).val := ⟨⟨4 + (i 0).val, by omega⟩, rfl⟩
  obtain ⟨e0, e1, e2, e3⟩ := out_index t
  rw [if_pos (by omega)] at e0
  refine ⟨t, (out_flush t).mpr (by omega), ?_⟩
  show i ∈ ((View.whole main_v30).slice (win0_7.rect t)).set
  rw [View.set_slice_whole, Rect.mem_set_unit]
  intro a
  match a with
  | ⟨0, _⟩ =>
    show win0_7.index t (0 : Fin 4) * 1 ≤ (i 0).val ∧ (i 0).val < win0_7.index t (0 : Fin 4) * 1 + 1
    omega
  | ⟨1, _⟩ =>
    show win0_7.index t (1 : Fin 4) * 128 ≤ (i 1).val ∧ (i 1).val < win0_7.index t (1 : Fin 4) * 128 + 128
    omega
  | ⟨2, _⟩ =>
    show win0_7.index t (2 : Fin 4) * 64 ≤ (i 2).val ∧ (i 2).val < win0_7.index t (2 : Fin 4) * 64 + 64
    omega
  | ⟨3, _⟩ =>
    show win0_7.index t (3 : Fin 4) * 128 ≤ (i 3).val ∧ (i 3).val < win0_7.index t (3 : Fin 4) * 128 + 128
    omega

theorem runK (hfin : ∀ c, FinArgs m c) :
    θ_run defs (onTc (τ := τ) (main (F := Ideal))) ⟨m, fun _ => 0, ρ⟩ (fun r => ∀ c : Dev nD,
      r.2.mem ((c.tc : Thread nD τ).loc main_v30)
        = Cert.Spec.result (sA0 m c) (sA1 m c) (sA2 m c) (sA3 m c) (sA4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 7).trans ((dats m 0 c).arrAt_eq_of_cover 7 _ (out_flushed_eq m c _ (after0_7 m c)) out_cover),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ hfin)

end Cert.KernelIdeal.Gen

end
-- ==== Proof.FinPre.lean ====
import Mathlib.Data.EReal.Basic
import Mathlib.Data.EReal.Operations
import Idealize.ShloMosaic.PureOps.Ideal
import Idealize.ShloMosaic.Lib.ReduceAll
import proofs.«135277_g2000205747536381_pallasbulk_86_37_alg».proof.Pre_finite_inputs
import proofs.«135277_g2000205747536381_pallasbulk_86_37_alg».proof.Proof.SpecLemmas

noncomputable section

namespace Cert.Spec

open Idealize.ShloMosaic

theorem ofBits_inf_f32 : Ideal.ofBits .f32 0x7F800000#32 = (⊤ : EReal) := by
  simp [Ideal.ofBits, Ideal.ieee]

theorem IsReal.of_abs_lt_top {x : EReal} (h : max x (-x) < ⊤) : IsReal x := by
  induction x using EReal.rec with
  | bot => simp at h
  | coe r => exact ⟨r, rfl⟩
  | top => simp at h

theorem IsReal.of_cmp {x : EReal}
    (h : Ideal.cmp .olt (max x (-x)) (Ideal.ofBits .f32 0x7F800000#32) = 1#1) : IsReal x := by
  rw [ofBits_inf_f32] at h
  refine IsReal.of_abs_lt_top ?_
  by_contra hn
  simp [Ideal.cmp, hn] at h

instance : Subsingleton Cert.Pre_finite_inputs.S_.Idx := ⟨fun a b => funext fun d => d.elim0⟩

theorem isReal_of_all {s : Shape} {axes : List (Fin s.rank)} (x : FVec Ideal s .f32)
    (bc : Cert.Pre_finite_inputs.S_.BroadcastsInDim s (![] : Fin 0 → Fin s.rank))
    (h : s.ReducesTo axes Cert.Pre_finite_inputs.S_) (hu : 0 < Cert.Pre_finite_inputs.S_.numel)
    (init : IVec Cert.Pre_finite_inputs.S_ 1) (j0 : Cert.Pre_finite_inputs.S_.Idx)
    (e : Host.reduce IntOp.andi
        (cmpf .olt (Host.absf x)
          (broadcastInDim s ![] bc (constant (F := Ideal) Cert.Pre_finite_inputs.S_ .f32 0x7F800000#32)))
        init h hu j0 = 1#1)
    (j : s.Idx) : IsReal (x j) :=
  IsReal.of_cmp (Host.reduce_andi_all _ init h hu j0 e j)

open Cert.Pre_finite_inputs in

theorem isReal_of_finite_inputs [Cert.Pre_finite_inputs.Facts]
    (a0 : FVec Ideal S4x128x64x128 .f32) (a1 : FVec Ideal S128x128 .f32) (a2 : FVec Ideal S128x128x3x3 .f32)
    (a3 : FVec Ideal S128 .f32) (a4 : FVec Ideal S128 .f32)
    (hpre : Cert.Pre_finite_inputs.fn (F := Ideal) a0 a1 a2 a3 a4 = (fun _ => 1#1)) :
    (∀ j, IsReal (a0 j)) ∧ (∀ j, IsReal (a1 j)) ∧ (∀ j, IsReal (a2 j)) ∧ (∀ j, IsReal (a3 j))
      ∧ (∀ j, IsReal (a4 j)) := by
  have h := congrFun hpre ValueIdx.ix0
  dsimp only [Cert.Pre_finite_inputs.fn, Cert.Pre_finite_inputs.fn_part1, andi] at h
  obtain ⟨h0123, h4⟩ := IntOp.andi_eq_one.1 h
  obtain ⟨h012, h3⟩ := IntOp.andi_eq_one.1 h0123
  obtain ⟨h01, h2⟩ := IntOp.andi_eq_one.1 h012
  obtain ⟨h0, h1⟩ := IntOp.andi_eq_one.1 h01
  exact ⟨isReal_of_all a0 _ _ _ _ _ h0, isReal_of_all a1 _ _ _ _ _ h1, isReal_of_all a2 _ _ _ _ _ h2,
    isReal_of_all a3 _ _ _ _ _ h3, isReal_of_all a4 _ _ _ _ _ h4⟩

end Cert.Spec

end
-- ==== Proof.KFin.lean ====
import proofs.«135277_g2000205747536381_pallasbulk_86_37_alg».proof.Proof.KInv
import proofs.«135277_g2000205747536381_pallasbulk_86_37_alg».proof.Proof.FinPre
import proofs.«135277_g2000205747536381_pallasbulk_86_37_alg».proof.Pre_finite_inputs
import proofs.«135277_g2000205747536381_pallasbulk_86_37_alg».proof.Proof.Gen.Pre_finite_inputs

noncomputable section

namespace Cert.KernelIdeal.Gen

open Idealize.ShloMosaic Idealize.ShloMosaic.TcCoe Idealize.SL.Sem

theorem fin_of_pre [hPre_finite_inputs : Cert.Pre_finite_inputs.Facts]
    (m : (ℓ : Loc nD τ sig) → Buf (Elt Ideal) ℓ)
    (hpre : ∀ c : Dev nD,
      (Cert.Pre_finite_inputs.fn (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))) = (fun _ => 1#1))
    (c : Dev nD) : FinArgs m c :=
  Cert.Spec.isReal_of_finite_inputs _ _ _ _ _ (hpre c)

end Cert.KernelIdeal.Gen

end
-- ==== Proof.RHost.lean ====
import proofs.«135277_g2000205747536381_pallasbulk_86_37_alg».proof.Proof.Gen.ReferenceIdeal.Frame
import proofs.«135277_g2000205747536381_pallasbulk_86_37_alg».proof.Proof.Spec
import Idealize.ShloMosaic.Lib.ValueIdx
import Idealize.ShloMosaic.Lib.ValueLayout
import Idealize.ShloMosaic.Lib.ValueIdxRank6
import Idealize.ShloMosaic.Lib.Pipeline.Value
import Idealize.ShloMosaic.Lib.StableHlo.Run
import Idealize.ShloMosaic.Lib.StableHlo.Predicate
import Idealize.ShloMosaic.PureOps.Ideal.Laws
import Idealize.ShloMosaic.Lib.StackMember

noncomputable section

namespace Cert.ReferenceIdeal.RHost

open Idealize.ShloMosaic Idealize.ShloMosaic.TcCoe Idealize.ShloMosaic.ValueIdx
open Idealize.ShloMosaic.StableHlo (after_cons after_nil)

variable (m : (ℓ : Loc nD τ sig) → Buf (Elt Ideal) ℓ) (ρ : Dev nD → PrngReg) (c : Dev nD)

abbrev A0 : FVec Ideal S4x128x64x128 .f32 := m ((c : Thread nD τ).loc main_arg0)
abbrev A1 : FVec Ideal S128x128 .f32 := m ((c : Thread nD τ).loc main_arg1)
abbrev A2 : FVec Ideal S128x128x3x3 .f32 := m ((c : Thread nD τ).loc main_arg2)
abbrev A3 : FVec Ideal S128 .f32 := m ((c : Thread nD τ).loc main_arg3)
abbrev A4 : FVec Ideal S128 .f32 := m ((c : Thread nD τ).loc main_arg4)

theorem merge_apply {α : Type} (x : S4x128x64x128.Idx → α) (hc : S4x128x64x128.ShapeCasts S4x128x8192)
    (b : Fin 4) (f : Fin 128) (p : Fin 8192) :
    shapeCast S4x128x8192 x hc (ix3 b f p)
      = x (ix4 b f (⟨p.val / 128, by omega⟩ : Fin 64) (⟨p.val % 128, by omega⟩ : Fin 128)) := by
  refine shapeCast_apply _ _ _ _ ?_
  rw [Shape.rowMajor_val_three, Shape.rowMajor_val_four]
  show ((b.val * 128 + f.val) * 64 + p.val / 128) * 128 + p.val % 128 = (b.val * 128 + f.val) * 8192 + p.val
  omega

theorem split_apply {α : Type} (x : S4x128x8192.Idx → α) (hc : S4x128x8192.ShapeCasts S4x128x64x128)
    (b : Fin 4) (f : Fin 128) (h : Fin 64) (w : Fin 128) :
    shapeCast S4x128x64x128 x hc (ix4 b f h w) = x (ix3 b f (⟨128 * h.val + w.val, by omega⟩ : Fin 8192)) := by
  refine shapeCast_apply _ _ _ _ ?_
  rw [Shape.rowMajor_val_three, Shape.rowMajor_val_four]
  show (b.val * 128 + f.val) * 8192 + (128 * h.val + w.val) = ((b.val * 128 + f.val) * 64 + h.val) * 128 + w.val
  omega

theorem W7_result (b : Fin 4) (f : Fin 128) (h : Fin 64) (w : Fin 128) :
    (Gen.W7 m ρ c (Proc.devRef .tc main_v30) : FVec Ideal S4x128x64x128 .f32) (ix4 b f h w)
      = (Gen.W6 m ρ c (Proc.devRef .tc main_v29) : FVec Ideal S4x128x8192 .f32) (ix3 b f (⟨128 * h.val + w.val, by omega⟩ : Fin 8192)) := by
  dsimp only [Gen.W7, Gen.hostOps2]
  after_results
  exact split_apply _ _ b f h w

theorem column_apply {α : Type} (x : S128.Idx → α) (hc : S128.ShapeCasts S128x1) (f : Fin 128) :
    shapeCast S128x1 x hc (ix2 f (0 : Fin 1)) = x (ix1 f) := by
  refine shapeCast_apply _ _ _ _ ?_
  rw [Shape.rowMajor_val_one, Shape.rowMajor_val_two]
  show f.val = f.val * 1 + 0
  omega

theorem V5_gamma (f : Fin 128) :
    (Gen.V5 m ρ c main_v27 : FVec Ideal S128x1 .f32) (ix2 f (0 : Fin 1)) = Cert.Spec.argV (A3 m c) f := by
  dsimp only [Gen.V5, Gen.W5, Gen.hostOps1]
  after_results
  rw [Gen.W4_of_ne m ρ c main_arg3 (by decide)]
  dsimp only [Gen.W3, Gen.W2, Gen.W1, Gen.hostOps0, Gen.hostOps0_1, Gen.hostOps0_2]
  after_results_simp
  exact column_apply _ _ f

theorem V5_beta (f : Fin 128) :
    (Gen.V5 m ρ c main_v28 : FVec Ideal S128x1 .f32) (ix2 f (0 : Fin 1)) = Cert.Spec.argV (A4 m c) f := by
  dsimp only [Gen.V5, Gen.W5, Gen.hostOps1]
  after_results
  rw [Gen.W4_of_ne m ρ c main_arg4 (by decide)]
  dsimp only [Gen.W3, Gen.W2, Gen.W1, Gen.hostOps0, Gen.hostOps0_1, Gen.hostOps0_2]
  after_results_simp
  exact column_apply _ _ f

theorem V3_x (b : Fin 4) (ch : Fin 128) (p : Fin 8192) :
    (Gen.V3 m ρ c main_v9 : FVec Ideal S4x128x8192 .f32) (ix3 b ch p) = Cert.Spec.argX (A0 m c) b ch p := by
  dsimp only [Gen.V3, Gen.W3, Gen.W2, Gen.W1, Gen.hostOps0, Gen.hostOps0_1, Gen.hostOps0_2]
  after_results_simp
  exact merge_apply _ _ b ch p

theorem V3_M (i j : Fin 128) :
    (Gen.V3 m ρ c main_v12 : FVec Ideal S128x128 .f32) (ix2 i j) = Cert.Spec.gram (Cert.Spec.argW (A1 m c)) i j := by
  dsimp only [Gen.V3, Gen.W3, Gen.W2, Gen.W1, Gen.hostOps0, Gen.hostOps0_1, Gen.hostOps0_2]
  after_results_simp
  show Host.dotGeneral (DotDims.plain 128 128 128) none (A1 m c)
    (transpose S128x128 [1, 0] (A1 m c) Gen.transposes_S128x128_S128x128_1_0) (ix2 i j) = _
  rw [StackMember.dotGeneral_plain_apply]
  unfold Cert.Spec.gram Cert.Spec.argW
  refine Finset.sum_congr rfl fun k _ => ?_
  rw [transpose_ix2_apply]

theorem V3_v14 : (Gen.V3 m ρ c main_v14 : FVec Ideal S9x128x128 .f32)
    = shapeCast S9x128x128 (transpose S3x3x128x128 [2, 3, 0, 1] (A2 m c) Gen.transposes_S128x128x3x3_S3x3x128x128_2_3_0_1)
        Gen.shapeCasts_S3x3x128x128_S9x128x128 := by
  dsimp only [Gen.V3, Gen.W3, Gen.W2, Gen.W1, Gen.hostOps0, Gen.hostOps0_1, Gen.hostOps0_2]
  after_results_simp
  try rfl

theorem V3_w (di dj : Fin 3) (f ch : Fin 128) :
    (Gen.V3 m ρ c main_v14 : FVec Ideal S9x128x128 .f32) (ix3 (⟨3 * di.val + dj.val, by omega⟩ : Fin 9) f ch) = Cert.Spec.argCw (A2 m c) f ch di dj := by
  rw [V3_v14]
  refine (shapeCast_apply _ _ _ (ix4 di dj f ch) ?_).trans ?_
  · rw [Shape.rowMajor_val_three, Shape.rowMajor_val_four]
    show ((di.val * 3 + dj.val) * 128 + f.val) * 128 + ch.val = ((3 * di.val + dj.val) * 128 + f.val) * 128 + ch.val
    omega
  · exact transpose_apply _ _ _ _ (ix4 f ch di dj) fun b => match b with | ⟨0, _⟩ => rfl | ⟨1, _⟩ => rfl | ⟨2, _⟩ => rfl | ⟨3, _⟩ => rfl

theorem ofBits_four : Ideal.ofBits .f32 0x40800000#32 = ((4 : ℝ) : EReal) := by
  simp [Ideal.ofBits, Ideal.ieee, -EReal.coe_mul]; norm_num

theorem ix4_congr {n0 n1 n2 n3 : Nat} (b : Fin n0) (ch : Fin n1) (h h' : Fin n2) (w w' : Fin n3)
    (eh : h.val = h'.val) (ew : w.val = w'.val) : ix4 b ch h w = ix4 b ch h' w' := by
  rw [Fin.ext eh, Fin.ext ew]

theorem blocks_apply {α : Type} (x : S4x128x64x128.Idx → α) (hc : S4x128x64x128.ShapeCasts S4x128x32x2x64x2)
    (b : Fin 4) (ch : Fin 128) (hb : Fin 32) (d1 : Fin 2) (wb : Fin 64) (d2 : Fin 2) :
    shapeCast S4x128x32x2x64x2 x hc (ix6 b ch hb d1 wb d2)
      = x (ix4 b ch (⟨2 * hb.val + d1.val, by omega⟩ : Fin 64) (⟨2 * wb.val + d2.val, by omega⟩ : Fin 128)) := by
  refine shapeCast_apply _ _ _ _ ?_
  rw [Shape.rowMajor_val_four, Shape.rowMajor_val_six]
  show ((b.val * 128 + ch.val) * 64 + (2 * hb.val + d1.val)) * 128 + (2 * wb.val + d2.val)
    = ((((b.val * 128 + ch.val) * 32 + hb.val) * 2 + d1.val) * 64 + wb.val) * 2 + d2.val
  omega

theorem drop_ix6 (hr : S4x128x32x2x64x2.ReducesTo [3, 5] S4x128x32x64)
    (b : Fin 4) (ch : Fin 128) (hb : Fin 32) (d1 : Fin 2) (wb : Fin 64) (d2 : Fin 2) :
    hr.drop (ix6 b ch hb d1 wb d2) = ix4 b ch hb wb := by
  funext a
  match a with
  | ⟨0, _⟩ => rfl
  | ⟨1, _⟩ => rfl
  | ⟨2, _⟩ => rfl
  | ⟨3, _⟩ => rfl

theorem eq_ix6_of_drop (hr : S4x128x32x2x64x2.ReducesTo [3, 5] S4x128x32x64) (i : S4x128x32x2x64x2.Idx)
    (b : Fin 4) (ch : Fin 128) (hb : Fin 32) (wb : Fin 64) (h : hr.drop i = ix4 b ch hb wb) :
    i = ix6 b ch hb (i 3) wb (i 5) := by
  funext a
  match a with
  | ⟨0, _⟩ => exact Fin.ext (congrArg Fin.val (congrFun h 0))
  | ⟨1, _⟩ => exact Fin.ext (congrArg Fin.val (congrFun h 1))
  | ⟨2, _⟩ => exact Fin.ext (congrArg Fin.val (congrFun h 2))
  | ⟨3, _⟩ => rfl
  | ⟨4, _⟩ => exact Fin.ext (congrArg Fin.val (congrFun h 3))
  | ⟨5, _⟩ => rfl

def blockEmb (b : Fin 4) (ch : Fin 128) (hb : Fin 32) (wb : Fin 64) : Fin 2 × Fin 2 ↪ S4x128x32x2x64x2.Idx :=
  ⟨fun d => ix6 b ch hb d.1 wb d.2, fun d d' h => Prod.ext (congrFun h 3) (congrFun h 5)⟩

theorem filter_drop (hr : S4x128x32x2x64x2.ReducesTo [3, 5] S4x128x32x64)
    (b : Fin 4) (ch : Fin 128) (hb : Fin 32) (wb : Fin 64) :
    Finset.univ.filter (fun i : S4x128x32x2x64x2.Idx => hr.drop i = ix4 b ch hb wb) = Finset.univ.map (blockEmb b ch hb wb) := by
  ext i
  simp only [Finset.mem_filter, Finset.mem_univ, true_and, Finset.mem_map, blockEmb, Function.Embedding.coeFn_mk]
  exact ⟨fun h => ⟨(i 3, i 5), (eq_ix6_of_drop hr i b ch hb wb h).symm⟩, fun ⟨d, hd⟩ => hd ▸ drop_ix6 hr b ch hb d.1 wb d.2⟩

theorem blocksum_apply (hr : S4x128x32x2x64x2.ReducesTo [3, 5] S4x128x32x64) (x : S4x128x32x2x64x2.Idx → EReal) (init : EReal)
    (b : Fin 4) (ch : Fin 128) (hb : Fin 32) (wb : Fin 64) :
    Ideal.hostReduceAdd hr x init (ix4 b ch hb wb)
      = init + ((x (ix6 b ch hb 0 wb 0) + x (ix6 b ch hb 0 wb 1)) + (x (ix6 b ch hb 1 wb 0) + x (ix6 b ch hb 1 wb 1))) := by
  unfold Ideal.hostReduceAdd
  rw [filter_drop, Finset.sum_map, Fintype.sum_prod_type]
  simp only [Fin.sum_univ_two]
  rfl

def quad (a : S4x128x64x128.Idx → EReal) (b : Fin 4) (ch : Fin 128) (hb : Fin 32) (wb : Fin 64) (d : Fin 4) : EReal :=
  a (ix4 b ch (⟨2 * hb.val + d.val / 2, by omega⟩ : Fin 64) (⟨2 * wb.val + d.val % 2, by omega⟩ : Fin 128))

def hmean (a : FVec Ideal S4x128x64x128 .f32) : FVec Ideal S4x128x32x64 .f32 :=
  Host.divf
    (Host.reduceAdd (shapeCast S4x128x32x2x64x2 a Gen.shapeCasts_S4x128x64x128_S4x128x32x2x64x2)
      (constant (F := Ideal) S_ .f32 0x00000000#32) Gen.reducesTo_S4x128x32x2x64x2_S4x128x32x64_d3_5 Gen.h_S_)
    (broadcastInDim S4x128x32x64 ![] Gen.bcast_S_S4x128x32x64 (constant (F := Ideal) S_ .f32 0x40800000#32))

theorem hmean_apply (a : FVec Ideal S4x128x64x128 .f32) (b : Fin 4) (ch : Fin 128) (hb : Fin 32) (wb : Fin 64) :
    hmean a (ix4 b ch hb wb)
      = ((1 / 4 : ℝ) : EReal) * (quad a b ch hb wb 0 + quad a b ch hb wb 1 + quad a b ch hb wb 2 + quad a b ch hb wb 3) := by
  show Ideal.div (Ideal.hostReduceAdd Gen.reducesTo_S4x128x32x2x64x2_S4x128x32x64_d3_5
      (shapeCast S4x128x32x2x64x2 a Gen.shapeCasts_S4x128x64x128_S4x128x32x2x64x2) (Ideal.ofBits .f32 0x00000000#32) (ix4 b ch hb wb))
    (Ideal.ofBits .f32 0x40800000#32) = _
  rw [blocksum_apply, blocks_apply, blocks_apply, blocks_apply, blocks_apply, Ideal.ofBits_zero_f32, zero_add, ofBits_four,
    Ideal.div_coe (by norm_num), mul_comm, ← add_assoc]
  rfl

def hup (a : FVec Ideal S4x128x64x128 .f32) : FVec Ideal S4x128x64x128 .f32 :=
  shapeCast S4x128x64x128
    (broadcastInDim S4x128x64x64x2 ![0, 1, 2, 3] Gen.bcast_S4x128x64x64_S4x128x64x64x2_0_1_2_3
      (shapeCast S4x128x64x64
        (broadcastInDim S4x128x32x2x64 ![0, 1, 2, 4] Gen.bcast_S4x128x32x64_S4x128x32x2x64_0_1_2_4 (hmean a))
        Gen.shapeCasts_S4x128x32x2x64_S4x128x64x64))
    Gen.shapeCasts_S4x128x64x64x2_S4x128x64x128

theorem hup_apply (a : FVec Ideal S4x128x64x128 .f32) (b : Fin 4) (ch : Fin 128) (h : Fin 64) (w : Fin 128) :
    hup a (ix4 b ch h w) = hmean a (ix4 b ch (⟨h.val / 2, by omega⟩ : Fin 32) (⟨w.val / 2, by omega⟩ : Fin 64)) := by
  unfold hup
  refine (shapeCast_apply _ _ _ (ix5 b ch h (⟨w.val / 2, by omega⟩ : Fin 64) (⟨w.val % 2, by omega⟩ : Fin 2)) ?_).trans ?_
  · rw [Shape.rowMajor_val_five, Shape.rowMajor_val_four]
    show (((b.val * 128 + ch.val) * 64 + h.val) * 64 + w.val / 2) * 2 + w.val % 2 = ((b.val * 128 + ch.val) * 64 + h.val) * 128 + w.val
    omega
  refine (broadcastInDim_apply _ _ _ _ (ix4 b ch h (⟨w.val / 2, by omega⟩ : Fin 64))
    (fun a => match a with | ⟨0, _⟩ => rfl | ⟨1, _⟩ => rfl | ⟨2, _⟩ => rfl | ⟨3, _⟩ => rfl)).trans ?_
  refine (shapeCast_apply _ _ _ (ix5 b ch (⟨h.val / 2, by omega⟩ : Fin 32) (⟨h.val % 2, by omega⟩ : Fin 2) (⟨w.val / 2, by omega⟩ : Fin 64)) ?_).trans ?_
  · rw [Shape.rowMajor_val_five, Shape.rowMajor_val_four]
    show (((b.val * 128 + ch.val) * 32 + h.val / 2) * 2 + h.val % 2) * 64 + w.val / 2 = ((b.val * 128 + ch.val) * 64 + h.val) * 64 + w.val / 2
    omega
  exact broadcastInDim_apply _ _ _ _ (ix4 b ch (⟨h.val / 2, by omega⟩ : Fin 32) (⟨w.val / 2, by omega⟩ : Fin 64))
    (fun a => match a with | ⟨0, _⟩ => rfl | ⟨1, _⟩ => rfl | ⟨2, _⟩ => rfl | ⟨3, _⟩ => rfl)

theorem argX_blk (a : FVec Ideal S4x128x64x128 .f32) (b : Fin 4) (ch : Fin 128) (p : Fin 8192) (d : Fin 4) :
    Cert.Spec.argX a b ch (Cert.Spec.blk p d)
      = quad a b ch (⟨p.val / 128 / 2, by omega⟩ : Fin 32) (⟨p.val % 128 / 2, by omega⟩ : Fin 64) d := by
  unfold Cert.Spec.argX quad
  refine congrArg a (ix4_congr _ _ _ _ _ _ ?_ ?_)
  · show (128 * (2 * (p.val / 128 / 2) + d.val / 2) + (2 * (p.val % 128 / 2) + d.val % 2)) / 128 = 2 * (p.val / 128 / 2) + d.val / 2
    omega
  · show (128 * (2 * (p.val / 128 / 2) + d.val / 2) + (2 * (p.val % 128 / 2) + d.val % 2)) % 128 = 2 * (p.val % 128 / 2) + d.val % 2
    omega

theorem V3_v10 : (Gen.V3 m ρ c main_v10 : FVec Ideal S4x128x8192 .f32)
    = shapeCast S4x128x8192 (subf (A0 m c) (hup (A0 m c))) Gen.shapeCasts_S4x128x64x128_S4x128x8192 := by
  dsimp only [Gen.V3, Gen.W3, Gen.W2, Gen.W1, Gen.hostOps0, Gen.hostOps0_1, Gen.hostOps0_2]
  after_results_simp
  try rfl

theorem V3_hi (b : Fin 4) (ch : Fin 128) (p : Fin 8192) :
    (Gen.V3 m ρ c main_v10 : FVec Ideal S4x128x8192 .f32) (ix3 b ch p) = Cert.Spec.hi (Cert.Spec.argX (A0 m c) b) ch p := by
  rw [V3_v10, merge_apply]
  show A0 m c _ - hup (A0 m c) _ = _
  unfold Cert.Spec.hi
  rw [argX_blk, argX_blk, argX_blk, argX_blk, hup_apply, hmean_apply]
  rfl

theorem remsi_small (p : ℕ) (hp : p < 2 ^ 31) : IntOp.remsi .host (BitVec.ofNat 32 p) 128#32 = BitVec.ofNat 32 (p % 128) := by
  have hp' : (BitVec.ofNat 32 p).toNat = p := by rw [BitVec.toNat_ofNat]; omega
  apply BitVec.eq_of_toNat_eq
  rw [show (128#32 : BitVec 32) = BitVec.ofNat 32 128 from rfl, IntOp.toNat_remsi .host (by omega) 128 (by omega) (by omega), hp', BitVec.toNat_ofNat]
  omega

theorem jrem_lane (r : BitVec 32) (hr : r.toNat < 2 ^ 31) :
    Scalar.select (IntOp.andi (IntOp.cmpi .ne (IntOp.cmpi .slt r 0#32) (IntOp.cmpi .slt 128#32 0#32)) (IntOp.cmpi .ne r 0#32))
      (IntOp.addi r 128#32) r = r := by
  have h1 : IntOp.cmpi .slt r 0#32 = 0#1 :=
    eq_zero_of_ne_one fun h => absurd ((StableHlo.Predicate.slt_iff_toNat hr (by decide)).mp h) (by simp)
  have h2 : IntOp.cmpi .slt 128#32 0#32 = 0#1 := by decide
  have h3 : IntOp.cmpi .ne (0#1 : BitVec 1) 0#1 = 0#1 := by decide
  rw [h1, h2, h3]
  show Scalar.select (0#1 &&& _) _ r = r
  rw [BitVec.zero_and, select_zero]

theorem mask_lane (r k : ℕ) (hr : r < 2 ^ 31) (hk : k < 2 ^ 31) :
    FloatOps.uitofp (F := Ideal) .f32 (IntOp.cmpi .ne (BitVec.ofNat 32 r) (BitVec.ofNat 32 k)) = if r = k then (0 : EReal) else 1 := by
  show (((IntOp.cmpi .ne (BitVec.ofNat 32 r) (BitVec.ofNat 32 k)).toNat : ℝ) : EReal) = _
  by_cases h : r = k
  · subst h
    rw [if_pos rfl]
    simp [IntOp.cmpi]
  · rw [if_neg h]
    have hne : BitVec.ofNat 32 r ≠ BitVec.ofNat 32 k := fun e => h (by
      have := congrArg BitVec.toNat e; simp only [BitVec.toNat_ofNat] at this; omega)
    simp [IntOp.cmpi, hne]

def rem128 : IVec S8192 32 :=
  let x : IVec S8192 32 := iotaInDim S8192 32 0
  let n : IVec S_ 32 := constantI S_ 32 128#32
  let z : IVec S_ 32 := constantI S_ 32 0#32
  let d : IVec S_ 32 := select (cmpi .eq n z) (constantI S_ 32 1#32) n
  let db : IVec S8192 32 := broadcastInDim S8192 ![] Gen.bcast_S_S8192 d
  let r : IVec S8192 32 := Host.remsi x db
  let zb : IVec S8192 32 := broadcastInDim S8192 ![] Gen.bcast_S_S8192 z
  select (andi (cmpi .ne (cmpi .slt r zb) (broadcastInDim S8192 ![] Gen.bcast_S_S8192 (cmpi .slt d z))) (cmpi .ne r zb)) (addi r db) r

theorem rem128_apply (p : Fin 8192) : rem128 (ix1 p) = BitVec.ofNat 32 (p.val % 128) := by
  have hd : Scalar.select (IntOp.cmpi .eq 128#32 0#32) 1#32 128#32 = (128#32 : BitVec 32) := by decide
  show Scalar.select (IntOp.andi (IntOp.cmpi .ne
        (IntOp.cmpi .slt (IntOp.remsi .host (BitVec.ofNat 32 p.val) (Scalar.select (IntOp.cmpi .eq 128#32 0#32) 1#32 128#32)) 0#32)
        (IntOp.cmpi .slt (Scalar.select (IntOp.cmpi .eq 128#32 0#32) 1#32 128#32) 0#32))
      (IntOp.cmpi .ne (IntOp.remsi .host (BitVec.ofNat 32 p.val) (Scalar.select (IntOp.cmpi .eq 128#32 0#32) 1#32 128#32)) 0#32))
    (IntOp.addi (IntOp.remsi .host (BitVec.ofNat 32 p.val) (Scalar.select (IntOp.cmpi .eq 128#32 0#32) 1#32 128#32))
      (Scalar.select (IntOp.cmpi .eq 128#32 0#32) 1#32 128#32))
    (IntOp.remsi .host (BitVec.ofNat 32 p.val) (Scalar.select (IntOp.cmpi .eq 128#32 0#32) 1#32 128#32)) = _
  rw [hd, remsi_small p.val (by omega)]
  exact jrem_lane _ (by simp only [BitVec.toNat_ofNat]; omega)

theorem W2_v16 : (Gen.W2 m ρ c (Proc.devRef .tc main_v16) : IVec S8192 32) = rem128 := by
  dsimp only [Gen.W2, Gen.W1, Gen.hostOps0, Gen.hostOps0_1]
  after_results_simp
  try simp only [StableHlo.TRef.ofBuf, StableHlo.TRef.toBuf, cast_eq]
  try rfl

theorem V3_v25 : (Gen.V3 m ρ c main_v25 : FVec Ideal S2x8192 .f32)
    = concatenate S2x8192 0
        [⟨S1x8192, broadcastInDim S1x8192 ![1] Gen.bcast_S8192_S1x8192_1
            (uitofp (F := Ideal) .f32 (cmpi .ne (Gen.W2 m ρ c (Proc.devRef .tc main_v16) : IVec S8192 32)
              (broadcastInDim S8192 ![] Gen.bcast_S_S8192 (constantI S_ 32 0#32))))⟩,
         ⟨S1x8192, broadcastInDim S1x8192 ![1] Gen.bcast_S8192_S1x8192_1
            (uitofp (F := Ideal) .f32 (cmpi .ne (Gen.W2 m ρ c (Proc.devRef .tc main_v16) : IVec S8192 32)
              (broadcastInDim S8192 ![] Gen.bcast_S_S8192 (constantI S_ 32 127#32))))⟩]
        Gen.concatenates_S1x8192_S1x8192_S2x8192_d0 := by
  dsimp only [Gen.V3, Gen.W3, Gen.hostOps0_2]
  simp only [after_cons, after_nil]
  rw [StableHlo.binary_result]
  refine congrArg₂ (fun (a b : FVec Ideal S1x8192 .f32) => concatenate S2x8192 0 [⟨S1x8192, a⟩, ⟨S1x8192, b⟩] Gen.concatenates_S1x8192_S1x8192_S2x8192_d0) ?_ ?_
  · after_results_simp
    try rfl
  · after_results_simp
    try rfl

theorem mask_apply (X : IVec S8192 32) (k : BitVec 32) (hb : S8192.BroadcastsInDim S1x8192 ![1]) (hs : S_.BroadcastsInDim S8192 ![])
    (p : Fin 8192) :
    broadcastInDim S1x8192 ![1] hb (uitofp (F := Ideal) .f32 (cmpi .ne X (broadcastInDim S8192 ![] hs (constantI S_ 32 k))))
        (ix2 (0 : Fin 1) p)
      = FloatOps.uitofp (F := Ideal) .f32 (IntOp.cmpi .ne (X (ix1 p)) k) := by
  refine (broadcastInDim_apply _ _ _ _ (ix1 p) (fun a => match a with | ⟨0, _⟩ => rfl)).trans ?_
  rfl

theorem V3_cmask0 (p : Fin 8192) :
    (Gen.V3 m ρ c main_v25 : FVec Ideal S2x8192 .f32) (ix2 (0 : Fin 2) p) = if p.val % 128 = 0 then (0 : EReal) else 1 := by
  rw [V3_v25]
  refine (concatenate_pair_apply_left (s₁ := S1x8192) (s₂ := S1x8192) (0 : Fin 2) _ _ _ (ix2 (0 : Fin 2) p) rfl (ix2 (0 : Fin 1) p)
    (fun b => match b with | ⟨0, _⟩ => rfl | ⟨1, _⟩ => rfl)).trans ?_
  rw [mask_apply, W2_v16, rem128_apply]
  exact mask_lane (p.val % 128) 0 (by omega) (by norm_num)

theorem V3_cmask1 (p : Fin 8192) :
    (Gen.V3 m ρ c main_v25 : FVec Ideal S2x8192 .f32) (ix2 (1 : Fin 2) p) = if p.val % 128 = 127 then (0 : EReal) else 1 := by
  rw [V3_v25]
  refine (concatenate_pair_apply_right (s₁ := S1x8192) (s₂ := S1x8192) (0 : Fin 2) _ _ _ (ix2 (1 : Fin 2) p) rfl rfl (ix2 (0 : Fin 1) p)
    (fun b => match b with | ⟨0, _⟩ => fun hne => absurd rfl hne | ⟨1, _⟩ => fun _ => rfl) rfl).trans ?_
  rw [mask_apply, W2_v16, rem128_apply]
  exact mask_lane (p.val % 128) 127 (by omega) (by norm_num)

end Cert.ReferenceIdeal.RHost

end
-- ==== Proof.RBlock.lean ====
import proofs.«135277_g2000205747536381_pallasbulk_86_37_alg».proof.Proof.Gen.ReferenceIdeal.Frame
import proofs.«135277_g2000205747536381_pallasbulk_86_37_alg».proof.Proof.Spec
import proofs.«135277_g2000205747536381_pallasbulk_86_37_alg».proof.Proof.SpecLemmas
import Idealize.ShloMosaic.Lib.Pipeline.Value
import Idealize.ShloMosaic.Lib.ValueIdx
import Idealize.ShloMosaic.Lib.Tactic
import Idealize.ShloMosaic.PureOps.Ideal.Laws

set_option maxRecDepth 65536

noncomputable section

namespace Cert.ReferenceIdeal.RBlock

open Idealize.ShloMosaic Idealize.ShloMosaic.TcCoe Idealize.ShloMosaic.ValueIdx Idealize.SL.Sem
open Cert.ReferenceIdeal Cert.ReferenceIdeal.Gen

section AnyInstance
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

def scrL (ft : FVec F S128x8192 .f32) : List (View.Piece (Elt F) S128x8450 .f32) :=
  [⟨Rect.unit (s := S128x8450) ![0, 129] S128x8192.size inb_S128x8450_S128x8192_0_129, k0_pay373 ft⟩,
    ⟨Rect.unit (s := S128x8450) ![0, 0] S128x8450.size inb_S128x8450_S128x8450_0_0, k0_pay372 k0_pay371⟩]

def sliceOf (ft : FVec F S128x8192 .f32) (off : ℕ) (inb : ∀ a, (![0, off] : Fin 2 → ℕ) a + S128x8192.size a ≤ S128x8450.size a) :
    Vec F S128x8192 .f32 :=
  fun j => View.canon (scrL ft) ((Rect.unit (s := S128x8450) ![0, off] S128x8192.size inb).toLoadRect.idx j)

def slabOf (x3 : Vec F S9x128x128 .f32) (k : ℕ) (inb : ∀ a, (![k, 0, 0] : Fin 3 → ℕ) a + S1x128x128.size a ≤ S9x128x128.size a) :
    Vec F S1x128x128 .f32 :=
  View.ld x3 (Rect.unit (s := S9x128x128) ![k, 0, 0] S1x128x128.size inb)

def rowOf (x4 : Vec F S2x8192 .f32) (k : ℕ) (inb : ∀ a, (![k, 0] : Fin 2 → ℕ) a + S1x8192.size a ≤ S2x8192.size a) :
    Vec F S1x8192 .f32 :=
  View.ld x4 (Rect.unit (s := S2x8192) ![k, 0] S1x8192.size inb)

def blockOf (ft : FVec F S128x8192 .f32) (x3 : Vec F S9x128x128 .f32) (x4 : Vec F S2x8192 .f32) : FVec F S1x128x8192 .f32 :=
  k0_pay1
    (k0_pay375
      (k0_pay374 (sliceOf ft 0 inb_S128x8450_S128x8192_0_0) (rowOf x4 0 inb_S2x8192_S1x8192_0_0) (slabOf x3 0 inb_S9x128x128_S1x128x128_0_0_0)
        (sliceOf ft 1 inb_S128x8450_S128x8192_0_1) (slabOf x3 1 inb_S9x128x128_S1x128x128_1_0_0)
        (sliceOf ft 2 inb_S128x8450_S128x8192_0_2) (rowOf x4 1 inb_S2x8192_S1x8192_1_0) (slabOf x3 2 inb_S9x128x128_S1x128x128_2_0_0))
      (sliceOf ft 128 inb_S128x8450_S128x8192_0_128) (rowOf x4 0 inb_S2x8192_S1x8192_0_0) (slabOf x3 3 inb_S9x128x128_S1x128x128_3_0_0)
      (sliceOf ft 129 inb_S128x8450_S128x8192_0_129) (slabOf x3 4 inb_S9x128x128_S1x128x128_4_0_0)
      (sliceOf ft 130 inb_S128x8450_S128x8192_0_130) (rowOf x4 1 inb_S2x8192_S1x8192_1_0) (slabOf x3 5 inb_S9x128x128_S1x128x128_5_0_0)
      (sliceOf ft 256 inb_S128x8450_S128x8192_0_256) (rowOf x4 0 inb_S2x8192_S1x8192_0_0) (slabOf x3 6 inb_S9x128x128_S1x128x128_6_0_0))
    (sliceOf ft 257 inb_S128x8450_S128x8192_0_257) (slabOf x3 7 inb_S9x128x128_S1x128x128_7_0_0)
    (sliceOf ft 258 inb_S128x8450_S128x8192_0_258) (rowOf x4 1 inb_S2x8192_S1x8192_1_0) (slabOf x3 8 inb_S9x128x128_S1x128x128_8_0_0)

def featOf (idx : IVec S1x8192 32) (x1 : Vec F S1x128x8192 .f32) (x2 : Vec F S128x128 .f32) : FVec F S128x8192 .f32 :=
  k0_pay370 (k0_pay3 x1) (k0_pay4 x2) idx (iota .tc S16x8192 32 [0] iota_S16x8192_d0_w32)

theorem out_eq (c : Dev nD) (i : grid0.Coords)
    (a1 : Memref sig .tc .vmem S1x128x8192 .f32) (h1 : a1.IsWhole)
    (a2 : Memref sig .tc .vmem S1x128x8192 .f32) (h2 : a2.IsWhole)
    (a3 : Memref sig .tc .vmem S128x128 .f32) (h3 : a3.IsWhole)
    (a4 : Memref sig .tc .vmem S9x128x128 .f32) (h4 : a4.IsWhole)
    (a5 : Memref sig .tc .vmem S2x8192 .f32) (h5 : a5.IsWhole)
    (a6 : Memref sig .tc .vmem S1x128x8192 .f32) (h6 : a6.IsWhole)
    (a7 : Memref sig .tc .vmem S128x8450 .f32) (h7 : a7.IsWhole)
    (x0 : Vec F S1x128x8192 .f32) (x1 : Vec F S1x128x8192 .f32) (x2 : Vec F S128x128 .f32)
    (x3 : Vec F S9x128x128 .f32) (x4 : Vec F S2x8192 .f32) :
    out0_A_5 c i a1 h1 a2 h2 a3 h3 a4 h4 a5 h5 a6 h6 a7 h7 x0 x1 x2 x3 x4
      = blockOf (kernelRun0_A.sl.r_28 c a1 h1 a2 h2 a3 h3 x0 x1 x2) x3 x4 := by
  unfold out0_A_5
  rw [View.read_writes_eq_canon _ _ _ (cover0_A_5 c i a1 h1 a2 h2 a3 h3 a4 h4 a5 h5 a6 h6 a7 h7 x0 x1 x2 x3 x4)]
  unfold kernelRun0_A
  dsimp only
  rw [View.canon_unit_zero hz3]
  unfold kernelRun0_A.sl.r_30 kernelRun0_A.sl.r_29 kernelRun0_A.sl.v693 kernelRun0_A.sl.v702 kernelRun0_A.sl.v707
    kernelRun0_A.sl.v716 kernelRun0_A.sl.v725 kernelRun0_A.sl.v730 kernelRun0_A.sl.v739 kernelRun0_A.sl.v748 kernelRun0_A.sl.v753
    kernelRun0_A.sl.HS0_2
  simp only [View.readAt_eq_ld, h4.read_unread, h5.read_unread, View.readCov_eq_canon']
  rfl

end AnyInstance

end Cert.ReferenceIdeal.RBlock

end
-- ==== Proof.RBlk.lean ====
import proofs.«135277_g2000205747536381_pallasbulk_86_37_alg».proof.Proof.Gen.ReferenceIdeal.Frame
import proofs.«135277_g2000205747536381_pallasbulk_86_37_alg».proof.Proof.RHost
import Idealize.ShloMosaic.Lib.ValueIdx
import Idealize.ShloMosaic.Lib.Pipeline.Value

noncomputable section

namespace Cert.ReferenceIdeal.RBlk

open Idealize.ShloMosaic Idealize.ShloMosaic.TcCoe Idealize.ShloMosaic.ValueIdx

section AnyContents
variable {F : FTy → Type} [FloatOps F]
variable (V : (c : Dev nD) → (b : Ref sig .tc) → Buf (Elt F) ((c : Thread nD τ).loc b))

theorem idx0_0 : ∀ t : Fin cfg0.N, win0_0.index t (0 : Fin 3) = t.val ∧ win0_0.index t (1 : Fin 3) = 0
    ∧ win0_0.index t (2 : Fin 3) = 0 :=
  (by decide +kernel : ∀ t : Fin grid0.N, _)

theorem blk0_0_at (c : Dev nD) (t : Fin cfg0.N) (ch : Fin 128) (p : Fin 8192) :
    Gen.iblk0 V c 0 t (ix3 (0 : Fin 1) ch p)
      = (V c main_v10 : FVec F S4x128x8192 .f32) (ix3 (⟨t.val, t.isLt⟩ : Fin 4) ch p) := by
  show (V c main_v10 : FVec F S4x128x8192 .f32) (((cfg0.win 0).blk t).view.emb (ix3 (0 : Fin 1) ch p)) = _
  refine congrArg (V c main_v10 : FVec F S4x128x8192 .f32) ?_
  obtain ⟨e0, e1, e2⟩ := idx0_0 t
  funext a; apply Fin.ext
  match a with
  | ⟨0, _⟩ => show win0_0.index t (0 : Fin 3) * 1 + 1 * 0 = t.val; omega
  | ⟨1, _⟩ => show win0_0.index t (1 : Fin 3) * 128 + 1 * ch.val = ch.val; omega
  | ⟨2, _⟩ => show win0_0.index t (2 : Fin 3) * 8192 + 1 * p.val = p.val; omega

theorem idx0_1 : ∀ t : Fin cfg0.N, win0_1.index t (0 : Fin 3) = t.val ∧ win0_1.index t (1 : Fin 3) = 0
    ∧ win0_1.index t (2 : Fin 3) = 0 :=
  (by decide +kernel : ∀ t : Fin grid0.N, _)

theorem blk0_1_at (c : Dev nD) (t : Fin cfg0.N) (ch : Fin 128) (p : Fin 8192) :
    Gen.iblk0 V c 1 t (ix3 (0 : Fin 1) ch p)
      = (V c main_v9 : FVec F S4x128x8192 .f32) (ix3 (⟨t.val, t.isLt⟩ : Fin 4) ch p) := by
  show (V c main_v9 : FVec F S4x128x8192 .f32) (((cfg0.win 1).blk t).view.emb (ix3 (0 : Fin 1) ch p)) = _
  refine congrArg (V c main_v9 : FVec F S4x128x8192 .f32) ?_
  obtain ⟨e0, e1, e2⟩ := idx0_1 t
  funext a; apply Fin.ext
  match a with
  | ⟨0, _⟩ => show win0_1.index t (0 : Fin 3) * 1 + 1 * 0 = t.val; omega
  | ⟨1, _⟩ => show win0_1.index t (1 : Fin 3) * 128 + 1 * ch.val = ch.val; omega
  | ⟨2, _⟩ => show win0_1.index t (2 : Fin 3) * 8192 + 1 * p.val = p.val; omega

theorem idx0_2 : ∀ t : Fin cfg0.N, win0_2.index t (0 : Fin 2) = 0 ∧ win0_2.index t (1 : Fin 2) = 0 :=
  (by decide +kernel : ∀ t : Fin grid0.N, _)

theorem blk0_2 (c : Dev nD) (t : Fin cfg0.N) :
    (Gen.iblk0 V c 2 t : FVec F S128x128 .f32) = (V c main_v12 : FVec F S128x128 .f32) := by
  funext j
  show (V c main_v12 : FVec F S128x128 .f32) (((cfg0.win 2).blk t).view.emb j) = _
  refine congrArg (V c main_v12 : FVec F S128x128 .f32) ?_
  obtain ⟨e0, e1⟩ := idx0_2 t
  funext a; apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

theorem idx0_3 : ∀ t : Fin cfg0.N, win0_3.index t (0 : Fin 3) = 0 ∧ win0_3.index t (1 : Fin 3) = 0 ∧ win0_3.index t (2 : Fin 3) = 0 :=
  (by decide +kernel : ∀ t : Fin grid0.N, _)

theorem blk0_3 (c : Dev nD) (t : Fin cfg0.N) :
    (Gen.iblk0 V c 3 t : FVec F S9x128x128 .f32) = (V c main_v14 : FVec F S9x128x128 .f32) := by
  funext j
  show (V c main_v14 : FVec F S9x128x128 .f32) (((cfg0.win 3).blk t).view.emb j) = _
  refine congrArg (V c main_v14 : FVec F S9x128x128 .f32) ?_
  obtain ⟨e0, e1, e2⟩ := idx0_3 t
  funext a; apply Fin.ext
  match a with
  | ⟨0, _⟩ => show win0_3.index t (0 : Fin 3) * 9 + 1 * (j 0).val = (j 0).val; omega
  | ⟨1, _⟩ => show win0_3.index t (1 : Fin 3) * 128 + 1 * (j 1).val = (j 1).val; omega
  | ⟨2, _⟩ => show win0_3.index t (2 : Fin 3) * 128 + 1 * (j 2).val = (j 2).val; omega

theorem idx0_4 : ∀ t : Fin cfg0.N, win0_4.index t (0 : Fin 2) = 0 ∧ win0_4.index t (1 : Fin 2) = 0 :=
  (by decide +kernel : ∀ t : Fin grid0.N, _)

theorem blk0_4 (c : Dev nD) (t : Fin cfg0.N) :
    (Gen.iblk0 V c 4 t : FVec F S2x8192 .f32) = (V c main_v25 : FVec F S2x8192 .f32) := by
  funext j
  show (V c main_v25 : FVec F S2x8192 .f32) (((cfg0.win 4).blk t).view.emb j) = _
  refine congrArg (V c main_v25 : FVec F S2x8192 .f32) ?_
  obtain ⟨e0, e1⟩ := idx0_4 t
  funext a; apply Fin.ext
  match a with
  | ⟨0, _⟩ => show win0_4.index t (0 : Fin 2) * 2 + 1 * (j 0).val = (j 0).val; omega
  | ⟨1, _⟩ => show win0_4.index t (1 : Fin 2) * 8192 + 1 * (j 1).val = (j 1).val; omega

end AnyContents

section AtIdeal
variable (m : (ℓ : Loc nD τ sig) → Buf (Elt Ideal) ℓ) (ρ : Dev nD → PrngReg) (c : Dev nD)

abbrev batchOf (t : Fin cfg0.N) : Fin 4 := ⟨t.val, t.isLt⟩

theorem hi_block (t : Fin cfg0.N) (ch : Fin 128) (p : Fin 8192) :
    Gen.iblk0 (Gen.V3 m ρ) c 0 t (ix3 (0 : Fin 1) ch p)
      = Cert.Spec.hi (Cert.Spec.argX (RHost.A0 m c) (batchOf t)) ch p :=
  (blk0_0_at (Gen.V3 m ρ) c t ch p).trans (RHost.V3_hi m ρ c (batchOf t) ch p)

theorem x_block (t : Fin cfg0.N) (ch : Fin 128) (p : Fin 8192) :
    Gen.iblk0 (Gen.V3 m ρ) c 1 t (ix3 (0 : Fin 1) ch p) = Cert.Spec.argX (RHost.A0 m c) (batchOf t) ch p :=
  (blk0_1_at (Gen.V3 m ρ) c t ch p).trans (RHost.V3_x m ρ c (batchOf t) ch p)

theorem gram_block (t : Fin cfg0.N) (i j : Fin 128) :
    Gen.iblk0 (Gen.V3 m ρ) c 2 t (ix2 i j) = Cert.Spec.gram (Cert.Spec.argW (RHost.A1 m c)) i j :=
  (congrFun (blk0_2 (Gen.V3 m ρ) c t) (ix2 i j)).trans (RHost.V3_M m ρ c i j)

theorem taps_block (t : Fin cfg0.N) (di dj : Fin 3) (f ch : Fin 128) :
    Gen.iblk0 (Gen.V3 m ρ) c 3 t (ix3 (⟨3 * di.val + dj.val, by omega⟩ : Fin 9) f ch)
      = Cert.Spec.argCw (RHost.A2 m c) f ch di dj :=
  (congrFun (blk0_3 (Gen.V3 m ρ) c t) (ix3 (⟨3 * di.val + dj.val, by omega⟩ : Fin 9) f ch)).trans
    (RHost.V3_w m ρ c di dj f ch)

theorem mask_block (t : Fin cfg0.N) (r : Fin 2) (p : Fin 8192) :
    Gen.iblk0 (Gen.V3 m ρ) c 4 t (ix2 r p) = (Gen.V3 m ρ c main_v25 : FVec Ideal S2x8192 .f32) (ix2 r p) :=
  congrFun (blk0_4 (Gen.V3 m ρ) c t) (ix2 r p)

end AtIdeal

end Cert.ReferenceIdeal.RBlk

end
-- ==== Proof.RPoh.lean ====
import Idealize.ShloMosaic.PureOps.Ideal
import Idealize.ShloMosaic.PureOps.Ideal.Laws
import Idealize.ShloMosaic.Lib.ValueIdx
import Idealize.ShloMosaic.Lib.Pipeline.Value
import proofs.«135277_g2000205747536381_pallasbulk_86_37_alg».proof.Proof.Gen.ReferenceIdeal.Skeleton
import proofs.«135277_g2000205747536381_pallasbulk_86_37_alg».proof.Proof.Spec
import proofs.«135277_g2000205747536381_pallasbulk_86_37_alg».proof.Proof.LibMath

noncomputable section

namespace Cert.ReferenceIdeal.RPoh

open Idealize.ShloMosaic Idealize.ShloMosaic.ValueIdx Cert.ReferenceIdeal Cert.ReferenceIdeal.Gen Cert.LibMath

theorem select_gt {α : Type} (v b : EReal) (x y : α) :
    Scalar.select (Ideal.cmp .ogt v b) x y = if b < v then x else y := by
  unfold Scalar.select Ideal.cmp
  by_cases h : b < v <;> simp [h]

-- Every row of the 128 × 8192 array is a block of it.
theorem slices_row (c : ℕ) (hc : c < 128) : S128x8192.Slices ![c, 0] S1x8192 :=
  ⟨rfl, fun a => by
    match a with
    | ⟨0, _⟩ => show c + 1 ≤ 128; omega
    | ⟨1, _⟩ => show 0 + 8192 ≤ 8192; omega⟩

theorem row_at (v1 : FVec Ideal S128x8192 .f32) (c : ℕ) (hc : c < 128) (p : Fin 8192) :
    extractStridedSlice S1x8192 ![c, 0] v1 (slices_row c hc) (ix2 0 p) = v1 (ix2 (⟨c, hc⟩ : Fin 128) p) := by
  refine extractStridedSlice_apply ![c, 0] v1 (slices_row c hc) (ix2 0 p) (ix2 (⟨c, hc⟩ : Fin 128) p) fun a => ?_
  match a with
  | ⟨0, _⟩ => rfl
  | ⟨1, _⟩ => show p.val = 0 + p.val; omega

theorem pay2_at (v0 : Vec Ideal S1x128x8192 .f32) (c : Fin 128) (p : Fin 8192) :
    k0_pay2 v0 (ix2 c p) = v0 (ix3 0 c p) := by
  unfold k0_pay2
  refine shapeCast_apply v0 _ (ix2 c p) (ix3 0 c p) ?_
  rw [Shape.rowMajor_val_three, Shape.rowMajor_val_two]
  simp

-- At pixel `p`, `best` and `idx` hold the first maximum of `s 0 … s n` and where it is.
abbrev Inv (s : ℕ → EReal) (p : Fin 8192) (n : ℕ) (best : FVec Ideal S1x8192 .f32) (idx : IVec S1x8192 32) : Prop :=
  best (ix2 0 p) = scanBest s n ∧ idx (ix2 0 p) = BitVec.ofNat 32 (scanIdx s n)

-- One step of the scan: row `n + 1` takes over exactly when it is strictly larger.
theorem step (s : ℕ → EReal) (p : Fin 8192) (v1 : FVec Ideal S128x8192 .f32)
    (hv : ∀ (c : ℕ) (hc : c < 128), v1 (ix2 (⟨c, hc⟩ : Fin 128) p) = s c) (n : ℕ)
    {best : FVec Ideal S1x8192 .f32} {idx : IVec S1x8192 32} (h : Inv s p n best idx) (hn : n + 1 < 128 := by omega) :
    Inv s p (n + 1)
      (select (cmpf .ogt (extractStridedSlice S1x8192 ![n + 1, 0] v1 (slices_row _ hn)) best) (extractStridedSlice S1x8192 ![n + 1, 0] v1 (slices_row _ hn)) best)
      (select (cmpf .ogt (extractStridedSlice S1x8192 ![n + 1, 0] v1 (slices_row _ hn)) best) (broadcast S1x8192 (BitVec.ofNat 32 (n + 1))) idx) := by
  have hrow := (row_at v1 _ hn p).trans (hv _ hn)
  constructor
  · rw [select_apply, cmpf_apply, Ideal.cmpf_def, select_gt, hrow, h.1, scanBest_succ]
  · rw [select_apply, cmpf_apply, Ideal.cmpf_def, select_gt, hrow, h.1, h.2, broadcast_apply, scanIdx_succ]
    split_ifs <;> rfl

section Chain
variable (v0 : Vec Ideal S1x128x8192 .f32)

def best1 : FVec Ideal S1x8192 .f32 := k0_pay26 v0

def idx1 : IVec S1x8192 32 := k0_pay27 v0

def best2 : FVec Ideal S1x8192 .f32 := k0_pay57 (k0_pay2 v0) (best1 v0)

def idx2 : IVec S1x8192 32 := k0_pay58 (k0_pay2 v0) (best1 v0) (idx1 v0)

def best3 : FVec Ideal S1x8192 .f32 := k0_pay88 (k0_pay2 v0) (best2 v0)

def idx3 : IVec S1x8192 32 := k0_pay89 (k0_pay2 v0) (best2 v0) (idx2 v0)

def best4 : FVec Ideal S1x8192 .f32 := k0_pay119 (k0_pay2 v0) (best3 v0)

def idx4 : IVec S1x8192 32 := k0_pay120 (k0_pay2 v0) (best3 v0) (idx3 v0)

def best5 : FVec Ideal S1x8192 .f32 := k0_pay150 (k0_pay2 v0) (best4 v0)

def idx5 : IVec S1x8192 32 := k0_pay151 (k0_pay2 v0) (best4 v0) (idx4 v0)

def best6 : FVec Ideal S1x8192 .f32 := k0_pay181 (k0_pay2 v0) (best5 v0)

def idx6 : IVec S1x8192 32 := k0_pay182 (k0_pay2 v0) (best5 v0) (idx5 v0)

def best7 : FVec Ideal S1x8192 .f32 := k0_pay212 (k0_pay2 v0) (best6 v0)

def idx7 : IVec S1x8192 32 := k0_pay213 (k0_pay2 v0) (best6 v0) (idx6 v0)

def best8 : FVec Ideal S1x8192 .f32 := k0_pay243 (k0_pay2 v0) (best7 v0)

def idx8 : IVec S1x8192 32 := k0_pay244 (k0_pay2 v0) (best7 v0) (idx7 v0)

def best9 : FVec Ideal S1x8192 .f32 := k0_pay274 (k0_pay2 v0) (best8 v0)

def idx9 : IVec S1x8192 32 := k0_pay275 (k0_pay2 v0) (best8 v0) (idx8 v0)

def best10 : FVec Ideal S1x8192 .f32 := k0_pay305 (k0_pay2 v0) (best9 v0)

def idx10 : IVec S1x8192 32 := k0_pay306 (k0_pay2 v0) (best9 v0) (idx9 v0)

def best11 : FVec Ideal S1x8192 .f32 := k0_pay336 (k0_pay2 v0) (best10 v0)

def idx11 : IVec S1x8192 32 := k0_pay337 (k0_pay2 v0) (best10 v0) (idx10 v0)

def best12 : FVec Ideal S1x8192 .f32 := k0_pay367 (k0_pay2 v0) (best11 v0)

def idx12 : IVec S1x8192 32 := k0_pay368 (k0_pay2 v0) (best11 v0) (idx11 v0)

def idxLast : IVec S1x8192 32 := k0_pay369 (k0_pay2 v0) (best12 v0) (idx12 v0)

-- All 127 steps, peeled off one at a time from the last stage down to row 0.
theorem chainLast (s : ℕ → EReal) (p : Fin 8192)
    (hv : ∀ (c : ℕ) (hc : c < 128), k0_pay2 v0 (ix2 (⟨c, hc⟩ : Fin 128) p) = s c) :
    idxLast v0 (ix2 0 p) = BitVec.ofNat 32 (scanIdx s 127) := by
  apply And.right
  iterate 127 refine step s p (k0_pay2 v0) hv _ ?_
  exact ⟨(row_at (k0_pay2 v0) 0 (by omega) p).trans (hv 0 _), rfl⟩

end Chain

theorem idxLast_hi (x : Fin 128 → Fin 8192 → EReal) (v0 : Vec Ideal S1x128x8192 .f32) (p : Fin 8192)
    (hv0 : ∀ c : Fin 128, v0 (ix3 0 c p) = Spec.hi x c p) :
    idxLast v0 (ix2 0 p) = BitVec.ofNat 32 (scanIdx (Spec.hiSeq x p) 127) :=
  chainLast v0 (Spec.hiSeq x p) p fun c hc => by rw [pay2_at, hv0, Spec.hiSeq, dif_pos hc]

end Cert.ReferenceIdeal.RPoh

end
-- ==== Proof.RPmid.lean ====
import Mathlib.Data.EReal.Basic
import Mathlib.Data.EReal.Operations
import Mathlib.Algebra.BigOperators.Group.Finset.Basic
import Idealize.ShloMosaic.PureOps.Ideal
import Idealize.ShloMosaic.PureOps.Ideal.Laws
import Idealize.ShloMosaic.Lib.ValueIdx
import Idealize.ShloMosaic.Lib.Pipeline.Value
import Idealize.ShloMosaic.Lib.Affine
import proofs.«135277_g2000205747536381_pallasbulk_86_37_alg».proof.Proof.Gen.ReferenceIdeal.Skeleton
import proofs.«135277_g2000205747536381_pallasbulk_86_37_alg».proof.Proof.Spec
import proofs.«135277_g2000205747536381_pallasbulk_86_37_alg».proof.Proof.LibMath
import proofs.«135277_g2000205747536381_pallasbulk_86_37_alg».proof.Proof.LibShared

noncomputable section

namespace Cert.ReferenceIdeal.RPmid

open Idealize.ShloMosaic Idealize.ShloMosaic.ValueIdx Finset

export Cert.LibShared (matmul1_apply ofBits_one ofBits_two)

theorem bit_to_float (b : BitVec 1) :
    (FloatOps.sitofp .f32 (b.setWidth 32) : Ideal .f32) = if b = 1#1 then (1 : EReal) else 0 := by
  rcases BitVec.eq_zero_or_eq_one b with h | h
  · rw [h, if_neg (by decide)]
    show ((((0#1 : BitVec 1).setWidth 32).toInt : ℝ) : EReal) = 0
    rw [show ((0#1 : BitVec 1).setWidth 32).toInt = 0 by decide]
    simp
  · rw [h, if_pos rfl]
    show ((((1#1 : BitVec 1).setWidth 32).toInt : ℝ) : EReal) = 1
    rw [show ((1#1 : BitVec 1).setWidth 32).toInt = 1 by decide]
    simp

theorem cmpi_eq_float (a b : BitVec 32) :
    (FloatOps.sitofp .f32 ((IntOp.cmpi .eq a b).setWidth 32) : Ideal .f32) = if a = b then (1 : EReal) else 0 := by
  rw [bit_to_float]
  exact if_congr IntOp.cmpi_eq rfl rfl

theorem cmpf_oeq_float (a b : EReal) [Decidable (a = b)] :
    (FloatOps.sitofp .f32 ((FloatOps.cmpf (F := Ideal) (φ := .f32) .oeq a b).setWidth 32) : Ideal .f32)
      = if a = b then (1 : EReal) else 0 := by
  rw [bit_to_float]
  refine if_congr ?_ rfl rfl
  show Ideal.cmp .oeq a b = 1#1 ↔ a = b
  unfold Ideal.cmp
  by_cases h : a = b
  · simp [h]
  · simp [h]

theorem ofNat32_inj {a b : ℕ} (ha : a < 2 ^ 32) (hb : b < 2 ^ 32) : BitVec.ofNat 32 a = BitVec.ofNat 32 b ↔ a = b := by
  constructor
  · intro h
    have h' := congrArg BitVec.toNat h
    simp only [BitVec.toNat_ofNat] at h'
    rw [Nat.mod_eq_of_lt ha, Nat.mod_eq_of_lt hb] at h'
    exact h'
  · rintro rfl
    rfl

theorem bcastRow8192_apply {α : Type} (v : S1x8192.Idx → α) (h : S1x8192.Broadcasts S16x8192) (k : Fin 16) (p : Fin 8192) :
    broadcastTo S16x8192 v h (ix2 k p) = v (ix2 (0 : Fin 1) p) :=
  broadcastTo_apply v h (ix2 k p) (ix2 (0 : Fin 1) p) (fun a => by
    match a with
    | ⟨0, _⟩ => rfl
    | ⟨1, _⟩ => rfl)

theorem col16_apply {α : Type} (v : S16.Idx → α) (h : S16.ShapeCasts S16x1) (k : Fin 16) :
    shapeCast S16x1 v h (ix2 k (0 : Fin 1)) = v (ix1 k) :=
  shapeCast_apply v h (ix2 k (0 : Fin 1)) (ix1 k) (by
    rw [Shape.rowMajor_val_one, Shape.rowMajor_val_two]
    show k.val = k.val * 1 + 0
    omega)

theorem row16_apply {α : Type} (v : S16.Idx → α) (h : S16.ShapeCasts S1x16) (l : Fin 16) :
    shapeCast S1x16 v h (ix2 (0 : Fin 1) l) = v (ix1 l) :=
  shapeCast_apply v h (ix2 (0 : Fin 1) l) (ix1 l) (by
    rw [Shape.rowMajor_val_one, Shape.rowMajor_val_two]
    show l.val = 0 * 16 + l.val
    omega)

theorem bcastCol128_apply {α : Type} (v : S16x1.Idx → α) (h : S16x1.Broadcasts S16x128) (k : Fin 16) (c : Fin 128) :
    broadcastTo S16x128 v h (ix2 k c) = v (ix2 k (0 : Fin 1)) :=
  broadcastTo_apply v h (ix2 k c) (ix2 k (0 : Fin 1)) (fun a => by
    match a with
    | ⟨0, _⟩ => rfl
    | ⟨1, _⟩ => rfl)

theorem bcastCol16_apply {α : Type} (v : S16x1.Idx → α) (h : S16x1.Broadcasts S16x16) (k l : Fin 16) :
    broadcastTo S16x16 v h (ix2 k l) = v (ix2 k (0 : Fin 1)) :=
  broadcastTo_apply v h (ix2 k l) (ix2 k (0 : Fin 1)) (fun a => by
    match a with
    | ⟨0, _⟩ => rfl
    | ⟨1, _⟩ => rfl)

theorem bcastRow16_apply {α : Type} (v : S1x16.Idx → α) (h : S1x16.Broadcasts S16x16) (k l : Fin 16) :
    broadcastTo S16x16 v h (ix2 k l) = v (ix2 (0 : Fin 1) l) :=
  broadcastTo_apply v h (ix2 k l) (ix2 (0 : Fin 1) l) (fun a => by
    match a with
    | ⟨0, _⟩ => rfl
    | ⟨1, _⟩ => rfl)

theorem sumPixels_apply (src : FVec Ideal S16x8192 .f32) (h : S16x8192.Reduces [1] S16) (hφ : FKind.Formats .f32)
    (hacc : (0x00000000#32 : BitVec 32) = 0x00000000#32) (k : Fin 16) :
    multiReduction .add [1] S16 src 0x00000000#32 h hφ hacc (ix1 k) = ∑ p : Fin 8192, src (ix2 k p) := by
  refine (Ideal.multiReduction_add_single src 0x00000000#32 h hφ hacc (ix1 k)).trans ?_
  refine Finset.sum_congr rfl fun p _ => congrArg src ?_
  funext d
  refine Fin.ext ?_
  match d with
  | ⟨0, _⟩ => rfl
  | ⟨1, _⟩ => rfl

theorem sumRow16_apply (src : FVec Ideal S16x16 .f32) (h : S16x16.Reduces [1] S16) (hφ : FKind.Formats .f32)
    (hacc : (0x00000000#32 : BitVec 32) = 0x00000000#32) (k : Fin 16) :
    multiReduction .add [1] S16 src 0x00000000#32 h hφ hacc (ix1 k) = ∑ l : Fin 16, src (ix2 k l) := by
  refine (Ideal.multiReduction_add_single src 0x00000000#32 h hφ hacc (ix1 k)).trans ?_
  refine Finset.sum_congr rfl fun l _ => congrArg src ?_
  funext d
  refine Fin.ext ?_
  match d with
  | ⟨0, _⟩ => rfl
  | ⟨1, _⟩ => rfl

theorem sumCol16_apply (src : FVec Ideal S16x16 .f32) (h : S16x16.Reduces [0] S16) (hφ : FKind.Formats .f32)
    (hacc : (0x00000000#32 : BitVec 32) = 0x00000000#32) (l : Fin 16) :
    multiReduction .add [0] S16 src 0x00000000#32 h hφ hacc (ix1 l) = ∑ k : Fin 16, src (ix2 k l) := by
  refine (Ideal.multiReduction_add_single src 0x00000000#32 h hφ hacc (ix1 l)).trans ?_
  refine Finset.sum_congr rfl fun k _ => congrArg src ?_
  funext d
  refine Fin.ext ?_
  match d with
  | ⟨0, _⟩ => rfl
  | ⟨1, _⟩ => rfl

theorem dotSums_apply (L : FVec Ideal S16x8192 .f32) (R : FVec Ideal S128x8192 .f32) (a : Fin 16) (c : Fin 128) :
    matmul dot_S16x8192_S128x8192_S16x128_1_1_0_0_n_n none L R (constant (F := Ideal) S16x128 .f32 0x00000000#32) (ix2 a c)
      = ∑ k : Fin 8192, L (ix2 a k) * R (ix2 c k) :=
  matmul1_apply dot_S16x8192_S128x8192_S16x128_1_1_0_0_n_n 8192 rfl rfl L R _ (fun k => ix2 a k) (fun k => ix2 c k)
    (fun q => funext fun d => Fin.ext (match d with | ⟨0, _⟩ => rfl | ⟨1, _⟩ => DotDims.lhsIdx_val_of_single _ rfl _ q))
    (fun q => funext fun d => Fin.ext (match d with | ⟨0, _⟩ => rfl | ⟨1, _⟩ => DotDims.rhsIdx_val_of_single _ rfl _ q))

theorem dotQ_apply (L : FVec Ideal S16x128 .f32) (R : FVec Ideal S128x128 .f32) (a : Fin 16) (c : Fin 128) :
    matmul dot_S16x128_S128x128_S16x128_1_0_0_1_n_n none L R (constant (F := Ideal) S16x128 .f32 0x00000000#32) (ix2 a c)
      = ∑ k : Fin 128, L (ix2 a k) * R (ix2 k c) :=
  matmul1_apply dot_S16x128_S128x128_S16x128_1_0_0_1_n_n 128 rfl rfl L R _ (fun k => ix2 a k) (fun k => ix2 k c)
    (fun q => funext fun d => Fin.ext (match d with | ⟨0, _⟩ => rfl | ⟨1, _⟩ => DotDims.lhsIdx_val_of_single _ rfl _ q))
    (fun q => funext fun d => Fin.ext (match d with | ⟨1, _⟩ => rfl | ⟨0, _⟩ => DotDims.rhsIdx_val_of_single _ rfl _ q))

theorem dotG_apply (L : FVec Ideal S16x128 .f32) (R : FVec Ideal S16x128 .f32) (a : Fin 16) (b : Fin 16) :
    matmul dot_S16x128_S16x128_S16x16_1_1_0_0_n_n none L R (constant (F := Ideal) S16x16 .f32 0x00000000#32) (ix2 a b)
      = ∑ k : Fin 128, L (ix2 a k) * R (ix2 b k) :=
  matmul1_apply dot_S16x128_S16x128_S16x16_1_1_0_0_n_n 128 rfl rfl L R _ (fun k => ix2 a k) (fun k => ix2 b k)
    (fun q => funext fun d => Fin.ext (match d with | ⟨0, _⟩ => rfl | ⟨1, _⟩ => DotDims.lhsIdx_val_of_single _ rfl _ q))
    (fun q => funext fun d => Fin.ext (match d with | ⟨0, _⟩ => rfl | ⟨1, _⟩ => DotDims.rhsIdx_val_of_single _ rfl _ q))

theorem dotAdjm_apply (L : FVec Ideal S16x16 .f32) (R : FVec Ideal S16x128 .f32) (a : Fin 16) (c : Fin 128) :
    matmul dot_S16x16_S16x128_S16x128_1_0_0_1_n_n none L R (constant (F := Ideal) S16x128 .f32 0x00000000#32) (ix2 a c)
      = ∑ k : Fin 16, L (ix2 a k) * R (ix2 k c) :=
  matmul1_apply dot_S16x16_S16x128_S16x128_1_0_0_1_n_n 16 rfl rfl L R _ (fun k => ix2 a k) (fun k => ix2 k c)
    (fun q => funext fun d => Fin.ext (match d with | ⟨0, _⟩ => rfl | ⟨1, _⟩ => DotDims.lhsIdx_val_of_single _ rfl _ q))
    (fun q => funext fun d => Fin.ext (match d with | ⟨1, _⟩ => rfl | ⟨0, _⟩ => DotDims.rhsIdx_val_of_single _ rfl _ q))

theorem dotMix_apply (L : FVec Ideal S16x128 .f32) (R : FVec Ideal S16x8192 .f32) (c : Fin 128) (p : Fin 8192) :
    matmul dot_S16x128_S16x8192_S128x8192_0_0_1_1_n_n none L R (constant (F := Ideal) S128x8192 .f32 0x00000000#32) (ix2 c p)
      = ∑ k : Fin 16, L (ix2 k c) * R (ix2 k p) :=
  matmul1_apply dot_S16x128_S16x8192_S128x8192_0_0_1_1_n_n 16 rfl rfl L R _ (fun k => ix2 k c) (fun k => ix2 k p)
    (fun q => funext fun d => Fin.ext (match d with | ⟨1, _⟩ => rfl | ⟨0, _⟩ => DotDims.lhsIdx_val_of_single _ rfl _ q))
    (fun q => funext fun d => Fin.ext (match d with | ⟨1, _⟩ => rfl | ⟨0, _⟩ => DotDims.rhsIdx_val_of_single _ rfl _ q))

def ohV (v641 : IVec S1x8192 32) (v642 : IVec S16x8192 32) : FVec Ideal S16x8192 .f32 :=
  sitofp .f32 (extui 32 (cmpi .eq v642 (broadcastTo S16x8192 v641 Gen.broadcasts_S1x8192_S16x8192)) Gen.natLt_1_32)

theorem ohV_apply (x : Fin 128 → Fin 8192 → EReal) (v641 : IVec S1x8192 32) (v642 : IVec S16x8192 32)
    (h641 : ∀ p : Fin 8192, v641 (ix2 (0 : Fin 1) p) = BitVec.ofNat 32 (LibMath.scanIdx (Spec.hiSeq x p) 127))
    (h642 : ∀ (k : Fin 16) (p : Fin 8192), v642 (ix2 k p) = BitVec.ofNat 32 k.val) (k : Fin 16) (p : Fin 8192) :
    ohV v641 v642 (ix2 k p) = Spec.oh x k p := by
  show (FloatOps.sitofp .f32 ((IntOp.cmpi .eq (v642 (ix2 k p))
    (broadcastTo S16x8192 v641 Gen.broadcasts_S1x8192_S16x8192 (ix2 k p))).setWidth 32) : Ideal .f32) = _
  rw [cmpi_eq_float, bcastRow8192_apply, h641, h642]
  unfold Spec.oh
  refine if_congr ?_ rfl rfl
  have hle := LibMath.scanIdx_le (Spec.hiSeq x p) 127
  have hk := k.isLt
  rw [ofNat32_inj (by omega) (by omega)]
  exact eq_comm

def countsV (oh : FVec Ideal S16x8192 .f32) : FVec Ideal S16x1 .f32 :=
  shapeCast S16x1 (multiReduction .add [1] S16 oh 0x00000000#32 Gen.reduces_S16x8192_S16 (.inl rfl) rfl) Gen.shapeCasts_S16_S16x1

theorem countsV_apply (oh : FVec Ideal S16x8192 .f32) (k : Fin 16) :
    countsV oh (ix2 k (0 : Fin 1)) = ∑ p : Fin 8192, oh (ix2 k p) :=
  (col16_apply _ _ k).trans (sumPixels_apply oh _ _ _ k)

def divisorV (cnt : FVec Ideal S16x1 .f32) : FVec Ideal S16x1 .f32 :=
  addf cnt (sitofp .f32 (extui 32 (cmpf .oeq cnt (broadcast S16x1 (Scalar.ofBits .f32 0x00000000#32))) Gen.natLt_1_32))

theorem divisorV_apply (cnt : FVec Ideal S16x1 .f32) (i : S16x1.Idx) [Decidable (cnt i = 0)] :
    divisorV cnt i = cnt i + (if cnt i = 0 then 1 else 0) := by
  show cnt i + (FloatOps.sitofp .f32 ((FloatOps.cmpf (F := Ideal) (φ := .f32) .oeq (cnt i)
    (Ideal.ofBits .f32 0x00000000#32)).setWidth 32) : Ideal .f32) = _
  rw [Ideal.ofBits_zero_f32, cmpf_oeq_float]

def meansV (oh : FVec Ideal S16x8192 .f32) (v3 : FVec Ideal S128x8192 .f32) : FVec Ideal S16x128 .f32 :=
  divf (matmul dot_S16x8192_S128x8192_S16x128_1_1_0_0_n_n none oh v3 (constant S16x128 .f32 0x00000000#32))
    (broadcastTo S16x128 (divisorV (countsV oh)) Gen.broadcasts_S16x1_S16x128)

theorem meansV_apply (x : Fin 128 → Fin 8192 → EReal) (oh : FVec Ideal S16x8192 .f32) (v3 : FVec Ideal S128x8192 .f32)
    (hoh : ∀ (k : Fin 16) (p : Fin 8192), oh (ix2 k p) = Spec.oh x k p)
    (h3 : ∀ (c : Fin 128) (p : Fin 8192), v3 (ix2 c p) = x c p) (k : Fin 16) (c : Fin 128) :
    meansV oh v3 (ix2 k c) = Spec.means x k c := by
  show Ideal.div (matmul dot_S16x8192_S128x8192_S16x128_1_1_0_0_n_n none oh v3 (constant (F := Ideal) S16x128 .f32 0x00000000#32) (ix2 k c))
    (broadcastTo S16x128 (divisorV (countsV oh)) Gen.broadcasts_S16x1_S16x128 (ix2 k c)) = _
  rw [dotSums_apply, bcastCol128_apply, divisorV_apply, countsV_apply]
  simp only [hoh, h3]
  rfl

def gV (mu : FVec Ideal S16x128 .f32) (v5 : FVec Ideal S128x128 .f32) : FVec Ideal S16x16 .f32 :=
  matmul dot_S16x128_S16x128_S16x16_1_1_0_0_n_n none (matmul dot_S16x128_S128x128_S16x128_1_0_0_1_n_n none mu v5 (constant S16x128 .f32 0x00000000#32)) mu (constant S16x16 .f32 0x00000000#32)

theorem gV_apply (x : Fin 128 → Fin 8192 → EReal) (M : Fin 128 → Fin 128 → EReal) (mu : FVec Ideal S16x128 .f32)
    (v5 : FVec Ideal S128x128 .f32) (hmu : ∀ (k : Fin 16) (c : Fin 128), mu (ix2 k c) = Spec.means x k c)
    (h5 : ∀ i j : Fin 128, v5 (ix2 i j) = M i j) (k l : Fin 16) : gV mu v5 (ix2 k l) = Spec.g x M k l := by
  unfold gV
  rw [dotG_apply]
  unfold Spec.g Spec.q
  refine Finset.sum_congr rfl fun c _ => ?_
  rw [dotQ_apply]
  simp only [hmu, h5]

def eyeV : FVec Ideal S16x16 .f32 :=
  sitofp .f32 (extui 32 (cmpi .eq (iota .tc S16x16 32 [0] Gen.iota_S16x16_d0_w32)
    (iota .tc S16x16 32 [1] Gen.iota_S16x16_d1_w32)) Gen.natLt_1_32)

theorem eyeV_apply (k l : Fin 16) : eyeV (ix2 k l) = Spec.eye k l := by
  show (FloatOps.sitofp .f32 ((IntOp.cmpi .eq (iota .tc S16x16 32 [0] Gen.iota_S16x16_d0_w32 (ix2 k l))
    (iota .tc S16x16 32 [1] Gen.iota_S16x16_d1_w32 (ix2 k l))).setWidth 32) : Ideal .f32) = _
  rw [cmpi_eq_float, iota_single_apply, iota_single_apply]
  unfold Spec.eye
  refine if_congr ?_ rfl rfl
  show BitVec.ofNat 32 k.val = BitVec.ofNat 32 l.val ↔ k = l
  have hk := k.isLt
  have hl := l.isLt
  rw [ofNat32_inj (by omega) (by omega)]
  exact Fin.val_inj

def dcolV (g eye : FVec Ideal S16x16 .f32) : FVec Ideal S16x1 .f32 :=
  shapeCast S16x1 (multiReduction .add [1] S16 (mulf g eye) 0x00000000#32 Gen.reduces_S16x16_S16 (.inl rfl) rfl)
    Gen.shapeCasts_S16_S16x1

theorem dcolV_apply (g eye : FVec Ideal S16x16 .f32) (k : Fin 16) :
    dcolV g eye (ix2 k (0 : Fin 1)) = ∑ l : Fin 16, g (ix2 k l) * eye (ix2 k l) :=
  (col16_apply _ _ k).trans (sumRow16_apply (mulf g eye) _ _ _ k)

def drowV (g eye : FVec Ideal S16x16 .f32) : FVec Ideal S1x16 .f32 :=
  shapeCast S1x16 (multiReduction .add [0] S16 (mulf g eye) 0x00000000#32 Gen.reduces_S16x16_S16_2 (.inl rfl) rfl)
    Gen.shapeCasts_S16_S1x16

theorem drowV_apply (g eye : FVec Ideal S16x16 .f32) (l : Fin 16) :
    drowV g eye (ix2 (0 : Fin 1) l) = ∑ k : Fin 16, g (ix2 k l) * eye (ix2 k l) :=
  (row16_apply _ _ l).trans (sumCol16_apply (mulf g eye) _ _ _ l)

def adjV (g eye : FVec Ideal S16x16 .f32) : FVec Ideal S16x16 .f32 :=
  mulf (exp (subf (broadcast S16x16 (Scalar.ofBits .f32 0x00000000#32))
      (subf (addf (broadcastTo S16x16 (dcolV g eye) Gen.broadcasts_S16x1_S16x16)
          (broadcastTo S16x16 (drowV g eye) Gen.broadcasts_S1x16_S16x16))
        (mulf (broadcast S16x16 (Scalar.ofBits .f32 0x40000000#32)) g))))
    (subf (broadcast S16x16 (Scalar.ofBits .f32 0x3F800000#32)) eye)

theorem adjV_apply (x : Fin 128 → Fin 8192 → EReal) (M : Fin 128 → Fin 128 → EReal) (g eye : FVec Ideal S16x16 .f32)
    (hg : ∀ k l : Fin 16, g (ix2 k l) = Spec.g x M k l) (heye : ∀ k l : Fin 16, eye (ix2 k l) = Spec.eye k l)
    (k l : Fin 16) : adjV g eye (ix2 k l) = Spec.adj x M k l := by
  show Ideal.exp (Ideal.ofBits .f32 0x00000000#32
      - ((broadcastTo S16x16 (dcolV g eye) Gen.broadcasts_S16x1_S16x16 (ix2 k l)
          + broadcastTo S16x16 (drowV g eye) Gen.broadcasts_S1x16_S16x16 (ix2 k l))
        - Ideal.ofBits .f32 0x40000000#32 * g (ix2 k l)))
    * (Ideal.ofBits .f32 0x3F800000#32 - eye (ix2 k l)) = _
  rw [Ideal.ofBits_zero_f32, ofBits_two, ofBits_one, bcastCol16_apply, bcastRow16_apply, dcolV_apply, drowV_apply]
  simp only [hg, heye]
  rfl

def featV (v3 : FVec Ideal S128x8192 .f32) (adj : FVec Ideal S16x16 .f32) (mu : FVec Ideal S16x128 .f32)
    (oh : FVec Ideal S16x8192 .f32) : FVec Ideal S128x8192 .f32 :=
  addf v3 (matmul dot_S16x128_S16x8192_S128x8192_0_0_1_1_n_n none (matmul dot_S16x16_S16x128_S16x128_1_0_0_1_n_n none adj mu (constant S16x128 .f32 0x00000000#32)) oh (constant S128x8192 .f32 0x00000000#32))

theorem featV_apply (x : Fin 128 → Fin 8192 → EReal) (M : Fin 128 → Fin 128 → EReal) (v3 : FVec Ideal S128x8192 .f32)
    (adj : FVec Ideal S16x16 .f32) (mu : FVec Ideal S16x128 .f32) (oh : FVec Ideal S16x8192 .f32)
    (h3 : ∀ (c : Fin 128) (p : Fin 8192), v3 (ix2 c p) = x c p)
    (hadj : ∀ k l : Fin 16, adj (ix2 k l) = Spec.adj x M k l)
    (hmu : ∀ (k : Fin 16) (c : Fin 128), mu (ix2 k c) = Spec.means x k c)
    (hoh : ∀ (k : Fin 16) (p : Fin 8192), oh (ix2 k p) = Spec.oh x k p) (c : Fin 128) (p : Fin 8192) :
    featV v3 adj mu oh (ix2 c p) = Spec.feat x M c p := by
  show v3 (ix2 c p) + matmul dot_S16x128_S16x8192_S128x8192_0_0_1_1_n_n none (matmul dot_S16x16_S16x128_S16x128_1_0_0_1_n_n none adj mu (constant (F := Ideal) S16x128 .f32 0x00000000#32)) oh
    (constant (F := Ideal) S128x8192 .f32 0x00000000#32) (ix2 c p) = _
  rw [dotMix_apply, h3]
  unfold Spec.feat Spec.adjm
  refine congrArg (fun s => x c p + s) ?_
  refine Finset.sum_congr rfl fun k _ => ?_
  rw [dotAdjm_apply, hoh]
  simp only [hadj, hmu]

theorem pay370_eq (v3 : FVec Ideal S128x8192 .f32) (v5 : FVec Ideal S128x128 .f32) (v641 : IVec S1x8192 32)
    (v642 : IVec S16x8192 32) :
    Gen.k0_pay370 (F := Ideal) v3 v5 v641 v642
      = featV v3 (adjV (gV (meansV (ohV v641 v642) v3) v5) eyeV) (meansV (ohV v641 v642) v3) (ohV v641 v642) := rfl

theorem pay370_apply (x : Fin 128 → Fin 8192 → EReal) (M : Fin 128 → Fin 128 → EReal)
    (v3 : FVec Ideal S128x8192 .f32) (v5 : FVec Ideal S128x128 .f32) (v641 : IVec S1x8192 32) (v642 : IVec S16x8192 32)
    (h3 : ∀ (c : Fin 128) (p : Fin 8192), v3 (ix2 c p) = x c p)
    (h5 : ∀ i j : Fin 128, v5 (ix2 i j) = M i j)
    (h641 : ∀ p : Fin 8192, v641 (ix2 (0 : Fin 1) p) = BitVec.ofNat 32 (LibMath.scanIdx (Spec.hiSeq x p) 127))
    (h642 : ∀ (k : Fin 16) (p : Fin 8192), v642 (ix2 k p) = BitVec.ofNat 32 k.val)
    (c : Fin 128) (p : Fin 8192) :
    Gen.k0_pay370 (F := Ideal) v3 v5 v641 v642 (ix2 c p) = Spec.feat x M c p := by
  rw [pay370_eq]
  have hoh := ohV_apply x v641 v642 h641 h642
  have hmu := meansV_apply x (ohV v641 v642) v3 hoh h3
  have hg := gV_apply x M (meansV (ohV v641 v642) v3) v5 hmu h5
  have hadj := adjV_apply x M (gV (meansV (ohV v641 v642) v3) v5) eyeV hg eyeV_apply
  exact featV_apply x M v3 _ _ _ h3 hadj hmu hoh c p

end Cert.ReferenceIdeal.RPmid

end
-- ==== Proof.RPconv.lean ====
import proofs.«135277_g2000205747536381_pallasbulk_86_37_alg».proof.Proof.Gen.ReferenceIdeal.Skeleton
import proofs.«135277_g2000205747536381_pallasbulk_86_37_alg».proof.Proof.Spec
import Idealize.ShloMosaic.Lib.Pipeline.Value
import Idealize.ShloMosaic.PureOps.Ideal.Laws

noncomputable section

namespace Cert.ReferenceIdeal.RPconv

open Idealize.ShloMosaic Idealize.ShloMosaic.ValueIdx Finset
open Cert.ReferenceIdeal Cert.ReferenceIdeal.Gen

def pad (ft : Fin 128 → Fin 8192 → EReal) (c : Fin 128) (n : ℕ) : EReal :=
  if h : 129 ≤ n ∧ n ≤ 8320 then ft c ⟨n - 129, by omega⟩ else 0

variable (ft : Fin 128 → Fin 8192 → EReal) (cw : Fin 128 → Fin 128 → Fin 3 → Fin 3 → EReal)

theorem slice_mid (c : Fin 128) (p : Fin 8192) (di dj : Fin 3) (off : ℕ) (hoff : off = 128 * di.val + 1) (hdj : dj.val = 1) :
    pad ft c (off + p.val) = Spec.tap ft c p di dj := by
  have hp := p.isLt
  have hd := di.isLt
  subst hoff
  unfold pad Spec.tap
  split_ifs with h1 h2 h2
  · refine congrArg (ft c) (Fin.ext ?_)
    show 128 * di.val + 1 + p.val - 129 = 128 * (p.val / 128 + di.val - 1) + (p.val % 128 + dj.val - 1)
    omega
  · exfalso; omega
  · exfalso; omega
  · rfl

theorem slice_left (c : Fin 128) (p : Fin 8192) (di dj : Fin 3) (off : ℕ) (hoff : off = 128 * di.val) (hdj : dj.val = 0) :
    pad ft c (off + p.val) * (if p.val % 128 = 0 then 0 else 1) = Spec.tap ft c p di dj := by
  have hp := p.isLt
  have hd := di.isLt
  subst hoff
  by_cases h0 : p.val % 128 = 0
  · rw [if_pos h0, mul_zero]
    unfold Spec.tap
    split_ifs with h2
    · exfalso; omega
    · rfl
  · rw [if_neg h0, mul_one]
    unfold pad Spec.tap
    split_ifs with h1 h2 h2
    · refine congrArg (ft c) (Fin.ext ?_)
      show 128 * di.val + p.val - 129 = 128 * (p.val / 128 + di.val - 1) + (p.val % 128 + dj.val - 1)
      omega
    · exfalso; omega
    · exfalso; omega
    · rfl

theorem slice_right (c : Fin 128) (p : Fin 8192) (di dj : Fin 3) (off : ℕ) (hoff : off = 128 * di.val + 2) (hdj : dj.val = 2) :
    pad ft c (off + p.val) * (if p.val % 128 = 127 then 0 else 1) = Spec.tap ft c p di dj := by
  have hp := p.isLt
  have hd := di.isLt
  subst hoff
  by_cases h0 : p.val % 128 = 127
  · rw [if_pos h0, mul_zero]
    unfold Spec.tap
    split_ifs with h2
    · exfalso; omega
    · rfl
  · rw [if_neg h0, mul_one]
    unfold pad Spec.tap
    split_ifs with h1 h2 h2
    · refine congrArg (ft c) (Fin.ext ?_)
      show 128 * di.val + 2 + p.val - 129 = 128 * (p.val / 128 + di.val - 1) + (p.val % 128 + dj.val - 1)
      omega
    · exfalso; omega
    · exfalso; omega
    · rfl

def term (f : Fin 128) (p : Fin 8192) (di dj : Fin 3) : EReal := ∑ c : Fin 128, cw f c di dj * Spec.tap ft c p di dj

theorem conv_eq_terms (f : Fin 128) (p : Fin 8192) :
    Spec.conv cw ft f p = term ft cw f p 0 0 + term ft cw f p 0 1 + term ft cw f p 0 2 + term ft cw f p 1 0 + term ft cw f p 1 1
      + term ft cw f p 1 2 + term ft cw f p 2 0 + term ft cw f p 2 1 + term ft cw f p 2 2 := by
  unfold Spec.conv term
  simp only [Fin.sum_univ_three, add_assoc]

abbrev D : DotDims S128x128 S128x8192 S128x8192 := dot_S128x128_S128x8192_S128x8192_1_0_0_1_n_n

def chan : D.contr.Idx ≃ Fin 128 := contrEquiv1 D 128 rfl rfl

theorem lhsIdx_chan (f : Fin 128) (p : Fin 8192) (c : Fin 128) : D.lhsIdx (ix2 f p) (chan.symm c) = ix2 f c := by
  funext a
  match a with
  | ⟨0, _⟩ => rfl
  | ⟨1, _⟩ => rfl

theorem rhsIdx_chan (f : Fin 128) (p : Fin 8192) (c : Fin 128) : D.rhsIdx (ix2 f p) (chan.symm c) = ix2 c p := by
  funext a
  match a with
  | ⟨0, _⟩ => rfl
  | ⟨1, _⟩ => rfl

theorem slab_apply (W : Vec Ideal S1x128x128 .f32) (f c : Fin 128) :
    shapeCast S128x128 W shapeCasts_S1x128x128_S128x128 (ix2 f c) = W (ix3 (0 : Fin 1) f c) := by
  refine shapeCast_apply W _ (ix2 f c) (ix3 (0 : Fin 1) f c) ?_
  rw [Shape.rowMajor_val_three, Shape.rowMajor_val_two]
  show (0 * 128 + f.val) * 128 + c.val = f.val * 128 + c.val
  omega

theorem maskRow_apply (m : Vec Ideal S1x8192 .f32) (c : Fin 128) (p : Fin 8192) :
    broadcastTo S128x8192 (shapeCast S1x8192 m shapeCasts_S1x8192_S1x8192) broadcasts_S1x8192_S128x8192 (ix2 c p)
      = m (ix2 (0 : Fin 1) p) := by
  rw [shapeCast_self]
  exact broadcastTo_apply m _ (ix2 c p) (ix2 (0 : Fin 1) p) fun a =>
    match a with
    | ⟨0, _⟩ => rfl
    | ⟨1, _⟩ => rfl

theorem matmul_zero_apply (W : FVec Ideal S128x128 .f32) (S : FVec Ideal S128x8192 .f32) (f : Fin 128) (p : Fin 8192) :
    matmul D none W S (constant S128x8192 .f32 0x00000000#32) (ix2 f p) = ∑ c : Fin 128, W (ix2 f c) * S (ix2 c p) := by
  refine (Ideal.matmul_constant_zero_apply D none W S (ix2 f p)).trans ?_
  rw [← Equiv.sum_comp chan.symm]
  refine Finset.sum_congr rfl fun c _ => ?_
  rw [lhsIdx_chan, rhsIdx_chan]

theorem tap_plain (W : FVec Ideal S1x128x128 .f32) (S : FVec Ideal S128x8192 .f32) (di dj : Fin 3)
    (hW : ∀ f c : Fin 128, W (ix3 (0 : Fin 1) f c) = cw f c di dj)
    (hS : ∀ (c : Fin 128) (p : Fin 8192), S (ix2 c p) = Spec.tap ft c p di dj) (f : Fin 128) (p : Fin 8192) :
    matmul (F := Ideal) (φ₁ := .f32) (φ₂ := .f32) D none (shapeCast S128x128 W shapeCasts_S1x128x128_S128x128) S
        (constant S128x8192 .f32 0x00000000#32) (ix2 f p)
      = term ft cw f p di dj := by
  refine (matmul_zero_apply _ S f p).trans ?_
  unfold term
  refine Finset.sum_congr rfl fun c _ => ?_
  rw [slab_apply, hW, hS]

theorem tap_masked (W : FVec Ideal S1x128x128 .f32) (S : FVec Ideal S128x8192 .f32) (m : FVec Ideal S1x8192 .f32) (di dj : Fin 3)
    (hW : ∀ f c : Fin 128, W (ix3 (0 : Fin 1) f c) = cw f c di dj)
    (hS : ∀ (c : Fin 128) (p : Fin 8192), S (ix2 c p) * m (ix2 (0 : Fin 1) p) = Spec.tap ft c p di dj) (f : Fin 128) (p : Fin 8192) :
    matmul (F := Ideal) (φ₁ := .f32) (φ₂ := .f32) D none (shapeCast S128x128 W shapeCasts_S1x128x128_S128x128)
        (mulf (F := Ideal) (φ := .f32) S
          (broadcastTo S128x8192 (shapeCast S1x8192 m shapeCasts_S1x8192_S1x8192) broadcasts_S1x8192_S128x8192))
        (constant S128x8192 .f32 0x00000000#32) (ix2 f p)
      = term ft cw f p di dj := by
  refine (matmul_zero_apply _ _ f p).trans ?_
  unfold term
  refine Finset.sum_congr rfl fun c _ => ?_
  rw [slab_apply, hW, mulf_apply, maskRow_apply, hS]

abbrev SliceAt (S : Vec Ideal S128x8192 .f32) (off : ℕ) : Prop :=
  ∀ (c : Fin 128) (p : Fin 8192), S (ix2 c p) = pad ft c (off + p.val)

abbrev LeftMask (m : Vec Ideal S1x8192 .f32) : Prop :=
  ∀ p : Fin 8192, m (ix2 (0 : Fin 1) p) = if p.val % 128 = 0 then 0 else 1

abbrev RightMask (m : Vec Ideal S1x8192 .f32) : Prop :=
  ∀ p : Fin 8192, m (ix2 (0 : Fin 1) p) = if p.val % 128 = 127 then 0 else 1

abbrev SlabAt (W : Vec Ideal S1x128x128 .f32) (di dj : Fin 3) : Prop :=
  ∀ f c : Fin 128, W (ix3 (0 : Fin 1) f c) = cw f c di dj

theorem zeros_apply (j : S128x8450.Idx) : Gen.k0_pay372 (Gen.k0_pay371 (F := Ideal)) j = 0 := by
  unfold Gen.k0_pay372 Gen.k0_pay371
  simp only [shapeCast_self, broadcast_apply]
  exact Ideal.ofBits_zero_f32

theorem feat_store_eq (v684 : FVec Ideal S128x8192 .f32) : Gen.k0_pay373 v684 = v684 := by
  unfold Gen.k0_pay373
  exact shapeCast_self _ _

theorem block_apply (v : FVec Ideal S128x8192 .f32) (f : Fin 128) (p : Fin 8192) :
    shapeCast S1x128x8192 v shapeCasts_S128x8192_S1x128x8192 (ix3 (0 : Fin 1) f p) = v (ix2 f p) := by
  refine shapeCast_apply v _ (ix3 (0 : Fin 1) f p) (ix2 f p) ?_
  rw [Shape.rowMajor_val_three, Shape.rowMajor_val_two]
  show f.val * 8192 + p.val = (0 * 128 + f.val) * 8192 + p.val
  omega

section Taps
variable (v693 : Vec Ideal S128x8192 .f32) (v694 : Vec Ideal S1x8192 .f32) (v698 : Vec Ideal S1x128x128 .f32)
  (v702 : Vec Ideal S128x8192 .f32) (v703 : Vec Ideal S1x128x128 .f32) (v707 : Vec Ideal S128x8192 .f32)
  (v708 : Vec Ideal S1x8192 .f32) (v712 : Vec Ideal S1x128x128 .f32) (v715 : FVec Ideal S128x8192 .f32)
  (v716 : Vec Ideal S128x8192 .f32) (v717 : Vec Ideal S1x8192 .f32)
  (v721 : Vec Ideal S1x128x128 .f32) (v725 : Vec Ideal S128x8192 .f32) (v726 : Vec Ideal S1x128x128 .f32)
  (v730 : Vec Ideal S128x8192 .f32) (v731 : Vec Ideal S1x8192 .f32) (v735 : Vec Ideal S1x128x128 .f32)
  (v739 : Vec Ideal S128x8192 .f32) (v740 : Vec Ideal S1x8192 .f32) (v744 : Vec Ideal S1x128x128 .f32)
  (v747 : FVec Ideal S128x8192 .f32) (v748 : Vec Ideal S128x8192 .f32) (v749 : Vec Ideal S1x128x128 .f32)
  (v753 : Vec Ideal S128x8192 .f32) (v754 : Vec Ideal S1x8192 .f32) (v758 : Vec Ideal S1x128x128 .f32)
  (hS0 : SliceAt ft v693 0) (hM0 : LeftMask v694) (hW0 : SlabAt cw v698 0 0)
  (hS1 : SliceAt ft v702 1) (hW1 : SlabAt cw v703 0 1)
  (hS2 : SliceAt ft v707 2) (hM2 : RightMask v708) (hW2 : SlabAt cw v712 0 2)
  (hS3 : SliceAt ft v716 128) (hM3 : LeftMask v717) (hW3 : SlabAt cw v721 1 0)
  (hS4 : SliceAt ft v725 129) (hW4 : SlabAt cw v726 1 1)
  (hS5 : SliceAt ft v730 130) (hM5 : RightMask v731) (hW5 : SlabAt cw v735 1 2)
  (hS6 : SliceAt ft v739 256) (hM6 : LeftMask v740) (hW6 : SlabAt cw v744 2 0)
  (hS7 : SliceAt ft v748 257) (hW7 : SlabAt cw v749 2 1)
  (hS8 : SliceAt ft v753 258) (hM8 : RightMask v754) (hW8 : SlabAt cw v758 2 2)

include hS0 hM0 hW0 hS1 hW1 hS2 hM2 hW2 in
theorem pay374_apply (f : Fin 128) (p : Fin 8192) :
    Gen.k0_pay374 v693 v694 v698 v702 v703 v707 v708 v712 (ix2 f p)
      = term ft cw f p 0 0 + term ft cw f p 0 1 + term ft cw f p 0 2 := by
  have e0 := tap_masked ft cw v698 v693 v694 0 0 hW0
    (fun c p => by rw [hS0 c p, hM0 p]; exact slice_left ft c p 0 0 0 rfl rfl) f p
  have e1 := tap_plain ft cw v703 v702 0 1 hW1 (fun c p => by rw [hS1 c p]; exact slice_mid ft c p 0 1 1 rfl rfl) f p
  have e2 := tap_masked ft cw v712 v707 v708 0 2 hW2
    (fun c p => by rw [hS2 c p, hM2 p]; exact slice_right ft c p 0 2 2 rfl rfl) f p
  unfold Gen.k0_pay374
  simp only [addf_apply, broadcast_apply]
  rw [e0, e1, e2]
  show Ideal.ofBits .f32 0x00000000#32 + _ + _ + _ = _
  rw [Ideal.ofBits_zero_f32, zero_add]

include hS3 hM3 hW3 hS4 hW4 hS5 hM5 hW5 hS6 hM6 hW6 in
theorem pay375_apply (f : Fin 128) (p : Fin 8192) :
    Gen.k0_pay375 v715 v716 v717 v721 v725 v726 v730 v731 v735 v739 v740 v744 (ix2 f p)
      = v715 (ix2 f p) + term ft cw f p 1 0 + term ft cw f p 1 1 + term ft cw f p 1 2 + term ft cw f p 2 0 := by
  have e3 := tap_masked ft cw v721 v716 v717 1 0 hW3
    (fun c p => by rw [hS3 c p, hM3 p]; exact slice_left ft c p 1 0 128 rfl rfl) f p
  have e4 := tap_plain ft cw v726 v725 1 1 hW4 (fun c p => by rw [hS4 c p]; exact slice_mid ft c p 1 1 129 rfl rfl) f p
  have e5 := tap_masked ft cw v735 v730 v731 1 2 hW5
    (fun c p => by rw [hS5 c p, hM5 p]; exact slice_right ft c p 1 2 130 rfl rfl) f p
  have e6 := tap_masked ft cw v744 v739 v740 2 0 hW6
    (fun c p => by rw [hS6 c p, hM6 p]; exact slice_left ft c p 2 0 256 rfl rfl) f p
  unfold Gen.k0_pay375
  simp only [addf_apply]
  rw [e3, e4, e5, e6]

include hS7 hW7 hS8 hM8 hW8 in
theorem pay1_apply (f : Fin 128) (p : Fin 8192) :
    Gen.k0_pay1 v747 v748 v749 v753 v754 v758 (ix3 (0 : Fin 1) f p)
      = v747 (ix2 f p) + term ft cw f p 2 1 + term ft cw f p 2 2 := by
  have e7 := tap_plain ft cw v749 v748 2 1 hW7 (fun c p => by rw [hS7 c p]; exact slice_mid ft c p 2 1 257 rfl rfl) f p
  have e8 := tap_masked ft cw v758 v753 v754 2 2 hW8
    (fun c p => by rw [hS8 c p, hM8 p]; exact slice_right ft c p 2 2 258 rfl rfl) f p
  unfold Gen.k0_pay1
  simp only [block_apply, addf_apply]
  rw [e7, e8]

include hS0 hM0 hW0 hS1 hW1 hS2 hM2 hW2 hS3 hM3 hW3 hS4 hW4 hS5 hM5 hW5 hS6 hM6 hW6 hS7 hW7 hS8 hM8 hW8 in
theorem conv_apply (f : Fin 128) (p : Fin 8192) :
    Gen.k0_pay1
        (Gen.k0_pay375 (Gen.k0_pay374 v693 v694 v698 v702 v703 v707 v708 v712)
          v716 v717 v721 v725 v726 v730 v731 v735 v739 v740 v744)
        v748 v749 v753 v754 v758 (ix3 (0 : Fin 1) f p)
      = Spec.conv cw ft f p := by
  rw [pay1_apply ft cw _ _ _ _ _ _ hS7 hW7 hS8 hM8 hW8 f p,
    pay375_apply ft cw _ _ _ _ _ _ _ _ _ _ _ _ hS3 hM3 hW3 hS4 hW4 hS5 hM5 hW5 hS6 hM6 hW6 f p,
    pay374_apply ft cw _ _ _ _ _ _ _ _ hS0 hM0 hW0 hS1 hW1 hS2 hM2 hW2 f p, conv_eq_terms]

end Taps

end Cert.ReferenceIdeal.RPconv

end
-- ==== Proof.RScratch.lean ====
import proofs.«135277_g2000205747536381_pallasbulk_86_37_alg».proof.Proof.RPconv
import Idealize.ShloMosaic.Lib.Pipeline.FrameBody

noncomputable section

namespace Cert.ReferenceIdeal.RPconv

open Idealize.ShloMosaic Idealize.ShloMosaic.ValueIdx Finset
open Cert.ReferenceIdeal Cert.ReferenceIdeal.Gen

abbrev fnOf (V : FVec Ideal S128x8192 .f32) : Fin 128 → Fin 8192 → EReal := fun c p => V (ix2 c p)

abbrev stores (V : FVec Ideal S128x8192 .f32) (Z : FVec Ideal S128x8450 .f32)
    (inbV : ∀ a, (![0, 129] : Fin 2 → ℕ) a + S128x8192.size a ≤ S128x8450.size a)
    (inbZ : ∀ a, (![0, 0] : Fin 2 → ℕ) a + S128x8450.size a ≤ S128x8450.size a) : List (View.Piece (Elt Ideal) S128x8450 .f32) :=
  [⟨Rect.unit (s := S128x8450) ![0, 129] S128x8192.size inbV, V⟩, ⟨Rect.unit (s := S128x8450) ![0, 0] S128x8450.size inbZ, Z⟩]

theorem zero_offsets : (![0, 0] : Fin 2 → ℕ) = fun _ => 0 := funext fun a => by fin_cases a <;> rfl

section Generic
variable {Val : EltTy → Type} [∀ e, Nonempty (Val e)] {e : EltTy} {R C n1 o1 : ℕ}

theorem canon_cols_over_whole
    (inbV : ∀ a, (![0, o1] : Fin 2 → ℕ) a + (![R, n1] : Fin 2 → ℕ) a ≤ (⟨2, ![R, C]⟩ : Shape).size a)
    (inbZ : ∀ a, (![0, 0] : Fin 2 → ℕ) a + (![R, C] : Fin 2 → ℕ) a ≤ (⟨2, ![R, C]⟩ : Shape).size a)
    (V : (⟨2, ![R, n1]⟩ : Shape).Idx → Val e) (Z : (⟨2, ![R, C]⟩ : Shape).Idx → Val e) (r : Fin R) (col : Fin C) :
    View.canon ([⟨Rect.unit (s := ⟨2, ![R, C]⟩) ![0, o1] ![R, n1] inbV, V⟩, ⟨Rect.unit (s := ⟨2, ![R, C]⟩) ![0, 0] ![R, C] inbZ, Z⟩] :
        List (View.Piece Val ⟨2, ![R, C]⟩ e)) (ix2 r col)
      = if h : o1 ≤ col.val ∧ col.val < o1 + n1 then V (ix2 r (⟨col.val - o1, by omega⟩ : Fin n1)) else Z (ix2 r col) := by
  by_cases h : o1 ≤ col.val ∧ col.val < o1 + n1
  · rw [dif_pos h]
    have e1 : (ix2 r col : (⟨2, ![R, C]⟩ : Shape).Idx)
        = (Rect.unit (s := ⟨2, ![R, C]⟩) ![0, o1] ![R, n1] inbV).emb (ix2 r (⟨col.val - o1, by omega⟩ : Fin n1)) := by
      funext a
      apply Fin.ext
      match a with
      | ⟨0, _⟩ => show r.val = 0 + 1 * r.val; omega
      | ⟨1, _⟩ => show col.val = o1 + 1 * (col.val - o1); omega
    rw [e1]
    exact View.canon_cons_emb (Rect.unit (s := ⟨2, ![R, C]⟩) ![0, o1] ![R, n1] inbV) V _ _
  · rw [dif_neg h]
    have hnm : (ix2 r col : (⟨2, ![R, C]⟩ : Shape).Idx) ∉ (Rect.unit (s := ⟨2, ![R, C]⟩) ![0, o1] ![R, n1] inbV).set := by
      rw [Rect.mem_set_unit]
      intro hh
      have h1 : o1 ≤ col.val ∧ col.val < o1 + n1 := hh 1
      exact h h1
    refine (View.canon_cons_of_not_mem _ _ hnm).trans ?_
    rw [View.canon_unit_zero zero_offsets inbZ Z]

theorem idx_cols (off : ℕ)
    (inb : ∀ a, (![0, off] : Fin 2 → ℕ) a + (![R, n1] : Fin 2 → ℕ) a ≤ (⟨2, ![R, C]⟩ : Shape).size a) (r : Fin R) (p : Fin n1)
    (h : off + p.val < C) :
    (Rect.unit (s := ⟨2, ![R, C]⟩) ![0, off] ![R, n1] inb).toLoadRect.idx (ix2 r p) = ix2 r (⟨off + p.val, h⟩ : Fin C) := by
  funext a
  apply Fin.ext
  match a with
  | ⟨0, _⟩ => show 0 + 1 * r.val = r.val; omega
  | ⟨1, _⟩ => show off + 1 * p.val = off + p.val; omega

end Generic

theorem canon_stores (V : FVec Ideal S128x8192 .f32) (Z : FVec Ideal S128x8450 .f32) (hZ : ∀ j, Z j = 0)
    (inbV : ∀ a, (![0, 129] : Fin 2 → ℕ) a + S128x8192.size a ≤ S128x8450.size a)
    (inbZ : ∀ a, (![0, 0] : Fin 2 → ℕ) a + S128x8450.size a ≤ S128x8450.size a) (c : Fin 128) (n : Fin 8450) :
    View.canon (stores V Z inbV inbZ) (ix2 c n) = pad (fnOf V) c n.val := by
  refine (canon_cols_over_whole (Val := Elt Ideal) (e := .f32) (R := 128) (C := 8450) (n1 := 8192) (o1 := 129) inbV inbZ V Z c n).trans ?_
  unfold pad
  by_cases h : 129 ≤ n.val ∧ n.val ≤ 8320
  · rw [dif_pos h, dif_pos (by omega)]
  · rw [dif_neg h, dif_neg (by omega)]
    exact hZ _

theorem run_slice (ft : FVec Ideal S128x8192 .f32) (off : ℕ)
    (inb : ∀ a, (![0, off] : Fin 2 → ℕ) a + S128x8192.size a ≤ S128x8450.size a) :
    SliceAt (fnOf ft)
      (fun j => View.canon
        ([⟨Rect.unit (s := S128x8450) ![0, 129] S128x8192.size inb_S128x8450_S128x8192_0_129, k0_pay373 ft⟩,
          ⟨Rect.unit (s := S128x8450) ![0, 0] S128x8450.size inb_S128x8450_S128x8450_0_0, k0_pay372 (k0_pay371 (F := Ideal))⟩] :
            List (View.Piece (Elt Ideal) S128x8450 .f32))
        ((Rect.unit (s := S128x8450) ![0, off] S128x8192.size inb).toLoadRect.idx j)) off := by
  intro c p
  have hp := p.isLt
  have h1 : off + 8192 ≤ 8450 := inb 1
  dsimp only
  rw [idx_cols (R := 128) (C := 8450) (n1 := 8192) off inb c p (by omega), canon_stores _ _ zeros_apply, feat_store_eq]

end Cert.ReferenceIdeal.RPconv

end
-- ==== Proof.RBlockVal.lean ====
import proofs.«135277_g2000205747536381_pallasbulk_86_37_alg».proof.Proof.RBlock
import proofs.«135277_g2000205747536381_pallasbulk_86_37_alg».proof.Proof.RHost
import proofs.«135277_g2000205747536381_pallasbulk_86_37_alg».proof.Proof.RBlk
import proofs.«135277_g2000205747536381_pallasbulk_86_37_alg».proof.Proof.RPoh
import proofs.«135277_g2000205747536381_pallasbulk_86_37_alg».proof.Proof.RPmid
import proofs.«135277_g2000205747536381_pallasbulk_86_37_alg».proof.Proof.RPconv
import proofs.«135277_g2000205747536381_pallasbulk_86_37_alg».proof.Proof.RScratch

set_option maxRecDepth 65536

noncomputable section

namespace Cert.ReferenceIdeal.RBlock

open Idealize.ShloMosaic Idealize.ShloMosaic.TcCoe Idealize.ShloMosaic.ValueIdx Idealize.SL.Sem
open Cert.ReferenceIdeal Cert.ReferenceIdeal.Gen

section AtIdeal

open Cert.ReferenceIdeal.RHost (A0 A1 A2 A3 A4)

theorem slabOf_apply {F : FTy → Type} (x3 : Vec F S9x128x128 .f32) (k : ℕ) (hk : k < 9)
    (inb : ∀ a, (![k, 0, 0] : Fin 3 → ℕ) a + S1x128x128.size a ≤ S9x128x128.size a) (f c : Fin 128) :
    slabOf x3 k inb (ix3 (0 : Fin 1) f c) = x3 (ix3 (⟨k, hk⟩ : Fin 9) f c) := by
  unfold slabOf
  show x3 _ = x3 _
  refine congrArg x3 (funext fun a => Fin.ext ?_)
  match a with
  | ⟨0, _⟩ => show k + 1 * 0 = k; omega
  | ⟨1, _⟩ => show 0 + 1 * f.val = f.val; omega
  | ⟨2, _⟩ => show 0 + 1 * c.val = c.val; omega

theorem rowOf_apply {F : FTy → Type} (x4 : Vec F S2x8192 .f32) (k : ℕ) (hk : k < 2)
    (inb : ∀ a, (![k, 0] : Fin 2 → ℕ) a + S1x8192.size a ≤ S2x8192.size a) (p : Fin 8192) :
    rowOf x4 k inb (ix2 (0 : Fin 1) p) = x4 (ix2 (⟨k, hk⟩ : Fin 2) p) := by
  unfold rowOf
  show x4 _ = x4 _
  refine congrArg x4 (funext fun a => Fin.ext ?_)
  match a with
  | ⟨0, _⟩ => show k + 1 * 0 = k; omega
  | ⟨1, _⟩ => show 0 + 1 * p.val = p.val; omega

theorem pay3_at (v2 : Vec Ideal S1x128x8192 .f32) (c : Fin 128) (p : Fin 8192) :
    k0_pay3 v2 (ix2 c p) = v2 (ix3 (0 : Fin 1) c p) := by
  unfold k0_pay3
  refine shapeCast_apply v2 _ (ix2 c p) (ix3 (0 : Fin 1) c p) ?_
  rw [Shape.rowMajor_val_three, Shape.rowMajor_val_two]
  simp

theorem pay4_at (v4 : Vec Ideal S128x128 .f32) (i j : Fin 128) : k0_pay4 v4 (ix2 i j) = v4 (ix2 i j) := by
  unfold k0_pay4
  exact congrFun (shapeCast_self v4 _) (ix2 i j)

theorem chan_iota (k : Fin 16) (p : Fin 8192) :
    iota .tc S16x8192 32 [0] iota_S16x8192_d0_w32 (ix2 k p) = BitVec.ofNat 32 k.val :=
  iota_single_apply .tc S16x8192 32 (0 : Fin 2) iota_S16x8192_d0_w32 (ix2 k p)

theorem slice_at (ft : FVec Ideal S128x8192 .f32) (off : ℕ)
    (inb : ∀ a, (![0, off] : Fin 2 → ℕ) a + S128x8192.size a ≤ S128x8450.size a) :
    RPconv.SliceAt (fun c p => ft (ix2 c p)) (sliceOf ft off inb) off :=
  RPconv.run_slice ft off inb

-- A load of a whole array through its own view reads the contents the array is held at.
theorem read_whole {S : Shape} {e : EltTy} (a : Memref sig .tc .vmem S e) (h : a.IsWhole) (x : Vec Ideal S e) {off : Fin S.rank → ℕ}
    (hz : off = fun _ => 0) (inb : ∀ i, off i + S.size i ≤ S.size i) :
    View.readAt (Elt Ideal) a.view (Rect.unit (s := S) off S.size inb).toLoadRect (h.unread x) = x := by
  rw [View.readAt_eq_ld, h.read_unread, View.ld_unit_zero hz]

theorem feat_run (c : Dev nD)
    (a1 : Memref sig .tc .vmem S1x128x8192 .f32) (h1 : a1.IsWhole)
    (a2 : Memref sig .tc .vmem S1x128x8192 .f32) (h2 : a2.IsWhole)
    (a3 : Memref sig .tc .vmem S128x128 .f32) (h3 : a3.IsWhole)
    (x0 x1 : Vec Ideal S1x128x8192 .f32) (x2 : Vec Ideal S128x128 .f32) :
    kernelRun0_A.sl.r_28 c a1 h1 a2 h2 a3 h3 x0 x1 x2 = featOf (RPoh.idxLast x0) x1 x2 := by
  conv_rhs => rw [← read_whole a1 h1 x0 hz3 inb_S1x128x8192_S1x128x8192_0_0_0, ← read_whole a2 h2 x1 hz3 inb_S1x128x8192_S1x128x8192_0_0_0,
    ← read_whole a3 h3 x2 hz2 inb_S128x128_S128x128_0_0]
  rfl

theorem blockOf_value (X : Fin 128 → Fin 8192 → EReal) (Mx : Fin 128 → Fin 128 → EReal)
    (cw : Fin 128 → Fin 128 → Fin 3 → Fin 3 → EReal)
    (x0 x1 : Vec Ideal S1x128x8192 .f32) (x2 : Vec Ideal S128x128 .f32) (x3 : Vec Ideal S9x128x128 .f32)
    (x4 : Vec Ideal S2x8192 .f32)
    (h0 : ∀ (ch : Fin 128) (p : Fin 8192), x0 (ix3 (0 : Fin 1) ch p) = Spec.hi X ch p)
    (h1 : ∀ (ch : Fin 128) (p : Fin 8192), x1 (ix3 (0 : Fin 1) ch p) = X ch p)
    (h2 : ∀ i j : Fin 128, x2 (ix2 i j) = Mx i j)
    (h3 : ∀ (di dj : Fin 3) (f ch : Fin 128), x3 (ix3 (⟨3 * di.val + dj.val, by omega⟩ : Fin 9) f ch) = cw f ch di dj)
    (h4l : ∀ p : Fin 8192, x4 (ix2 (0 : Fin 2) p) = if p.val % 128 = 0 then 0 else 1)
    (h4r : ∀ p : Fin 8192, x4 (ix2 (1 : Fin 2) p) = if p.val % 128 = 127 then 0 else 1)
    (f : Fin 128) (p : Fin 8192) :
    blockOf (featOf (RPoh.idxLast x0) x1 x2) x3 x4 (ix3 (0 : Fin 1) f p) = Spec.conv cw (Spec.feat X Mx) f p := by
  have hft : (fun (c : Fin 128) (p : Fin 8192) => featOf (RPoh.idxLast x0) x1 x2 (ix2 c p)) = Spec.feat X Mx :=
    funext fun c => funext fun p =>
      RPmid.pay370_apply X Mx (k0_pay3 x1) (k0_pay4 x2) (RPoh.idxLast x0) (iota .tc S16x8192 32 [0] iota_S16x8192_d0_w32)
        (fun c p => (pay3_at x1 c p).trans (h1 c p)) (fun i j => (pay4_at x2 i j).trans (h2 i j))
        (fun p => RPoh.idxLast_hi X x0 p fun c => h0 c p) chan_iota c p
  have hS : ∀ (off : ℕ) (inb : ∀ a, (![0, off] : Fin 2 → ℕ) a + S128x8192.size a ≤ S128x8450.size a),
      RPconv.SliceAt (Spec.feat X Mx) (sliceOf (featOf (RPoh.idxLast x0) x1 x2) off inb) off := fun off inb => by
    have h := slice_at (featOf (RPoh.idxLast x0) x1 x2) off inb
    rw [hft] at h
    exact h
  have hL : RPconv.LeftMask (rowOf x4 0 inb_S2x8192_S1x8192_0_0) := fun p =>
    (rowOf_apply x4 0 (by omega) inb_S2x8192_S1x8192_0_0 p).trans (h4l p)
  have hR : RPconv.RightMask (rowOf x4 1 inb_S2x8192_S1x8192_1_0) := fun p =>
    (rowOf_apply x4 1 (by omega) inb_S2x8192_S1x8192_1_0 p).trans (h4r p)
  unfold blockOf
  exact RPconv.conv_apply (Spec.feat X Mx) cw _ _ _ _ _ _ _ _ _ _ _ _ _ _ _ _ _ _ _ _ _ _ _ _
    (hS 0 _) hL (fun f c => (slabOf_apply x3 0 (by omega) _ f c).trans (h3 0 0 f c))
    (hS 1 _) (fun f c => (slabOf_apply x3 1 (by omega) _ f c).trans (h3 0 1 f c))
    (hS 2 _) hR (fun f c => (slabOf_apply x3 2 (by omega) _ f c).trans (h3 0 2 f c))
    (hS 128 _) hL (fun f c => (slabOf_apply x3 3 (by omega) _ f c).trans (h3 1 0 f c))
    (hS 129 _) (fun f c => (slabOf_apply x3 4 (by omega) _ f c).trans (h3 1 1 f c))
    (hS 130 _) hR (fun f c => (slabOf_apply x3 5 (by omega) _ f c).trans (h3 1 2 f c))
    (hS 256 _) hL (fun f c => (slabOf_apply x3 6 (by omega) _ f c).trans (h3 2 0 f c))
    (hS 257 _) (fun f c => (slabOf_apply x3 7 (by omega) _ f c).trans (h3 2 1 f c))
    (hS 258 _) hR (fun f c => (slabOf_apply x3 8 (by omega) _ f c).trans (h3 2 2 f c)) f p

variable (m : (ℓ : Loc nD τ sig) → Buf (Elt Ideal) ℓ) (ρ : Dev nD → PrngReg)

abbrev hiB (c : Dev nD) (t : Fin cfg0.N) : Vec Ideal S1x128x8192 .f32 := iblk0 (V3 m ρ) c 0 t
abbrev xB (c : Dev nD) (t : Fin cfg0.N) : Vec Ideal S1x128x8192 .f32 := iblk0 (V3 m ρ) c 1 t
abbrev mB (c : Dev nD) (t : Fin cfg0.N) : Vec Ideal S128x128 .f32 := iblk0 (V3 m ρ) c 2 t
abbrev wB (c : Dev nD) (t : Fin cfg0.N) : Vec Ideal S9x128x128 .f32 := iblk0 (V3 m ρ) c 3 t
abbrev kB (c : Dev nD) (t : Fin cfg0.N) : Vec Ideal S2x8192 .f32 := iblk0 (V3 m ρ) c 4 t

theorem block_value (c : Dev nD) (t : Fin cfg0.N) (f : Fin 128) (p : Fin 8192) :
    outsAt0 (V3 m ρ) c t (ix3 (0 : Fin 1) f p)
      = Spec.ybatch (Spec.argX (A0 m c)) (Spec.argW (A1 m c)) (Spec.argCw (A2 m c)) (RBlk.batchOf t) f p := by
  unfold outsAt0
  refine (congrFun (out_eq (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _)
    (hiB m ρ c t) (xB m ρ c t) (mB m ρ c t) (wB m ρ c t) (kB m ρ c t)) (ix3 (0 : Fin 1) f p)).trans ?_
  rw [feat_run c (ms0_0 t) (hs0_0 t) (ms0_1 t) (hs0_1 t) (ms0_2 t) (hs0_2 t) (hiB m ρ c t) (xB m ρ c t) (mB m ρ c t)]
  exact blockOf_value (Spec.argX (A0 m c) (RBlk.batchOf t)) (Spec.gram (Spec.argW (A1 m c))) (Spec.argCw (A2 m c))
    (hiB m ρ c t) (xB m ρ c t) (mB m ρ c t) (wB m ρ c t) (kB m ρ c t)
    (fun ch p => RBlk.hi_block m ρ c t ch p) (fun ch p => RBlk.x_block m ρ c t ch p)
    (fun i j => RBlk.gram_block m ρ c t i j) (fun di dj f ch => RBlk.taps_block m ρ c t di dj f ch)
    (fun p => (RBlk.mask_block m ρ c t 0 p).trans (RHost.V3_cmask0 m ρ c p))
    (fun p => (RBlk.mask_block m ρ c t 1 p).trans (RHost.V3_cmask1 m ρ c p)) f p

end AtIdeal

end Cert.ReferenceIdeal.RBlock

end
-- ==== Proof.RPbn.lean ====
import proofs.«135277_g2000205747536381_pallasbulk_86_37_alg».proof.Proof.Gen.ReferenceIdeal.Frame
import proofs.«135277_g2000205747536381_pallasbulk_86_37_alg».proof.Proof.Spec
import Idealize.ShloMosaic.PureOps.Ideal.Laws
import Idealize.ShloMosaic.Lib.ValueLayout
import Idealize.ShloMosaic.Lib.Pipeline.Value
import Mathlib.Algebra.BigOperators.Fin
import proofs.«135277_g2000205747536381_pallasbulk_86_37_alg».proof.Proof.LibShared

noncomputable section

namespace Cert.ReferenceIdeal.RPbn

open Idealize.ShloMosaic Idealize.ShloMosaic.ValueIdx
open Cert.ReferenceIdeal Cert.ReferenceIdeal.Gen
open Finset

export Cert.LibShared (shapeCast_a_a1_apply broadcastTo_a1_ab_apply rsqrt_apply)

theorem lit_cN : Ideal.ofBits .f32 0x38000000#32 = Spec.cN := Cert.LibShared.lit_c

theorem laneSum_apply (v : FVec Ideal S128x8192 .f32) (hφ : FKind.Formats .f32)
    (hacc : (0x00000000#32 : BitVec 32) = 0x00000000#32) (f : Fin 128) :
    multiReduction .add [1] S128 v 0x00000000#32 reduces_S128x8192_S128 hφ hacc (ix1 f) = ∑ p : Fin 8192, v (ix2 f p) := by
  refine (Ideal.multiReduction_add_single v _ reduces_S128x8192_S128 hφ hacc (ix1 f)).trans ?_
  refine Finset.sum_congr rfl fun p _ => congrArg v ?_
  funext a
  match a with
  | ⟨0, _⟩ => rfl
  | ⟨1, _⟩ => rfl

theorem colSum_apply (w : FVec Ideal S128x8192 .f32) (hφ : FKind.Formats .f32)
    (hacc : (0x00000000#32 : BitVec 32) = 0x00000000#32) (f : Fin 128) (u : Fin 1) :
    shapeCast S128x1 (multiReduction .add [1] S128 w 0x00000000#32 reduces_S128x8192_S128 hφ hacc) shapeCasts_S128_S128x1 (ix2 f u)
      = ∑ p : Fin 8192, w (ix2 f p) :=
  (shapeCast_a_a1_apply _ _ f u).trans (laneSum_apply _ hφ hacc f)

theorem slabSum_apply (v : FVec Ideal S1x128x8192 .f32) (hφ : FKind.Formats .f32)
    (hacc : (0x00000000#32 : BitVec 32) = 0x00000000#32) (f : Fin 128) (u : Fin 1) :
    shapeCast S128x1 (multiReduction .add [1] S128 (shapeCast S128x8192 v shapeCasts_S1x128x8192_S128x8192) 0x00000000#32
        reduces_S128x8192_S128 hφ hacc) shapeCasts_S128_S128x1 (ix2 f u)
      = ∑ p : Fin 8192, v (ix3 (0 : Fin 1) f p) :=
  (colSum_apply _ hφ hacc f u).trans (Finset.sum_congr rfl fun p _ => shapeCast_1ab_ab_apply v _ f p)

theorem sqDev_apply (w : FVec Ideal S128x8192 .f32) (m : FVec Ideal S128x1 .f32) (f : Fin 128) (p : Fin 8192) :
    mulf (subf w (broadcastTo S128x8192 m broadcasts_S128x1_S128x8192)) (subf w (broadcastTo S128x8192 m broadcasts_S128x1_S128x8192)) (ix2 f p)
      = (w (ix2 f p) - m (ix2 f (0 : Fin 1))) * (w (ix2 f p) - m (ix2 f (0 : Fin 1))) := by
  rw [mulf_apply, subf_apply, broadcastTo_a1_ab_apply]

theorem affine_apply (w : FVec Ideal S128x8192 .f32) (a c : FVec Ideal S128x1 .f32) (f : Fin 128) (p : Fin 8192) :
    addf (mulf w (broadcastTo S128x8192 a broadcasts_S128x1_S128x8192)) (broadcastTo S128x8192 c broadcasts_S128x1_S128x8192) (ix2 f p)
      = w (ix2 f p) * a (ix2 f (0 : Fin 1)) + c (ix2 f (0 : Fin 1)) := by
  rw [addf_apply, mulf_apply, broadcastTo_a1_ab_apply, broadcastTo_a1_ab_apply]

section Payloads
variable (y : Fin 4 → Fin 128 → Fin 8192 → EReal) (γ β : Fin 128 → EReal)

def devSq (b : Fin 4) (f : Fin 128) : EReal := ∑ p, (y b f p - Spec.mean y f) * (y b f p - Spec.mean y f)

theorem var_eq_devSq (f : Fin 128) :
    Spec.var y f = (devSq y 0 f + devSq y 1 f + devSq y 2 f + devSq y 3 f) * Spec.cN := by
  unfold Spec.var devSq
  rw [Fin.sum_univ_four]

theorem devCol_eq (b : Fin 4) (w : FVec Ideal S128x8192 .f32) (m : FVec Ideal S128x1 .f32)
    (hw : ∀ f p, w (ix2 f p) = y b f p) (hm : ∀ f, m (ix2 f (0 : Fin 1)) = Spec.mean y f) (hφ : FKind.Formats .f32)
    (hacc : (0x00000000#32 : BitVec 32) = 0x00000000#32) (f : Fin 128) (u : Fin 1) :
    shapeCast S128x1 (multiReduction .add [1] S128
        (mulf (subf w (broadcastTo S128x8192 m broadcasts_S128x1_S128x8192)) (subf w (broadcastTo S128x8192 m broadcasts_S128x1_S128x8192)))
        0x00000000#32 reduces_S128x8192_S128 hφ hacc) shapeCasts_S128_S128x1 (ix2 f u) = devSq y b f := by
  refine (colSum_apply _ hφ hacc f u).trans (Finset.sum_congr rfl fun p _ => ?_)
  rw [sqDev_apply, hw, hm]

theorem pay5_apply (v1 v6 v11 v16 : FVec Ideal S1x128x8192 .f32)
    (h0 : ∀ f p, v1 (ix3 (0 : Fin 1) f p) = y 0 f p) (h1 : ∀ f p, v6 (ix3 (0 : Fin 1) f p) = y 1 f p)
    (h2 : ∀ f p, v11 (ix3 (0 : Fin 1) f p) = y 2 f p) (h3 : ∀ f p, v16 (ix3 (0 : Fin 1) f p) = y 3 f p)
    (f : Fin 128) (u : Fin 1) : Gen.k1_pay5 (F := Ideal) v1 v6 v11 v16 (ix2 f u) = Spec.mean y f := by
  simp only [Gen.k1_pay5, mulf_apply, addf_apply, broadcast_apply, Ideal.ofBits_def]
  rw [slabSum_apply v1 _ _ f u, slabSum_apply v6 _ _ f u, slabSum_apply v11 _ _ f u, slabSum_apply v16 _ _ f u]
  simp only [h0, h1, h2, h3]
  rw [Ideal.ofBits_zero_f32, zero_add, lit_cN]
  unfold Spec.mean
  rw [Fin.sum_univ_four]

theorem pay6_apply (v1 v6 v11 v16 v24 : FVec Ideal S1x128x8192 .f32)
    (h0 : ∀ f p, v1 (ix3 (0 : Fin 1) f p) = y 0 f p) (h1 : ∀ f p, v6 (ix3 (0 : Fin 1) f p) = y 1 f p)
    (h2 : ∀ f p, v11 (ix3 (0 : Fin 1) f p) = y 2 f p) (h3 : ∀ f p, v16 (ix3 (0 : Fin 1) f p) = y 3 f p)
    (h0' : ∀ f p, v24 (ix3 (0 : Fin 1) f p) = y 0 f p)
    (f : Fin 128) (u : Fin 1) : Gen.k1_pay6 (F := Ideal) v1 v6 v11 v16 v24 (ix2 f u) = devSq y 0 f := by
  simp only [Gen.k1_pay6, addf_apply, broadcast_apply, Ideal.ofBits_def]
  rw [Ideal.ofBits_zero_f32, zero_add, colSum_apply _ _ _ f u]
  unfold devSq
  refine Finset.sum_congr rfl fun p _ => ?_
  rw [sqDev_apply, shapeCast_1ab_ab_apply, h0', pay5_apply y v1 v6 v11 v16 h0 h1 h2 h3]

theorem pay7_apply (v32 : FVec Ideal S1x128x8192 .f32) (h1 : ∀ f p, v32 (ix3 (0 : Fin 1) f p) = y 1 f p)
    (f : Fin 128) (p : Fin 8192) : Gen.k1_pay7 (F := Ideal) v32 (ix2 f p) = y 1 f p := by
  simp only [Gen.k1_pay7]
  rw [shapeCast_1ab_ab_apply, h1]

section Stats
variable (v22 v31 : FVec Ideal S128x1 .f32) (v33 : FVec Ideal S128x8192 .f32) (v40 v48 : FVec Ideal S1x128x8192 .f32)
  (v61 v64 : FVec Ideal S128x1 .f32) (v68 : FVec Ideal S1x128x8192 .f32)
  (hm : ∀ f, v22 (ix2 f (0 : Fin 1)) = Spec.mean y f) (hs : ∀ f, v31 (ix2 f (0 : Fin 1)) = devSq y 0 f)
  (h1 : ∀ f p, v33 (ix2 f p) = y 1 f p) (h2 : ∀ f p, v40 (ix3 (0 : Fin 1) f p) = y 2 f p)
  (h3 : ∀ f p, v48 (ix3 (0 : Fin 1) f p) = y 3 f p) (hγ : ∀ f, v61 (ix2 f (0 : Fin 1)) = γ f)
  (hβ : ∀ f, v64 (ix2 f (0 : Fin 1)) = β f) (h0 : ∀ f p, v68 (ix3 (0 : Fin 1) f p) = y 0 f p)
include hm hs h1 h2 h3 hγ

theorem pay8_apply (f : Fin 128) (u : Fin 1) : Gen.k1_pay8 (F := Ideal) v22 v31 v33 v40 v48 v61 (ix2 f u) = Spec.scale y γ f := by
  obtain rfl : u = 0 := Subsingleton.elim u 0
  simp only [Gen.k1_pay8, mulf_apply, addf_apply, broadcast_apply, rsqrt_apply, Ideal.ofBits_def]
  rw [devCol_eq y 1 v33 v22 h1 hm _ _ f 0,
    devCol_eq y 2 (shapeCast S128x8192 v40 shapeCasts_S1x128x8192_S128x8192) v22
      (fun f p => (shapeCast_1ab_ab_apply v40 _ f p).trans (h2 f p)) hm _ _ f 0,
    devCol_eq y 3 (shapeCast S128x8192 v48 shapeCasts_S1x128x8192_S128x8192) v22
      (fun f p => (shapeCast_1ab_ab_apply v48 _ f p).trans (h3 f p)) hm _ _ f 0,
    shapeCast_self, hs, hγ, lit_cN, ← var_eq_devSq]
  rfl

include hβ

theorem pay9_apply (f : Fin 128) (u : Fin 1) : Gen.k1_pay9 (F := Ideal) v22 v31 v33 v40 v48 v61 v64 (ix2 f u) = Spec.shift y γ β f := by
  obtain rfl : u = 0 := Subsingleton.elim u 0
  simp only [Gen.k1_pay9, subf_apply, mulf_apply]
  rw [shapeCast_self, pay8_apply y γ v22 v31 v33 v40 v48 v61 hm hs h1 h2 h3 hγ f 0, hm, hβ]
  rfl

include h0

theorem pay10_apply (f : Fin 128) (p : Fin 8192) :
    Gen.k1_pay10 (F := Ideal) v22 v31 v33 v40 v48 v61 v64 v68 (ix2 f p) = Spec.bn y γ β 0 f p := by
  simp only [Gen.k1_pay10]
  rw [affine_apply, shapeCast_1ab_ab_apply, h0, pay8_apply y γ v22 v31 v33 v40 v48 v61 hm hs h1 h2 h3 hγ f 0,
    pay9_apply y γ β v22 v31 v33 v40 v48 v61 v64 hm hs h1 h2 h3 hγ hβ f 0]
  rfl

end Stats

theorem pay1_apply (v73 : FVec Ideal S128x8192 .f32) (u : Fin 1) (f : Fin 128) (p : Fin 8192) :
    Gen.k1_pay1 (F := Ideal) v73 (ix3 u f p) = v73 (ix2 f p) := by
  simp only [Gen.k1_pay1]
  exact shapeCast_ab_1ab_apply v73 _ u f p

theorem slabAffine_apply (a c : FVec Ideal S128x1 .f32) (v : FVec Ideal S1x128x8192 .f32) (u : Fin 1) (f : Fin 128) (p : Fin 8192) :
    shapeCast S1x128x8192 (addf (mulf (shapeCast S128x8192 v shapeCasts_S1x128x8192_S128x8192) (broadcastTo S128x8192 a broadcasts_S128x1_S128x8192))
        (broadcastTo S128x8192 c broadcasts_S128x1_S128x8192)) shapeCasts_S128x8192_S1x128x8192 (ix3 u f p)
      = v (ix3 (0 : Fin 1) f p) * a (ix2 f (0 : Fin 1)) + c (ix2 f (0 : Fin 1)) := by
  rw [shapeCast_ab_1ab_apply, affine_apply, shapeCast_1ab_ab_apply]

theorem slab_idx (n : ℕ) (hn : n < 4) (inb : ∀ a, (![n, 0, 0] : Fin 3 → ℕ) a + S1x128x8192.size a ≤ S4x128x8192.size a)
    (u : Fin 1) (f : Fin 128) (p : Fin 8192) :
    (Rect.unit (s := S4x128x8192) ![n, 0, 0] S1x128x8192.size inb).idx (ix3 u f p) = ix3 (⟨n, hn⟩ : Fin 4) f p := by
  funext a
  refine Fin.ext ?_
  match a with
  | ⟨0, _⟩ => show n + 1 * u.val = n; omega
  | ⟨1, _⟩ => show 0 + 1 * f.val = f.val; omega
  | ⟨2, _⟩ => show 0 + 1 * p.val = p.val; omega

theorem col_idx (inb : ∀ a, (![0, 0] : Fin 2 → ℕ) a + S128x1.size a ≤ S128x1.size a) (f : Fin 128) (u : Fin 1) :
    (Rect.unit (s := S128x1) ![0, 0] S128x1.size inb).idx (ix2 f u) = ix2 f u := by
  funext a
  refine Fin.ext ?_
  match a with
  | ⟨0, _⟩ => show 0 + 1 * f.val = f.val; omega
  | ⟨1, _⟩ => show 0 + 1 * u.val = u.val; omega

theorem out1_3_apply (x0 : Vec Ideal S4x128x8192 .f32) (x1 x2 : Vec Ideal S128x1 .f32)
    (hx0 : ∀ b f p, x0 (ix3 b f p) = y b f p) (hx1 : ∀ f, x1 (ix2 f (0 : Fin 1)) = γ f) (hx2 : ∀ f, x2 (ix2 f (0 : Fin 1)) = β f)
    (b : Fin 4) (f : Fin 128) (p : Fin 8192) :
    Gen.out1_3 (F := Ideal) x0 x1 x2 (ix3 b f p) = Spec.bn y γ β b f p := by
  have e0 : ∀ f p, View.ld x0 Gen.r1_0 (ix3 (0 : Fin 1) f p) = y 0 f p := fun f p =>
    (congrArg x0 (slab_idx 0 (by omega) _ 0 f p)).trans (hx0 0 f p)
  have e1 : ∀ f p, View.ld x0 Gen.r1_1 (ix3 (0 : Fin 1) f p) = y 1 f p := fun f p =>
    (congrArg x0 (slab_idx 1 (by omega) _ 0 f p)).trans (hx0 1 f p)
  have e2 : ∀ f p, View.ld x0 Gen.r1_2 (ix3 (0 : Fin 1) f p) = y 2 f p := fun f p =>
    (congrArg x0 (slab_idx 2 (by omega) _ 0 f p)).trans (hx0 2 f p)
  have e3 : ∀ f p, View.ld x0 Gen.r1_3 (ix3 (0 : Fin 1) f p) = y 3 f p := fun f p =>
    (congrArg x0 (slab_idx 3 (by omega) _ 0 f p)).trans (hx0 3 f p)
  have eγ : ∀ f, View.ld x1 Gen.r1_4 (ix2 f (0 : Fin 1)) = γ f := fun f => (congrArg x1 (col_idx _ f 0)).trans (hx1 f)
  have eβ : ∀ f, View.ld x2 Gen.r1_4 (ix2 f (0 : Fin 1)) = β f := fun f => (congrArg x2 (col_idx _ f 0)).trans (hx2 f)
  have hmean := fun f => pay5_apply y _ _ _ _ e0 e1 e2 e3 f 0
  have hdev := fun f => pay6_apply y _ _ _ _ _ e0 e1 e2 e3 e0 f 0
  have hy1 := fun f p => pay7_apply y _ e1 f p
  have hscale := fun f => pay8_apply y γ _ _ _ _ _ _ hmean hdev hy1 e2 e3 eγ f 0
  have hshift := fun f => pay9_apply y γ β _ _ _ _ _ _ _ hmean hdev hy1 e2 e3 eγ eβ f 0
  unfold Gen.out1_3
  refine (View.canon_apply_of_pieces (fun j : S4x128x8192.Idx => Spec.bn y γ β (j 0) (j 1) (j 2)) _ ?_ (ix3 b f p)
    (Gen.cover1_3 _ _ _ _ _)).trans rfl
  refine List.forall_mem_cons.2 ⟨?_, List.forall_mem_cons.2 ⟨?_, List.forall_mem_cons.2 ⟨?_, List.forall_mem_cons.2
    ⟨?_, fun _ h => absurd h List.not_mem_nil⟩⟩⟩⟩
  · intro x
    obtain ⟨u, f', p', rfl⟩ : ∃ (u : Fin 1) (f' : Fin 128) (p' : Fin 8192), x = ix3 u f' p' := ⟨x 0, x 1, x 2, eq_ix3 x⟩
    refine Eq.trans ?_ (congrArg (fun j : S4x128x8192.Idx => Spec.bn y γ β (j 0) (j 1) (j 2)) (slab_idx 3 (by omega) inb_S4x128x8192_S1x128x8192_3_0_0 u f' p')).symm
    refine (slabAffine_apply _ _ _ u f' p').trans ?_
    rw [e3, hscale, hshift]
    rfl
  · intro x
    obtain ⟨u, f', p', rfl⟩ : ∃ (u : Fin 1) (f' : Fin 128) (p' : Fin 8192), x = ix3 u f' p' := ⟨x 0, x 1, x 2, eq_ix3 x⟩
    refine Eq.trans ?_ (congrArg (fun j : S4x128x8192.Idx => Spec.bn y γ β (j 0) (j 1) (j 2)) (slab_idx 2 (by omega) inb_S4x128x8192_S1x128x8192_2_0_0 u f' p')).symm
    refine (slabAffine_apply _ _ _ u f' p').trans ?_
    rw [e2, hscale, hshift]
    rfl
  · intro x
    obtain ⟨u, f', p', rfl⟩ : ∃ (u : Fin 1) (f' : Fin 128) (p' : Fin 8192), x = ix3 u f' p' := ⟨x 0, x 1, x 2, eq_ix3 x⟩
    refine Eq.trans ?_ (congrArg (fun j : S4x128x8192.Idx => Spec.bn y γ β (j 0) (j 1) (j 2)) (slab_idx 1 (by omega) inb_S4x128x8192_S1x128x8192_1_0_0 u f' p')).symm
    refine (slabAffine_apply _ _ _ u f' p').trans ?_
    rw [e1, hscale, hshift]
    rfl
  · intro x
    obtain ⟨u, f', p', rfl⟩ : ∃ (u : Fin 1) (f' : Fin 128) (p' : Fin 8192), x = ix3 u f' p' := ⟨x 0, x 1, x 2, eq_ix3 x⟩
    refine Eq.trans ?_ (congrArg (fun j : S4x128x8192.Idx => Spec.bn y γ β (j 0) (j 1) (j 2)) (slab_idx 0 (by omega) inb_S4x128x8192_S1x128x8192_0_0_0 u f' p')).symm
    dsimp only
    refine (pay1_apply _ u f' p').trans ?_
    exact pay10_apply y γ β _ _ _ _ _ _ _ _ hmean hdev hy1 e2 e3 eγ eβ e0 f' p'

end Payloads

end Cert.ReferenceIdeal.RPbn

end
-- ==== Proof.RValue.lean ====
import proofs.«135277_g2000205747536381_pallasbulk_86_37_alg».proof.Proof.RefRun
import proofs.«135277_g2000205747536381_pallasbulk_86_37_alg».proof.Proof.Gen.ReferenceIdeal.Frame
import proofs.«135277_g2000205747536381_pallasbulk_86_37_alg».proof.Proof.Spec
import proofs.«135277_g2000205747536381_pallasbulk_86_37_alg».proof.Proof.SpecLemmas
import proofs.«135277_g2000205747536381_pallasbulk_86_37_alg».proof.Proof.RHost
import proofs.«135277_g2000205747536381_pallasbulk_86_37_alg».proof.Proof.RBlockVal
import proofs.«135277_g2000205747536381_pallasbulk_86_37_alg».proof.Proof.RPbn
import Idealize.ShloMosaic.Lib.ValueIdx
import Idealize.ShloMosaic.Lib.Pipeline.Value

noncomputable section

namespace Cert.ReferenceIdeal.RValue

open Idealize.ShloMosaic Idealize.ShloMosaic.TcCoe Idealize.ShloMosaic.ValueIdx
open Idealize.ShloMosaic.Pipeline (Dat Cfg Window cellOf)
open Cert.ReferenceIdeal.RHost (A0 A1 A2 A3 A4)

variable (m : (ℓ : Loc nD τ sig) → Buf (Elt Ideal) ℓ) (ρ : Dev nD → PrngReg)

abbrev arr3 (Y : Fin 4 → Fin 128 → Fin 8192 → EReal) : FVec Ideal S4x128x8192 .f32 := fun j => Y (j 0) (j 1) (j 2)

abbrev batchOf (t : Fin cfg0.N) : Fin 4 := ⟨t.val, t.isLt.trans_eq Gen.N_0⟩

theorem out_index : ∀ t : Fin cfg0.N, win0_5.index t (0 : Fin 3) = t.val ∧ win0_5.index t (1 : Fin 3) = 0 ∧ win0_5.index t (2 : Fin 3) = 0 :=
  (by decide +kernel : ∀ t : Fin grid0.N, _)

theorem flushed0 (c : Dev nD) (Y : Fin 4 → Fin 128 → Fin 8192 → EReal)
    (hY : ∀ (t : Fin cfg0.N) (f : Fin 128) (p : Fin 8192), Gen.outsAt0 (Gen.V3 m ρ) c t (ix3 0 f p) = Y (batchOf t) f p)
    (t : Fin cfg0.N) :
    (Gen.dat0 (Gen.V3 m ρ) c).flushed 5 t = ((cfg0.win 5).blk t).view.read (Elt Ideal) (arr3 Y) := by
  show (cfg0.win 5).cut (grid0.coords t) ((Gen.dat0 (Gen.V3 m ρ) c).after 5 t) = _
  rw [Gen.after0_5]
  funext y
  rw [View.read_apply]
  obtain ⟨e0, e1, e2⟩ := out_index t
  have hy0 : (y 0).val = 0 := by have : (y 0).val < 1 := (y 0).isLt; omega
  have hL : (cfg0.win 5).xinj (grid0.coords t) y = ix3 (0 : Fin 1) (⟨(y 1).val, (y 1).isLt⟩ : Fin 128) (⟨(y 2).val, (y 2).isLt⟩ : Fin 8192) := by
    funext a; apply Fin.ext
    match a with
    | ⟨0, _⟩ => exact hy0
    | ⟨1, _⟩ => rfl
    | ⟨2, _⟩ => rfl
  have hR : ((cfg0.win 5).blk t).view.emb y = ix3 (batchOf t) (⟨(y 1).val, (y 1).isLt⟩ : Fin 128) (⟨(y 2).val, (y 2).isLt⟩ : Fin 8192) := by
    funext a; apply Fin.ext
    match a with
    | ⟨0, _⟩ => show win0_5.index t (0 : Fin 3) * 1 + 1 * (y 0).val = t.val; rw [e0]; omega
    | ⟨1, _⟩ => show win0_5.index t (1 : Fin 3) * 128 + 1 * (y 1).val = (y 1).val; rw [e1]; omega
    | ⟨2, _⟩ => show win0_5.index t (2 : Fin 3) * 8192 + 1 * (y 2).val = (y 2).val; rw [e2]; omega
  show Gen.outsAt0 (Gen.V3 m ρ) c t ((cfg0.win 5).xinj (grid0.coords t) y) = arr3 Y (((cfg0.win 5).blk t).view.emb y)
  rw [hL, hR, hY]

theorem mem_blk0 (t : Fin cfg0.N) (i : S4x128x8192.Idx) :
    i ∈ ((cfg0.win 5).blk t).view.set ↔ ∀ a : Fin 3, win0_5.index t a * S1x128x8192.size a ≤ (i a).val ∧ (i a).val < win0_5.index t a * S1x128x8192.size a + S1x128x8192.size a := by
  show i ∈ ((View.whole main_v26).slice (win0_5.rect t)).set ↔ _
  rw [View.set_slice_whole, Rect.mem_set_unit]
  exact Iff.rfl

theorem region0_array (c : Dev nD) (Y : Fin 4 → Fin 128 → Fin 8192 → EReal)
    (hY : ∀ (t : Fin cfg0.N) (f : Fin 128) (p : Fin 8192), Gen.outsAt0 (Gen.V3 m ρ) c t (ix3 0 f p) = Y (batchOf t) f p) :
    (Gen.dat0 (Gen.V3 m ρ) c).arrAt 5 cfg0.N = arr3 Y :=
  (Gen.dat0 (Gen.V3 m ρ) c).arrAt_eq_of_cover 5 (arr3 Y) (fun t _ => flushed0 m ρ c Y hY t) fun i => by
    have hi0 : (i 0).val < 4 := (i 0).isLt
    have hi1 : (i 1).val < 128 := (i 1).isLt
    have hi2 : (i 2).val < 8192 := (i 2).isLt
    refine ⟨⟨(i 0).val, hi0.trans_eq Gen.N_0.symm⟩, Gen.flush0_5 _, ?_⟩
    rw [mem_blk0]
    obtain ⟨e0, e1, e2⟩ := out_index ⟨(i 0).val, hi0.trans_eq Gen.N_0.symm⟩
    have e0' : win0_5.index ⟨(i 0).val, hi0.trans_eq Gen.N_0.symm⟩ (0 : Fin 3) = (i 0).val := e0
    intro a
    match a with
    | ⟨0, _⟩ => show win0_5.index _ (0 : Fin 3) * 1 ≤ (i 0).val ∧ (i 0).val < win0_5.index _ (0 : Fin 3) * 1 + 1; rw [e0']; omega
    | ⟨1, _⟩ => show win0_5.index _ (1 : Fin 3) * 128 ≤ (i 1).val ∧ (i 1).val < win0_5.index _ (1 : Fin 3) * 128 + 128; rw [e1]; omega
    | ⟨2, _⟩ => show win0_5.index _ (2 : Fin 3) * 8192 ≤ (i 2).val ∧ (i 2).val < win0_5.index _ (2 : Fin 3) * 8192 + 8192; rw [e2]; omega

theorem V5_v26 (c : Dev nD) :
    (Gen.V5 m ρ c main_v26 : FVec Ideal S4x128x8192 .f32) = (Gen.dat0 (Gen.V3 m ρ) c).arrAt 5 cfg0.N :=
  calc (Gen.V5 m ρ c main_v26 : FVec Ideal S4x128x8192 .f32)
    _ = Gen.W4 m ρ c (Proc.devRef .tc main_v26) := StableHlo.after_of_forall_not_mem (b := Proc.devRef .tc main_v26) _ _ (List.forall_iff_forall_mem.mp (by
          simp only [Gen.hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (Gen.dat0 (Gen.V3 m ρ) c).arrAt 5 cfg0.N := Gen.W4_arr m ρ c 5

section Region1
variable (V : (c : Dev nD) → (b : Ref sig .tc) → Buf (Elt Ideal) ((c : Thread nD τ).loc b))

theorem whole_index : ∀ t : Fin cfg1.N, (∀ a : Fin 3, win1_0.index t a = 0) ∧ (∀ a : Fin 2, win1_1.index t a = 0)
    ∧ (∀ a : Fin 2, win1_2.index t a = 0) ∧ (∀ a : Fin 3, win1_3.index t a = 0) :=
  (by decide +kernel : ∀ t : Fin grid1.N, _)

theorem iblk1_0_apply (c : Dev nD) (t : Fin cfg1.N) (b : Fin 4) (f : Fin 128) (p : Fin 8192) :
    Gen.iblk1 V c 0 t (ix3 b f p) = (V c main_v26 : FVec Ideal S4x128x8192 .f32) (ix3 b f p) := by
  obtain ⟨h0, -, -, -⟩ := whole_index t
  unfold Gen.iblk1
  rw [View.read_apply]
  show (V c main_v26 : FVec Ideal S4x128x8192 .f32) _ = _
  congr 1
  funext a; apply Fin.ext
  match a with
  | ⟨0, _⟩ => show win1_0.index t (0 : Fin 3) * 4 + 1 * b.val = b.val; rw [h0 0]; omega
  | ⟨1, _⟩ => show win1_0.index t (1 : Fin 3) * 128 + 1 * f.val = f.val; rw [h0 1]; omega
  | ⟨2, _⟩ => show win1_0.index t (2 : Fin 3) * 8192 + 1 * p.val = p.val; rw [h0 2]; omega

theorem iblk1_1_apply (c : Dev nD) (t : Fin cfg1.N) (f : Fin 128) :
    Gen.iblk1 V c 1 t (ix2 f (0 : Fin 1)) = (V c main_v27 : FVec Ideal S128x1 .f32) (ix2 f (0 : Fin 1)) := by
  obtain ⟨-, h1, -, -⟩ := whole_index t
  unfold Gen.iblk1
  rw [View.read_apply]
  show (V c main_v27 : FVec Ideal S128x1 .f32) _ = _
  congr 1
  funext a; apply Fin.ext
  match a with
  | ⟨0, _⟩ => show win1_1.index t (0 : Fin 2) * 128 + 1 * f.val = f.val; rw [h1 0]; omega
  | ⟨1, _⟩ => show win1_1.index t (1 : Fin 2) * 1 + 1 * 0 = 0; rw [h1 1]

theorem iblk1_2_apply (c : Dev nD) (t : Fin cfg1.N) (f : Fin 128) :
    Gen.iblk1 V c 2 t (ix2 f (0 : Fin 1)) = (V c main_v28 : FVec Ideal S128x1 .f32) (ix2 f (0 : Fin 1)) := by
  obtain ⟨-, -, h2, -⟩ := whole_index t
  unfold Gen.iblk1
  rw [View.read_apply]
  show (V c main_v28 : FVec Ideal S128x1 .f32) _ = _
  congr 1
  funext a; apply Fin.ext
  match a with
  | ⟨0, _⟩ => show win1_2.index t (0 : Fin 2) * 128 + 1 * f.val = f.val; rw [h2 0]; omega
  | ⟨1, _⟩ => show win1_2.index t (1 : Fin 2) * 1 + 1 * 0 = 0; rw [h2 1]

abbrev out1 (c : Dev nD) : FVec Ideal S4x128x8192 .f32 :=
  Gen.out1_3 (Gen.iblk1 V c 0 Gen.t1_0) (Gen.iblk1 V c 1 Gen.t1_0) (Gen.iblk1 V c 2 Gen.t1_0)

theorem cut_eq_read (t : Fin cfg1.N) (G : FVec Ideal S4x128x8192 .f32) :
    (cfg1.win 3).cut (grid1.coords t) G = ((cfg1.win 3).blk t).view.read (Elt Ideal) G := by
  obtain ⟨-, -, -, h3⟩ := whole_index t
  funext y
  rw [View.read_apply]
  show G ((cfg1.win 3).xinj (grid1.coords t) y) = G (((cfg1.win 3).blk t).view.emb y)
  congr 1
  funext a; apply Fin.ext
  match a with
  | ⟨0, _⟩ => show (y 0).val = win1_3.index t (0 : Fin 3) * 4 + 1 * (y 0).val; rw [h3 0]; omega
  | ⟨1, _⟩ => show (y 1).val = win1_3.index t (1 : Fin 3) * 128 + 1 * (y 1).val; rw [h3 1]; omega
  | ⟨2, _⟩ => show (y 2).val = win1_3.index t (2 : Fin 3) * 8192 + 1 * (y 2).val; rw [h3 2]; omega

theorem flushed1 (c : Dev nD) (t : Fin cfg1.N) :
    (Gen.dat1 V c).flushed 3 t = ((cfg1.win 3).blk t).view.read (Elt Ideal) (out1 V c) := by
  obtain rfl := Gen.fin_N1 t
  show (cfg1.win 3).cut (grid1.coords Gen.t1_0) ((Gen.dat1 V c).after 3 Gen.t1_0) = _
  rw [Gen.after1_3]
  exact cut_eq_read Gen.t1_0 _

theorem mem_blk1 (t : Fin cfg1.N) (i : S4x128x8192.Idx) :
    i ∈ ((cfg1.win 3).blk t).view.set ↔ ∀ a : Fin 3, win1_3.index t a * S4x128x8192.size a ≤ (i a).val ∧ (i a).val < win1_3.index t a * S4x128x8192.size a + S4x128x8192.size a := by
  show i ∈ ((View.whole main_v29).slice (win1_3.rect t)).set ↔ _
  rw [View.set_slice_whole, Rect.mem_set_unit]
  exact Iff.rfl

theorem region1_array (c : Dev nD) : (Gen.dat1 V c).arrAt 3 cfg1.N = out1 V c :=
  (Gen.dat1 V c).arrAt_eq_of_cover 3 (out1 V c) (fun t _ => flushed1 V c t) fun i => by
    have hi0 : (i 0).val < 4 := (i 0).isLt
    have hi1 : (i 1).val < 128 := (i 1).isLt
    have hi2 : (i 2).val < 8192 := (i 2).isLt
    obtain ⟨-, -, -, h3⟩ := whole_index Gen.t1_0
    refine ⟨Gen.t1_0, Gen.flush1_3 _, ?_⟩
    rw [mem_blk1]
    intro a
    match a with
    | ⟨0, _⟩ => show win1_3.index Gen.t1_0 (0 : Fin 3) * 4 ≤ (i 0).val ∧ (i 0).val < win1_3.index Gen.t1_0 (0 : Fin 3) * 4 + 4; rw [h3 0]; omega
    | ⟨1, _⟩ => show win1_3.index Gen.t1_0 (1 : Fin 3) * 128 ≤ (i 1).val ∧ (i 1).val < win1_3.index Gen.t1_0 (1 : Fin 3) * 128 + 128; rw [h3 1]; omega
    | ⟨2, _⟩ => show win1_3.index Gen.t1_0 (2 : Fin 3) * 8192 ≤ (i 2).val ∧ (i 2).val < win1_3.index Gen.t1_0 (2 : Fin 3) * 8192 + 8192; rw [h3 2]; omega

end Region1

section Value
variable (c : Dev nD)

abbrev convOf : Fin 4 → Fin 128 → Fin 8192 → EReal :=
  Cert.Spec.ybatch (Cert.Spec.argX (A0 m c)) (Cert.Spec.argW (A1 m c)) (Cert.Spec.argCw (A2 m c))

theorem W6_v29 (b : Fin 4) (f : Fin 128) (p : Fin 8192) :
    (Gen.W6 m ρ c (Proc.devRef .tc main_v29) : FVec Ideal S4x128x8192 .f32) (ix3 b f p)
      = Cert.Spec.out (Cert.Spec.argX (A0 m c)) (Cert.Spec.argW (A1 m c)) (Cert.Spec.argCw (A2 m c))
          (Cert.Spec.argV (A3 m c)) (Cert.Spec.argV (A4 m c)) b f p := by
  have h6 : (Gen.W6 m ρ c (Proc.devRef .tc main_v29) : FVec Ideal S4x128x8192 .f32)
      = (Gen.dat1 (Gen.V5 m ρ) c).arrAt 3 cfg1.N := Gen.W6_arr m ρ c 3
  rw [h6, region1_array]
  refine RPbn.out1_3_apply (convOf m c) (Cert.Spec.argV (A3 m c)) (Cert.Spec.argV (A4 m c)) _ _ _ ?_ ?_ ?_ b f p
  · intro b f p
    refine (iblk1_0_apply (Gen.V5 m ρ) c Gen.t1_0 b f p).trans ?_
    rw [V5_v26, region0_array m ρ c (convOf m c) (RBlock.block_value m ρ c)]
  · intro f
    exact (iblk1_1_apply (Gen.V5 m ρ) c Gen.t1_0 f).trans (RHost.V5_gamma m ρ c f)
  · intro f
    exact (iblk1_2_apply (Gen.V5 m ρ) c Gen.t1_0 f).trans (RHost.V5_beta m ρ c f)

theorem value :
    (Gen.W7 m ρ c (Proc.devRef .tc main_v30) : FVec Ideal S4x128x64x128 .f32)
      = Cert.Spec.result (A0 m c) (A1 m c) (A2 m c) (A3 m c) (A4 m c) := by
  funext j
  obtain ⟨b, f, h, w, rfl⟩ : ∃ b f h w, j = ix4 b f h w := ⟨_, _, _, _, eq_ix4 j⟩
  rw [RHost.W7_result, W6_v29 m ρ c]
  rfl

end Value

theorem run : θ_run defs (onTc (τ := τ) (main (F := Ideal))) ⟨m, fun _ => 0, ρ⟩ (fun r => ∀ c : Dev nD,
      r.2.mem ((c.tc : Thread nD τ).loc main_v30) = Cert.Spec.result (A0 m c) (A1 m c) (A2 m c) (A3 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (value m ρ c), (h c).2⟩) (Gen.run_value m ρ)

end Cert.ReferenceIdeal.RValue

end
-- ==== Proof.lean ====
/-
  The kernel and the reference compute one function, `Spec.result`, of the five argument arrays over the extended
  reals: the image less its 2 × 2 block means decides, pixel by pixel, which of sixteen classes is the first channel
  attaining the maximum; the class means of the image, mixed through `exp (-(μ_k - μ_l)ᵀ M (μ_k - μ_l))`, are added
  back at each pixel of the class; then a 3 × 3 zero-padded convolution and batch normalisation over the four batch
  elements. The two forms of the first maximum and the two forms of the variance agree on real entries, which the
  precondition gives; the rest is regrouping of finite sums and products with 0 and 1.
-/
import proofs.«135277_g2000205747536381_pallasbulk_86_37_alg».proof.Defs
import proofs.«135277_g2000205747536381_pallasbulk_86_37_alg».proof.Proof.Gen.Kernel
import proofs.«135277_g2000205747536381_pallasbulk_86_37_alg».proof.Proof.Gen.KernelIdeal
import proofs.«135277_g2000205747536381_pallasbulk_86_37_alg».proof.Proof.Gen.ReferenceIdeal
import proofs.«135277_g2000205747536381_pallasbulk_86_37_alg».proof.Proof.Gen.ReferenceIdeal.Frame
import proofs.«135277_g2000205747536381_pallasbulk_86_37_alg».proof.Proof.Gen.Pre_finite_inputs
import proofs.«135277_g2000205747536381_pallasbulk_86_37_alg».proof.Proof.BKFrameF
import proofs.«135277_g2000205747536381_pallasbulk_86_37_alg».proof.Proof.KValue
import proofs.«135277_g2000205747536381_pallasbulk_86_37_alg».proof.Proof.KFin
import proofs.«135277_g2000205747536381_pallasbulk_86_37_alg».proof.Proof.RValue
import Idealize.ShloMosaic.Adequacy
import Idealize.ShloMosaic.Init

noncomputable section

namespace Cert.Proof

open Idealize.ShloMosaic Idealize.SL.Sem

section
variable [hKernel : Cert.Kernel.Facts] [hKernelIdeal : Cert.KernelIdeal.Facts] [hReferenceIdeal : Cert.ReferenceIdeal.Facts]
  [hPre : Cert.Pre_finite_inputs.Facts]

/-- The word-level program terminates without a fault and restores its arguments; no value is needed. -/
theorem frame_p : Cert.frame_Kernel := fun m ρ _ => Cert.Kernel.Gen.frameF m ρ

/-- The idealized kernel's frame, from its run with every scratch array described by its meaning. -/
theorem frame_pi : Cert.frame_KernelIdeal := fun m ρ h =>
  Cert.KernelIdeal.Gen.frameI m ρ (fun c => Cert.KernelIdeal.Gen.fin_of_pre m h c)

theorem frame_ri : Cert.frame_ReferenceIdeal := fun m ρ _ => Cert.ReferenceIdeal.Gen.frame m ρ

/-- Both runs end with the result at `Spec.result` of their own arguments, and the arguments agree. -/
theorem algebraic : Cert.algebraic_KernelIdeal_ReferenceIdeal := by
  intro m ρ m' ρ' hpre hagree
  refine ⟨fun c => Cert.Spec.result (Cert.KernelIdeal.Gen.sA0 m c) (Cert.KernelIdeal.Gen.sA1 m c) (Cert.KernelIdeal.Gen.sA2 m c)
    (Cert.KernelIdeal.Gen.sA3 m c) (Cert.KernelIdeal.Gen.sA4 m c),
    Cert.KernelIdeal.Gen.runK m ρ (fun c => Cert.KernelIdeal.Gen.fin_of_pre m hpre c), ?_⟩
  refine (θ_run Cert.ReferenceIdeal.defs _ _).mono (fun _ h c => ⟨(h c).1.trans ?_, (h c).2⟩)
    (Cert.ReferenceIdeal.RValue.run m' ρ')
  have h0 := (hagree c).1
  have h1 := (hagree c).2.1
  have h2 := (hagree c).2.2.1
  have h3 := (hagree c).2.2.2.1
  have h4 := (hagree c).2.2.2.2
  show Cert.Spec.result (Cert.ReferenceIdeal.RHost.A0 m' c) (Cert.ReferenceIdeal.RHost.A1 m' c)
      (Cert.ReferenceIdeal.RHost.A2 m' c) (Cert.ReferenceIdeal.RHost.A3 m' c) (Cert.ReferenceIdeal.RHost.A4 m' c)
    = Cert.Spec.result (Cert.KernelIdeal.Gen.sA0 m c) (Cert.KernelIdeal.Gen.sA1 m c) (Cert.KernelIdeal.Gen.sA2 m c)
      (Cert.KernelIdeal.Gen.sA3 m c) (Cert.KernelIdeal.Gen.sA4 m c)
  exact congr (congr (congr (congr (congrArg Cert.Spec.result h0) h1) h2) h3) h4

end

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
